-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8388608 : Shape := ⟨1, ![8388608]⟩
abbrev S65536 : Shape := ⟨1, ![65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : IVec S8388608 32) (main_arg1 : FVec F S65536 .f32) : IVec S_ 1 :=
  let main_v0 : FVec F S65536 .f32 := Host.absf main_arg1
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_c_0 : IVec S_ 32 := constantI S_ 32 0#32
  let main_v4 : IVec S8388608 32 := broadcastInDim S8388608 ![] bcast_S_S8388608 main_c_0
  let main_v5 : IVec S8388608 1 := cmpi .sge main_arg0 main_v4
  let main_c_1 : IVec S_ 32 := constantI S_ 32 65535#32
  let main_v6 : IVec S8388608 32 := broadcastInDim S8388608 ![] bcast_S_S8388608 main_c_1
  let main_v7 : IVec S8388608 1 := cmpi .sle main_arg0 main_v6
  let main_v8 : IVec S8388608 1 := andi main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  let main_cst_3 : FVec F S_ .f32 := constant S_ .f32 0x00000000#32
  let main_v11 : FVec F S65536 .f32 := broadcastInDim S65536 ![] bcast_S_S65536 main_cst_3
  let main_v12 : IVec S65536 1 := cmpf .ogt main_arg1 main_v11
  let main_c_4 : IVec S_ 1 := constantI S_ 1 1#1
  let main_v13 : IVec S_ 1 := (fun x v => Host.reduce IntOp.andi x v reducesTo_S65536_S_d0 h_S_) main_v12 main_c_4
  let main_v14 : IVec S_ 1 := andi main_v10 main_v13
  main_v14
-- ==== Kernel.lean ====
abbrev S8388608 : Shape := ⟨1, ![8388608]⟩
abbrev S65536 : Shape := ⟨1, ![65536]⟩
abbrev S512x128 : Shape := ⟨2, ![512, 128]⟩
abbrev S1x512x128 : Shape := ⟨3, ![1, 512, 128]⟩
abbrev S1 : Shape := ⟨1, ![1]⟩
abbrev S1x1x1 : Shape := ⟨3, ![1, 1, 1]⟩
abbrev S2048 : Shape := ⟨1, ![2048]⟩
abbrev S_ : Shape := ⟨0, ![]⟩
abbrev S4096 : Shape := ⟨1, ![4096]⟩
abbrev S16 : Shape := ⟨1, ![16]⟩

abbrev nBuf : Table → Nat
  | .hbm => 6
  | .local .tc .vmem => 2
  | .shared => 1
  | .local .scVector .vmem => 17
  | _ => 0

abbrev bufTy : (tb : Table) → Fin (nBuf tb) → BufTy
  | .hbm, ⟨0, _⟩ => ⟨S8388608, .i32⟩
  | .hbm, ⟨1, _⟩ => ⟨S65536, .f32⟩
  | .hbm, ⟨2, _⟩ => ⟨S512x128, .f32⟩
  | .hbm, ⟨3, _⟩ => ⟨S512x128, .f32⟩
  | .hbm, ⟨4, _⟩ => ⟨S65536, .f32⟩
  | .hbm, ⟨5, _⟩ => ⟨S8388608, .f32⟩
  | .local .tc .vmem, ⟨0, _⟩ => ⟨S512x128, .f32⟩
  | .local .tc .vmem, ⟨1, _⟩ => ⟨S512x128, .f32⟩
  | .shared, ⟨0, _⟩ => ⟨S65536, .f32⟩
  | .local .scVector .vmem, ⟨0, _⟩ => ⟨S65536, .f32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | .local .scVector .vmem, ⟨5, _⟩ => ⟨S2048, .i32⟩
  | .local .scVector .vmem, ⟨6, _⟩ => ⟨S2048, .i32⟩
  | .local .scVector .vmem, ⟨7, _⟩ => ⟨S2048, .i32⟩
  | .local .scVector .vmem, ⟨8, _⟩ => ⟨S2048, .i32⟩
  | .local .scVector .vmem, ⟨9, _⟩ => ⟨S2048, .f32⟩
  | .local .scVector .vmem, ⟨10, _⟩ => ⟨S2048, .f32⟩
  | .local .scVector .vmem, ⟨11, _⟩ => ⟨S2048, .f32⟩
  | .local .scVector .vmem, ⟨12, _⟩ => ⟨S2048, .f32⟩
  | .local .scVector .vmem, ⟨13, _⟩ => ⟨S2048, .f32⟩
  | .local .scVector .vmem, ⟨14, _⟩ => ⟨S2048, .f32⟩
  | .local .scVector .vmem, ⟨15, _⟩ => ⟨S2048, .f32⟩
  | .local .scVector .vmem, ⟨16, _⟩ => ⟨S2048, .f32⟩
  | _, _ => ⟨S8388608, .i32⟩

abbrev bufScoped : (cs : CoreSpace) → Fin (nBuf (.local .tc cs)) → Bool
  | .vmem, ⟨0, _⟩ => true
  | .vmem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 20 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 5 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v2_scv : Ref sig .scVector := ⟨.hbm, 4, rfl⟩
abbrev main_arg0_scv : Ref sig .scVector := ⟨.hbm, 0, rfl⟩
abbrev main_v3_scv : Ref sig .scVector := ⟨.hbm, 5, rfl⟩
abbrev cc0_stg0_0 : Ref sig .tc := ⟨.vmem, 0, rfl⟩
abbrev cc0_stg1_0 : Ref sig .tc := ⟨.vmem, 1, rfl⟩
abbrev cc1_scratch1 : Ref sig .scVector := ⟨.shared, 0, rfl⟩
abbrev cc1_scratch0 : Ref sig .scVector := ⟨.vmem, 0, rfl⟩
abbrev cc1_scratch2 : Ref sig .scVector := ⟨.vmem, 1, rfl⟩
abbrev cc1_scratch3 : Ref sig .scVector := ⟨.vmem, 2, rfl⟩
abbrev cc1_scratch4 : Ref sig .scVector := ⟨.vmem, 3, rfl⟩
abbrev cc1_scratch5 : Ref sig .scVector := ⟨.vmem, 4, rfl⟩
abbrev cc1_scratch6 : Ref sig .scVector := ⟨.vmem, 5, rfl⟩
abbrev cc1_scratch7 : Ref sig .scVector := ⟨.vmem, 6, rfl⟩
abbrev cc1_scratch8 : Ref sig .scVector := ⟨.vmem, 7, rfl⟩
abbrev cc1_scratch9 : Ref sig .scVector := ⟨.vmem, 8, rfl⟩
abbrev cc1_scratch10 : Ref sig .scVector := ⟨.vmem, 9, rfl⟩
abbrev cc1_scratch11 : Ref sig .scVector := ⟨.vmem, 10, rfl⟩
abbrev cc1_scratch12 : Ref sig .scVector := ⟨.vmem, 11, rfl⟩
abbrev cc1_scratch13 : Ref sig .scVector := ⟨.vmem, 12, rfl⟩
abbrev cc1_scratch14 : Ref sig .scVector := ⟨.vmem, 13, rfl⟩
abbrev cc1_scratch15 : Ref sig .scVector := ⟨.vmem, 14, rfl⟩
abbrev cc1_scratch16 : Ref sig .scVector := ⟨.vmem, 15, rfl⟩
abbrev cc1_scratch17 : Ref sig .scVector := ⟨.vmem, 16, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32 : BitVec 32 := 0#32
  let v3 : BitVec 32 := Scalar.addi v2 c0_i32
  v3
def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v3 : BitVec 32 := Scalar.addi v2 c0_i32
  let v4 : BitVec 32 := v3
  ![v4.toNat]
def k1_off1_at (r : Fin 16) : BitVec 32 :=
  if r.val < 8 then
    if r.val < 4 then
      if r.val < 2 then
        if r.val < 1 then
          0#32
        else
          2048#32
      else
        if r.val < 3 then
          4096#32
        else
          6144#32
    else
      if r.val < 6 then
        if r.val < 5 then
          8192#32
        else
          10240#32
      else
        if r.val < 7 then
          12288#32
        else
          14336#32
  else
    if r.val < 12 then
      if r.val < 10 then
        if r.val < 9 then
          245760#32
        else
          247808#32
      else
        if r.val < 11 then
          249856#32
        else
          251904#32
    else
      if r.val < 14 then
        if r.val < 13 then
          253952#32
        else
          256000#32
      else
        if r.val < 15 then
          258048#32
        else
          260096#32
def k1_mult2 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c2048_i32 : BitVec 32 := 2048#32
  let v7 : BitVec 32 := Scalar.addi v2 c2048_i32
  v7
def k1_mult3 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c4096_i32 : BitVec 32 := 4096#32
  let v11 : BitVec 32 := Scalar.addi v2 c4096_i32
  v11
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c6144_i32 : BitVec 32 := 6144#32
  let v15 : BitVec 32 := Scalar.addi v2 c6144_i32
  v15
def k1_mult5 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c8192_i32 : BitVec 32 := 8192#32
  let v19 : BitVec 32 := Scalar.addi v2 c8192_i32
  v19
def k1_mult6 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c10240_i32 : BitVec 32 := 10240#32
  let v23 : BitVec 32 := Scalar.addi v2 c10240_i32
  v23
def k1_mult7 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c12288_i32 : BitVec 32 := 12288#32
  let v27 : BitVec 32 := Scalar.addi v2 c12288_i32
  v27
def k1_mult8 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c14336_i32 : BitVec 32 := 14336#32
  let v31 : BitVec 32 := Scalar.addi v2 c14336_i32
  v31
def k1_mult9 (i : grid1.Coords) : BitVec 32 :=
  let arg1 : BitVec 32 := BitVec.ofNat 32 (i 1).val
  let c4096_i32_0 : BitVec 32 := 4096#32
  let v35 : BitVec 32 := Scalar.muli arg1 c4096_i32_0
  v35
def k1_off2 (i : grid1.Coords) : Fin 1 → Nat :=
  let arg1 : BitVec 32 := BitVec.ofNat 32 (i 1).val
  let c4096_i32_0 : BitVec 32 := 4096#32
  let v35 : BitVec 32 := Scalar.muli arg1 c4096_i32_0
  let v36 : BitVec 32 := v35
  ![v36.toNat]
@[reducible] def k1_t1_loop : Scf.Loop 32 :=
  let c0_i32_1 : BitVec 32 := 0#32
  let c16_i32 : BitVec 32 := 16#32
  let v37 : BitVec 32 := Scalar.addi c0_i32_1 c16_i32
  let c1_i32 : BitVec 32 := 1#32
  ⟨c0_i32_1, v37, c1_i32⟩
def k1_mult10 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c2048_i32_5 : BitVec 32 := 2048#32
  let v73 : BitVec 32 := Scalar.muli v72 c2048_i32_5
  let v74 : BitVec 32 := Scalar.addi v2 v73
  v74
def k1_off3 (i : grid1.Coords) (k1_t1 : Fin k1_t1_loop.trips) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let v72 : BitVec 32 := Scalar.addi v71 c0_i32_4
  let c2048_i32_5 : BitVec 32 := 2048#32
  let v73 : BitVec 32 := Scalar.muli v72 c2048_i32_5
  let v74 : BitVec 32 := Scalar.addi v2 v73
  let v75 : BitVec 32 := v74
  ![v75.toNat]
def k1_cond1 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_6 : BitVec 32 := 8#32
  let v78 : BitVec 1 := Scalar.cmpi .sge v72 c8_i32_6
  let v79 : BitVec 32 := Scalar.extui v78
  let c0_i32_7 : BitVec 32 := 0#32
  let v80 : BitVec 1 := Scalar.cmpi .ne v79 c0_i32_7
  v80

def k1_mult11 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_102 : BitVec 32 := 8#32
  let v232 : BitVec 32 := Scalar.subi v72 c8_i32_102
  let c2048_i32_103 : BitVec 32 := 2048#32
  let v233 : BitVec 32 := Scalar.muli v232 c2048_i32_103
  let v234 : BitVec 32 := Scalar.addi v2 v233
  v234
def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_102 : BitVec 32 := 8#32
  let v232 : BitVec 32 := Scalar.subi v72 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t2_loop : Scf.Loop 32 :=
  let c0_i32_9 : BitVec 32 := 0#32
  let c16_i32_10 : BitVec 32 := 16#32
  let v81 : BitVec 32 := Scalar.addi c0_i32_9 c16_i32_10
  let c1_i32_11 : BitVec 32 := 1#32
  ⟨c0_i32_9, v81, c1_i32_11⟩
def k1_mult12 (k1_t2 : Fin k1_t2_loop.trips) : BitVec 32 :=
  let c0_i32_9 : BitVec 32 := 0#32
  let c1_i32_11 : BitVec 32 := 1#32
  let arg40 : BitVec 32 := Scf.iv c0_i32_9 c1_i32_11 k1_t2
  let c128_i32_102 : BitVec 32 := 128#32
  let v232 : BitVec 32 := Scalar.muli arg40 c128_i32_102
  v232
def k1_off5 (k1_t2 : Fin k1_t2_loop.trips) (c0_i32_103 : BitVec 32) : Fin 1 → Nat :=
  let c0_i32_9 : BitVec 32 := 0#32
  let c1_i32_11 : BitVec 32 := 1#32
  let arg40 : BitVec 32 := Scf.iv c0_i32_9 c1_i32_11 k1_t2
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk1 (v236 : IVec S16 32) : Prop :=
  (∀ a x, ((![v236] : Fin 1 → IVec S16 32) a x).toNat < S65536.size a)
instance k1_chk1.dec : ∀ (v236 : IVec S16 32), Decidable (k1_chk1 v236) := fun v236 => decidable_of_iff' _ (Iff.of_eq (k1_chk1.eq_1 v236))
theorem k1_idx1_inb : ∀ (v236 : IVec S16 32) (k1_hw1 : k1_chk1 v236), ∀ a x, ((![v236] : Fin 1 → IVec S16 32) a x).toNat < S65536.size a := fun v236 k1_hw1 => k1_hw1

def k1_chk2 (v239 : IVec S16 32) : Prop :=
  (∀ a x, ((![v239] : Fin 1 → IVec S16 32) a x).toNat < S65536.size a)
instance k1_chk2.dec : ∀ (v239 : IVec S16 32), Decidable (k1_chk2 v239) := fun v239 => decidable_of_iff' _ (Iff.of_eq (k1_chk2.eq_1 v239))
theorem k1_idx2_inb : ∀ (v239 : IVec S16 32) (k1_hw2 : k1_chk2 v239), ∀ a x, ((![v239] : Fin 1 → IVec S16 32) a x).toNat < S65536.size a := fun v239 k1_hw2 => k1_hw2

def k1_chk3 (v242 : IVec S16 32) : Prop :=
  (∀ a x, ((![v242] : Fin 1 → IVec S16 32) a x).toNat < S65536.size a)
instance k1_chk3.dec : ∀ (v242 : IVec S16 32), Decidable (k1_chk3 v242) := fun v242 => decidable_of_iff' _ (Iff.of_eq (k1_chk3.eq_1 v242))
theorem k1_idx3_inb : ∀ (v242 : IVec S16 32) (k1_hw3 : k1_chk3 v242), ∀ a x, ((![v242] : Fin 1 → IVec S16 32) a x).toNat < S65536.size a := fun v242 k1_hw3 => k1_hw3

def k1_chk4 (v245 : IVec S16 32) : Prop :=
  (∀ a x, ((![v245] : Fin 1 → IVec S16 32) a x).toNat < S65536.size a)
instance k1_chk4.dec : ∀ (v245 : IVec S16 32), Decidable (k1_chk4 v245) := fun v245 => decidable_of_iff' _ (Iff.of_eq (k1_chk4.eq_1 v245))
theorem k1_idx4_inb : ∀ (v245 : IVec S16 32) (k1_hw4 : k1_chk4 v245), ∀ a x, ((![v245] : Fin 1 → IVec S16 32) a x).toNat < S65536.size a := fun v245 k1_hw4 => k1_hw4

def k1_chk5 (v248 : IVec S16 32) : Prop :=
  (∀ a x, ((![v248] : Fin 1 → IVec S16 32) a x).toNat < S65536.size a)
instance k1_chk5.dec : ∀ (v248 : IVec S16 32), Decidable (k1_chk5 v248) := fun v248 => decidable_of_iff' _ (Iff.of_eq (k1_chk5.eq_1 v248))
theorem k1_idx5_inb : ∀ (v248 : IVec S16 32) (k1_hw5 : k1_chk5 v248), ∀ a x, ((![v248] : Fin 1 → IVec S16 32) a x).toNat < S65536.size a := fun v248 k1_hw5 => k1_hw5

def k1_chk6 (v251 : IVec S16 32) : Prop :=
  (∀ a x, ((![v251] : Fin 1 → IVec S16 32) a x).toNat < S65536.size a)
instance k1_chk6.dec : ∀ (v251 : IVec S16 32), Decidable (k1_chk6 v251) := fun v251 => decidable_of_iff' _ (Iff.of_eq (k1_chk6.eq_1 v251))
theorem k1_idx6_inb : ∀ (v251 : IVec S16 32) (k1_hw6 : k1_chk6 v251), ∀ a x, ((![v251] : Fin 1 → IVec S16 32) a x).toNat < S65536.size a := fun v251 k1_hw6 => k1_hw6

def k1_chk7 (v254 : IVec S16 32) : Prop :=
  (∀ a x, ((![v254] : Fin 1 → IVec S16 32) a x).toNat < S65536.size a)
instance k1_chk7.dec : ∀ (v254 : IVec S16 32), Decidable (k1_chk7 v254) := fun v254 => decidable_of_iff' _ (Iff.of_eq (k1_chk7.eq_1 v254))
theorem k1_idx7_inb : ∀ (v254 : IVec S16 32) (k1_hw7 : k1_chk7 v254), ∀ a x, ((![v254] : Fin 1 → IVec S16 32) a x).toNat < S65536.size a := fun v254 k1_hw7 => k1_hw7

def k1_chk8 (v257 : IVec S16 32) : Prop :=
  (∀ a x, ((![v257] : Fin 1 → IVec S16 32) a x).toNat < S65536.size a)
instance k1_chk8.dec : ∀ (v257 : IVec S16 32), Decidable (k1_chk8 v257) := fun v257 => decidable_of_iff' _ (Iff.of_eq (k1_chk8.eq_1 v257))
theorem k1_idx8_inb : ∀ (v257 : IVec S16 32) (k1_hw8 : k1_chk8 v257), ∀ a x, ((![v257] : Fin 1 → IVec S16 32) a x).toNat < S65536.size a := fun v257 k1_hw8 => k1_hw8
def k1_off6 (k1_t2 : Fin k1_t2_loop.trips) (c0_i32_105 : BitVec 32) : Fin 1 → Nat :=
  let c0_i32_9 : BitVec 32 := 0#32
  let c1_i32_11 : BitVec 32 := 1#32
  let arg40 : BitVec 32 := Scf.iv c0_i32_9 c1_i32_11 k1_t2
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult13 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c2048_i32_13 : BitVec 32 := 2048#32
  let v83 : BitVec 32 := Scalar.muli v72 c2048_i32_13
  let v84 : BitVec 32 := Scalar.addi v2 v83
  v84
def k1_cond2 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_14 : BitVec 32 := 8#32
  let v88 : BitVec 32 := Scalar.addi v72 c8_i32_14
  let c128_i32 : BitVec 32 := 128#32
  let v89 : BitVec 1 := Scalar.cmpi .slt v88 c128_i32
  let v90 : BitVec 32 := Scalar.extui v89
  let c0_i32_15 : BitVec 32 := 0#32
  let v91 : BitVec 1 := Scalar.cmpi .ne v90 c0_i32_15
  v91

def k1_mult14 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_102 : BitVec 32 := 8#32
  let v232 : BitVec 32 := Scalar.addi v72 c8_i32_102
  let c2048_i32_103 : BitVec 32 := 2048#32
  let v233 : BitVec 32 := Scalar.muli v232 c2048_i32_103
  let v234 : BitVec 32 := Scalar.addi v2 v233
  v234
def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c0_i32_4 : BitVec 32 := 0#32
  let v72 : BitVec 32 := Scalar.addi v71 c0_i32_4
  let c8_i32_102 : BitVec 32 := 8#32
  let v232 : BitVec 32 := Scalar.addi v72 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult15 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c2048_i32_17 : BitVec 32 := 2048#32
  let v93 : BitVec 32 := Scalar.muli v92 c2048_i32_17
  let v94 : BitVec 32 := Scalar.addi v2 v93
  v94
def k1_cond3 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_18 : BitVec 32 := 8#32
  let v98 : BitVec 1 := Scalar.cmpi .sge v92 c8_i32_18
  let v99 : BitVec 32 := Scalar.extui v98
  let c0_i32_19 : BitVec 32 := 0#32
  let v100 : BitVec 1 := Scalar.cmpi .ne v99 c0_i32_19
  v100

def k1_mult16 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_102 : BitVec 32 := 8#32
  let v232 : BitVec 32 := Scalar.subi v92 c8_i32_102
  let c2048_i32_103 : BitVec 32 := 2048#32
  let v233 : BitVec 32 := Scalar.muli v232 c2048_i32_103
  let v234 : BitVec 32 := Scalar.addi v2 v233
  v234
def k1_off8 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_102 : BitVec 32 := 8#32
  let v232 : BitVec 32 := Scalar.subi v92 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t3_loop : Scf.Loop 32 :=
  let c0_i32_21 : BitVec 32 := 0#32
  let c16_i32_22 : BitVec 32 := 16#32
  let v101 : BitVec 32 := Scalar.addi c0_i32_21 c16_i32_22
  let c1_i32_23 : BitVec 32 := 1#32
  ⟨c0_i32_21, v101, c1_i32_23⟩
def k1_mult17 (k1_t3 : Fin k1_t3_loop.trips) : BitVec 32 :=
  let c0_i32_21 : BitVec 32 := 0#32
  let c1_i32_23 : BitVec 32 := 1#32
  let arg40 : BitVec 32 := Scf.iv c0_i32_21 c1_i32_23 k1_t3
  let c128_i32_102 : BitVec 32 := 128#32
  let v232 : BitVec 32 := Scalar.muli arg40 c128_i32_102
  v232
def k1_off9 (k1_t3 : Fin k1_t3_loop.trips) (c0_i32_103 : BitVec 32) : Fin 1 → Nat :=
  let c0_i32_21 : BitVec 32 := 0#32
  let c1_i32_23 : BitVec 32 := 1#32
  let arg40 : BitVec 32 := Scf.iv c0_i32_21 c1_i32_23 k1_t3
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk9 (v236 : IVec S16 32) : Prop :=
  (∀ a x, ((![v236] : Fin 1 → IVec S16 32) a x).toNat < S65536.size a)
instance k1_chk9.dec : ∀ (v236 : IVec S16 32), Decidable (k1_chk9 v236) := fun v236 => decidable_of_iff' _ (Iff.of_eq (k1_chk9.eq_1 v236))
theorem k1_idx9_inb : ∀ (v236 : IVec S16 32) (k1_hw9 : k1_chk9 v236), ∀ a x, ((![v236] : Fin 1 → IVec S16 32) a x).toNat < S65536.size a := fun v236 k1_hw9 => k1_hw9

def k1_chk10 (v239 : IVec S16 32) : Prop :=
  (∀ a x, ((![v239] : Fin 1 → IVec S16 32) a x).toNat < S65536.size a)
instance k1_chk10.dec : ∀ (v239 : IVec S16 32), Decidable (k1_chk10 v239) := fun v239 => decidable_of_iff' _ (Iff.of_eq (k1_chk10.eq_1 v239))
theorem k1_idx10_inb : ∀ (v239 : IVec S16 32) (k1_hw10 : k1_chk10 v239), ∀ a x, ((![v239] : Fin 1 → IVec S16 32) a x).toNat < S65536.size a := fun v239 k1_hw10 => k1_hw10

def k1_chk11 (v242 : IVec S16 32) : Prop :=
  (∀ a x, ((![v242] : Fin 1 → IVec S16 32) a x).toNat < S65536.size a)
instance k1_chk11.dec : ∀ (v242 : IVec S16 32), Decidable (k1_chk11 v242) := fun v242 => decidable_of_iff' _ (Iff.of_eq (k1_chk11.eq_1 v242))
theorem k1_idx11_inb : ∀ (v242 : IVec S16 32) (k1_hw11 : k1_chk11 v242), ∀ a x, ((![v242] : Fin 1 → IVec S16 32) a x).toNat < S65536.size a := fun v242 k1_hw11 => k1_hw11

def k1_chk12 (v245 : IVec S16 32) : Prop :=
  (∀ a x, ((![v245] : Fin 1 → IVec S16 32) a x).toNat < S65536.size a)
instance k1_chk12.dec : ∀ (v245 : IVec S16 32), Decidable (k1_chk12 v245) := fun v245 => decidable_of_iff' _ (Iff.of_eq (k1_chk12.eq_1 v245))
theorem k1_idx12_inb : ∀ (v245 : IVec S16 32) (k1_hw12 : k1_chk12 v245), ∀ a x, ((![v245] : Fin 1 → IVec S16 32) a x).toNat < S65536.size a := fun v245 k1_hw12 => k1_hw12

def k1_chk13 (v248 : IVec S16 32) : Prop :=
  (∀ a x, ((![v248] : Fin 1 → IVec S16 32) a x).toNat < S65536.size a)
instance k1_chk13.dec : ∀ (v248 : IVec S16 32), Decidable (k1_chk13 v248) := fun v248 => decidable_of_iff' _ (Iff.of_eq (k1_chk13.eq_1 v248))
theorem k1_idx13_inb : ∀ (v248 : IVec S16 32) (k1_hw13 : k1_chk13 v248), ∀ a x, ((![v248] : Fin 1 → IVec S16 32) a x).toNat < S65536.size a := fun v248 k1_hw13 => k1_hw13

def k1_chk14 (v251 : IVec S16 32) : Prop :=
  (∀ a x, ((![v251] : Fin 1 → IVec S16 32) a x).toNat < S65536.size a)
instance k1_chk14.dec : ∀ (v251 : IVec S16 32), Decidable (k1_chk14 v251) := fun v251 => decidable_of_iff' _ (Iff.of_eq (k1_chk14.eq_1 v251))
theorem k1_idx14_inb : ∀ (v251 : IVec S16 32) (k1_hw14 : k1_chk14 v251), ∀ a x, ((![v251] : Fin 1 → IVec S16 32) a x).toNat < S65536.size a := fun v251 k1_hw14 => k1_hw14

def k1_chk15 (v254 : IVec S16 32) : Prop :=
  (∀ a x, ((![v254] : Fin 1 → IVec S16 32) a x).toNat < S65536.size a)
instance k1_chk15.dec : ∀ (v254 : IVec S16 32), Decidable (k1_chk15 v254) := fun v254 => decidable_of_iff' _ (Iff.of_eq (k1_chk15.eq_1 v254))
theorem k1_idx15_inb : ∀ (v254 : IVec S16 32) (k1_hw15 : k1_chk15 v254), ∀ a x, ((![v254] : Fin 1 → IVec S16 32) a x).toNat < S65536.size a := fun v254 k1_hw15 => k1_hw15

def k1_chk16 (v257 : IVec S16 32) : Prop :=
  (∀ a x, ((![v257] : Fin 1 → IVec S16 32) a x).toNat < S65536.size a)
instance k1_chk16.dec : ∀ (v257 : IVec S16 32), Decidable (k1_chk16 v257) := fun v257 => decidable_of_iff' _ (Iff.of_eq (k1_chk16.eq_1 v257))
theorem k1_idx16_inb : ∀ (v257 : IVec S16 32) (k1_hw16 : k1_chk16 v257), ∀ a x, ((![v257] : Fin 1 → IVec S16 32) a x).toNat < S65536.size a := fun v257 k1_hw16 => k1_hw16
def k1_off10 (k1_t3 : Fin k1_t3_loop.trips) (c0_i32_105 : BitVec 32) : Fin 1 → Nat :=
  let c0_i32_21 : BitVec 32 := 0#32
  let c1_i32_23 : BitVec 32 := 1#32
  let arg40 : BitVec 32 := Scf.iv c0_i32_21 c1_i32_23 k1_t3
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult18 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c2048_i32_25 : BitVec 32 := 2048#32
  let v103 : BitVec 32 := Scalar.muli v92 c2048_i32_25
  let v104 : BitVec 32 := Scalar.addi v2 v103
  v104
def k1_cond4 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_26 : BitVec 32 := 8#32
  let v108 : BitVec 32 := Scalar.addi v92 c8_i32_26
  let c128_i32_27 : BitVec 32 := 128#32
  let v109 : BitVec 1 := Scalar.cmpi .slt v108 c128_i32_27
  let v110 : BitVec 32 := Scalar.extui v109
  let c0_i32_28 : BitVec 32 := 0#32
  let v111 : BitVec 1 := Scalar.cmpi .ne v110 c0_i32_28
  v111

def k1_mult19 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_102 : BitVec 32 := 8#32
  let v232 : BitVec 32 := Scalar.addi v92 c8_i32_102
  let c2048_i32_103 : BitVec 32 := 2048#32
  let v233 : BitVec 32 := Scalar.muli v232 c2048_i32_103
  let v234 : BitVec 32 := Scalar.addi v2 v233
  v234
def k1_off11 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c1_i32_16 : BitVec 32 := 1#32
  let v92 : BitVec 32 := Scalar.addi v71 c1_i32_16
  let c8_i32_102 : BitVec 32 := 8#32
  let v232 : BitVec 32 := Scalar.addi v92 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult20 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c2048_i32_30 : BitVec 32 := 2048#32
  let v113 : BitVec 32 := Scalar.muli v112 c2048_i32_30
  let v114 : BitVec 32 := Scalar.addi v2 v113
  v114
def k1_cond5 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_31 : BitVec 32 := 8#32
  let v118 : BitVec 1 := Scalar.cmpi .sge v112 c8_i32_31
  let v119 : BitVec 32 := Scalar.extui v118
  let c0_i32_32 : BitVec 32 := 0#32
  let v120 : BitVec 1 := Scalar.cmpi .ne v119 c0_i32_32
  v120

def k1_mult21 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_102 : BitVec 32 := 8#32
  let v232 : BitVec 32 := Scalar.subi v112 c8_i32_102
  let c2048_i32_103 : BitVec 32 := 2048#32
  let v233 : BitVec 32 := Scalar.muli v232 c2048_i32_103
  let v234 : BitVec 32 := Scalar.addi v2 v233
  v234
def k1_off12 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_102 : BitVec 32 := 8#32
  let v232 : BitVec 32 := Scalar.subi v112 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t4_loop : Scf.Loop 32 :=
  let c0_i32_34 : BitVec 32 := 0#32
  let c16_i32_35 : BitVec 32 := 16#32
  let v121 : BitVec 32 := Scalar.addi c0_i32_34 c16_i32_35
  let c1_i32_36 : BitVec 32 := 1#32
  ⟨c0_i32_34, v121, c1_i32_36⟩
def k1_mult22 (k1_t4 : Fin k1_t4_loop.trips) : BitVec 32 :=
  let c0_i32_34 : BitVec 32 := 0#32
  let c1_i32_36 : BitVec 32 := 1#32
  let arg40 : BitVec 32 := Scf.iv c0_i32_34 c1_i32_36 k1_t4
  let c128_i32_102 : BitVec 32 := 128#32
  let v232 : BitVec 32 := Scalar.muli arg40 c128_i32_102
  v232
def k1_off13 (k1_t4 : Fin k1_t4_loop.trips) (c0_i32_103 : BitVec 32) : Fin 1 → Nat :=
  let c0_i32_34 : BitVec 32 := 0#32
  let c1_i32_36 : BitVec 32 := 1#32
  let arg40 : BitVec 32 := Scf.iv c0_i32_34 c1_i32_36 k1_t4
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk17 (v236 : IVec S16 32) : Prop :=
  (∀ a x, ((![v236] : Fin 1 → IVec S16 32) a x).toNat < S65536.size a)
instance k1_chk17.dec : ∀ (v236 : IVec S16 32), Decidable (k1_chk17 v236) := fun v236 => decidable_of_iff' _ (Iff.of_eq (k1_chk17.eq_1 v236))
theorem k1_idx17_inb : ∀ (v236 : IVec S16 32) (k1_hw17 : k1_chk17 v236), ∀ a x, ((![v236] : Fin 1 → IVec S16 32) a x).toNat < S65536.size a := fun v236 k1_hw17 => k1_hw17

def k1_chk18 (v239 : IVec S16 32) : Prop :=
  (∀ a x, ((![v239] : Fin 1 → IVec S16 32) a x).toNat < S65536.size a)
instance k1_chk18.dec : ∀ (v239 : IVec S16 32), Decidable (k1_chk18 v239) := fun v239 => decidable_of_iff' _ (Iff.of_eq (k1_chk18.eq_1 v239))
theorem k1_idx18_inb : ∀ (v239 : IVec S16 32) (k1_hw18 : k1_chk18 v239), ∀ a x, ((![v239] : Fin 1 → IVec S16 32) a x).toNat < S65536.size a := fun v239 k1_hw18 => k1_hw18

def k1_chk19 (v242 : IVec S16 32) : Prop :=
  (∀ a x, ((![v242] : Fin 1 → IVec S16 32) a x).toNat < S65536.size a)
instance k1_chk19.dec : ∀ (v242 : IVec S16 32), Decidable (k1_chk19 v242) := fun v242 => decidable_of_iff' _ (Iff.of_eq (k1_chk19.eq_1 v242))
theorem k1_idx19_inb : ∀ (v242 : IVec S16 32) (k1_hw19 : k1_chk19 v242), ∀ a x, ((![v242] : Fin 1 → IVec S16 32) a x).toNat < S65536.size a := fun v242 k1_hw19 => k1_hw19

def k1_chk20 (v245 : IVec S16 32) : Prop :=
  (∀ a x, ((![v245] : Fin 1 → IVec S16 32) a x).toNat < S65536.size a)
instance k1_chk20.dec : ∀ (v245 : IVec S16 32), Decidable (k1_chk20 v245) := fun v245 => decidable_of_iff' _ (Iff.of_eq (k1_chk20.eq_1 v245))
theorem k1_idx20_inb : ∀ (v245 : IVec S16 32) (k1_hw20 : k1_chk20 v245), ∀ a x, ((![v245] : Fin 1 → IVec S16 32) a x).toNat < S65536.size a := fun v245 k1_hw20 => k1_hw20

def k1_chk21 (v248 : IVec S16 32) : Prop :=
  (∀ a x, ((![v248] : Fin 1 → IVec S16 32) a x).toNat < S65536.size a)
instance k1_chk21.dec : ∀ (v248 : IVec S16 32), Decidable (k1_chk21 v248) := fun v248 => decidable_of_iff' _ (Iff.of_eq (k1_chk21.eq_1 v248))
theorem k1_idx21_inb : ∀ (v248 : IVec S16 32) (k1_hw21 : k1_chk21 v248), ∀ a x, ((![v248] : Fin 1 → IVec S16 32) a x).toNat < S65536.size a := fun v248 k1_hw21 => k1_hw21

def k1_chk22 (v251 : IVec S16 32) : Prop :=
  (∀ a x, ((![v251] : Fin 1 → IVec S16 32) a x).toNat < S65536.size a)
instance k1_chk22.dec : ∀ (v251 : IVec S16 32), Decidable (k1_chk22 v251) := fun v251 => decidable_of_iff' _ (Iff.of_eq (k1_chk22.eq_1 v251))
theorem k1_idx22_inb : ∀ (v251 : IVec S16 32) (k1_hw22 : k1_chk22 v251), ∀ a x, ((![v251] : Fin 1 → IVec S16 32) a x).toNat < S65536.size a := fun v251 k1_hw22 => k1_hw22

def k1_chk23 (v254 : IVec S16 32) : Prop :=
  (∀ a x, ((![v254] : Fin 1 → IVec S16 32) a x).toNat < S65536.size a)
instance k1_chk23.dec : ∀ (v254 : IVec S16 32), Decidable (k1_chk23 v254) := fun v254 => decidable_of_iff' _ (Iff.of_eq (k1_chk23.eq_1 v254))
theorem k1_idx23_inb : ∀ (v254 : IVec S16 32) (k1_hw23 : k1_chk23 v254), ∀ a x, ((![v254] : Fin 1 → IVec S16 32) a x).toNat < S65536.size a := fun v254 k1_hw23 => k1_hw23

def k1_chk24 (v257 : IVec S16 32) : Prop :=
  (∀ a x, ((![v257] : Fin 1 → IVec S16 32) a x).toNat < S65536.size a)
instance k1_chk24.dec : ∀ (v257 : IVec S16 32), Decidable (k1_chk24 v257) := fun v257 => decidable_of_iff' _ (Iff.of_eq (k1_chk24.eq_1 v257))
theorem k1_idx24_inb : ∀ (v257 : IVec S16 32) (k1_hw24 : k1_chk24 v257), ∀ a x, ((![v257] : Fin 1 → IVec S16 32) a x).toNat < S65536.size a := fun v257 k1_hw24 => k1_hw24
def k1_off14 (k1_t4 : Fin k1_t4_loop.trips) (c0_i32_105 : BitVec 32) : Fin 1 → Nat :=
  let c0_i32_34 : BitVec 32 := 0#32
  let c1_i32_36 : BitVec 32 := 1#32
  let arg40 : BitVec 32 := Scf.iv c0_i32_34 c1_i32_36 k1_t4
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult23 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c2048_i32_38 : BitVec 32 := 2048#32
  let v123 : BitVec 32 := Scalar.muli v112 c2048_i32_38
  let v124 : BitVec 32 := Scalar.addi v2 v123
  v124
def k1_cond6 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_39 : BitVec 32 := 8#32
  let v128 : BitVec 32 := Scalar.addi v112 c8_i32_39
  let c128_i32_40 : BitVec 32 := 128#32
  let v129 : BitVec 1 := Scalar.cmpi .slt v128 c128_i32_40
  let v130 : BitVec 32 := Scalar.extui v129
  let c0_i32_41 : BitVec 32 := 0#32
  let v131 : BitVec 1 := Scalar.cmpi .ne v130 c0_i32_41
  v131

def k1_mult24 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_102 : BitVec 32 := 8#32
  let v232 : BitVec 32 := Scalar.addi v112 c8_i32_102
  let c2048_i32_103 : BitVec 32 := 2048#32
  let v233 : BitVec 32 := Scalar.muli v232 c2048_i32_103
  let v234 : BitVec 32 := Scalar.addi v2 v233
  v234
def k1_off15 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c2_i32_29 : BitVec 32 := 2#32
  let v112 : BitVec 32 := Scalar.addi v71 c2_i32_29
  let c8_i32_102 : BitVec 32 := 8#32
  let v232 : BitVec 32 := Scalar.addi v112 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult25 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c2048_i32_42 : BitVec 32 := 2048#32
  let v133 : BitVec 32 := Scalar.muli v132 c2048_i32_42
  let v134 : BitVec 32 := Scalar.addi v2 v133
  v134
def k1_cond7 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_43 : BitVec 32 := 8#32
  let v138 : BitVec 1 := Scalar.cmpi .sge v132 c8_i32_43
  let v139 : BitVec 32 := Scalar.extui v138
  let c0_i32_44 : BitVec 32 := 0#32
  let v140 : BitVec 1 := Scalar.cmpi .ne v139 c0_i32_44
  v140

def k1_mult26 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_102 : BitVec 32 := 8#32
  let v232 : BitVec 32 := Scalar.subi v132 c8_i32_102
  let c2048_i32_103 : BitVec 32 := 2048#32
  let v233 : BitVec 32 := Scalar.muli v232 c2048_i32_103
  let v234 : BitVec 32 := Scalar.addi v2 v233
  v234
def k1_off16 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_102 : BitVec 32 := 8#32
  let v232 : BitVec 32 := Scalar.subi v132 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t5_loop : Scf.Loop 32 :=
  let c0_i32_46 : BitVec 32 := 0#32
  let c16_i32_47 : BitVec 32 := 16#32
  let v141 : BitVec 32 := Scalar.addi c0_i32_46 c16_i32_47
  let c1_i32_48 : BitVec 32 := 1#32
  ⟨c0_i32_46, v141, c1_i32_48⟩
def k1_mult27 (k1_t5 : Fin k1_t5_loop.trips) : BitVec 32 :=
  let c0_i32_46 : BitVec 32 := 0#32
  let c1_i32_48 : BitVec 32 := 1#32
  let arg40 : BitVec 32 := Scf.iv c0_i32_46 c1_i32_48 k1_t5
  let c128_i32_102 : BitVec 32 := 128#32
  let v232 : BitVec 32 := Scalar.muli arg40 c128_i32_102
  v232
def k1_off17 (k1_t5 : Fin k1_t5_loop.trips) (c0_i32_103 : BitVec 32) : Fin 1 → Nat :=
  let c0_i32_46 : BitVec 32 := 0#32
  let c1_i32_48 : BitVec 32 := 1#32
  let arg40 : BitVec 32 := Scf.iv c0_i32_46 c1_i32_48 k1_t5
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk25 (v236 : IVec S16 32) : Prop :=
  (∀ a x, ((![v236] : Fin 1 → IVec S16 32) a x).toNat < S65536.size a)
instance k1_chk25.dec : ∀ (v236 : IVec S16 32), Decidable (k1_chk25 v236) := fun v236 => decidable_of_iff' _ (Iff.of_eq (k1_chk25.eq_1 v236))
theorem k1_idx25_inb : ∀ (v236 : IVec S16 32) (k1_hw25 : k1_chk25 v236), ∀ a x, ((![v236] : Fin 1 → IVec S16 32) a x).toNat < S65536.size a := fun v236 k1_hw25 => k1_hw25

def k1_chk26 (v239 : IVec S16 32) : Prop :=
  (∀ a x, ((![v239] : Fin 1 → IVec S16 32) a x).toNat < S65536.size a)
instance k1_chk26.dec : ∀ (v239 : IVec S16 32), Decidable (k1_chk26 v239) := fun v239 => decidable_of_iff' _ (Iff.of_eq (k1_chk26.eq_1 v239))
theorem k1_idx26_inb : ∀ (v239 : IVec S16 32) (k1_hw26 : k1_chk26 v239), ∀ a x, ((![v239] : Fin 1 → IVec S16 32) a x).toNat < S65536.size a := fun v239 k1_hw26 => k1_hw26

def k1_chk27 (v242 : IVec S16 32) : Prop :=
  (∀ a x, ((![v242] : Fin 1 → IVec S16 32) a x).toNat < S65536.size a)
instance k1_chk27.dec : ∀ (v242 : IVec S16 32), Decidable (k1_chk27 v242) := fun v242 => decidable_of_iff' _ (Iff.of_eq (k1_chk27.eq_1 v242))
theorem k1_idx27_inb : ∀ (v242 : IVec S16 32) (k1_hw27 : k1_chk27 v242), ∀ a x, ((![v242] : Fin 1 → IVec S16 32) a x).toNat < S65536.size a := fun v242 k1_hw27 => k1_hw27

def k1_chk28 (v245 : IVec S16 32) : Prop :=
  (∀ a x, ((![v245] : Fin 1 → IVec S16 32) a x).toNat < S65536.size a)
instance k1_chk28.dec : ∀ (v245 : IVec S16 32), Decidable (k1_chk28 v245) := fun v245 => decidable_of_iff' _ (Iff.of_eq (k1_chk28.eq_1 v245))
theorem k1_idx28_inb : ∀ (v245 : IVec S16 32) (k1_hw28 : k1_chk28 v245), ∀ a x, ((![v245] : Fin 1 → IVec S16 32) a x).toNat < S65536.size a := fun v245 k1_hw28 => k1_hw28

def k1_chk29 (v248 : IVec S16 32) : Prop :=
  (∀ a x, ((![v248] : Fin 1 → IVec S16 32) a x).toNat < S65536.size a)
instance k1_chk29.dec : ∀ (v248 : IVec S16 32), Decidable (k1_chk29 v248) := fun v248 => decidable_of_iff' _ (Iff.of_eq (k1_chk29.eq_1 v248))
theorem k1_idx29_inb : ∀ (v248 : IVec S16 32) (k1_hw29 : k1_chk29 v248), ∀ a x, ((![v248] : Fin 1 → IVec S16 32) a x).toNat < S65536.size a := fun v248 k1_hw29 => k1_hw29

def k1_chk30 (v251 : IVec S16 32) : Prop :=
  (∀ a x, ((![v251] : Fin 1 → IVec S16 32) a x).toNat < S65536.size a)
instance k1_chk30.dec : ∀ (v251 : IVec S16 32), Decidable (k1_chk30 v251) := fun v251 => decidable_of_iff' _ (Iff.of_eq (k1_chk30.eq_1 v251))
theorem k1_idx30_inb : ∀ (v251 : IVec S16 32) (k1_hw30 : k1_chk30 v251), ∀ a x, ((![v251] : Fin 1 → IVec S16 32) a x).toNat < S65536.size a := fun v251 k1_hw30 => k1_hw30

def k1_chk31 (v254 : IVec S16 32) : Prop :=
  (∀ a x, ((![v254] : Fin 1 → IVec S16 32) a x).toNat < S65536.size a)
instance k1_chk31.dec : ∀ (v254 : IVec S16 32), Decidable (k1_chk31 v254) := fun v254 => decidable_of_iff' _ (Iff.of_eq (k1_chk31.eq_1 v254))
theorem k1_idx31_inb : ∀ (v254 : IVec S16 32) (k1_hw31 : k1_chk31 v254), ∀ a x, ((![v254] : Fin 1 → IVec S16 32) a x).toNat < S65536.size a := fun v254 k1_hw31 => k1_hw31

def k1_chk32 (v257 : IVec S16 32) : Prop :=
  (∀ a x, ((![v257] : Fin 1 → IVec S16 32) a x).toNat < S65536.size a)
instance k1_chk32.dec : ∀ (v257 : IVec S16 32), Decidable (k1_chk32 v257) := fun v257 => decidable_of_iff' _ (Iff.of_eq (k1_chk32.eq_1 v257))
theorem k1_idx32_inb : ∀ (v257 : IVec S16 32) (k1_hw32 : k1_chk32 v257), ∀ a x, ((![v257] : Fin 1 → IVec S16 32) a x).toNat < S65536.size a := fun v257 k1_hw32 => k1_hw32
def k1_off18 (k1_t5 : Fin k1_t5_loop.trips) (c0_i32_105 : BitVec 32) : Fin 1 → Nat :=
  let c0_i32_46 : BitVec 32 := 0#32
  let c1_i32_48 : BitVec 32 := 1#32
  let arg40 : BitVec 32 := Scf.iv c0_i32_46 c1_i32_48 k1_t5
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult28 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c2048_i32_50 : BitVec 32 := 2048#32
  let v143 : BitVec 32 := Scalar.muli v132 c2048_i32_50
  let v144 : BitVec 32 := Scalar.addi v2 v143
  v144
def k1_cond8 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_51 : BitVec 32 := 8#32
  let v148 : BitVec 32 := Scalar.addi v132 c8_i32_51
  let c128_i32_52 : BitVec 32 := 128#32
  let v149 : BitVec 1 := Scalar.cmpi .slt v148 c128_i32_52
  let v150 : BitVec 32 := Scalar.extui v149
  let c0_i32_53 : BitVec 32 := 0#32
  let v151 : BitVec 1 := Scalar.cmpi .ne v150 c0_i32_53
  v151

def k1_mult29 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_102 : BitVec 32 := 8#32
  let v232 : BitVec 32 := Scalar.addi v132 c8_i32_102
  let c2048_i32_103 : BitVec 32 := 2048#32
  let v233 : BitVec 32 := Scalar.muli v232 c2048_i32_103
  let v234 : BitVec 32 := Scalar.addi v2 v233
  v234
def k1_off19 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c3_i32 : BitVec 32 := 3#32
  let v132 : BitVec 32 := Scalar.addi v71 c3_i32
  let c8_i32_102 : BitVec 32 := 8#32
  let v232 : BitVec 32 := Scalar.addi v132 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult30 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c2048_i32_54 : BitVec 32 := 2048#32
  let v153 : BitVec 32 := Scalar.muli v152 c2048_i32_54
  let v154 : BitVec 32 := Scalar.addi v2 v153
  v154
def k1_cond9 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_55 : BitVec 32 := 8#32
  let v158 : BitVec 1 := Scalar.cmpi .sge v152 c8_i32_55
  let v159 : BitVec 32 := Scalar.extui v158
  let c0_i32_56 : BitVec 32 := 0#32
  let v160 : BitVec 1 := Scalar.cmpi .ne v159 c0_i32_56
  v160

def k1_mult31 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_102 : BitVec 32 := 8#32
  let v232 : BitVec 32 := Scalar.subi v152 c8_i32_102
  let c2048_i32_103 : BitVec 32 := 2048#32
  let v233 : BitVec 32 := Scalar.muli v232 c2048_i32_103
  let v234 : BitVec 32 := Scalar.addi v2 v233
  v234
def k1_off20 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_102 : BitVec 32 := 8#32
  let v232 : BitVec 32 := Scalar.subi v152 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t6_loop : Scf.Loop 32 :=
  let c0_i32_58 : BitVec 32 := 0#32
  let c16_i32_59 : BitVec 32 := 16#32
  let v161 : BitVec 32 := Scalar.addi c0_i32_58 c16_i32_59
  let c1_i32_60 : BitVec 32 := 1#32
  ⟨c0_i32_58, v161, c1_i32_60⟩
def k1_mult32 (k1_t6 : Fin k1_t6_loop.trips) : BitVec 32 :=
  let c0_i32_58 : BitVec 32 := 0#32
  let c1_i32_60 : BitVec 32 := 1#32
  let arg40 : BitVec 32 := Scf.iv c0_i32_58 c1_i32_60 k1_t6
  let c128_i32_102 : BitVec 32 := 128#32
  let v232 : BitVec 32 := Scalar.muli arg40 c128_i32_102
  v232
def k1_off21 (k1_t6 : Fin k1_t6_loop.trips) (c0_i32_103 : BitVec 32) : Fin 1 → Nat :=
  let c0_i32_58 : BitVec 32 := 0#32
  let c1_i32_60 : BitVec 32 := 1#32
  let arg40 : BitVec 32 := Scf.iv c0_i32_58 c1_i32_60 k1_t6
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk33 (v236 : IVec S16 32) : Prop :=
  (∀ a x, ((![v236] : Fin 1 → IVec S16 32) a x).toNat < S65536.size a)
instance k1_chk33.dec : ∀ (v236 : IVec S16 32), Decidable (k1_chk33 v236) := fun v236 => decidable_of_iff' _ (Iff.of_eq (k1_chk33.eq_1 v236))
theorem k1_idx33_inb : ∀ (v236 : IVec S16 32) (k1_hw33 : k1_chk33 v236), ∀ a x, ((![v236] : Fin 1 → IVec S16 32) a x).toNat < S65536.size a := fun v236 k1_hw33 => k1_hw33

def k1_chk34 (v239 : IVec S16 32) : Prop :=
  (∀ a x, ((![v239] : Fin 1 → IVec S16 32) a x).toNat < S65536.size a)
instance k1_chk34.dec : ∀ (v239 : IVec S16 32), Decidable (k1_chk34 v239) := fun v239 => decidable_of_iff' _ (Iff.of_eq (k1_chk34.eq_1 v239))
theorem k1_idx34_inb : ∀ (v239 : IVec S16 32) (k1_hw34 : k1_chk34 v239), ∀ a x, ((![v239] : Fin 1 → IVec S16 32) a x).toNat < S65536.size a := fun v239 k1_hw34 => k1_hw34

def k1_chk35 (v242 : IVec S16 32) : Prop :=
  (∀ a x, ((![v242] : Fin 1 → IVec S16 32) a x).toNat < S65536.size a)
instance k1_chk35.dec : ∀ (v242 : IVec S16 32), Decidable (k1_chk35 v242) := fun v242 => decidable_of_iff' _ (Iff.of_eq (k1_chk35.eq_1 v242))
theorem k1_idx35_inb : ∀ (v242 : IVec S16 32) (k1_hw35 : k1_chk35 v242), ∀ a x, ((![v242] : Fin 1 → IVec S16 32) a x).toNat < S65536.size a := fun v242 k1_hw35 => k1_hw35

def k1_chk36 (v245 : IVec S16 32) : Prop :=
  (∀ a x, ((![v245] : Fin 1 → IVec S16 32) a x).toNat < S65536.size a)
instance k1_chk36.dec : ∀ (v245 : IVec S16 32), Decidable (k1_chk36 v245) := fun v245 => decidable_of_iff' _ (Iff.of_eq (k1_chk36.eq_1 v245))
theorem k1_idx36_inb : ∀ (v245 : IVec S16 32) (k1_hw36 : k1_chk36 v245), ∀ a x, ((![v245] : Fin 1 → IVec S16 32) a x).toNat < S65536.size a := fun v245 k1_hw36 => k1_hw36

def k1_chk37 (v248 : IVec S16 32) : Prop :=
  (∀ a x, ((![v248] : Fin 1 → IVec S16 32) a x).toNat < S65536.size a)
instance k1_chk37.dec : ∀ (v248 : IVec S16 32), Decidable (k1_chk37 v248) := fun v248 => decidable_of_iff' _ (Iff.of_eq (k1_chk37.eq_1 v248))
theorem k1_idx37_inb : ∀ (v248 : IVec S16 32) (k1_hw37 : k1_chk37 v248), ∀ a x, ((![v248] : Fin 1 → IVec S16 32) a x).toNat < S65536.size a := fun v248 k1_hw37 => k1_hw37

def k1_chk38 (v251 : IVec S16 32) : Prop :=
  (∀ a x, ((![v251] : Fin 1 → IVec S16 32) a x).toNat < S65536.size a)
instance k1_chk38.dec : ∀ (v251 : IVec S16 32), Decidable (k1_chk38 v251) := fun v251 => decidable_of_iff' _ (Iff.of_eq (k1_chk38.eq_1 v251))
theorem k1_idx38_inb : ∀ (v251 : IVec S16 32) (k1_hw38 : k1_chk38 v251), ∀ a x, ((![v251] : Fin 1 → IVec S16 32) a x).toNat < S65536.size a := fun v251 k1_hw38 => k1_hw38

def k1_chk39 (v254 : IVec S16 32) : Prop :=
  (∀ a x, ((![v254] : Fin 1 → IVec S16 32) a x).toNat < S65536.size a)
instance k1_chk39.dec : ∀ (v254 : IVec S16 32), Decidable (k1_chk39 v254) := fun v254 => decidable_of_iff' _ (Iff.of_eq (k1_chk39.eq_1 v254))
theorem k1_idx39_inb : ∀ (v254 : IVec S16 32) (k1_hw39 : k1_chk39 v254), ∀ a x, ((![v254] : Fin 1 → IVec S16 32) a x).toNat < S65536.size a := fun v254 k1_hw39 => k1_hw39

def k1_chk40 (v257 : IVec S16 32) : Prop :=
  (∀ a x, ((![v257] : Fin 1 → IVec S16 32) a x).toNat < S65536.size a)
instance k1_chk40.dec : ∀ (v257 : IVec S16 32), Decidable (k1_chk40 v257) := fun v257 => decidable_of_iff' _ (Iff.of_eq (k1_chk40.eq_1 v257))
theorem k1_idx40_inb : ∀ (v257 : IVec S16 32) (k1_hw40 : k1_chk40 v257), ∀ a x, ((![v257] : Fin 1 → IVec S16 32) a x).toNat < S65536.size a := fun v257 k1_hw40 => k1_hw40
def k1_off22 (k1_t6 : Fin k1_t6_loop.trips) (c0_i32_105 : BitVec 32) : Fin 1 → Nat :=
  let c0_i32_58 : BitVec 32 := 0#32
  let c1_i32_60 : BitVec 32 := 1#32
  let arg40 : BitVec 32 := Scf.iv c0_i32_58 c1_i32_60 k1_t6
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult33 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c2048_i32_62 : BitVec 32 := 2048#32
  let v163 : BitVec 32 := Scalar.muli v152 c2048_i32_62
  let v164 : BitVec 32 := Scalar.addi v2 v163
  v164
def k1_cond10 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_63 : BitVec 32 := 8#32
  let v168 : BitVec 32 := Scalar.addi v152 c8_i32_63
  let c128_i32_64 : BitVec 32 := 128#32
  let v169 : BitVec 1 := Scalar.cmpi .slt v168 c128_i32_64
  let v170 : BitVec 32 := Scalar.extui v169
  let c0_i32_65 : BitVec 32 := 0#32
  let v171 : BitVec 1 := Scalar.cmpi .ne v170 c0_i32_65
  v171

def k1_mult34 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_102 : BitVec 32 := 8#32
  let v232 : BitVec 32 := Scalar.addi v152 c8_i32_102
  let c2048_i32_103 : BitVec 32 := 2048#32
  let v233 : BitVec 32 := Scalar.muli v232 c2048_i32_103
  let v234 : BitVec 32 := Scalar.addi v2 v233
  v234
def k1_off23 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c4_i32 : BitVec 32 := 4#32
  let v152 : BitVec 32 := Scalar.addi v71 c4_i32
  let c8_i32_102 : BitVec 32 := 8#32
  let v232 : BitVec 32 := Scalar.addi v152 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult35 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c2048_i32_66 : BitVec 32 := 2048#32
  let v173 : BitVec 32 := Scalar.muli v172 c2048_i32_66
  let v174 : BitVec 32 := Scalar.addi v2 v173
  v174
def k1_cond11 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_67 : BitVec 32 := 8#32
  let v178 : BitVec 1 := Scalar.cmpi .sge v172 c8_i32_67
  let v179 : BitVec 32 := Scalar.extui v178
  let c0_i32_68 : BitVec 32 := 0#32
  let v180 : BitVec 1 := Scalar.cmpi .ne v179 c0_i32_68
  v180

def k1_mult36 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_102 : BitVec 32 := 8#32
  let v232 : BitVec 32 := Scalar.subi v172 c8_i32_102
  let c2048_i32_103 : BitVec 32 := 2048#32
  let v233 : BitVec 32 := Scalar.muli v232 c2048_i32_103
  let v234 : BitVec 32 := Scalar.addi v2 v233
  v234
def k1_off24 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_102 : BitVec 32 := 8#32
  let v232 : BitVec 32 := Scalar.subi v172 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t7_loop : Scf.Loop 32 :=
  let c0_i32_70 : BitVec 32 := 0#32
  let c16_i32_71 : BitVec 32 := 16#32
  let v181 : BitVec 32 := Scalar.addi c0_i32_70 c16_i32_71
  let c1_i32_72 : BitVec 32 := 1#32
  ⟨c0_i32_70, v181, c1_i32_72⟩
def k1_mult37 (k1_t7 : Fin k1_t7_loop.trips) : BitVec 32 :=
  let c0_i32_70 : BitVec 32 := 0#32
  let c1_i32_72 : BitVec 32 := 1#32
  let arg40 : BitVec 32 := Scf.iv c0_i32_70 c1_i32_72 k1_t7
  let c128_i32_102 : BitVec 32 := 128#32
  let v232 : BitVec 32 := Scalar.muli arg40 c128_i32_102
  v232
def k1_off25 (k1_t7 : Fin k1_t7_loop.trips) (c0_i32_103 : BitVec 32) : Fin 1 → Nat :=
  let c0_i32_70 : BitVec 32 := 0#32
  let c1_i32_72 : BitVec 32 := 1#32
  let arg40 : BitVec 32 := Scf.iv c0_i32_70 c1_i32_72 k1_t7
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk41 (v236 : IVec S16 32) : Prop :=
  (∀ a x, ((![v236] : Fin 1 → IVec S16 32) a x).toNat < S65536.size a)
instance k1_chk41.dec : ∀ (v236 : IVec S16 32), Decidable (k1_chk41 v236) := fun v236 => decidable_of_iff' _ (Iff.of_eq (k1_chk41.eq_1 v236))
theorem k1_idx41_inb : ∀ (v236 : IVec S16 32) (k1_hw41 : k1_chk41 v236), ∀ a x, ((![v236] : Fin 1 → IVec S16 32) a x).toNat < S65536.size a := fun v236 k1_hw41 => k1_hw41

def k1_chk42 (v239 : IVec S16 32) : Prop :=
  (∀ a x, ((![v239] : Fin 1 → IVec S16 32) a x).toNat < S65536.size a)
instance k1_chk42.dec : ∀ (v239 : IVec S16 32), Decidable (k1_chk42 v239) := fun v239 => decidable_of_iff' _ (Iff.of_eq (k1_chk42.eq_1 v239))
theorem k1_idx42_inb : ∀ (v239 : IVec S16 32) (k1_hw42 : k1_chk42 v239), ∀ a x, ((![v239] : Fin 1 → IVec S16 32) a x).toNat < S65536.size a := fun v239 k1_hw42 => k1_hw42

def k1_chk43 (v242 : IVec S16 32) : Prop :=
  (∀ a x, ((![v242] : Fin 1 → IVec S16 32) a x).toNat < S65536.size a)
instance k1_chk43.dec : ∀ (v242 : IVec S16 32), Decidable (k1_chk43 v242) := fun v242 => decidable_of_iff' _ (Iff.of_eq (k1_chk43.eq_1 v242))
theorem k1_idx43_inb : ∀ (v242 : IVec S16 32) (k1_hw43 : k1_chk43 v242), ∀ a x, ((![v242] : Fin 1 → IVec S16 32) a x).toNat < S65536.size a := fun v242 k1_hw43 => k1_hw43

def k1_chk44 (v245 : IVec S16 32) : Prop :=
  (∀ a x, ((![v245] : Fin 1 → IVec S16 32) a x).toNat < S65536.size a)
instance k1_chk44.dec : ∀ (v245 : IVec S16 32), Decidable (k1_chk44 v245) := fun v245 => decidable_of_iff' _ (Iff.of_eq (k1_chk44.eq_1 v245))
theorem k1_idx44_inb : ∀ (v245 : IVec S16 32) (k1_hw44 : k1_chk44 v245), ∀ a x, ((![v245] : Fin 1 → IVec S16 32) a x).toNat < S65536.size a := fun v245 k1_hw44 => k1_hw44

def k1_chk45 (v248 : IVec S16 32) : Prop :=
  (∀ a x, ((![v248] : Fin 1 → IVec S16 32) a x).toNat < S65536.size a)
instance k1_chk45.dec : ∀ (v248 : IVec S16 32), Decidable (k1_chk45 v248) := fun v248 => decidable_of_iff' _ (Iff.of_eq (k1_chk45.eq_1 v248))
theorem k1_idx45_inb : ∀ (v248 : IVec S16 32) (k1_hw45 : k1_chk45 v248), ∀ a x, ((![v248] : Fin 1 → IVec S16 32) a x).toNat < S65536.size a := fun v248 k1_hw45 => k1_hw45

def k1_chk46 (v251 : IVec S16 32) : Prop :=
  (∀ a x, ((![v251] : Fin 1 → IVec S16 32) a x).toNat < S65536.size a)
instance k1_chk46.dec : ∀ (v251 : IVec S16 32), Decidable (k1_chk46 v251) := fun v251 => decidable_of_iff' _ (Iff.of_eq (k1_chk46.eq_1 v251))
theorem k1_idx46_inb : ∀ (v251 : IVec S16 32) (k1_hw46 : k1_chk46 v251), ∀ a x, ((![v251] : Fin 1 → IVec S16 32) a x).toNat < S65536.size a := fun v251 k1_hw46 => k1_hw46

def k1_chk47 (v254 : IVec S16 32) : Prop :=
  (∀ a x, ((![v254] : Fin 1 → IVec S16 32) a x).toNat < S65536.size a)
instance k1_chk47.dec : ∀ (v254 : IVec S16 32), Decidable (k1_chk47 v254) := fun v254 => decidable_of_iff' _ (Iff.of_eq (k1_chk47.eq_1 v254))
theorem k1_idx47_inb : ∀ (v254 : IVec S16 32) (k1_hw47 : k1_chk47 v254), ∀ a x, ((![v254] : Fin 1 → IVec S16 32) a x).toNat < S65536.size a := fun v254 k1_hw47 => k1_hw47

def k1_chk48 (v257 : IVec S16 32) : Prop :=
  (∀ a x, ((![v257] : Fin 1 → IVec S16 32) a x).toNat < S65536.size a)
instance k1_chk48.dec : ∀ (v257 : IVec S16 32), Decidable (k1_chk48 v257) := fun v257 => decidable_of_iff' _ (Iff.of_eq (k1_chk48.eq_1 v257))
theorem k1_idx48_inb : ∀ (v257 : IVec S16 32) (k1_hw48 : k1_chk48 v257), ∀ a x, ((![v257] : Fin 1 → IVec S16 32) a x).toNat < S65536.size a := fun v257 k1_hw48 => k1_hw48
def k1_off26 (k1_t7 : Fin k1_t7_loop.trips) (c0_i32_105 : BitVec 32) : Fin 1 → Nat :=
  let c0_i32_70 : BitVec 32 := 0#32
  let c1_i32_72 : BitVec 32 := 1#32
  let arg40 : BitVec 32 := Scf.iv c0_i32_70 c1_i32_72 k1_t7
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult38 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c2048_i32_74 : BitVec 32 := 2048#32
  let v183 : BitVec 32 := Scalar.muli v172 c2048_i32_74
  let v184 : BitVec 32 := Scalar.addi v2 v183
  v184
def k1_cond12 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_75 : BitVec 32 := 8#32
  let v188 : BitVec 32 := Scalar.addi v172 c8_i32_75
  let c128_i32_76 : BitVec 32 := 128#32
  let v189 : BitVec 1 := Scalar.cmpi .slt v188 c128_i32_76
  let v190 : BitVec 32 := Scalar.extui v189
  let c0_i32_77 : BitVec 32 := 0#32
  let v191 : BitVec 1 := Scalar.cmpi .ne v190 c0_i32_77
  v191

def k1_mult39 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_102 : BitVec 32 := 8#32
  let v232 : BitVec 32 := Scalar.addi v172 c8_i32_102
  let c2048_i32_103 : BitVec 32 := 2048#32
  let v233 : BitVec 32 := Scalar.muli v232 c2048_i32_103
  let v234 : BitVec 32 := Scalar.addi v2 v233
  v234
def k1_off27 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c5_i32 : BitVec 32 := 5#32
  let v172 : BitVec 32 := Scalar.addi v71 c5_i32
  let c8_i32_102 : BitVec 32 := 8#32
  let v232 : BitVec 32 := Scalar.addi v172 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult40 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c2048_i32_78 : BitVec 32 := 2048#32
  let v193 : BitVec 32 := Scalar.muli v192 c2048_i32_78
  let v194 : BitVec 32 := Scalar.addi v2 v193
  v194
def k1_cond13 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_79 : BitVec 32 := 8#32
  let v198 : BitVec 1 := Scalar.cmpi .sge v192 c8_i32_79
  let v199 : BitVec 32 := Scalar.extui v198
  let c0_i32_80 : BitVec 32 := 0#32
  let v200 : BitVec 1 := Scalar.cmpi .ne v199 c0_i32_80
  v200

def k1_mult41 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_102 : BitVec 32 := 8#32
  let v232 : BitVec 32 := Scalar.subi v192 c8_i32_102
  let c2048_i32_103 : BitVec 32 := 2048#32
  let v233 : BitVec 32 := Scalar.muli v232 c2048_i32_103
  let v234 : BitVec 32 := Scalar.addi v2 v233
  v234
def k1_off28 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_102 : BitVec 32 := 8#32
  let v232 : BitVec 32 := Scalar.subi v192 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t8_loop : Scf.Loop 32 :=
  let c0_i32_82 : BitVec 32 := 0#32
  let c16_i32_83 : BitVec 32 := 16#32
  let v201 : BitVec 32 := Scalar.addi c0_i32_82 c16_i32_83
  let c1_i32_84 : BitVec 32 := 1#32
  ⟨c0_i32_82, v201, c1_i32_84⟩
def k1_mult42 (k1_t8 : Fin k1_t8_loop.trips) : BitVec 32 :=
  let c0_i32_82 : BitVec 32 := 0#32
  let c1_i32_84 : BitVec 32 := 1#32
  let arg40 : BitVec 32 := Scf.iv c0_i32_82 c1_i32_84 k1_t8
  let c128_i32_102 : BitVec 32 := 128#32
  let v232 : BitVec 32 := Scalar.muli arg40 c128_i32_102
  v232
def k1_off29 (k1_t8 : Fin k1_t8_loop.trips) (c0_i32_103 : BitVec 32) : Fin 1 → Nat :=
  let c0_i32_82 : BitVec 32 := 0#32
  let c1_i32_84 : BitVec 32 := 1#32
  let arg40 : BitVec 32 := Scf.iv c0_i32_82 c1_i32_84 k1_t8
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk49 (v236 : IVec S16 32) : Prop :=
  (∀ a x, ((![v236] : Fin 1 → IVec S16 32) a x).toNat < S65536.size a)
instance k1_chk49.dec : ∀ (v236 : IVec S16 32), Decidable (k1_chk49 v236) := fun v236 => decidable_of_iff' _ (Iff.of_eq (k1_chk49.eq_1 v236))
theorem k1_idx49_inb : ∀ (v236 : IVec S16 32) (k1_hw49 : k1_chk49 v236), ∀ a x, ((![v236] : Fin 1 → IVec S16 32) a x).toNat < S65536.size a := fun v236 k1_hw49 => k1_hw49

def k1_chk50 (v239 : IVec S16 32) : Prop :=
  (∀ a x, ((![v239] : Fin 1 → IVec S16 32) a x).toNat < S65536.size a)
instance k1_chk50.dec : ∀ (v239 : IVec S16 32), Decidable (k1_chk50 v239) := fun v239 => decidable_of_iff' _ (Iff.of_eq (k1_chk50.eq_1 v239))
theorem k1_idx50_inb : ∀ (v239 : IVec S16 32) (k1_hw50 : k1_chk50 v239), ∀ a x, ((![v239] : Fin 1 → IVec S16 32) a x).toNat < S65536.size a := fun v239 k1_hw50 => k1_hw50

def k1_chk51 (v242 : IVec S16 32) : Prop :=
  (∀ a x, ((![v242] : Fin 1 → IVec S16 32) a x).toNat < S65536.size a)
instance k1_chk51.dec : ∀ (v242 : IVec S16 32), Decidable (k1_chk51 v242) := fun v242 => decidable_of_iff' _ (Iff.of_eq (k1_chk51.eq_1 v242))
theorem k1_idx51_inb : ∀ (v242 : IVec S16 32) (k1_hw51 : k1_chk51 v242), ∀ a x, ((![v242] : Fin 1 → IVec S16 32) a x).toNat < S65536.size a := fun v242 k1_hw51 => k1_hw51

def k1_chk52 (v245 : IVec S16 32) : Prop :=
  (∀ a x, ((![v245] : Fin 1 → IVec S16 32) a x).toNat < S65536.size a)
instance k1_chk52.dec : ∀ (v245 : IVec S16 32), Decidable (k1_chk52 v245) := fun v245 => decidable_of_iff' _ (Iff.of_eq (k1_chk52.eq_1 v245))
theorem k1_idx52_inb : ∀ (v245 : IVec S16 32) (k1_hw52 : k1_chk52 v245), ∀ a x, ((![v245] : Fin 1 → IVec S16 32) a x).toNat < S65536.size a := fun v245 k1_hw52 => k1_hw52

def k1_chk53 (v248 : IVec S16 32) : Prop :=
  (∀ a x, ((![v248] : Fin 1 → IVec S16 32) a x).toNat < S65536.size a)
instance k1_chk53.dec : ∀ (v248 : IVec S16 32), Decidable (k1_chk53 v248) := fun v248 => decidable_of_iff' _ (Iff.of_eq (k1_chk53.eq_1 v248))
theorem k1_idx53_inb : ∀ (v248 : IVec S16 32) (k1_hw53 : k1_chk53 v248), ∀ a x, ((![v248] : Fin 1 → IVec S16 32) a x).toNat < S65536.size a := fun v248 k1_hw53 => k1_hw53

def k1_chk54 (v251 : IVec S16 32) : Prop :=
  (∀ a x, ((![v251] : Fin 1 → IVec S16 32) a x).toNat < S65536.size a)
instance k1_chk54.dec : ∀ (v251 : IVec S16 32), Decidable (k1_chk54 v251) := fun v251 => decidable_of_iff' _ (Iff.of_eq (k1_chk54.eq_1 v251))
theorem k1_idx54_inb : ∀ (v251 : IVec S16 32) (k1_hw54 : k1_chk54 v251), ∀ a x, ((![v251] : Fin 1 → IVec S16 32) a x).toNat < S65536.size a := fun v251 k1_hw54 => k1_hw54

def k1_chk55 (v254 : IVec S16 32) : Prop :=
  (∀ a x, ((![v254] : Fin 1 → IVec S16 32) a x).toNat < S65536.size a)
instance k1_chk55.dec : ∀ (v254 : IVec S16 32), Decidable (k1_chk55 v254) := fun v254 => decidable_of_iff' _ (Iff.of_eq (k1_chk55.eq_1 v254))
theorem k1_idx55_inb : ∀ (v254 : IVec S16 32) (k1_hw55 : k1_chk55 v254), ∀ a x, ((![v254] : Fin 1 → IVec S16 32) a x).toNat < S65536.size a := fun v254 k1_hw55 => k1_hw55

def k1_chk56 (v257 : IVec S16 32) : Prop :=
  (∀ a x, ((![v257] : Fin 1 → IVec S16 32) a x).toNat < S65536.size a)
instance k1_chk56.dec : ∀ (v257 : IVec S16 32), Decidable (k1_chk56 v257) := fun v257 => decidable_of_iff' _ (Iff.of_eq (k1_chk56.eq_1 v257))
theorem k1_idx56_inb : ∀ (v257 : IVec S16 32) (k1_hw56 : k1_chk56 v257), ∀ a x, ((![v257] : Fin 1 → IVec S16 32) a x).toNat < S65536.size a := fun v257 k1_hw56 => k1_hw56
def k1_off30 (k1_t8 : Fin k1_t8_loop.trips) (c0_i32_105 : BitVec 32) : Fin 1 → Nat :=
  let c0_i32_82 : BitVec 32 := 0#32
  let c1_i32_84 : BitVec 32 := 1#32
  let arg40 : BitVec 32 := Scf.iv c0_i32_82 c1_i32_84 k1_t8
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult43 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c2048_i32_86 : BitVec 32 := 2048#32
  let v203 : BitVec 32 := Scalar.muli v192 c2048_i32_86
  let v204 : BitVec 32 := Scalar.addi v2 v203
  v204
def k1_cond14 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_87 : BitVec 32 := 8#32
  let v208 : BitVec 32 := Scalar.addi v192 c8_i32_87
  let c128_i32_88 : BitVec 32 := 128#32
  let v209 : BitVec 1 := Scalar.cmpi .slt v208 c128_i32_88
  let v210 : BitVec 32 := Scalar.extui v209
  let c0_i32_89 : BitVec 32 := 0#32
  let v211 : BitVec 1 := Scalar.cmpi .ne v210 c0_i32_89
  v211

def k1_mult44 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_102 : BitVec 32 := 8#32
  let v232 : BitVec 32 := Scalar.addi v192 c8_i32_102
  let c2048_i32_103 : BitVec 32 := 2048#32
  let v233 : BitVec 32 := Scalar.muli v232 c2048_i32_103
  let v234 : BitVec 32 := Scalar.addi v2 v233
  v234
def k1_off31 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c6_i32 : BitVec 32 := 6#32
  let v192 : BitVec 32 := Scalar.addi v71 c6_i32
  let c8_i32_102 : BitVec 32 := 8#32
  let v232 : BitVec 32 := Scalar.addi v192 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult45 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c2048_i32_90 : BitVec 32 := 2048#32
  let v213 : BitVec 32 := Scalar.muli v212 c2048_i32_90
  let v214 : BitVec 32 := Scalar.addi v2 v213
  v214
def k1_cond15 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_91 : BitVec 32 := 8#32
  let v218 : BitVec 1 := Scalar.cmpi .sge v212 c8_i32_91
  let v219 : BitVec 32 := Scalar.extui v218
  let c0_i32_92 : BitVec 32 := 0#32
  let v220 : BitVec 1 := Scalar.cmpi .ne v219 c0_i32_92
  v220

def k1_mult46 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_102 : BitVec 32 := 8#32
  let v232 : BitVec 32 := Scalar.subi v212 c8_i32_102
  let c2048_i32_103 : BitVec 32 := 2048#32
  let v233 : BitVec 32 := Scalar.muli v232 c2048_i32_103
  let v234 : BitVec 32 := Scalar.addi v2 v233
  v234
def k1_off32 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_102 : BitVec 32 := 8#32
  let v232 : BitVec 32 := Scalar.subi v212 c8_i32_102
  let c2048_i32_103 : BitVec 32 := 2048#32
  let v233 : BitVec 32 := Scalar.muli v232 c2048_i32_103
  let v234 : BitVec 32 := Scalar.addi v2 v233
  let v235 : BitVec 32 := v234
  ![v235.toNat]
@[reducible] def k1_t9_loop : Scf.Loop 32 :=
  let c0_i32_94 : BitVec 32 := 0#32
  let c16_i32_95 : BitVec 32 := 16#32
  let v221 : BitVec 32 := Scalar.addi c0_i32_94 c16_i32_95
  let c1_i32_96 : BitVec 32 := 1#32
  ⟨c0_i32_94, v221, c1_i32_96⟩
def k1_mult47 (k1_t9 : Fin k1_t9_loop.trips) : BitVec 32 :=
  let c0_i32_94 : BitVec 32 := 0#32
  let c1_i32_96 : BitVec 32 := 1#32
  let arg40 : BitVec 32 := Scf.iv c0_i32_94 c1_i32_96 k1_t9
  let c128_i32_102 : BitVec 32 := 128#32
  let v232 : BitVec 32 := Scalar.muli arg40 c128_i32_102
  v232
def k1_off33 (k1_t9 : Fin k1_t9_loop.trips) (c0_i32_103 : BitVec 32) : Fin 1 → Nat :=
  let c0_i32_94 : BitVec 32 := 0#32
  let c1_i32_96 : BitVec 32 := 1#32
  let arg40 : BitVec 32 := Scf.iv c0_i32_94 c1_i32_96 k1_t9
  let c128_i32_102 : BitVec 32 := 128#32
  let v232 : BitVec 32 := Scalar.muli arg40 c128_i32_102
  let v233 : BitVec 32 := v232
  let v234 : BitVec 32 := Scalar.addi v233 c0_i32_103
  let v235 : Index := Scalar.indexCast v234
  ![v235.toNat]

def k1_chk57 (v236 : IVec S16 32) : Prop :=
  (∀ a x, ((![v236] : Fin 1 → IVec S16 32) a x).toNat < S65536.size a)
instance k1_chk57.dec : ∀ (v236 : IVec S16 32), Decidable (k1_chk57 v236) := fun v236 => decidable_of_iff' _ (Iff.of_eq (k1_chk57.eq_1 v236))
theorem k1_idx57_inb : ∀ (v236 : IVec S16 32) (k1_hw57 : k1_chk57 v236), ∀ a x, ((![v236] : Fin 1 → IVec S16 32) a x).toNat < S65536.size a := fun v236 k1_hw57 => k1_hw57

def k1_chk58 (v239 : IVec S16 32) : Prop :=
  (∀ a x, ((![v239] : Fin 1 → IVec S16 32) a x).toNat < S65536.size a)
instance k1_chk58.dec : ∀ (v239 : IVec S16 32), Decidable (k1_chk58 v239) := fun v239 => decidable_of_iff' _ (Iff.of_eq (k1_chk58.eq_1 v239))
theorem k1_idx58_inb : ∀ (v239 : IVec S16 32) (k1_hw58 : k1_chk58 v239), ∀ a x, ((![v239] : Fin 1 → IVec S16 32) a x).toNat < S65536.size a := fun v239 k1_hw58 => k1_hw58

def k1_chk59 (v242 : IVec S16 32) : Prop :=
  (∀ a x, ((![v242] : Fin 1 → IVec S16 32) a x).toNat < S65536.size a)
instance k1_chk59.dec : ∀ (v242 : IVec S16 32), Decidable (k1_chk59 v242) := fun v242 => decidable_of_iff' _ (Iff.of_eq (k1_chk59.eq_1 v242))
theorem k1_idx59_inb : ∀ (v242 : IVec S16 32) (k1_hw59 : k1_chk59 v242), ∀ a x, ((![v242] : Fin 1 → IVec S16 32) a x).toNat < S65536.size a := fun v242 k1_hw59 => k1_hw59

def k1_chk60 (v245 : IVec S16 32) : Prop :=
  (∀ a x, ((![v245] : Fin 1 → IVec S16 32) a x).toNat < S65536.size a)
instance k1_chk60.dec : ∀ (v245 : IVec S16 32), Decidable (k1_chk60 v245) := fun v245 => decidable_of_iff' _ (Iff.of_eq (k1_chk60.eq_1 v245))
theorem k1_idx60_inb : ∀ (v245 : IVec S16 32) (k1_hw60 : k1_chk60 v245), ∀ a x, ((![v245] : Fin 1 → IVec S16 32) a x).toNat < S65536.size a := fun v245 k1_hw60 => k1_hw60

def k1_chk61 (v248 : IVec S16 32) : Prop :=
  (∀ a x, ((![v248] : Fin 1 → IVec S16 32) a x).toNat < S65536.size a)
instance k1_chk61.dec : ∀ (v248 : IVec S16 32), Decidable (k1_chk61 v248) := fun v248 => decidable_of_iff' _ (Iff.of_eq (k1_chk61.eq_1 v248))
theorem k1_idx61_inb : ∀ (v248 : IVec S16 32) (k1_hw61 : k1_chk61 v248), ∀ a x, ((![v248] : Fin 1 → IVec S16 32) a x).toNat < S65536.size a := fun v248 k1_hw61 => k1_hw61

def k1_chk62 (v251 : IVec S16 32) : Prop :=
  (∀ a x, ((![v251] : Fin 1 → IVec S16 32) a x).toNat < S65536.size a)
instance k1_chk62.dec : ∀ (v251 : IVec S16 32), Decidable (k1_chk62 v251) := fun v251 => decidable_of_iff' _ (Iff.of_eq (k1_chk62.eq_1 v251))
theorem k1_idx62_inb : ∀ (v251 : IVec S16 32) (k1_hw62 : k1_chk62 v251), ∀ a x, ((![v251] : Fin 1 → IVec S16 32) a x).toNat < S65536.size a := fun v251 k1_hw62 => k1_hw62

def k1_chk63 (v254 : IVec S16 32) : Prop :=
  (∀ a x, ((![v254] : Fin 1 → IVec S16 32) a x).toNat < S65536.size a)
instance k1_chk63.dec : ∀ (v254 : IVec S16 32), Decidable (k1_chk63 v254) := fun v254 => decidable_of_iff' _ (Iff.of_eq (k1_chk63.eq_1 v254))
theorem k1_idx63_inb : ∀ (v254 : IVec S16 32) (k1_hw63 : k1_chk63 v254), ∀ a x, ((![v254] : Fin 1 → IVec S16 32) a x).toNat < S65536.size a := fun v254 k1_hw63 => k1_hw63

def k1_chk64 (v257 : IVec S16 32) : Prop :=
  (∀ a x, ((![v257] : Fin 1 → IVec S16 32) a x).toNat < S65536.size a)
instance k1_chk64.dec : ∀ (v257 : IVec S16 32), Decidable (k1_chk64 v257) := fun v257 => decidable_of_iff' _ (Iff.of_eq (k1_chk64.eq_1 v257))
theorem k1_idx64_inb : ∀ (v257 : IVec S16 32) (k1_hw64 : k1_chk64 v257), ∀ a x, ((![v257] : Fin 1 → IVec S16 32) a x).toNat < S65536.size a := fun v257 k1_hw64 => k1_hw64
def k1_off34 (k1_t9 : Fin k1_t9_loop.trips) (c0_i32_105 : BitVec 32) : Fin 1 → Nat :=
  let c0_i32_94 : BitVec 32 := 0#32
  let c1_i32_96 : BitVec 32 := 1#32
  let arg40 : BitVec 32 := Scf.iv c0_i32_94 c1_i32_96 k1_t9
  let c128_i32_102 : BitVec 32 := 128#32
  let v232 : BitVec 32 := Scalar.muli arg40 c128_i32_102
  let v233 : BitVec 32 := v232
  let v266 : BitVec 32 := Scalar.addi v233 c0_i32_105
  let v267 : Index := Scalar.indexCast v266
  ![v267.toNat]
def k1_mult48 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c2048_i32_98 : BitVec 32 := 2048#32
  let v223 : BitVec 32 := Scalar.muli v212 c2048_i32_98
  let v224 : BitVec 32 := Scalar.addi v2 v223
  v224
def k1_cond16 (k1_t1 : Fin k1_t1_loop.trips) : BitVec 1 :=
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_99 : BitVec 32 := 8#32
  let v228 : BitVec 32 := Scalar.addi v212 c8_i32_99
  let c128_i32_100 : BitVec 32 := 128#32
  let v229 : BitVec 1 := Scalar.cmpi .slt v228 c128_i32_100
  let v230 : BitVec 32 := Scalar.extui v229
  let c0_i32_101 : BitVec 32 := 0#32
  let v231 : BitVec 1 := Scalar.cmpi .ne v230 c0_i32_101
  v231

def k1_mult49 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_102 : BitVec 32 := 8#32
  let v232 : BitVec 32 := Scalar.addi v212 c8_i32_102
  let c2048_i32_103 : BitVec 32 := 2048#32
  let v233 : BitVec 32 := Scalar.muli v232 c2048_i32_103
  let v234 : BitVec 32 := Scalar.addi v2 v233
  v234
def k1_off35 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_3 : BitVec 32 := 0#32
  let c0_i32_1 : BitVec 32 := 0#32
  let c1_i32 : BitVec 32 := 1#32
  let arg39 : BitVec 32 := Scf.iv c0_i32_1 c1_i32 k1_t1
  let c8_i32 : BitVec 32 := 8#32
  let v70 : BitVec 32 := Scalar.muli arg39 c8_i32
  let v71 : BitVec 32 := Scalar.addi c0_i32_3 v70
  let c7_i32 : BitVec 32 := 7#32
  let v212 : BitVec 32 := Scalar.addi v71 c7_i32
  let c8_i32_102 : BitVec 32 := 8#32
  let v232 : BitVec 32 := Scalar.addi v212 c8_i32_102
  let c2048_i32_103 : BitVec 32 := 2048#32
  let v233 : BitVec 32 := Scalar.muli v232 c2048_i32_103
  let v234 : BitVec 32 := Scalar.addi v2 v233
  let v235 : BitVec 32 := v234
  ![v235.toNat]
def k1_mult50 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c245760_i32 : BitVec 32 := 245760#32
  let v38 : BitVec 32 := Scalar.addi v2 c245760_i32
  v38
def k1_mult51 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c247808_i32 : BitVec 32 := 247808#32
  let v42 : BitVec 32 := Scalar.addi v2 c247808_i32
  v42
def k1_mult52 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c249856_i32 : BitVec 32 := 249856#32
  let v46 : BitVec 32 := Scalar.addi v2 c249856_i32
  v46
def k1_mult53 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c251904_i32 : BitVec 32 := 251904#32
  let v50 : BitVec 32 := Scalar.addi v2 c251904_i32
  v50
def k1_mult54 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c253952_i32 : BitVec 32 := 253952#32
  let v54 : BitVec 32 := Scalar.addi v2 c253952_i32
  v54
def k1_mult55 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c256000_i32 : BitVec 32 := 256000#32
  let v58 : BitVec 32 := Scalar.addi v2 c256000_i32
  v58
def k1_mult56 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c258048_i32 : BitVec 32 := 258048#32
  let v62 : BitVec 32 := Scalar.addi v2 c258048_i32
  v62
def k1_mult57 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c260096_i32 : BitVec 32 := 260096#32
  let v66 : BitVec 32 := Scalar.addi v2 c260096_i32
  v66
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S65536_S512x128 : S65536.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x128_S1x512x128 : S512x128.ShapeCasts S1x512x128
  reduces_S1x512x128_S1 : S1x512x128.Reduces [1, 2] S1
  shapeCasts_S1_S1x1x1 : S1.ShapeCasts S1x1x1
  inpos_S1x1x1_p0_0_0 : ∀ a, (![0, 0, 0] : Fin 3 → Nat) a < S1x1x1.size a
  shapeCasts_S512x128_S65536 : S512x128.ShapeCasts S65536
  h_S16 : 0 < S16.numel
  h_S65536 : 0 < S65536.numel
  hcc1_scratch18 : 2 + S_.numel ≤ 20
  hcc1_scratch19 : 3 + S_.numel ≤ 20
  hcc1_scratch20 : 4 + S_.numel ≤ 20
  hcc1_scratch21 : 5 + S_.numel ≤ 20
  hcc1_scratch22 : 6 + S_.numel ≤ 20
  hcc1_scratch23 : 7 + S_.numel ≤ 20
  hcc1_scratch24 : 8 + S_.numel ≤ 20
  hcc1_scratch25 : 9 + S_.numel ≤ 20
  hcc1_scratch26 : 10 + S_.numel ≤ 20
  hcc1_scratch27 : 11 + S_.numel ≤ 20
  hcc1_scratch28 : 12 + S_.numel ≤ 20
  hcc1_scratch29 : 13 + S_.numel ≤ 20
  hcc1_scratch30 : 14 + S_.numel ≤ 20
  hcc1_scratch31 : 15 + S_.numel ≤ 20
  hcc1_scratch32 : 16 + S_.numel ≤ 20
  hcc1_scratch33 : 17 + S_.numel ≤ 20
  hcc1_scoped0 : 18 + S_.numel ≤ 20
  hcc1_scoped1 : 19 + S_.numel ≤ 20
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hcore1 : grid1.bound 0 ≤ τ.nSC
  hsub1 : grid1.bound 1 ≤ τ.nSub
  k1_mult1_dvd : ∀ i : grid1.Coords, 2048 ∣ (k1_mult1 i).toNat
  k1_off1_inb : ∀ i : grid1.Coords, ∀ (r : Fin 16), ∀ a, (k1_off1 i (k1_off1_at r)) a + S2048.size a ≤ S8388608.size a
  k1_mult2_dvd : ∀ i : grid1.Coords, 2048 ∣ (k1_mult2 i).toNat
  k1_mult3_dvd : ∀ i : grid1.Coords, 2048 ∣ (k1_mult3 i).toNat
  k1_mult4_dvd : ∀ i : grid1.Coords, 2048 ∣ (k1_mult4 i).toNat
  k1_mult5_dvd : ∀ i : grid1.Coords, 2048 ∣ (k1_mult5 i).toNat
  k1_mult6_dvd : ∀ i : grid1.Coords, 2048 ∣ (k1_mult6 i).toNat
  k1_mult7_dvd : ∀ i : grid1.Coords, 2048 ∣ (k1_mult7 i).toNat
  k1_mult8_dvd : ∀ i : grid1.Coords, 2048 ∣ (k1_mult8 i).toNat
  k1_mult9_dvd : ∀ i : grid1.Coords, 4096 ∣ (k1_mult9 i).toNat
  k1_off2_inb : ∀ i : grid1.Coords, ∀ a, (k1_off2 i) a + S4096.size a ≤ S65536.size a
  k1_t1_ok : k1_t1_loop.OK
  k1_mult10_dvd : ∀ (i : grid1.Coords) (k1_t1 : Fin k1_t1_loop.trips), 2048 ∣ (k1_mult10 i k1_t1).toNat
  k1_off3_inb : ∀ (i : grid1.Coords) (k1_t1 : Fin k1_t1_loop.trips), ∀ (r : Fin 8), ∀ a, (k1_off3 i k1_t1 (BitVec.ofNat 32 r.val)) a + S2048.size a ≤ S8388608.size a
  k1_mult11_dvd : ∀ (i : grid1.Coords) (k1_t1 : Fin k1_t1_loop.trips), ∀ (k1_h1 : k1_cond1 k1_t1 = 1#1), 2048 ∣ (k1_mult11 i k1_t1).toNat
  k1_off4_inb : ∀ (i : grid1.Coords) (k1_t1 : Fin k1_t1_loop.trips), ∀ (k1_h1 : k1_cond1 k1_t1 = 1#1), ∀ a, (k1_off4 i k1_t1) a + S2048.size a ≤ S8388608.size a
  k1_t2_ok : k1_t2_loop.OK
  k1_mult12_dvd : ∀ k1_t2 : Fin k1_t2_loop.trips, 128 ∣ (k1_mult12 k1_t2).toNat
  k1_off5_inb : ∀ k1_t2 : Fin k1_t2_loop.trips, ∀ (r : Fin 8), ∀ a, (k1_off5 k1_t2 (BitVec.ofNat 32 (16 * r.val))) a + S16.size a ≤ S2048.size a
  k1_off6_inb : ∀ k1_t2 : Fin k1_t2_loop.trips, ∀ (r : Fin 8), ∀ a, (k1_off6 k1_t2 (BitVec.ofNat 32 (16 * r.val))) a + S16.size a ≤ S2048.size a
  k1_mult13_dvd : ∀ (i : grid1.Coords) (k1_t1 : Fin k1_t1_loop.trips), 2048 ∣ (k1_mult13 i k1_t1).toNat
  k1_mult14_dvd : ∀ (i : grid1.Coords) (k1_t1 : Fin k1_t1_loop.trips), ∀ (k1_h2 : k1_cond2 k1_t1 = 1#1), 2048 ∣ (k1_mult14 i k1_t1).toNat
  k1_off7_inb : ∀ (i : grid1.Coords) (k1_t1 : Fin k1_t1_loop.trips), ∀ (k1_h2 : k1_cond2 k1_t1 = 1#1), ∀ a, (k1_off7 i k1_t1) a + S2048.size a ≤ S8388608.size a
  k1_mult15_dvd : ∀ (i : grid1.Coords) (k1_t1 : Fin k1_t1_loop.trips), 2048 ∣ (k1_mult15 i k1_t1).toNat
  k1_mult16_dvd : ∀ (i : grid1.Coords) (k1_t1 : Fin k1_t1_loop.trips), ∀ (k1_h3 : k1_cond3 k1_t1 = 1#1), 2048 ∣ (k1_mult16 i k1_t1).toNat
  k1_off8_inb : ∀ (i : grid1.Coords) (k1_t1 : Fin k1_t1_loop.trips), ∀ (k1_h3 : k1_cond3 k1_t1 = 1#1), ∀ a, (k1_off8 i k1_t1) a + S2048.size a ≤ S8388608.size a
  k1_t3_ok : k1_t3_loop.OK
  k1_mult17_dvd : ∀ k1_t3 : Fin k1_t3_loop.trips, 128 ∣ (k1_mult17 k1_t3).toNat
  k1_off9_inb : ∀ k1_t3 : Fin k1_t3_loop.trips, ∀ (r : Fin 8), ∀ a, (k1_off9 k1_t3 (BitVec.ofNat 32 (16 * r.val))) a + S16.size a ≤ S2048.size a
  k1_off10_inb : ∀ k1_t3 : Fin k1_t3_loop.trips, ∀ (r : Fin 8), ∀ a, (k1_off10 k1_t3 (BitVec.ofNat 32 (16 * r.val))) a + S16.size a ≤ S2048.size a
  k1_mult18_dvd : ∀ (i : grid1.Coords) (k1_t1 : Fin k1_t1_loop.trips), 2048 ∣ (k1_mult18 i k1_t1).toNat
  k1_mult19_dvd : ∀ (i : grid1.Coords) (k1_t1 : Fin k1_t1_loop.trips), ∀ (k1_h4 : k1_cond4 k1_t1 = 1#1), 2048 ∣ (k1_mult19 i k1_t1).toNat
  k1_off11_inb : ∀ (i : grid1.Coords) (k1_t1 : Fin k1_t1_loop.trips), ∀ (k1_h4 : k1_cond4 k1_t1 = 1#1), ∀ a, (k1_off11 i k1_t1) a + S2048.size a ≤ S8388608.size a
  k1_mult20_dvd : ∀ (i : grid1.Coords) (k1_t1 : Fin k1_t1_loop.trips), 2048 ∣ (k1_mult20 i k1_t1).toNat
  k1_mult21_dvd : ∀ (i : grid1.Coords) (k1_t1 : Fin k1_t1_loop.trips), ∀ (k1_h5 : k1_cond5 k1_t1 = 1#1), 2048 ∣ (k1_mult21 i k1_t1).toNat
  k1_off12_inb : ∀ (i : grid1.Coords) (k1_t1 : Fin k1_t1_loop.trips), ∀ (k1_h5 : k1_cond5 k1_t1 = 1#1), ∀ a, (k1_off12 i k1_t1) a + S2048.size a ≤ S8388608.size a
  k1_t4_ok : k1_t4_loop.OK
  k1_mult22_dvd : ∀ k1_t4 : Fin k1_t4_loop.trips, 128 ∣ (k1_mult22 k1_t4).toNat
  k1_off13_inb : ∀ k1_t4 : Fin k1_t4_loop.trips, ∀ (r : Fin 8), ∀ a, (k1_off13 k1_t4 (BitVec.ofNat 32 (16 * r.val))) a + S16.size a ≤ S2048.size a
  k1_off14_inb : ∀ k1_t4 : Fin k1_t4_loop.trips, ∀ (r : Fin 8), ∀ a, (k1_off14 k1_t4 (BitVec.ofNat 32 (16 * r.val))) a + S16.size a ≤ S2048.size a
  k1_mult23_dvd : ∀ (i : grid1.Coords) (k1_t1 : Fin k1_t1_loop.trips), 2048 ∣ (k1_mult23 i k1_t1).toNat
  k1_mult24_dvd : ∀ (i : grid1.Coords) (k1_t1 : Fin k1_t1_loop.trips), ∀ (k1_h6 : k1_cond6 k1_t1 = 1#1), 2048 ∣ (k1_mult24 i k1_t1).toNat
  k1_off15_inb : ∀ (i : grid1.Coords) (k1_t1 : Fin k1_t1_loop.trips), ∀ (k1_h6 : k1_cond6 k1_t1 = 1#1), ∀ a, (k1_off15 i k1_t1) a + S2048.size a ≤ S8388608.size a
  k1_mult25_dvd : ∀ (i : grid1.Coords) (k1_t1 : Fin k1_t1_loop.trips), 2048 ∣ (k1_mult25 i k1_t1).toNat
  k1_mult26_dvd : ∀ (i : grid1.Coords) (k1_t1 : Fin k1_t1_loop.trips), ∀ (k1_h7 : k1_cond7 k1_t1 = 1#1), 2048 ∣ (k1_mult26 i k1_t1).toNat
  k1_off16_inb : ∀ (i : grid1.Coords) (k1_t1 : Fin k1_t1_loop.trips), ∀ (k1_h7 : k1_cond7 k1_t1 = 1#1), ∀ a, (k1_off16 i k1_t1) a + S2048.size a ≤ S8388608.size a
  k1_t5_ok : k1_t5_loop.OK
  k1_mult27_dvd : ∀ k1_t5 : Fin k1_t5_loop.trips, 128 ∣ (k1_mult27 k1_t5).toNat
  k1_off17_inb : ∀ k1_t5 : Fin k1_t5_loop.trips, ∀ (r : Fin 8), ∀ a, (k1_off17 k1_t5 (BitVec.ofNat 32 (16 * r.val))) a + S16.size a ≤ S2048.size a
  k1_off18_inb : ∀ k1_t5 : Fin k1_t5_loop.trips, ∀ (r : Fin 8), ∀ a, (k1_off18 k1_t5 (BitVec.ofNat 32 (16 * r.val))) a + S16.size a ≤ S2048.size a
  k1_mult28_dvd : ∀ (i : grid1.Coords) (k1_t1 : Fin k1_t1_loop.trips), 2048 ∣ (k1_mult28 i k1_t1).toNat
  k1_mult29_dvd : ∀ (i : grid1.Coords) (k1_t1 : Fin k1_t1_loop.trips), ∀ (k1_h8 : k1_cond8 k1_t1 = 1#1), 2048 ∣ (k1_mult29 i k1_t1).toNat
  k1_off19_inb : ∀ (i : grid1.Coords) (k1_t1 : Fin k1_t1_loop.trips), ∀ (k1_h8 : k1_cond8 k1_t1 = 1#1), ∀ a, (k1_off19 i k1_t1) a + S2048.size a ≤ S8388608.size a
  k1_mult30_dvd : ∀ (i : grid1.Coords) (k1_t1 : Fin k1_t1_loop.trips), 2048 ∣ (k1_mult30 i k1_t1).toNat
  k1_mult31_dvd : ∀ (i : grid1.Coords) (k1_t1 : Fin k1_t1_loop.trips), ∀ (k1_h9 : k1_cond9 k1_t1 = 1#1), 2048 ∣ (k1_mult31 i k1_t1).toNat
  k1_off20_inb : ∀ (i : grid1.Coords) (k1_t1 : Fin k1_t1_loop.trips), ∀ (k1_h9 : k1_cond9 k1_t1 = 1#1), ∀ a, (k1_off20 i k1_t1) a + S2048.size a ≤ S8388608.size a
  k1_t6_ok : k1_t6_loop.OK
  k1_mult32_dvd : ∀ k1_t6 : Fin k1_t6_loop.trips, 128 ∣ (k1_mult32 k1_t6).toNat
  k1_off21_inb : ∀ k1_t6 : Fin k1_t6_loop.trips, ∀ (r : Fin 8), ∀ a, (k1_off21 k1_t6 (BitVec.ofNat 32 (16 * r.val))) a + S16.size a ≤ S2048.size a
  k1_off22_inb : ∀ k1_t6 : Fin k1_t6_loop.trips, ∀ (r : Fin 8), ∀ a, (k1_off22 k1_t6 (BitVec.ofNat 32 (16 * r.val))) a + S16.size a ≤ S2048.size a
  k1_mult33_dvd : ∀ (i : grid1.Coords) (k1_t1 : Fin k1_t1_loop.trips), 2048 ∣ (k1_mult33 i k1_t1).toNat
  k1_mult34_dvd : ∀ (i : grid1.Coords) (k1_t1 : Fin k1_t1_loop.trips), ∀ (k1_h10 : k1_cond10 k1_t1 = 1#1), 2048 ∣ (k1_mult34 i k1_t1).toNat
  k1_off23_inb : ∀ (i : grid1.Coords) (k1_t1 : Fin k1_t1_loop.trips), ∀ (k1_h10 : k1_cond10 k1_t1 = 1#1), ∀ a, (k1_off23 i k1_t1) a + S2048.size a ≤ S8388608.size a
  k1_mult35_dvd : ∀ (i : grid1.Coords) (k1_t1 : Fin k1_t1_loop.trips), 2048 ∣ (k1_mult35 i k1_t1).toNat
  k1_mult36_dvd : ∀ (i : grid1.Coords) (k1_t1 : Fin k1_t1_loop.trips), ∀ (k1_h11 : k1_cond11 k1_t1 = 1#1), 2048 ∣ (k1_mult36 i k1_t1).toNat
  k1_off24_inb : ∀ (i : grid1.Coords) (k1_t1 : Fin k1_t1_loop.trips), ∀ (k1_h11 : k1_cond11 k1_t1 = 1#1), ∀ a, (k1_off24 i k1_t1) a + S2048.size a ≤ S8388608.size a
  k1_t7_ok : k1_t7_loop.OK
  k1_mult37_dvd : ∀ k1_t7 : Fin k1_t7_loop.trips, 128 ∣ (k1_mult37 k1_t7).toNat
  k1_off25_inb : ∀ k1_t7 : Fin k1_t7_loop.trips, ∀ (r : Fin 8), ∀ a, (k1_off25 k1_t7 (BitVec.ofNat 32 (16 * r.val))) a + S16.size a ≤ S2048.size a
  k1_off26_inb : ∀ k1_t7 : Fin k1_t7_loop.trips, ∀ (r : Fin 8), ∀ a, (k1_off26 k1_t7 (BitVec.ofNat 32 (16 * r.val))) a + S16.size a ≤ S2048.size a
  k1_mult38_dvd : ∀ (i : grid1.Coords) (k1_t1 : Fin k1_t1_loop.trips), 2048 ∣ (k1_mult38 i k1_t1).toNat
  k1_mult39_dvd : ∀ (i : grid1.Coords) (k1_t1 : Fin k1_t1_loop.trips), ∀ (k1_h12 : k1_cond12 k1_t1 = 1#1), 2048 ∣ (k1_mult39 i k1_t1).toNat
  k1_off27_inb : ∀ (i : grid1.Coords) (k1_t1 : Fin k1_t1_loop.trips), ∀ (k1_h12 : k1_cond12 k1_t1 = 1#1), ∀ a, (k1_off27 i k1_t1) a + S2048.size a ≤ S8388608.size a
  k1_mult40_dvd : ∀ (i : grid1.Coords) (k1_t1 : Fin k1_t1_loop.trips), 2048 ∣ (k1_mult40 i k1_t1).toNat
  k1_mult41_dvd : ∀ (i : grid1.Coords) (k1_t1 : Fin k1_t1_loop.trips), ∀ (k1_h13 : k1_cond13 k1_t1 = 1#1), 2048 ∣ (k1_mult41 i k1_t1).toNat
  k1_off28_inb : ∀ (i : grid1.Coords) (k1_t1 : Fin k1_t1_loop.trips), ∀ (k1_h13 : k1_cond13 k1_t1 = 1#1), ∀ a, (k1_off28 i k1_t1) a + S2048.size a ≤ S8388608.size a
  k1_t8_ok : k1_t8_loop.OK
  k1_mult42_dvd : ∀ k1_t8 : Fin k1_t8_loop.trips, 128 ∣ (k1_mult42 k1_t8).toNat
  k1_off29_inb : ∀ k1_t8 : Fin k1_t8_loop.trips, ∀ (r : Fin 8), ∀ a, (k1_off29 k1_t8 (BitVec.ofNat 32 (16 * r.val))) a + S16.size a ≤ S2048.size a
  k1_off30_inb : ∀ k1_t8 : Fin k1_t8_loop.trips, ∀ (r : Fin 8), ∀ a, (k1_off30 k1_t8 (BitVec.ofNat 32 (16 * r.val))) a + S16.size a ≤ S2048.size a
  k1_mult43_dvd : ∀ (i : grid1.Coords) (k1_t1 : Fin k1_t1_loop.trips), 2048 ∣ (k1_mult43 i k1_t1).toNat
  k1_mult44_dvd : ∀ (i : grid1.Coords) (k1_t1 : Fin k1_t1_loop.trips), ∀ (k1_h14 : k1_cond14 k1_t1 = 1#1), 2048 ∣ (k1_mult44 i k1_t1).toNat
  k1_off31_inb : ∀ (i : grid1.Coords) (k1_t1 : Fin k1_t1_loop.trips), ∀ (k1_h14 : k1_cond14 k1_t1 = 1#1), ∀ a, (k1_off31 i k1_t1) a + S2048.size a ≤ S8388608.size a
  k1_mult45_dvd : ∀ (i : grid1.Coords) (k1_t1 : Fin k1_t1_loop.trips), 2048 ∣ (k1_mult45 i k1_t1).toNat
  k1_mult46_dvd : ∀ (i : grid1.Coords) (k1_t1 : Fin k1_t1_loop.trips), ∀ (k1_h15 : k1_cond15 k1_t1 = 1#1), 2048 ∣ (k1_mult46 i k1_t1).toNat
  k1_off32_inb : ∀ (i : grid1.Coords) (k1_t1 : Fin k1_t1_loop.trips), ∀ (k1_h15 : k1_cond15 k1_t1 = 1#1), ∀ a, (k1_off32 i k1_t1) a + S2048.size a ≤ S8388608.size a
  k1_t9_ok : k1_t9_loop.OK
  k1_mult47_dvd : ∀ k1_t9 : Fin k1_t9_loop.trips, 128 ∣ (k1_mult47 k1_t9).toNat
  k1_off33_inb : ∀ k1_t9 : Fin k1_t9_loop.trips, ∀ (r : Fin 8), ∀ a, (k1_off33 k1_t9 (BitVec.ofNat 32 (16 * r.val))) a + S16.size a ≤ S2048.size a
  k1_off34_inb : ∀ k1_t9 : Fin k1_t9_loop.trips, ∀ (r : Fin 8), ∀ a, (k1_off34 k1_t9 (BitVec.ofNat 32 (16 * r.val))) a + S16.size a ≤ S2048.size a
  k1_mult48_dvd : ∀ (i : grid1.Coords) (k1_t1 : Fin k1_t1_loop.trips), 2048 ∣ (k1_mult48 i k1_t1).toNat
  k1_mult49_dvd : ∀ (i : grid1.Coords) (k1_t1 : Fin k1_t1_loop.trips), ∀ (k1_h16 : k1_cond16 k1_t1 = 1#1), 2048 ∣ (k1_mult49 i k1_t1).toNat
  k1_off35_inb : ∀ (i : grid1.Coords) (k1_t1 : Fin k1_t1_loop.trips), ∀ (k1_h16 : k1_cond16 k1_t1 = 1#1), ∀ a, (k1_off35 i k1_t1) a + S2048.size a ≤ S8388608.size a
  k1_mult50_dvd : ∀ i : grid1.Coords, 2048 ∣ (k1_mult50 i).toNat
  k1_mult51_dvd : ∀ i : grid1.Coords, 2048 ∣ (k1_mult51 i).toNat
  k1_mult52_dvd : ∀ i : grid1.Coords, 2048 ∣ (k1_mult52 i).toNat
  k1_mult53_dvd : ∀ i : grid1.Coords, 2048 ∣ (k1_mult53 i).toNat
  k1_mult54_dvd : ∀ i : grid1.Coords, 2048 ∣ (k1_mult54 i).toNat
  k1_mult55_dvd : ∀ i : grid1.Coords, 2048 ∣ (k1_mult55 i).toNat
  k1_mult56_dvd : ∀ i : grid1.Coords, 2048 ∣ (k1_mult56 i).toNat
  k1_mult57_dvd : ∀ i : grid1.Coords, 2048 ∣ (k1_mult57 i).toNat

variable [Facts₀]

abbrev cc1_scratch18 : DmaSems sig S_ := SemArray.consecutive 2 S_ hcc1_scratch18
abbrev cc1_scratch19 : DmaSems sig S_ := SemArray.consecutive 3 S_ hcc1_scratch19
abbrev cc1_scratch20 : DmaSems sig S_ := SemArray.consecutive 4 S_ hcc1_scratch20
abbrev cc1_scratch21 : DmaSems sig S_ := SemArray.consecutive 5 S_ hcc1_scratch21
abbrev cc1_scratch22 : DmaSems sig S_ := SemArray.consecutive 6 S_ hcc1_scratch22
abbrev cc1_scratch23 : DmaSems sig S_ := SemArray.consecutive 7 S_ hcc1_scratch23
abbrev cc1_scratch24 : DmaSems sig S_ := SemArray.consecutive 8 S_ hcc1_scratch24
abbrev cc1_scratch25 : DmaSems sig S_ := SemArray.consecutive 9 S_ hcc1_scratch25
abbrev cc1_scratch26 : DmaSems sig S_ := SemArray.consecutive 10 S_ hcc1_scratch26
abbrev cc1_scratch27 : DmaSems sig S_ := SemArray.consecutive 11 S_ hcc1_scratch27
abbrev cc1_scratch28 : DmaSems sig S_ := SemArray.consecutive 12 S_ hcc1_scratch28
abbrev cc1_scratch29 : DmaSems sig S_ := SemArray.consecutive 13 S_ hcc1_scratch29
abbrev cc1_scratch30 : DmaSems sig S_ := SemArray.consecutive 14 S_ hcc1_scratch30
abbrev cc1_scratch31 : DmaSems sig S_ := SemArray.consecutive 15 S_ hcc1_scratch31
abbrev cc1_scratch32 : DmaSems sig S_ := SemArray.consecutive 16 S_ hcc1_scratch32
abbrev cc1_scratch33 : DmaSems sig S_ := SemArray.consecutive 17 S_ hcc1_scratch33
abbrev cc1_scoped0 : DmaSems sig S_ := SemArray.consecutive 18 S_ hcc1_scoped0
abbrev cc1_scoped1 : DmaSems sig S_ := SemArray.consecutive 19 S_ hcc1_scoped1

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608 : Shape := ⟨1, ![8388608]⟩
abbrev S65536 : Shape := ⟨1, ![65536]⟩
abbrev S_ : Shape := ⟨0, ![]⟩
abbrev S8388608x1 : Shape := ⟨2, ![8388608, 1]⟩
abbrev S1 : Shape := ⟨1, ![1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S8388608, .i32⟩
  | .hbm, ⟨1, _⟩ => ⟨S65536, .f32⟩
  | .hbm, ⟨2, _⟩ => ⟨S_, .i32⟩
  | .hbm, ⟨3, _⟩ => ⟨S8388608, .i32⟩
  | .hbm, ⟨4, _⟩ => ⟨S8388608, .i1⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S8388608, .i32⟩
  | .hbm, ⟨9, _⟩ => ⟨S8388608x1, .i32⟩
  | .hbm, ⟨10, _⟩ => ⟨S1, .i32⟩
  | .hbm, ⟨11, _⟩ => ⟨S_, .i32⟩
  | .hbm, ⟨12, _⟩ => ⟨S8388608x1, .i32⟩
  | .hbm, ⟨13, _⟩ => ⟨S8388608x1, .i1⟩
  | .hbm, ⟨14, _⟩ => ⟨S1x1, .i32⟩
  | .hbm, ⟨15, _⟩ => ⟨S8388608x1, .i32⟩
  | .hbm, ⟨16, _⟩ => ⟨S8388608x1, .i1⟩
  | .hbm, ⟨17, _⟩ => ⟨S8388608x1, .i1⟩
  | .hbm, ⟨18, _⟩ => ⟨S_, .i1⟩
  | .hbm, ⟨19, _⟩ => ⟨S8388608, .i1⟩
  | .hbm, ⟨20, _⟩ => ⟨S8388608, .f32⟩
  | .hbm, ⟨21, _⟩ => ⟨S_, .f32⟩
  | .hbm, ⟨22, _⟩ => ⟨S8388608, .f32⟩
  | .hbm, ⟨23, _⟩ => ⟨S8388608, .f32⟩
  | .hbm, ⟨24, _⟩ => ⟨S_, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .f32⟩
  | _, _ => ⟨S8388608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  reducesTo_S65536_S_d0 : S65536.ReducesTo [0] S_
  gather_S65536_S8388608x1_S8388608_n_0_n_n_0_1_1_wf : GatherDims.WF S65536 S8388608x1 S8388608 [] [0] [] [0] [] 1 ![1]

variable [Facts₀]

def gather_S65536_S8388608x1_S8388608_n_0_n_n_0_1_1 : GatherDims S65536 S8388608x1 S8388608 where
  offsetDims := []
  collapsedSliceDims := [0]
  operandBatchingDims := []
  startIndicesBatchingDims := []
  startIndexMap := [0]
  indexVectorDim := 1
  sliceSizes := ![1]
  wf := gather_S65536_S8388608x1_S8388608_n_0_n_n_0_1_1_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic

abbrev SN : Shape := ⟨1, ![8388608]⟩
abbrev SC : Shape := ⟨1, ![65536]⟩

def tix (w : BitVec 32) : SC.Idx := ValueIdx.ix1 ⟨w.toNat % 65536, Nat.mod_lt _ (by decide)⟩

def total (counts : SC.Idx → EReal) : EReal := ∑ k, counts k

def tbl (counts : SC.Idx → EReal) : SC.Idx → EReal := fun k => Ideal.log (counts k) - Ideal.log (total counts)

def Gk (chars : SN.Idx → BitVec 32) (counts : SC.Idx → EReal) : SN.Idx → EReal := fun j => tbl counts (tix (chars j))

def Gr (chars : SN.Idx → BitVec 32) (counts : SC.Idx → EReal) : SN.Idx → EReal :=
  fun j => Ideal.log (Ideal.div (counts (tix (chars j))) (total counts))

def InRange (chars : SN.Idx → BitVec 32) : Prop := ∀ j, (chars j).toNat < 65536

def Pos (counts : SC.Idx → EReal) : Prop := ∀ k, ∃ r : ℝ, counts k = (r : EReal) ∧ 0 < r

theorem coe_sum_real {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem total_pos {counts : SC.Idx → EReal} (h : Pos counts) : ∃ s : ℝ, total counts = (s : EReal) ∧ 0 < s := by
  choose f hf hpos using h
  refine ⟨∑ k, f k, ?_, ?_⟩
  · rw [total, ← coe_sum_real]
    exact Finset.sum_congr rfl (fun k _ => hf k)
  · exact Finset.sum_pos (fun k _ => hpos k) ⟨tix 0, Finset.mem_univ _⟩

theorem Gk_eq_Gr (chars : SN.Idx → BitVec 32) (counts : SC.Idx → EReal) (h : Pos counts) : Gk chars counts = Gr chars counts := by
  obtain ⟨s, hs, hs0⟩ := total_pos h
  funext j
  obtain ⟨c, hc, hc0⟩ := h (tix (chars j))
  have hq : 0 < c * (1 / s) := by positivity
  show Ideal.log (counts (tix (chars j))) - Ideal.log (total counts)
      = Ideal.log (Ideal.div (counts (tix (chars j))) (total counts))
  rw [hs, hc, Ideal.div_coe hs0.ne', ← EReal.coe_mul, Ideal.log_coe, Ideal.log_coe, Ideal.log_coe,
    if_neg (not_le.2 hc0), if_neg (not_le.2 hs0), if_neg (not_le.2 hq), ← EReal.coe_sub,
    mul_one_div, Real.log_div hc0.ne' hs0.ne']

end Cert.Spec

end
-- ==== Proof.PreFacts.lean ====
import proofs.«204304_g88828513616490_cont_9to1c4b_177_25_alg».proof.Pre_input_domain
import proofs.«204304_g88828513616490_cont_9to1c4b_177_25_alg».proof.Proof.Spec
import Idealize.ShloMosaic.Lib.ReduceAll
import Idealize.ShloMosaic.PureOps.Ideal.Laws

noncomputable section

namespace Cert.PreFacts

open Idealize.ShloMosaic

variable [Cert.Pre_input_domain.Facts]

instance : Subsingleton Cert.Pre_input_domain.S_.Idx := ⟨fun a b => funext fun d => d.elim0⟩

theorem toNat_lt_of_signed (w : BitVec 32) (h0 : IntOp.cmpi .sge w 0#32 = 1#1)
    (h1 : IntOp.cmpi .sle w 65535#32 = 1#1) : w.toNat < 65536 := by
  rw [IntOp.cmpi_sge, show (0#32 : BitVec 32).toInt = 0 from by decide, BitVec.toInt_pos_iff] at h0
  rw [IntOp.cmpi_sle, show (65535#32 : BitVec 32).toInt = 65535 from by decide,
    BitVec.toInt_eq_toNat_of_lt h0] at h1
  omega

theorem real_pos_of_cmp (x : EReal)
    (hfin : Ideal.cmp .olt (max x (-x)) (Ideal.ofBits .f32 0x7F800000#32) = 1#1)
    (hpos : Ideal.cmp .ogt x (Ideal.ofBits .f32 0x00000000#32) = 1#1) : ∃ r : ℝ, x = (r : EReal) ∧ 0 < r := by
  have htop : Ideal.ofBits .f32 0x7F800000#32 = ⊤ := by simp [Ideal.ofBits, Ideal.ieee]
  rw [htop] at hfin
  rw [Ideal.ofBits_zero_f32] at hpos
  have ob : ∀ b : Bool, BitVec.ofBool b = 1#1 ↔ b = true := by decide
  simp only [Ideal.cmp, ob, decide_eq_true_eq] at hfin hpos
  induction x using EReal.rec with
  | bot => simp at hpos
  | top => simp at hfin
  | coe r => exact ⟨r, rfl, by exact_mod_cast hpos⟩

theorem inRange_of_pre {F : FTy → Type} [FloatOps F] (chars : IVec Cert.Pre_input_domain.S8388608 32) (counts : FVec F Cert.Pre_input_domain.S65536 .f32)
    (h : Cert.Pre_input_domain.fn (F := F) chars counts = fun _ => 1#1) : Cert.Spec.InRange chars := by
  intro j
  have e := congrFun h ValueIdx.ix0
  dsimp only [Cert.Pre_input_domain.fn] at e
  have e1 := (IntOp.andi_eq_one.1 e).1
  have e9 := (IntOp.andi_eq_one.1 e1).2
  have e8 := Host.reduce_andi_all _ _ _ _ _ e9 j
  obtain ⟨h0, h1⟩ := IntOp.andi_eq_one.1 e8
  exact toNat_lt_of_signed (chars j) h0 h1

theorem pos_of_pre (chars : IVec Cert.Pre_input_domain.S8388608 32) (counts : FVec Ideal Cert.Pre_input_domain.S65536 .f32)
    (h : Cert.Pre_input_domain.fn (F := Ideal) chars counts = fun _ => 1#1) : Cert.Spec.Pos counts := by
  intro k
  have e := congrFun h ValueIdx.ix0
  dsimp only [Cert.Pre_input_domain.fn] at e
  obtain ⟨e1, e13⟩ := IntOp.andi_eq_one.1 e
  have e3 := (IntOp.andi_eq_one.1 e1).1
  have hfin := Host.reduce_andi_all _ _ _ _ _ e3 k
  have hpos := Host.reduce_andi_all _ _ _ _ _ e13 k
  exact real_pos_of_cmp (counts k) hfin hpos

end Cert.PreFacts

end
-- ==== Proof.RefRun.lean ====
import proofs.«204304_g88828513616490_cont_9to1c4b_177_25_alg».proof.ReferenceIdeal
import proofs.«204304_g88828513616490_cont_9to1c4b_177_25_alg».proof.Proof.Gen.ReferenceIdeal
import proofs.«204304_g88828513616490_cont_9to1c4b_177_25_alg».proof.Proof.Spec
import Idealize.ShloMosaic.Lib.StableHlo.Run
import Idealize.ShloMosaic.Lib.StableHlo.Predicate
import Idealize.ShloMosaic.Lib.ValueIdx
import Idealize.ShloMosaic.PureOps.Ideal.Laws
import Idealize.ShloMosaic.PureOps.Reduce

noncomputable section

namespace Cert.RefRun

open Idealize.ShloMosaic Idealize.SL.Sem Cert.ReferenceIdeal
open Idealize.ShloMosaic.TcCoe Idealize.ShloMosaic.StableHlo
open Cert.ReferenceIdeal.Facts₀

variable [Cert.ReferenceIdeal.Facts]

section Line

variable {F : FTy → Type} [FloatOps F]

abbrev ops : List (HloOp τ sig (Elt F)) :=
  [ TRef.nullary main_call0.c (constantI S_ 32 0#32),
    TRef.unary main_call0.c main_call0.v0 (broadcastInDim S8388608 ![] bcast_S_S8388608),
    TRef.binary (.of main_arg0) main_call0.v0 main_call0.v1 (cmpi .slt),
    TRef.nullary main_call0.c_0 (constantI S_ 32 65536#32),
    TRef.unary main_call0.c_0 main_call0.v2 (broadcastInDim S8388608 ![] bcast_S_S8388608),
    TRef.binary (.of main_arg0) main_call0.v2 main_call0.v3 addi,
    TRef.ternary main_call0.v1 main_call0.v3 (.of main_arg0) main_call0.call0.v0 select,
    TRef.unary main_call0.call0.v0 main_call0.v5 (broadcastInDim S8388608x1 ![0] bcast_S8388608_S8388608x1_0),
    TRef.nullary main_call0.c_1 (constantI S1 32 65535#32),
    TRef.nullary main_call0.c_2 (constantI S_ 32 0#32),
    TRef.unary main_call0.c_2 main_call0.v6 (broadcastInDim S8388608x1 ![] bcast_S_S8388608x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8388608x1 ![0, 1] bcast_S1x1_S8388608x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8388608x1_S8388608_d1 h_S_),
    TRef.binary (.of main_arg1) main_call0.v5 main_call0.v13 (fun x i => Host.gather gather_S65536_S8388608x1_S8388608_n_0_n_n_0_1_1 x i),
    TRef.nullary main_call0.cst (constant S_ .f32 0x7FC00000#32),
    TRef.unary main_call0.cst main_call0.v14 (broadcastInDim S8388608 ![] bcast_S_S8388608),
    TRef.ternary main_call0.v12 main_call0.v13 main_call0.v14 main_call0.v15 select,
    nullary main_cst (constant S_ .f32 0x00000000#32),
    binary main_arg1 main_cst main_v1 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    unary main_v1 main_v2 (broadcastInDim S8388608 ![] bcast_S_S8388608 : (⟨S_, .f32⟩ : BufTy).Contents (Elt F) → (⟨S8388608, .f32⟩ : BufTy).Contents (Elt F)),
    binary main_v0 main_v2 main_v3 (Host.divf : (⟨S8388608, .f32⟩ : BufTy).Contents (Elt F) → (⟨S8388608, .f32⟩ : BufTy).Contents (Elt F) → (⟨S8388608, .f32⟩ : BufTy).Contents (Elt F)),
    unary main_v3 main_v4 (Host.log : (⟨S8388608, .f32⟩ : BufTy).Contents (Elt F) → (⟨S8388608, .f32⟩ : BufTy).Contents (Elt F)) ]

set_option maxRecDepth 1024 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., binary_bufs_sub .., unary_bufs_sub .., binary_bufs_sub .., unary_bufs_sub ..⟩

end Line

section Term

variable {F : FTy → Type} [FloatOps F]

theorem ofBuf_toBuf {Val : EltTy → Type} {T : BufTy} (x : TRef sig T) (v : T.Contents Val) : x.ofBuf (x.toBuf v) = v := by
  obtain ⟨r, h, a, b⟩ := x
  subst h
  rfl

theorem ofBuf_of {Val : EltTy → Type} (r : Ref sig .tc) (h : r.ty = r.ty) (a : r.space ≠ .host) (b : r.isScoped = false)
    (v : r.ty.Contents Val) : (TRef.of (T := r.ty) r h a b).ofBuf v = v :=
  (cast_eq _ v).trans (Eq.refl v)

theorem toBuf_v15 {Val : EltTy → Type} (v : (⟨S8388608, .f32⟩ : BufTy).Contents Val) : main_call0.v15.toBuf v = v :=
  (cast_eq _ v).trans (Eq.refl v)

def wrapped (chars : S8388608.Idx → BitVec 32) : S8388608.Idx → BitVec 32 :=
  select (cmpi .slt chars (broadcastInDim S8388608 ![] bcast_S_S8388608 (constantI S_ 32 0#32)))
    (addi chars (broadcastInDim S8388608 ![] bcast_S_S8388608 (constantI S_ 32 65536#32))) chars

def col (chars : S8388608.Idx → BitVec 32) : S8388608x1.Idx → BitVec 32 :=
  broadcastInDim S8388608x1 ![0] bcast_S8388608_S8388608x1_0 (wrapped chars)

def inb (chars : S8388608.Idx → BitVec 32) : S8388608.Idx → BitVec 1 :=
  Host.reduce IntOp.andi
    (andi (cmpi .sge (col chars) (broadcastInDim S8388608x1 ![] bcast_S_S8388608x1 (constantI S_ 32 0#32)))
      (cmpi .sle (col chars) (broadcastInDim S8388608x1 ![0, 1] bcast_S1x1_S8388608x1_0_1
        (broadcastInDim S1x1 ![1] bcast_S1_S1x1_1 (constantI S1 32 65535#32)))))
    (constantI S_ 1 1#1) reducesTo_S8388608x1_S8388608_d1 h_S_

def taken (chars : S8388608.Idx → BitVec 32) (counts : S65536.Idx → F .f32) : S8388608.Idx → F .f32 :=
  select (inb chars) (Host.gather gather_S65536_S8388608x1_S8388608_n_0_n_n_0_1_1 counts (col chars))
    (broadcastInDim S8388608 ![] bcast_S_S8388608 (constant S_ .f32 0x7FC00000#32))

def refTerm (chars : S8388608.Idx → BitVec 32) (counts : S65536.Idx → F .f32) : S8388608.Idx → F .f32 :=
  Host.log (Host.divf (taken chars counts)
    (broadcastInDim S8388608 ![] bcast_S_S8388608 (Host.reduceAdd counts (constant S_ .f32 0x00000000#32) reducesTo_S65536_S_d0 h_S_)))

theorem out_eq (V : Valuation τ sig (Elt F)) :
    after ops V (main_v4 : DevRef τ sig) = refTerm (V (main_arg0 : DevRef τ sig)) (V (main_arg1 : DevRef τ sig)) := by
  after_results_simp
  simp only [ofBuf_toBuf, ofBuf_of]
  rw [toBuf_v15]
  unfold refTerm taken inb col wrapped
  with_reducible rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _), (h c main_arg1).trans (arg1_eq _)⟩)
    (run_seq scopedRefs_eq scopedSems_eq defs main (fun _ => ops) main_eq (fun _ => ops_sub) m ρ)

end Term

section Value

open Idealize.ShloMosaic.ValueIdx Idealize.ShloMosaic.StableHlo.Predicate

theorem wrapped_apply (chars : S8388608.Idx → BitVec 32) (j : S8388608.Idx) (h : (chars j).toNat < 65536) :
    wrapped chars j = chars j := by
  unfold wrapped
  rw [select_apply]
  have hc : cmpi .slt chars (broadcastInDim S8388608 ![] bcast_S_S8388608 (constantI S_ 32 0#32)) j = 0#1 := by
    apply eq_zero_of_ne_one
    show ¬ IntOp.cmpi .slt (chars j) 0#32 = 1#1
    rw [slt_iff_toNat (by omega) (by decide)]
    exact Nat.not_lt_zero _
  rw [hc, select_zero]

theorem col_row (chars : S8388608.Idx → BitVec 32) (p : Fin 8388608) :
    col chars (ixP p) = wrapped chars (Shape.Idx.ofFin p) :=
  bcast_col1 bcast_S8388608_S8388608x1_0 (wrapped chars) p

theorem exists_ixP (i : S8388608x1.Idx) : ∃ p : Fin 8388608, i = ixP p := by
  have h0 := (i ⟨0, by decide⟩).isLt
  change _ < 8388608 at h0
  have h1 := (i ⟨1, by decide⟩).isLt
  change _ < 1 at h1
  refine ⟨⟨(i ⟨0, by decide⟩).val, h0⟩, ?_⟩
  funext a
  match a with
  | ⟨0, _⟩ => rfl
  | ⟨1, _⟩ => exact Fin.ext (by show (i ⟨1, _⟩).val = 0; omega)

theorem fold_andi_ones {ι : Type} (S : Finset ι) (x : ι → BitVec 1) (h : ∀ i ∈ S, x i = 1#1) :
    S.fold IntOp.andi 1#1 x = 1#1 := by
  induction S using Finset.cons_induction with
  | empty => rfl
  | cons a S ha ih =>
    rw [Finset.fold_cons, h a (Finset.mem_cons_self a S), ih fun i hi => h i (Finset.mem_cons_of_mem hi)]
    rfl

theorem tests_row (chars : S8388608.Idx → BitVec 32) (hr : ∀ j, (chars j).toNat < 65536) (p : Fin 8388608) :
    IntOp.andi (IntOp.cmpi .sge (col chars (ixP p)) 0#32) (IntOp.cmpi .sle (col chars (ixP p)) 65535#32) = 1#1 := by
  rw [col_row, wrapped_apply _ _ (hr _)]
  have hw := hr (Shape.Idx.ofFin p)
  have h1 : IntOp.cmpi .sge (chars (Shape.Idx.ofFin p)) 0#32 = 1#1 :=
    (sge_iff_toNat (by omega) (by decide)).2 (Nat.zero_le _)
  have h2 : IntOp.cmpi .sle (chars (Shape.Idx.ofFin p)) 65535#32 = 1#1 :=
    (sle_iff_toNat (by omega) (by decide)).2 (by show _ ≤ 65535; omega)
  rw [h1, h2]
  rfl

theorem inb_apply (chars : S8388608.Idx → BitVec 32) (hr : ∀ j, (chars j).toNat < 65536) (j : S8388608.Idx) :
    inb chars j = 1#1 := by
  unfold inb
  rw [Host.reduce_eq_fold]
  apply fold_andi_ones
  intro i _
  obtain ⟨p, rfl⟩ := exists_ixP i
  exact tests_row chars hr p

theorem start_eq (w : BitVec 32) (hw : w.toNat < 65536) : min w.toInt.toNat (65536 - 1) = w.toNat % 65536 := by
  rw [toInt_eq_toNat_of_lt (by omega), Int.toNat_natCast, Nat.mod_eq_of_lt hw]
  omega

theorem taken_apply (chars : S8388608.Idx → BitVec 32) (counts : S65536.Idx → EReal) (hr : ∀ j, (chars j).toNat < 65536)
    (j : S8388608.Idx) : taken (F := Ideal) chars counts j = counts (Cert.Spec.tix (chars j)) := by
  unfold taken
  rw [select_apply, inb_apply chars hr j, select_one]
  obtain ⟨p, rfl⟩ : ∃ p, j = Shape.Idx.ofFin p := ⟨j 0, Shape.Idx.eq_ofFin j⟩
  rw [gather_take gather_S65536_S8388608x1_S8388608_n_0_n_n_0_1_1 rfl rfl rfl rfl counts (col chars) p (by decide)]
  refine congrArg counts ?_
  funext a
  obtain rfl : a = 0 := Subsingleton.elim _ _
  apply Fin.ext
  show min (col chars (ixP p)).toInt.toNat (65536 - 1) = (chars (Shape.Idx.ofFin p)).toNat % 65536
  rw [col_row, wrapped_apply _ _ (hr _)]
  exact start_eq _ (hr _)

theorem sum_apply (counts : S65536.Idx → EReal) (j' : S_.Idx) :
    Host.reduceAdd (F := Ideal) (φ := .f32) counts (constant S_ .f32 0x00000000#32) reducesTo_S65536_S_d0 h_S_ j'
      = Cert.Spec.total counts := by
  show Ideal.hostReduceAdd reducesTo_S65536_S_d0 counts (Ideal.ofBits .f32 0x00000000#32) j' = _
  rw [Ideal.hostReduceAdd_total _ (fun b => b.elim0), Ideal.ofBits_zero_f32, zero_add]
  rfl

theorem log_apply {s : Shape} (x : s.Idx → EReal) (j : s.Idx) :
    Host.log (F := Ideal) (φ := .f32) x j = Ideal.log (x j) := rfl
theorem hdivf_apply {s : Shape} (x y : s.Idx → EReal) (j : s.Idx) :
    Host.divf (F := Ideal) (φ := .f32) x y j = Ideal.div (x j) (y j) := rfl

theorem refTerm_eq (chars : S8388608.Idx → BitVec 32) (counts : S65536.Idx → EReal) (hr : Cert.Spec.InRange chars) :
    refTerm (F := Ideal) chars counts = Cert.Spec.Gr chars counts := by
  funext j
  unfold refTerm Cert.Spec.Gr
  rw [log_apply, hdivf_apply, bcast_scalar _ h_S_, taken_apply chars counts hr j, sum_apply]

end Value

theorem run (m' : (ℓ : Loc nD τ sig) → Buf (Elt Ideal) ℓ) (ρ' : Dev nD → PrngReg)
    (hr : ∀ c : Dev nD, Cert.Spec.InRange (m' ((c.tc : Thread nD τ).loc main_arg0))) :
    θ_run (defs (F := Ideal)) (onTc (τ := τ) (main (F := Ideal))) ⟨m', fun _ => 0, ρ'⟩ (fun r => ∀ c : Dev nD,
      r.2.mem ((c.tc : Thread nD τ).loc main_v4) = Cert.Spec.Gr (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c => ⟨(h c).1.trans (refTerm_eq _ _ (hr c)), (h c).2⟩) (run_term m' ρ')

end Cert.RefRun

end
-- ==== Proof.KI.Common.lean ====
import proofs.«204304_g88828513616490_cont_9to1c4b_177_25_alg».proof.Defs
import proofs.«204304_g88828513616490_cont_9to1c4b_177_25_alg».proof.Proof.Spec
import proofs.«204304_g88828513616490_cont_9to1c4b_177_25_alg».proof.Proof.Gen.KernelIdeal
import proofs.«204304_g88828513616490_cont_9to1c4b_177_25_alg».proof.Proof.Gen.KernelIdeal.Skeleton
import proofs.«204304_g88828513616490_cont_9to1c4b_177_25_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL

def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev chrLoc (d : Dev nD) : Loc nD τ sig := (SparseCore.T d).loc main_arg0
abbrev cntLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev tblLoc (d : Dev nD) : Loc nD τ sig := (SparseCore.T d).loc main_v2
abbrev outLoc (d : Dev nD) : Loc nD τ sig := (SparseCore.T d).loc main_v3

abbrev shRef (c : Fin τ.nSC) : DevRef τ sig := ⟨.shared, ⟨0, by decide⟩, c⟩
abbrev shLoc (d : Dev nD) (c : Fin τ.nSC) : Loc nD τ sig := (d, shRef c)

abbrev tblV : Memref sig .scVector .hbm S65536 .f32 := Memref.whole main_v2_scv
abbrev chrV : Memref sig .scVector .hbm S8388608 .i32 := Memref.whole main_arg0_scv
abbrev outV : Memref sig .scVector .hbm S8388608 .f32 := Memref.whole main_v3_scv
abbrev tvV : Memref sig .scVector .vmem S65536 .f32 := Memref.whole cc1_scratch0
abbrev shV : Memref sig .scVector .shared S65536 .f32 := Memref.whole cc1_scratch1

def gath {α : Type} (tb : S65536.Idx → α) (ch : S8388608.Idx → BitVec 32) : S8388608.Idx → α := fun j => tb (Cert.Spec.tix (ch j))

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
def coordsV (c : Fin (grid1.bound 0)) (s : Fin (grid1.bound 1)) : grid1.Coords :=
  fun | 0 => c | 1 => s | ⟨_ + 2, h⟩ => absurd h (Nat.not_lt.2 (Nat.le_add_left _ _))

def wid (L : grid1.Coords) : Fin 32 := ⟨2 * (L 1).val + (L 0).val, by have h0 : (L 0).val < 2 := (L 0).isLt; have h1 : (L 1).val < 16 := (L 1).isLt; omega⟩

def tileSet (n : Fin 32) : Finset S8388608.Idx := Finset.univ.filter fun j => (j 0).val / 262144 = n.val

def slcSet (s : Fin 16) : Finset S65536.Idx := Finset.univ.filter fun k => (k 0).val / 4096 = s.val

section Res

variable [FloatOps F]

def tblOf (x : FVec F S65536 .f32) : FVec F S65536 .f32 :=
  shapeCast S65536 (k0_pay1 (F := F) (shapeCast S512x128 x shapeCasts_S65536_S512x128)) shapeCasts_S512x128_S65536

variable (m : (ℓ : Loc nD τ sig) → Buf (Elt F) ℓ)

def Tb (d : Dev nD) : Buf (Elt F) (tblLoc d) := tblOf (F := F) (m (cntLoc d))
def Tsh (d : Dev nD) (c : Fin τ.nSC) : Buf (Elt F) (shLoc d c) := tblOf (F := F) (m (cntLoc d))

def Out (d : Dev nD) : Buf (Elt F) (outLoc d) := gath (tblOf (F := F) (m (cntLoc d))) (m (chrLoc d))

abbrev rdShare (n : Fin 32) : PosShare TreeShare := Transfers.shareTok fullShare 32 n

def widN (c : Fin 2) (i : Fin 16) : Fin 32 := ⟨2 * i.val + c.val, by have := c.isLt; have := i.isLt; omega⟩

def goRes (d : Dev nD) (c : Fin 2) (i : Fin 16) : sProp 𝕄 :=
  iprop((tblLoc d ↦{rdShare (widN c i)} Tb m d) ∗ (chrLoc d ↦{rdShare (widN c i)} m (chrLoc d))
    ∗ (∃ f, outLoc d ↦[tileSet (widN c i)]{fullShare} f)
    ∗ ∃ f, shLoc d (c.castLE (by decide)) ↦[slcSet i]{fullShare} f)

def tdRes (d : Dev nD) (c : Fin 2) (i : Fin 16) : sProp 𝕄 :=
  iprop((tblLoc d ↦{rdShare (widN c i)} Tb m d) ∗ (chrLoc d ↦{rdShare (widN c i)} m (chrLoc d))
    ∗ (outLoc d ↦[tileSet (widN c i)]{fullShare} Out m d)
    ∗ (shLoc d (c.castLE (by decide)) ↦[slcSet i]{Transfers.shareDrop fullShare 16} Tsh m d (c.castLE (by decide)))
    ∗ bigSep Finset.univ fun j : Fin 16 => shLoc d (c.castLE (by decide)) ↦[slcSet j]{Transfers.shareTok fullShare 16 i} Tsh m d (c.castLE (by decide)))

end Res

section Res2

variable [FloatOps F] (m : (ℓ : Loc nD τ sig) → Buf (Elt F) ℓ)

def stRes (d : Dev nD) (c : Fin 2) : sProp 𝕄 :=
  bigSep Finset.univ fun i : Fin 16 =>
    iprop((tblLoc d ↦{rdShare (widN c i)} Tb m d) ∗ (chrLoc d ↦{rdShare (widN c i)} m (chrLoc d)) ∗ ∃ f, outLoc d ↦[tileSet (widN c i)]{fullShare} f)
def dnRes (d : Dev nD) (c : Fin 2) : sProp 𝕄 :=
  bigSep Finset.univ fun i : Fin 16 =>
    iprop((tblLoc d ↦{rdShare (widN c i)} Tb m d) ∗ (chrLoc d ↦{rdShare (widN c i)} m (chrLoc d)) ∗ outLoc d ↦[tileSet (widN c i)]{fullShare} Out m d)

def FIN (d : Dev nD) : sProp 𝕄 :=
  iprop((chrLoc d ↦{fullShare} m (chrLoc d)) ∗ (cntLoc d ↦{fullShare} m (cntLoc d)) ∗ outLoc d ↦{fullShare} Out m d)

end Res2

end Cert.KI

end
-- ==== Proof.KIValue.lean ====
import proofs.«204304_g88828513616490_cont_9to1c4b_177_25_alg».proof.Proof.KI.Common
import Idealize.ShloMosaic.Lib.Pipeline.Value
import Idealize.ShloMosaic.PureOps.Ideal.Laws

noncomputable section

namespace Cert.KIValue

open Cert.KernelIdeal Cert.KernelIdeal.Gen
open Idealize.ShloMosaic

theorem sum_shapeCast {s t : Shape} (x : s.Idx → EReal) (h : s.ShapeCasts t) :
    ∑ i : t.Idx, shapeCast t x h i = ∑ k : s.Idx, x k :=
  Equiv.sum_comp (Shape.reshapeEquiv h) x

theorem pay_ideal (v0 : FVec Ideal S512x128 .f32) (j : S512x128.Idx) :
    k0_pay1 (F := Ideal) v0 j = Ideal.log (v0 j) - Ideal.log (∑ i : S512x128.Idx, v0 i) := by
  unfold k0_pay1
  dsimp only
  rw [shapeCast_self]
  have hsum : ∀ q : S1.Idx,
      multiReduction FKind.add [1, 2] S1 (shapeCast S1x512x128 v0 shapeCasts_S512x128_S1x512x128) (0#32)
        reduces_S1x512x128_S1 (.inl rfl) rfl q = ∑ i : S512x128.Idx, v0 i := fun q => by
    refine (Ideal.multiReduction_add_total (φ := .f32) _ _ reduces_S1x512x128_S1 (fun b => by fin_cases b; rfl) _ _ q).trans ?_
    exact sum_shapeCast v0 _
  exact congrArg (fun z : EReal => Ideal.log (v0 j) - Ideal.log z)
    (hsum (Shape.reshapeEquiv shapeCasts_S1_S1x1x1 (fun a => ⟨![0, 0, 0] a, inpos_S1x1x1_p0_0_0 a⟩)))

theorem tblOf_ideal (x : FVec Ideal S65536 .f32) : Cert.KI.tblOf (F := Ideal) x = Cert.Spec.tbl x := by
  funext k
  unfold Cert.KI.tblOf
  have hp : ∀ y : FVec Ideal S512x128 .f32, k0_pay1 (F := Ideal) y
      = fun j => Ideal.log (y j) - Ideal.log (∑ i : S512x128.Idx, y i) := fun y => funext (pay_ideal y)
  rw [hp, sum_shapeCast]
  show Ideal.log (shapeCast S65536 (shapeCast S512x128 x shapeCasts_S65536_S512x128) shapeCasts_S512x128_S65536 k) - _ = _
  rw [shapeCast_shapeCast]
  rfl

theorem Out_ideal (m : (ℓ : Loc nD τ sig) → Buf (Elt Ideal) ℓ) (d : Dev nD) :
    Cert.KI.Out (F := Ideal) m d = Cert.Spec.Gk (m (Cert.KI.chrLoc d)) (m (Cert.KI.cntLoc d)) := by
  unfold Cert.KI.Out
  rw [tblOf_ideal]
  rfl

end Cert.KIValue

end
-- ==== Proof.KI.Barrier.lean ====
import proofs.«204304_g88828513616490_cont_9to1c4b_177_25_alg».proof.Proof.KI.Common

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ)

theorem nSub_eq : τ.nSub = 16 := rfl

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

abbrev slcPts (d : Dev nD) (c : Fin τ.nSC) (n j : Fin 16) : sProp 𝕄 :=
  shLoc d c ↦[slcSet n]{Transfers.shareTok fullShare 16 j} Tsh m d c

def bPay (g : GSem nD τ sig) (n : ℕ) : sProp 𝕄 :=
  match g with
  | ((d, .scVector c j), _) => if h : n < 16 then slcPts m d c ⟨n, h⟩ (Fin.cast nSub_eq j) else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KI

end
-- ==== Proof.KI.Tile.lean ====
import proofs.«204304_g88828513616490_cont_9to1c4b_177_25_alg».proof.Proof.KI.Barrier

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev thr (d : Dev nD) (L : grid1.Coords) : Thread nD τ := V d (cV L) (jV L)

/-- A whole scratch buffer of the tile held at contents `s`. -/
abbrev wPts (b : Ref sig .scVector) (s : Buf (Elt F) ((Memref.whole b).view.loc (thr d L))) : sProp 𝕄 :=
  (Memref.whole b).view.loc (thr d L) ↦{fullShare} s

abbrev cN (L : grid1.Coords) : Fin 2 := Fin.cast bound_zero (L 0)
abbrev iN (L : grid1.Coords) : Fin 16 := Fin.cast bound_one (L 1)

def PreOK : Prop := ∀ d : Dev nD, Cert.Spec.InRange (m (chrLoc d))

end Cert.KI

end
-- ==== Proof.KI.TileInv.lean ====
import proofs.«204304_g88828513616490_cont_9to1c4b_177_25_alg».proof.Proof.KI.Tile

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

def chunkSet (n : Fin 32) (k : ℕ) : Finset S8388608.Idx := Finset.univ.filter fun j => (j 0).val / 2048 = 128 * n.val + k

def chunkIx (n : Fin 32) (k : ℕ) (y : S2048.Idx) : S8388608.Idx :=
  ValueIdx.ix1 ⟨(2048 * (128 * n.val + k) + (y 0).val) % 8388608, Nat.mod_lt _ (by decide)⟩

def IdxHolds (n : Fin 32) (k : ℕ) (s : S2048.Idx → BitVec 32) : Prop := ∀ y, s y = m (chrLoc d) (chunkIx n k y)

abbrev chrShare (tk : ℕ) : PosShare TreeShare := Transfers.shareTokN (rdShare (wid L)) tk

def inFl (ipts : (S2048.Idx → BitVec 32) → sProp 𝕄) (si : DmaSem sig) (tk k : ℕ) : sProp 𝕄 :=
  Transfers.Flight countersEmb (thr d L) (SemLoc.dma si) (default : HIx 1) 65536
    iprop((∃ s, ⌜IdxHolds m d (wid L) k s⌝ ∗ ipts s)
      ∗ chrV.view.loc (thr d L) ↦[chunkSet (wid L) k]{chrShare L tk} m (chrLoc d))

def slotIn (ipts : (S2048.Idx → BitVec 32) → sProp 𝕄) (si : DmaSem sig) (tk k : ℕ) (live : Prop) [Decidable live] : sProp 𝕄 :=
  if live then iprop(inFl m d L ipts si tk k ∗ chrV.view.loc (thr d L) ↦[Finset.univ \ chunkSet (wid L) k]{chrShare L tk} m (chrLoc d))
  else iprop((∃ s, ipts s) ∗ semVal (thr d L, SemLoc.dma si) 0 ∗ chrV.view.loc (thr d L) ↦{chrShare L tk} m (chrLoc d))

def outFl (opts : (S2048.Idx → Elt F .f32) → sProp 𝕄) (so : DmaSem sig) (k : ℕ) : sProp 𝕄 :=
  Transfers.Flight countersEmb (thr d L) (SemLoc.dma so) (default : HIx 1) 65536
    iprop((outV.view.loc (thr d L) ↦[chunkSet (wid L) k]{fullShare} Out m d) ∗ ∃ o, opts o)

def slotOut (opts : (S2048.Idx → Elt F .f32) → sProp 𝕄) (so : DmaSem sig) (k : ℕ) (live : Prop) [Decidable live] : sProp 𝕄 :=
  if live then outFl m d L opts so k
  else iprop((∃ o, opts o) ∗ semVal (thr d L, SemLoc.dma so) 0)

def Inv (O : CellTallies nD τ sig (HIx 1)) (W : Waits sig (HIx 1)) (t : ℕ) (_ : Unit) : sProp 𝕄 :=
  iprop(Transfers.MayWaits (thr d L) (none : HIx 1) O
    ∗ (tvV.view.loc (thr d L) ↦{fullShare} Tb m d)
    ∗ slotIn m d L (wPts d L cc1_scratch2) cc1_scratch18.sem 2 (8 * t + 0) (t < 16)
    ∗ slotOut m d L (wPts d L cc1_scratch10) cc1_scratch26.sem (8 * t + 0 - 8) (0 < t)
    ∗ slotIn m d L (wPts d L cc1_scratch3) cc1_scratch19.sem 3 (8 * t + 1) (t < 16)
    ∗ slotOut m d L (wPts d L cc1_scratch11) cc1_scratch27.sem (8 * t + 1 - 8) (0 < t)
    ∗ slotIn m d L (wPts d L cc1_scratch4) cc1_scratch20.sem 4 (8 * t + 2) (t < 16)
    ∗ slotOut m d L (wPts d L cc1_scratch12) cc1_scratch28.sem (8 * t + 2 - 8) (0 < t)
    ∗ slotIn m d L (wPts d L cc1_scratch5) cc1_scratch21.sem 5 (8 * t + 3) (t < 16)
    ∗ slotOut m d L (wPts d L cc1_scratch13) cc1_scratch29.sem (8 * t + 3 - 8) (0 < t)
    ∗ slotIn m d L (wPts d L cc1_scratch6) cc1_scratch22.sem 6 (8 * t + 4) (t < 16)
    ∗ slotOut m d L (wPts d L cc1_scratch14) cc1_scratch30.sem (8 * t + 4 - 8) (0 < t)
    ∗ slotIn m d L (wPts d L cc1_scratch7) cc1_scratch23.sem 7 (8 * t + 5) (t < 16)
    ∗ slotOut m d L (wPts d L cc1_scratch15) cc1_scratch31.sem (8 * t + 5 - 8) (0 < t)
    ∗ slotIn m d L (wPts d L cc1_scratch8) cc1_scratch24.sem 8 (8 * t + 6) (t < 16)
    ∗ slotOut m d L (wPts d L cc1_scratch16) cc1_scratch32.sem (8 * t + 6 - 8) (0 < t)
    ∗ slotIn m d L (wPts d L cc1_scratch9) cc1_scratch25.sem 9 (8 * t + 7) (t < 16)
    ∗ slotOut m d L (wPts d L cc1_scratch17) cc1_scratch33.sem (8 * t + 7 - 8) (0 < t)
    ∗ (bigSep (Finset.range (8 * t - 8)) fun k => outV.view.loc (thr d L) ↦[chunkSet (wid L) k]{fullShare} Out m d)
    ∗ (bigSep (Finset.Ico (8 * t) 128) fun k => iprop(∃ f, outV.view.loc (thr d L) ↦[chunkSet (wid L) k]{fullShare} f))
    ∗ ∃ W', ⌜∀ p ∈ W', p ∈ W ∨ p.2 = none⌝ ∗ owes (thr d L) O W')

end Cert.KI

end
-- ==== Proof.KI.TileLemmas.lean ====
import proofs.«204304_g88828513616490_cont_9to1c4b_177_25_alg».proof.Proof.KI.TileInv

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem wid_eq : wid L = widN (cN L) (iN L) := Fin.ext rfl

theorem outV_loc : outV.view.loc (thr d L) = outLoc d := rfl
theorem chrV_loc : chrV.view.loc (thr d L) = chrLoc d := rfl
theorem tblV_loc : tblV.view.loc (thr d L) = tblLoc d := rfl

theorem chunk_disjoint (n : Fin 32) (s : Finset ℕ) : ∀ k ∈ s, ∀ k' ∈ s, k ≠ k' → Disjoint (chunkSet n k) (chunkSet n k') := by
  intro k _ k' _ h
  rw [Finset.disjoint_left]
  intro j hj hj'
  unfold chunkSet at hj hj'
  rw [Finset.mem_filter] at hj hj'
  exact h (by omega)

theorem chunk_cover (n : Fin 32) : (Finset.range 128).biUnion (chunkSet n) = tileSet n := by
  ext j
  simp only [Finset.mem_biUnion, Finset.mem_range, chunkSet, tileSet, Finset.mem_filter, Finset.mem_univ, true_and]
  constructor
  · rintro ⟨k, hk, h⟩; omega
  · intro h; exact ⟨(j 0).val / 2048 - 128 * n.val, by omega, by omega⟩

theorem out_chunks (n : Fin 32) (q : PosShare TreeShare) (f : Buf (Elt F) (outLoc d)) :
    (outLoc d ↦[tileSet n]{q} f : sProp 𝕄) = bigSep (Finset.range 128) fun k => outV.view.loc (thr d L) ↦[chunkSet n k]{q} f := by
  rw [← chunk_cover, pointsTo_biUnion (Finset.range 128) (ℓ := outLoc d) (chunkSet n) (chunk_disjoint n _)]; try rfl

theorem out_chunks_ex (n : Fin 32) :
    iprop(∃ f, outLoc d ↦[tileSet n]{fullShare} f)
      ⊢ (bigSep (Finset.Ico 0 128) fun k => iprop(∃ f, outV.view.loc (thr d L) ↦[chunkSet n k]{fullShare} f) : sProp 𝕄) := by
  iintro ⟨%f, H⟩
  have h1 : ∀ k : ℕ, (outV.view.loc (thr d L) ↦[chunkSet n k]{fullShare} f : sProp 𝕄) ⊢ iprop(∃ f, outV.view.loc (thr d L) ↦[chunkSet n k]{fullShare} f) := fun k => by
    iintro H; iexists f; iexact H
  rw [← Finset.range_eq_Ico]
  iapply (SparseCore.ent (bigSep_mono (s := Finset.range 128) fun k _ => h1 k))
  iapply (Entails.of_eq (out_chunks (F := F) d L n fullShare f)); iexact H

theorem out_chunks_join (n : Fin 32) :
    (bigSep (Finset.range 128) fun k => outV.view.loc (thr d L) ↦[chunkSet n k]{fullShare} Out m d) ⊢ (outLoc d ↦[tileSet n]{fullShare} Out m d : sProp 𝕄) :=
  Entails.of_eq (out_chunks (F := F) d L n fullShare (Out m d)).symm

theorem out_chunk_congr (n : Fin 32) (k : ℕ) (f : Buf (Elt F) (outLoc d)) (h : ∀ j ∈ chunkSet n k, f j = Out m d j) :
    (outV.view.loc (thr d L) ↦[chunkSet n k]{fullShare} f : sProp 𝕄) ⊢ outV.view.loc (thr d L) ↦[chunkSet n k]{fullShare} Out m d :=
  Entails.of_eq (pointsTo_congr h)

theorem chr_toks (n : Fin 32) (ch : Buf (Elt F) (chrLoc d)) :
    (chrLoc d ↦{rdShare n} ch : sProp 𝕄)
      ⊣⊢ iprop((chrLoc d ↦{Transfers.shareDrop (rdShare n) 20} ch) ∗ bigSep (Finset.range 20) fun k => chrV.view.loc (thr d L) ↦{Transfers.shareTokN (rdShare n) k} ch) :=
  Transfers.pointsTo_toks_range (rdShare n) 20

theorem tbl_toks (n : Fin 32) (tb : Buf (Elt F) (tblLoc d)) :
    (tblLoc d ↦{rdShare n} tb : sProp 𝕄)
      ⊣⊢ iprop((tblLoc d ↦{Transfers.shareDrop (rdShare n) 20} tb) ∗ bigSep (Finset.range 20) fun k => tblV.view.loc (thr d L) ↦{Transfers.shareTokN (rdShare n) k} tb) :=
  Transfers.pointsTo_toks_range (rdShare n) 20

theorem chr_chunk_rest (n : Fin 32) (k : ℕ) (q : PosShare TreeShare) (ch : Buf (Elt F) (chrLoc d)) :
    iprop((chrV.view.loc (thr d L) ↦[chunkSet n k]{q} ch) ∗ chrV.view.loc (thr d L) ↦[Finset.univ \ chunkSet n k]{q} ch)
      ⊣⊢ (chrV.view.loc (thr d L) ↦{q} ch : sProp 𝕄) :=
  ⟨(pointsTo_split_subset (ℓ := chrLoc d) (Finset.subset_univ (chunkSet n k))).2, (pointsTo_split_subset (ℓ := chrLoc d) (Finset.subset_univ (chunkSet n k))).1⟩

theorem chunkIx_val (n : Fin 32) {k : ℕ} (hk : k < 128) (y : S2048.Idx) : (chunkIx n k y 0).val = 2048 * (128 * n.val + k) + (y 0).val := by
  have hy : (y 0).val < 2048 := (y 0).isLt
  have hn : n.val < 32 := n.isLt
  show (2048 * (128 * n.val + k) + (y 0).val) % 8388608 = _
  exact Nat.mod_eq_of_lt (by omega)

theorem chunkIx_mem (n : Fin 32) {k : ℕ} (hk : k < 128) (y : S2048.Idx) : chunkIx n k y ∈ chunkSet n k := by
  have hy : (y 0).val < 2048 := (y 0).isLt
  unfold chunkSet
  rw [Finset.mem_filter, chunkIx_val n hk]
  exact ⟨Finset.mem_univ _, by omega⟩

theorem chunkIx_injective (n : Fin 32) {k : ℕ} (hk : k < 128) : Function.Injective (chunkIx n k) := by
  intro y y' e
  have h := congrArg (fun j : S8388608.Idx => (j 0).val) e
  simp only [chunkIx_val n hk] at h
  funext a
  obtain rfl : a = 0 := Fin.fin_one_eq_zero a
  exact Fin.ext (by omega)

theorem chunkSet_eq_chunkIx (n : Fin 32) {k : ℕ} (hk : k < 128) {j : S8388608.Idx} (hj : j ∈ chunkSet n k) : ∃! y : S2048.Idx, chunkIx n k y = j := by
  unfold chunkSet at hj
  rw [Finset.mem_filter] at hj
  have hj0 : (j 0).val < 8388608 := (j 0).isLt
  have h0 : chunkIx n k (ValueIdx.ix1 ⟨(j 0).val % 2048, Nat.mod_lt _ (by decide)⟩) = j := by
    funext a
    obtain rfl : a = 0 := Fin.fin_one_eq_zero a
    refine Fin.ext ?_
    rw [chunkIx_val n hk]
    show 2048 * (128 * n.val + k) + (j 0).val % 2048 = (j 0).val
    omega
  exact ⟨_, h0, fun y hy => chunkIx_injective n hk (hy.trans h0.symm)⟩

theorem slcSet_disjoint : ∀ i ∈ (Finset.univ : Finset (Fin 16)), ∀ j ∈ (Finset.univ : Finset (Fin 16)), i ≠ j → Disjoint (slcSet i) (slcSet j) := by
  intro i _ j _ h
  rw [Finset.disjoint_left]
  intro k hi hj
  unfold slcSet at hi hj
  rw [Finset.mem_filter] at hi hj
  exact h (Fin.ext (hi.2.symm.trans hj.2))

theorem slcSet_cover : (Finset.univ : Finset (Fin 16)).biUnion slcSet = Finset.univ := by
  ext k
  simp only [Finset.mem_biUnion, Finset.mem_univ, true_and, iff_true]
  have hk : (k 0).val < 65536 := (k 0).isLt
  exact ⟨⟨(k 0).val / 4096, by omega⟩, by unfold slcSet; rw [Finset.mem_filter]; exact ⟨Finset.mem_univ _, rfl⟩⟩

theorem shLoc_slices (c : Fin τ.nSC) (q : PosShare TreeShare) (f : Buf (Elt F) (shLoc d c)) :
    (shLoc d c ↦{q} f : sProp 𝕄) = bigSep Finset.univ fun i : Fin 16 => shLoc d c ↦[slcSet i]{q} f := by
  rw [← pointsTo_biUnion Finset.univ (ℓ := shLoc d c) slcSet slcSet_disjoint, slcSet_cover]; try rfl

theorem sh_toks_split :
    (shLoc d (cV L) ↦{Transfers.shareTok fullShare 16 (iN L)} Tsh m d (cV L) : sProp 𝕄)
      ⊢ bigSep Finset.univ fun j : Fin 16 => shLoc d (cV L) ↦[slcSet j]{Transfers.shareTok fullShare 16 (iN L)} Tsh m d (cV L) :=
  Entails.of_eq (shLoc_slices (F := F) d (cV L) _ _)

theorem bigSep_grid (Φ : Fin 16 → sProp 𝕄) :
    (bigSep Finset.univ fun j : Fin (grid1.bound 1) => Φ (Fin.cast bound_one j)) = bigSep Finset.univ Φ :=
  bigSep_congr fun _ _ => congrArg Φ (Fin.ext rfl)

theorem payload_mine (j : Fin (grid1.bound 1)) :
    (bRd (F := F) m).payload (bcell d (cV L) (j.castLE hsub1)) 0 (jV L).val
      = (shLoc d (cV L) ↦[slcSet (iN L)]{Transfers.shareTok fullShare 16 (Fin.cast bound_one j)} Tsh m d (cV L) : sProp 𝕄) := by
  show bPay m (bcell d (cV L) (j.castLE hsub1)) (jV L).val = _
  unfold bPay; dsimp only
  rw [dif_pos (show (jV L).val < 16 from (jV L).isLt)]
  rfl

theorem payload_own (s : Fin τ.nSub) :
    (bRd (F := F) m).payload (bcell d (cV L) (jV L)) 0 s.val
      = (shLoc d (cV L) ↦[slcSet (Fin.cast nSub_eq s)]{Transfers.shareTok fullShare 16 (iN L)} Tsh m d (cV L) : sProp 𝕄) := by
  show bPay m (bcell d (cV L) (jV L)) s.val = _
  unfold bPay; dsimp only
  rw [dif_pos (show s.val < 16 from s.isLt)]
  rfl

theorem pays_intro :
    (shLoc d (cV L) ↦[slcSet (iN L)]{fullShare} Tsh m d (cV L) : sProp 𝕄)
      ⊢ iprop((shLoc d (cV L) ↦[slcSet (iN L)]{Transfers.shareDrop fullShare 16} Tsh m d (cV L))
        ∗ bigSep Finset.univ fun j : Fin (grid1.bound 1) => (bRd (F := F) m).payload (bcell d (cV L) (j.castLE hsub1)) 0 (jV L).val) := by
  rw [bigSep_congr (fun j _ => payload_mine (F := F) m d L j),
    bigSep_grid (F := F) (fun i => (shLoc d (cV L) ↦[slcSet (iN L)]{Transfers.shareTok fullShare 16 i} Tsh m d (cV L) : sProp 𝕄))]
  exact Transfers.pointsTo_toks_split fullShare 16

theorem pays_elim :
    (bigSep ((bRd (F := F) m).duties (bcell d (cV L) (jV L)) 0 \ ∅) fun n => (bRd (F := F) m).payload (bcell d (cV L) (jV L)) 0 n)
      ⊢ (shLoc d (cV L) ↦{Transfers.shareTok fullShare 16 (iN L)} Tsh m d (cV L) : sProp 𝕄) := by
  rw [Finset.sdiff_empty, bRd_duties₀, SparseCore.bigSep_image_of_injOn (fun a _ b _ e => Fin.val_injective e), shLoc_slices (F := F) d (cV L)]
  exact Entails.of_eq (bigSep_congr fun s _ => payload_own (F := F) m d L s)

theorem barrier_step {α : Type} (O : CellTallies nD τ sig (HIx 1)) (W : Waits sig (HIx 1)) (hO : ∀ g, O g none = 0)
    (hOlev : ∀ g ι, 0 < O g ι → 8 * (0 : Fin 1).val + 6 ≤ (K (F := F)).lev g ι)
    {k : PUnit → Prog (TpuEff nD τ sig (Elt F) Λ₀ (.scVector (cV L) (jV L))) α} {Q : α → sProp 𝕄} :
    iprop(levAts (K (F := F)).L (K (F := F)).lev ∗ bkit m d (cV L) (jV L)
        ∗ (shLoc d (cV L) ↦[slcSet (iN L)]{fullShare} Tsh m d (cV L))
        ∗ owes (thr d L) (O + oxV d (cV L)) W)
      ⊢ iprop((iprop(owes (thr d L) O (insert (SemLoc.reg sc_bar0, some (0 : Fin 1)) W)
            ∗ (shLoc d (cV L) ↦[slcSet (iN L)]{Transfers.shareDrop fullShare 16} Tsh m d (cV L))
            ∗ (shLoc d (cV L) ↦{Transfers.shareTok fullShare 16 (iN L)} Tsh m d (cV L)))
          -∗ wp frame (wpE (defs₀ (F := F)) 𝒱₀ (thr d L) none) Set.univ (k ⟨⟩) Q)
        -∗ wp frame (wpE (defs₀ (F := F)) 𝒱₀ (thr d L) none) Set.univ (SparseCore.subcoreBarrier sc_bar0 (grid1.bound 1) hsub1 >>= k) Q) := by
  unfold bkit
  iintro ⟨#Hlv, ⟨⟨%κ, #Hinv⟩, Htoks, #Hrch, Hat, Hcred⟩, Hsl, HO⟩ Hk
  ihave Hsp := (pays_intro (F := F) m d L) $$ Hsl
  icases Hsp with ⟨Hrem, Hpays⟩

  ihave Hmw := ((K (F := F)).mayOwe_of_bound (thr := thr d L) (W := {(SemLoc.reg sc_bar0, some (0 : Fin 1))}) (O := O) 3
      (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg))) $$ Hlv
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O W) $$ [HO Htoks Hpays Hcred Hat Hmw]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iexact Hmw
  iintro ⟨HO, -, -, Hgot⟩
  iapply Hk
  isplitl [HO]; · iexact HO
  isplitl [Hrem]; · iexact Hrem
  iapply (pays_elim (F := F) m d L); iexact Hgot

end Cert.KI

end
-- ==== Proof.KI.TileStore.lean ====
import proofs.«204304_g88828513616490_cont_9to1c4b_177_25_alg».proof.Proof.KI.TileLemmas

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

omit [FloatOps F] in
theorem bigSep_pull {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by rw [List.toFinset_nil, Finset.sdiff_empty]; rfl
  | a :: l, s, hnd, hmem => by
    have ha : a ∈ s := hmem a List.mem_cons_self
    have hnd' := List.nodup_cons.mp hnd
    have hs : s.erase a \ l.toFinset = s \ (a :: l).toFinset := by
      ext x
      simp only [Finset.mem_sdiff, Finset.mem_erase, List.toFinset_cons, Finset.mem_insert, List.mem_toFinset]
      tauto
    rw [SparseCore.bigSep_erase' ha, bigSep_pull Φ l (s.erase a) hnd'.2
      (fun x hx => Finset.mem_erase.mpr ⟨fun e => hnd'.1 (e ▸ hx), hmem x (List.mem_cons_of_mem _ hx)⟩), hs]
    rfl

def tileSems : List (DmaSem sig) :=
  [cc1_scratch18.sem, cc1_scratch19.sem, cc1_scratch20.sem, cc1_scratch21.sem, cc1_scratch22.sem, cc1_scratch23.sem, cc1_scratch24.sem, cc1_scratch25.sem,
    cc1_scratch26.sem, cc1_scratch27.sem, cc1_scratch28.sem, cc1_scratch29.sem, cc1_scratch30.sem, cc1_scratch31.sem, cc1_scratch32.sem, cc1_scratch33.sem,
    cc1_scoped0.sem, cc1_scoped1.sem]

theorem tileSems_nodup : tileSems.Nodup := by decide
theorem tileSems_scoped : ∀ s ∈ tileSems, (SemLoc.dma s : SemLoc sig).isScoped .scVector = true := by decide

def restSems (d : Dev nD) (L : grid1.Coords) : sProp 𝕄 :=
  bigSep (ownCells (thr d L) \ (tileSems.map fun s => ((thr d L, SemLoc.dma s) : GSem nD τ sig)).toFinset) fun g => semVal g 0

omit [FloatOps F] in
theorem ownSems0_V :
    (ownSems0 (thr d L) : sProp 𝕄)
      = iprop(semVal (thr d L, SemLoc.dma cc1_scratch18.sem) 0 ∗ semVal (thr d L, SemLoc.dma cc1_scratch19.sem) 0 ∗ semVal (thr d L, SemLoc.dma cc1_scratch20.sem) 0
          ∗ semVal (thr d L, SemLoc.dma cc1_scratch21.sem) 0 ∗ semVal (thr d L, SemLoc.dma cc1_scratch22.sem) 0 ∗ semVal (thr d L, SemLoc.dma cc1_scratch23.sem) 0
          ∗ semVal (thr d L, SemLoc.dma cc1_scratch24.sem) 0 ∗ semVal (thr d L, SemLoc.dma cc1_scratch25.sem) 0 ∗ semVal (thr d L, SemLoc.dma cc1_scratch26.sem) 0
          ∗ semVal (thr d L, SemLoc.dma cc1_scratch27.sem) 0 ∗ semVal (thr d L, SemLoc.dma cc1_scratch28.sem) 0 ∗ semVal (thr d L, SemLoc.dma cc1_scratch29.sem) 0
          ∗ semVal (thr d L, SemLoc.dma cc1_scratch30.sem) 0 ∗ semVal (thr d L, SemLoc.dma cc1_scratch31.sem) 0 ∗ semVal (thr d L, SemLoc.dma cc1_scratch32.sem) 0
          ∗ semVal (thr d L, SemLoc.dma cc1_scratch33.sem) 0 ∗ semVal (thr d L, SemLoc.dma cc1_scoped0.sem) 0 ∗ semVal (thr d L, SemLoc.dma cc1_scoped1.sem) 0
          ∗ restSems (F := F) d L) := by
  unfold SparseCore.Cfg.ownSems0 restSems
  rw [bigSep_pull (fun g => (semVal g 0 : sProp 𝕄)) (tileSems.map fun s => ((thr d L, SemLoc.dma s) : GSem nD τ sig)) _
    ((List.nodup_map_iff (fun a b e => by injection e with _ e; injection e)).mpr tileSems_nodup) (fun x hx => by
      obtain ⟨s, hs, rfl⟩ := List.mem_map.mp hx
      exact mem_ownCells.mpr ⟨rfl, tileSems_scoped s hs⟩)]
  simp only [tileSems, List.map_cons, List.map_nil, List.foldr_cons, List.foldr_nil]

def tileRefs : List (Ref sig .scVector) :=
  [cc1_scratch0, cc1_scratch2, cc1_scratch3, cc1_scratch4, cc1_scratch5, cc1_scratch6, cc1_scratch7, cc1_scratch8, cc1_scratch9,
    cc1_scratch10, cc1_scratch11, cc1_scratch12, cc1_scratch13, cc1_scratch14, cc1_scratch15, cc1_scratch16, cc1_scratch17]

theorem tileRefs_nodup : tileRefs.Nodup := by decide
theorem tileRefs_owner (c : Fin τ.nSC) (j : Fin τ.nSub) : ∀ b ∈ tileRefs, ((Proc.scVector c j).devRef (sig := sig) b).owner = .proc (.scVector c j) := by
  intro b hb
  simp only [tileRefs, List.mem_cons, List.mem_nil_iff, or_false] at hb
  rcases hb with rfl | rfl | rfl | rfl | rfl | rfl | rfl | rfl | rfl | rfl | rfl | rfl | rfl | rfl | rfl | rfl | rfl <;> rfl

def restBufs (d : Dev nD) (L : grid1.Coords) : sProp 𝕄 :=
  bigSep (ownRefs (τ := τ) (.scVector (cV L) (jV L)) \ (tileRefs.map (Proc.scVector (cV L) (jV L)).devRef).toFinset)
    fun b => iprop(∃ f, ((d, b) : Loc nD τ sig) ↦{fullShare} f)

abbrev scrEx {s : Shape} {e : EltTy} (M : Memref sig .scVector .vmem s e) : sProp 𝕄 := iprop(∃ f, M.view.loc (thr d L) ↦{fullShare} f)

omit [FloatOps F] in
theorem ownBufs_V :
    (ownBufs (thr d L) : sProp 𝕄)
      = iprop(scrEx d L tvV
          ∗ scrEx d L (Memref.whole cc1_scratch2 : Memref sig .scVector .vmem S2048 .i32) ∗ scrEx d L (Memref.whole cc1_scratch3 : Memref sig .scVector .vmem S2048 .i32)
          ∗ scrEx d L (Memref.whole cc1_scratch4 : Memref sig .scVector .vmem S2048 .i32) ∗ scrEx d L (Memref.whole cc1_scratch5 : Memref sig .scVector .vmem S2048 .i32)
          ∗ scrEx d L (Memref.whole cc1_scratch6 : Memref sig .scVector .vmem S2048 .i32) ∗ scrEx d L (Memref.whole cc1_scratch7 : Memref sig .scVector .vmem S2048 .i32)
          ∗ scrEx d L (Memref.whole cc1_scratch8 : Memref sig .scVector .vmem S2048 .i32) ∗ scrEx d L (Memref.whole cc1_scratch9 : Memref sig .scVector .vmem S2048 .i32)
          ∗ scrEx d L (Memref.whole cc1_scratch10 : Memref sig .scVector .vmem S2048 .f32) ∗ scrEx d L (Memref.whole cc1_scratch11 : Memref sig .scVector .vmem S2048 .f32)
          ∗ scrEx d L (Memref.whole cc1_scratch12 : Memref sig .scVector .vmem S2048 .f32) ∗ scrEx d L (Memref.whole cc1_scratch13 : Memref sig .scVector .vmem S2048 .f32)
          ∗ scrEx d L (Memref.whole cc1_scratch14 : Memref sig .scVector .vmem S2048 .f32) ∗ scrEx d L (Memref.whole cc1_scratch15 : Memref sig .scVector .vmem S2048 .f32)
          ∗ scrEx d L (Memref.whole cc1_scratch16 : Memref sig .scVector .vmem S2048 .f32) ∗ scrEx d L (Memref.whole cc1_scratch17 : Memref sig .scVector .vmem S2048 .f32)
          ∗ restBufs (F := F) d L) := by
  unfold SparseCore.Cfg.ownBufs restBufs
  rw [bigSep_pull (fun b => (iprop(∃ f, ((d, b) : Loc nD τ sig) ↦{fullShare} f) : sProp 𝕄)) (tileRefs.map (Proc.scVector (cV L) (jV L)).devRef) _
    ((List.nodup_map_iff (Proc.devRef_injective _)).mpr tileRefs_nodup) (fun x hx => by
      obtain ⟨b, hb, rfl⟩ := List.mem_map.mp hx
      exact SparseCore.Cfg.mem_ownRefs_of_owner (p := Proc.scVector (cV L) (jV L)) (tileRefs_owner _ _ b hb))]
  simp only [tileRefs, List.map_cons, List.map_nil, List.foldr_cons, List.foldr_nil]

theorem k1_off1_cf : ∀ (i : grid1.Coords) (r : Fin 16),
    k1_off1 i (k1_off1_at r) = ![2048 * (128 * (2 * (i 1).val + (i 0).val) + (if r.val < 8 then r.val else 112 + r.val))] := by decide +kernel

def rk (r : Fin 16) : ℕ := if r.val < 8 then r.val else 112 + r.val

omit [FloatOps F] in
theorem mem_unit1 {s : Shape} (hs : s.rank = 1) (N n : ℕ) (inb) (j : s.Idx) (h0 : (0 : ℕ) < s.rank) :
    j ∈ (Rect.unit (s := s) (fun _ => N) (fun _ => n) inb).set ↔ N ≤ (j ⟨0, h0⟩).val ∧ (j ⟨0, h0⟩).val < N + n := by
  rw [Rect.mem_set_unit]
  constructor
  · intro h; exact h ⟨0, h0⟩
  · intro h a
    have : a = ⟨0, h0⟩ := Fin.ext (by have := a.isLt; omega)
    subst this; exact h

omit [FloatOps F] in
theorem set_chunkRect (r : Fin 16) :
    (Rect.unit (s := S8388608) (k1_off1 L (k1_off1_at r)) S2048.size (k1_off1_inb L r)).set = chunkSet (wid L) (rk r) := by
  ext j
  have e : (Rect.unit (s := S8388608) (k1_off1 L (k1_off1_at r)) S2048.size (k1_off1_inb L r))
      = Rect.unit (s := S8388608) (fun _ => 2048 * (128 * (2 * (L 1).val + (L 0).val) + rk r)) (fun _ => 2048)
          (fun a => by have := k1_off1_inb L r a; rw [k1_off1_cf] at this; have ha : a = 0 := Subsingleton.elim _ _; subst ha; exact this) := by
    congr 1
    · rw [k1_off1_cf]; funext a; have ha : a = 0 := Subsingleton.elim _ _; subst ha; rfl
    · funext a; have ha : a = 0 := Subsingleton.elim _ _; subst ha; rfl
  rw [e, mem_unit1 rfl _ _ _ j (by decide)]
  unfold chunkSet wid
  simp only [Finset.mem_filter, Finset.mem_univ, true_and]
  show (2048 * (128 * (2 * (L 1).val + (L 0).val) + rk r) ≤ (j 0).val ∧ (j 0).val < 2048 * (128 * (2 * (L 1).val + (L 0).val) + rk r) + 2048)
    ↔ (j 0).val / 2048 = 128 * (2 * (L 1).val + (L 0).val) + rk r
  omega

omit [FloatOps F] in
theorem set_chrChunk (r : Fin 16) :
    (chrV.slice (Rect.unit (s := S8388608) (k1_off1 L (k1_off1_at r)) S2048.size (k1_off1_inb L r)) (fun _ => rfl)).view.set = chunkSet (wid L) (rk r) := by
  show ((View.whole (main_arg0_scv : Ref sig .scVector)).slice _).set = _
  rw [View.set_slice_whole]; exact set_chunkRect L r

omit [FloatOps F] in
theorem set_outChunk (r : Fin 16) :
    (outV.slice (Rect.unit (s := S8388608) (k1_off1 L (k1_off1_at r)) S2048.size (k1_off1_inb L r)) (fun _ => rfl)).view.set = chunkSet (wid L) (rk r) := by
  show ((View.whole (main_v3_scv : Ref sig .scVector)).slice _).set = _
  rw [View.set_slice_whole]; exact set_chunkRect L r

omit [FloatOps F] in
theorem set_slcRect : (Rect.unit (s := S65536) (k1_off2 L) S4096.size (k1_off2_inb L)).set = slcSet (iN L) := by
  ext j
  have e : (Rect.unit (s := S65536) (k1_off2 L) S4096.size (k1_off2_inb L))
      = Rect.unit (s := S65536) (fun _ => 4096 * (L 1).val) (fun _ => 4096)
          (fun a => by have := k1_off2_inb L a; rw [k1_off2_eq] at this; have ha : a = 0 := Subsingleton.elim _ _; subst ha; exact this) := by
    congr 1
    · rw [k1_off2_eq]; funext a; have ha : a = 0 := Subsingleton.elim _ _; subst ha; rfl
    · funext a; have ha : a = 0 := Subsingleton.elim _ _; subst ha; rfl
  rw [e, mem_unit1 rfl _ _ _ j (by decide)]
  unfold slcSet
  simp only [Finset.mem_filter, Finset.mem_univ, true_and]
  show (4096 * (L 1).val ≤ (j 0).val ∧ (j 0).val < 4096 * (L 1).val + 4096) ↔ (j 0).val / 4096 = (L 1).val
  omega

omit [FloatOps F] in
theorem set_shSlice :
    (shV.slice (Rect.unit (s := S65536) (k1_off2 L) S4096.size (k1_off2_inb L)) (fun _ => rfl)).view.set = slcSet (iN L) := by
  show ((View.whole (cc1_scratch1 : Ref sig .scVector)).slice _).set = _
  rw [View.set_slice_whole]; exact set_slcRect L

omit [FloatOps F] in
theorem set_tblSlice :
    (tblV.slice (Rect.unit (s := S65536) (k1_off2 L) S4096.size (k1_off2_inb L)) (fun _ => rfl)).view.set = slcSet (iN L) := by
  show ((View.whole (main_v2_scv : Ref sig .scVector)).slice _).set = _
  rw [View.set_slice_whole]; exact set_slcRect L

omit [FloatOps F] in
theorem rk_lt (r : Fin 16) : rk r < 128 := by unfold rk; split <;> omega

omit [FloatOps F] in
theorem emb_chrChunk (r : Fin 16) (y : S2048.Idx) :
    (chrV.slice (Rect.unit (s := S8388608) (k1_off1 L (k1_off1_at r)) S2048.size (k1_off1_inb L r)) (fun _ => rfl)).view.emb y = chunkIx (wid L) (rk r) y := by
  funext a
  obtain ⟨a, ha⟩ := a
  have h1 : a < 1 := ha
  obtain rfl : a = 0 := by omega
  apply Fin.ext
  show _ = (chunkIx (wid L) (rk r) y 0).val
  rw [chunkIx_val (wid L) (rk_lt r) y]
  show k1_off1 L (k1_off1_at r) 0 + 1 * (y 0).val = _
  rw [k1_off1_cf]
  show 2048 * (128 * (2 * (L 1).val + (L 0).val) + rk r) + 1 * (y 0).val = 2048 * (128 * (2 * (L 1).val + (L 0).val) + rk r) + (y 0).val
  omega

theorem fetch_word (r : Fin 16) (y : S2048.Idx) :
    ReadAs.same.apply (View.read (Elt F) (chrV.slice (Rect.unit (s := S8388608) (k1_off1 L (k1_off1_at r)) S2048.size (k1_off1_inb L r)) (fun _ => rfl)).view (m (chrLoc d))) y
      = m (chrLoc d) (chunkIx (wid L) (rk r) y) := by
  show View.read (Elt F) (chrV.slice (Rect.unit (s := S8388608) (k1_off1 L (k1_off1_at r)) S2048.size (k1_off1_inb L r)) (fun _ => rfl)).view (m (chrLoc d)) y = _
  rw [View.read_apply, cast_eq, emb_chrChunk]

theorem fetch_delivers (r : Fin 16) (q : PosShare TreeShare) (ipts : (S2048.Idx → BitVec 32) → sProp 𝕄)
    (s : S2048.Idx → BitVec 32) (hs : IdxHolds m d (wid L) (rk r) s) :
    iprop(ipts s
        ∗ chrV.view.loc (thr d L) ↦[(chrV.slice (Rect.unit (s := S8388608) (k1_off1 L (k1_off1_at r)) S2048.size (k1_off1_inb L r)) (fun _ => rfl)).view.set]{q} m (chrLoc d))
      ⊢ (iprop((∃ s, ⌜IdxHolds m d (wid L) (rk r) s⌝ ∗ ipts s)
        ∗ chrV.view.loc (thr d L) ↦[chunkSet (wid L) (rk r)]{q} m (chrLoc d)) : sProp 𝕄) := by
  rw [set_chrChunk]
  iintro ⟨Hs, Hc⟩
  isplitl [Hs]
  · iexists s; isplitr
    · ipureintro; exact hs
    · iexact Hs
  · iexact Hc

end Cert.KI

end
-- ==== Proof.KI.Pack.lean ====
import proofs.«204304_g88828513616490_cont_9to1c4b_177_25_alg».proof.Proof.KI.TileStore

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem chr_rejoin (n : Fin 32) (ch : Buf (Elt F) (chrLoc d)) (l : List ℕ) (hnd : l.Nodup) (hl : ∀ x ∈ l, x ∈ Finset.range 20) :
    iprop((chrLoc d ↦{Transfers.shareDrop (rdShare n) 20} ch)
        ∗ l.foldr (fun x acc => iprop((chrV.view.loc (thr d L) ↦{Transfers.shareTokN (rdShare n) x} ch) ∗ acc))
            (bigSep (Finset.range 20 \ l.toFinset) fun k => chrV.view.loc (thr d L) ↦{Transfers.shareTokN (rdShare n) k} ch))
      ⊢ (chrLoc d ↦{rdShare n} ch : sProp 𝕄) := by
  rw [← bigSep_pull (fun k => (chrV.view.loc (thr d L) ↦{Transfers.shareTokN (rdShare n) k} ch : sProp 𝕄)) l (Finset.range 20) hnd hl]
  exact (chr_toks (F := F) d L n ch).2

theorem tbl_rejoin (n : Fin 32) (tb : Buf (Elt F) (tblLoc d)) (l : List ℕ) (hnd : l.Nodup) (hl : ∀ x ∈ l, x ∈ Finset.range 20) :
    iprop((tblLoc d ↦{Transfers.shareDrop (rdShare n) 20} tb)
        ∗ l.foldr (fun x acc => iprop((tblV.view.loc (thr d L) ↦{Transfers.shareTokN (rdShare n) x} tb) ∗ acc))
            (bigSep (Finset.range 20 \ l.toFinset) fun k => tblV.view.loc (thr d L) ↦{Transfers.shareTokN (rdShare n) k} tb))
      ⊢ (tblLoc d ↦{rdShare n} tb : sProp 𝕄) := by
  rw [← bigSep_pull (fun k => (tblV.view.loc (thr d L) ↦{Transfers.shareTokN (rdShare n) k} tb : sProp 𝕄)) l (Finset.range 20) hnd hl]
  exact (tbl_toks (F := F) d L n tb).2

theorem rec_ok (W : Waits sig (HIx 1)) :
    ∀ p ∈ insert ((SemLoc.dma cc1_scoped1.sem : SemLoc sig), (none : HIx 1)) (insert ((SemLoc.reg sc_bar0 : SemLoc sig), (some 0 : HIx 1))
        (insert ((SemLoc.dma cc1_scoped0.sem : SemLoc sig), (none : HIx 1)) W)),
      p ∈ W ∨ p.2 = none ∨ p.2 = some (0 : Fin 1) := by
  intro p hp
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

theorem pack (hF : (K (F := F)).Facts) (O : CellTallies nD τ sig (HIx 1)) (W WL W' : Waits sig (HIx 1))
    (hWL : ∀ p ∈ WL, p ∈ W ∨ p.2 = none ∨ p.2 = some (0 : Fin 1)) (hW' : ∀ p ∈ W', p ∈ WL ∨ p.2 = none) :
    iprop((tblLoc d ↦{rdShare (wid L)} Tb m d) ∗ (chrLoc d ↦{rdShare (wid L)} m (chrLoc d))
        ∗ (bigSep (Finset.range 128) fun k => outV.view.loc (thr d L) ↦[chunkSet (wid L) k]{fullShare} Out m d)
        ∗ (shLoc d (cV L) ↦[slcSet (iN L)]{Transfers.shareDrop fullShare 16} Tsh m d (cV L))
        ∗ (shLoc d (cV L) ↦{Transfers.shareTok fullShare 16 (iN L)} Tsh m d (cV L))
        ∗ (scrEx d L tvV
          ∗ scrEx d L (Memref.whole cc1_scratch2 : Memref sig .scVector .vmem S2048 .i32)
          ∗ scrEx d L (Memref.whole cc1_scratch3 : Memref sig .scVector .vmem S2048 .i32)
          ∗ scrEx d L (Memref.whole cc1_scratch4 : Memref sig .scVector .vmem S2048 .i32)
          ∗ scrEx d L (Memref.whole cc1_scratch5 : Memref sig .scVector .vmem S2048 .i32)
          ∗ scrEx d L (Memref.whole cc1_scratch6 : Memref sig .scVector .vmem S2048 .i32)
          ∗ scrEx d L (Memref.whole cc1_scratch7 : Memref sig .scVector .vmem S2048 .i32)
          ∗ scrEx d L (Memref.whole cc1_scratch8 : Memref sig .scVector .vmem S2048 .i32)
          ∗ scrEx d L (Memref.whole cc1_scratch9 : Memref sig .scVector .vmem S2048 .i32)
          ∗ scrEx d L (Memref.whole cc1_scratch10 : Memref sig .scVector .vmem S2048 .f32)
          ∗ scrEx d L (Memref.whole cc1_scratch11 : Memref sig .scVector .vmem S2048 .f32)
          ∗ scrEx d L (Memref.whole cc1_scratch12 : Memref sig .scVector .vmem S2048 .f32)
          ∗ scrEx d L (Memref.whole cc1_scratch13 : Memref sig .scVector .vmem S2048 .f32)
          ∗ scrEx d L (Memref.whole cc1_scratch14 : Memref sig .scVector .vmem S2048 .f32)
          ∗ scrEx d L (Memref.whole cc1_scratch15 : Memref sig .scVector .vmem S2048 .f32)
          ∗ scrEx d L (Memref.whole cc1_scratch16 : Memref sig .scVector .vmem S2048 .f32)
          ∗ scrEx d L (Memref.whole cc1_scratch17 : Memref sig .scVector .vmem S2048 .f32)
          ∗ restBufs (F := F) d L)
        ∗ (semVal (thr d L, SemLoc.dma cc1_scratch18.sem) 0
          ∗ semVal (thr d L, SemLoc.dma cc1_scratch19.sem) 0
          ∗ semVal (thr d L, SemLoc.dma cc1_scratch20.sem) 0
          ∗ semVal (thr d L, SemLoc.dma cc1_scratch21.sem) 0
          ∗ semVal (thr d L, SemLoc.dma cc1_scratch22.sem) 0
          ∗ semVal (thr d L, SemLoc.dma cc1_scratch23.sem) 0
          ∗ semVal (thr d L, SemLoc.dma cc1_scratch24.sem) 0
          ∗ semVal (thr d L, SemLoc.dma cc1_scratch25.sem) 0
          ∗ semVal (thr d L, SemLoc.dma cc1_scratch26.sem) 0
          ∗ semVal (thr d L, SemLoc.dma cc1_scratch27.sem) 0
          ∗ semVal (thr d L, SemLoc.dma cc1_scratch28.sem) 0
          ∗ semVal (thr d L, SemLoc.dma cc1_scratch29.sem) 0
          ∗ semVal (thr d L, SemLoc.dma cc1_scratch30.sem) 0
          ∗ semVal (thr d L, SemLoc.dma cc1_scratch31.sem) 0
          ∗ semVal (thr d L, SemLoc.dma cc1_scratch32.sem) 0
          ∗ semVal (thr d L, SemLoc.dma cc1_scratch33.sem) 0
          ∗ semVal (thr d L, SemLoc.dma cc1_scoped0.sem) 0
          ∗ semVal (thr d L, SemLoc.dma cc1_scoped1.sem) 0
          ∗ restSems (F := F) d L)
        ∗ owes (thr d L) O W')
      ⊢ (iprop(tdRes m d (cN L) (iN L) ∗ scopedBufs (thr d L) ∗ scopedSems0 (thr d L)
        ∗ ∃ W', ⌜∀ p ∈ W', p ∈ W ∨ p.2 = none ∨ p.2 = some (0 : Fin 1)⌝ ∗ owes (thr d L) O W') : sProp 𝕄) := by
  rw [(K (F := F)).scopedBufs_V hF d (cV L) (jV L), SparseCore.Cfg.scopedSems0_V (Val := Elt F) d (cV L) (jV L), ownSems0_V, ownBufs_V]
  unfold tdRes
  rw [← wid_eq]
  iintro ⟨Ht, Hc, Ho, Hr, Hs, Hbufs, Hsems, HO⟩
  isplitl [Ht Hc Ho Hr Hs]
  · isplitl [Ht]; · iexact Ht
    isplitl [Hc]; · iexact Hc
    isplitl [Ho]; · iapply (out_chunks_join (F := F) m d L (wid L)); iexact Ho
    isplitl [Hr]; · iexact Hr
    iapply (sh_toks_split (F := F) m d L); iexact Hs
  isplitl [Hbufs]; · iexact Hbufs
  isplitl [Hsems]; · iexact Hsems
  iexists W'
  isplitr
  · ipureintro
    intro p hp
    rcases hW' p hp with h | h
    · exact hWL p h
    · exact .inr (.inl h)
  · iexact HO

end Cert.KI

end
-- ==== Proof.KI.Issue.lean ====
import proofs.«204304_g88828513616490_cont_9to1c4b_177_25_alg».proof.Proof.KI.TileLemmas

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev chrWin (off : Fin 1 → ℕ) (hinb : ∀ a, off a + S2048.size a ≤ S8388608.size a) : Memref sig .scVector .hbm S2048 .i32 :=
  chrV.slice (Rect.unit (s := S8388608) off S2048.size hinb) (fun _ => rfl)
abbrev outWin (off : Fin 1 → ℕ) (hinb : ∀ a, off a + S2048.size a ≤ S8388608.size a) : Memref sig .scVector .hbm S2048 .f32 :=
  outV.slice (Rect.unit (s := S8388608) off S2048.size hinb) (fun _ => rfl)

theorem in_delivery {iM : Memref sig .scVector .vmem S2048 .i32} (ipts : (S2048.Idx → BitVec 32) → sProp 𝕄)
    (hbr : ∀ fd : Buf (Elt F) (iM.view.loc (thr d L)), (iM.view.loc (thr d L) ↦{fullShare} fd : sProp 𝕄) = ipts (iM.view.read (Elt F) fd))
    (q : PosShare TreeShare) (k : ℕ) (off : Fin 1 → ℕ) (hinb : ∀ a, off a + S2048.size a ≤ S8388608.size a)
    (hset : (chrWin off hinb).view.set = chunkSet (wid L) k) (hemb : ∀ y, (chrWin off hinb).view.emb y = chunkIx (wid L) k y)
    (fd : Buf (Elt F) (iM.view.loc (thr d L))) :
    iprop((iM.view.loc (thr d L) ↦[Finset.univ]{fullShare}
          (iM.view.write (Elt F) fd ((ReadAs.same : ReadAs (Elt F) S2048 .i32 S2048 .i32).apply ((chrWin off hinb).view.read (Elt F) (m (chrLoc d)))) Finset.univ))
        ∗ ((chrWin off hinb).view.loc (thr d L) ↦[(chrWin off hinb).view.set]{q} m (chrLoc d)))
      ⊢ (iprop((∃ s, ⌜IdxHolds m d (wid L) k s⌝ ∗ ipts s) ∗ chrV.view.loc (thr d L) ↦[chunkSet (wid L) k]{q} m (chrLoc d)) : sProp 𝕄) := by
  rw [hset]
  iintro ⟨Hd, Hc⟩
  isplitl [Hd]
  · iexists (iM.view.read (Elt F) (iM.view.write (Elt F) fd ((chrWin off hinb).view.read (Elt F) (m (chrLoc d))) Finset.univ))
    isplit
    · ipureintro
      intro y
      rw [View.read_write_univ]
      exact congrArg (m (chrLoc d)) (hemb y)
    · iapply (Entails.of_eq (hbr _)); iexact Hd
  · iexact Hc

theorem issue_in {α : Type} {iM : Memref sig .scVector .vmem S2048 .i32} (ipts : (S2048.Idx → BitVec 32) → sProp 𝕄)
    (hbr : ∀ fd : Buf (Elt F) (iM.view.loc (thr d L)), (iM.view.loc (thr d L) ↦{fullShare} fd : sProp 𝕄) = ipts (iM.view.read (Elt F) fd))
    (hex : ∀ s, ipts s ⊢ iprop(∃ fd, iM.view.loc (thr d L) ↦{fullShare} fd))
    (si : DmaSem sig) (tk k : ℕ) (off : Fin 1 → ℕ) (hinb : ∀ a, off a + S2048.size a ≤ S8388608.size a)
    (hset : (chrWin off hinb).view.set = chunkSet (wid L) k) (hemb : ∀ y, (chrWin off hinb).view.emb y = chunkIx (wid L) k y)
    {h1 : (chrWin off hinb).view.WordExact} {h2 : iM.view.WordExact} {h3 : DmaTarget.Typed (nD := nD) .hbm (.dma si) (DmaTarget.here iM : DmaTarget nD τ sig (.scVector (cV L) (jV L)) .vmem S2048 .i32)}
    {kk : PUnit → Prog (TpuEff nD τ sig (Elt F) Λ₀ (.scVector (cV L) (jV L))) α} {Q : α → sProp 𝕄} :
    iprop((chrV.view.loc (thr d L) ↦{chrShare L tk} m (chrLoc d)) ∗ (∃ s, ipts s) ∗ semVal (thr d L, SemLoc.dma si) 0)
      ⊢ iprop((iprop(inFl m d L ipts si tk k ∗ chrV.view.loc (thr d L) ↦[Finset.univ \ chunkSet (wid L) k]{chrShare L tk} m (chrLoc d))
            -∗ wp frame (wpE (defs₀ (F := F)) 𝒱₀ (thr d L) none) Set.univ (kk ⟨⟩) Q)
        -∗ wp frame (wpE (defs₀ (F := F)) 𝒱₀ (thr d L) none) Set.univ
            (.op (TpuEff.enqueueDma (chrWin off hinb) (.here iM) (.dma si) h1 h2 h3) kk) Q) := by
  iintro ⟨Hc, ⟨%s, Hs⟩, Hv⟩ Hk
  ihave Hs' := (hex s) $$ Hs
  icases Hs' with ⟨%fd, Hd⟩
  ihave Hsp := (chr_chunk_rest (F := F) d L (wid L) k (chrShare L tk) (m (chrLoc d))).2 $$ Hc
  icases Hsp with ⟨Hck, Hrest⟩
  iapply (Transfers.wp_dmaLocal countersEmb 𝒱₀ (thr d L) none (src := chrWin off hinb) (dst := iM) (via := .same) (sm := .dma si)
      (q := chrShare L tk) (fs := m (chrLoc d)) (Sd := Finset.univ) (fd := fd) (default : HIx 1) 65536 rfl (by decide) (Finset.subset_univ _)) $$ [Hck Hd Hv]
  · isplitl [Hck]; · rw [hset]; iexact Hck
    isplitl [Hd]; · iexact Hd
    iexact Hv
  iintro Hfl
  iapply Hk
  isplitl [Hfl]
  · unfold inFl
    iapply (Transfers.Flight_mono countersEmb (thr d L) (in_delivery (F := F) m d L ipts hbr (chrShare L tk) k off hinb hset hemb fd)); iexact Hfl
  · iexact Hrest

theorem out_delivery {oM : Memref sig .scVector .vmem S2048 .f32} (opts : (S2048.Idx → Elt F .f32) → sProp 𝕄)
    (hback : ∀ fs : Buf (Elt F) (oM.view.loc (thr d L)), (oM.view.loc (thr d L) ↦[oM.view.set]{fullShare} fs : sProp 𝕄) ⊢ iprop(∃ o, opts o))
    (k : ℕ) (hk : k < 128) (off : Fin 1 → ℕ) (hinb : ∀ a, off a + S2048.size a ≤ S8388608.size a)
    (hemb : ∀ y, (outWin off hinb).view.emb y = chunkIx (wid L) k y)
    (fs : Buf (Elt F) (oM.view.loc (thr d L))) (hfs : ∀ y, oM.view.read (Elt F) fs y = Out m d (chunkIx (wid L) k y))
    (fd : Buf (Elt F) (outLoc d)) :
    iprop(((outWin off hinb).view.loc (thr d L) ↦[chunkSet (wid L) k]{fullShare}
          ((outWin off hinb).view.write (Elt F) fd ((ReadAs.same : ReadAs (Elt F) S2048 .f32 S2048 .f32).apply (oM.view.read (Elt F) fs)) Finset.univ))
        ∗ (oM.view.loc (thr d L) ↦[oM.view.set]{fullShare} fs))
      ⊢ (iprop((outV.view.loc (thr d L) ↦[chunkSet (wid L) k]{fullShare} Out m d) ∗ ∃ o, opts o) : sProp 𝕄) := by
  have hcg : ∀ j ∈ chunkSet (wid L) k,
      (outWin off hinb).view.write (Elt F) fd ((ReadAs.same : ReadAs (Elt F) S2048 .f32 S2048 .f32).apply (oM.view.read (Elt F) fs)) Finset.univ j = Out m d j := fun j hj => by
    obtain ⟨y, hy, -⟩ := chunkSet_eq_chunkIx (wid L) hk hj
    rw [← hy, ← hemb y, View.write_emb_of_mem _ _ (Finset.mem_univ y), hemb y]
    exact hfs y
  iintro ⟨Hw, Hs⟩
  isplitl [Hw]
  · iapply (out_chunk_congr (F := F) m d L (wid L) k _ hcg); iexact Hw
  · iapply (hback fs); iexact Hs

theorem issue_out {α : Type} {oM : Memref sig .scVector .vmem S2048 .f32} (opts : (S2048.Idx → Elt F .f32) → sProp 𝕄)
    (hfwd : ∀ o, opts o ⊢ iprop(∃ fs : Buf (Elt F) (oM.view.loc (thr d L)), ⌜oM.view.read (Elt F) fs = o⌝ ∗ oM.view.loc (thr d L) ↦[oM.view.set]{fullShare} fs))
    (hback : ∀ fs : Buf (Elt F) (oM.view.loc (thr d L)), (oM.view.loc (thr d L) ↦[oM.view.set]{fullShare} fs : sProp 𝕄) ⊢ iprop(∃ o, opts o))
    (so : DmaSem sig) (k : ℕ) (hk : k < 128) (off : Fin 1 → ℕ) (hinb : ∀ a, off a + S2048.size a ≤ S8388608.size a)
    (hset : (outWin off hinb).view.set = chunkSet (wid L) k) (hemb : ∀ y, (outWin off hinb).view.emb y = chunkIx (wid L) k y)
    {h1 : oM.view.WordExact} {h2 : (outWin off hinb).view.WordExact} {h3 : DmaTarget.Typed (nD := nD) .vmem (.dma so) (DmaTarget.here (outWin off hinb) : DmaTarget nD τ sig (.scVector (cV L) (jV L)) .hbm S2048 .f32)}
    {kk : PUnit → Prog (TpuEff nD τ sig (Elt F) Λ₀ (.scVector (cV L) (jV L))) α} {Q : α → sProp 𝕄} :
    iprop((∃ o, ⌜∀ y, o y = Out m d (chunkIx (wid L) k y)⌝ ∗ opts o)
        ∗ (∃ f, outV.view.loc (thr d L) ↦[chunkSet (wid L) k]{fullShare} f) ∗ semVal (thr d L, SemLoc.dma so) 0)
      ⊢ iprop((outFl m d L opts so k -∗ wp frame (wpE (defs₀ (F := F)) 𝒱₀ (thr d L) none) Set.univ (kk ⟨⟩) Q)
        -∗ wp frame (wpE (defs₀ (F := F)) 𝒱₀ (thr d L) none) Set.univ
            (.op (TpuEff.enqueueDma oM (.here (outWin off hinb)) (.dma so) h1 h2 h3) kk) Q) := by
  iintro ⟨⟨%o, %ho, Ho⟩, ⟨%f, Hf⟩, Hv⟩ Hk
  ihave Ho' := (hfwd o) $$ Ho
  icases Ho' with ⟨%fs, %hfs, Hs⟩
  iapply (Transfers.wp_dmaLocal countersEmb 𝒱₀ (thr d L) none (src := oM) (dst := outWin off hinb) (via := .same) (sm := .dma so)
      (q := fullShare) (fs := fs) (Sd := chunkSet (wid L) k) (fd := f) (default : HIx 1) 65536 rfl (by decide) (hset ▸ subset_rfl)) $$ [Hs Hf Hv]
  · iframe # ∗
  iintro Hfl
  iapply Hk
  unfold outFl
  iapply (Transfers.Flight_mono countersEmb (thr d L) (out_delivery (F := F) m d L opts hback k hk off hinb hemb fs (fun y => (congrFun hfs y).trans (ho y)) f)); iexact Hfl

theorem wPts_ex (b : Ref sig .scVector) (s : Buf (Elt F) ((Memref.whole b).view.loc (thr d L))) :
    wPts d L b s ⊢ iprop(∃ fd, (Memref.whole b).view.loc (thr d L) ↦{fullShare} fd) := by
  iintro H; iexists s; iexact H

/-- A whole buffer held at `o` is held through its own set at contents that read `o`. -/
theorem whole_fwd (b : Ref sig .scVector) (o : Buf (Elt F) ((Memref.whole b).view.loc (thr d L))) :
    wPts d L b o ⊢ iprop(∃ fs : Buf (Elt F) ((Memref.whole b).view.loc (thr d L)),
      ⌜(Memref.whole b).view.read (Elt F) fs = o⌝ ∗ (Memref.whole b).view.loc (thr d L) ↦[(Memref.whole b).view.set]{fullShare} fs) := by
  simp only [Memref.view_whole, View.set_whole]
  iintro H; iexists o; isplit
  · ipureintro; rfl
  · iexact H

theorem whole_back (b : Ref sig .scVector) (fs : Buf (Elt F) ((Memref.whole b).view.loc (thr d L))) :
    ((Memref.whole b).view.loc (thr d L) ↦[(Memref.whole b).view.set]{fullShare} fs : sProp 𝕄) ⊢ iprop(∃ o, wPts d L b o) := by
  simp only [Memref.view_whole, View.set_whole]
  iintro H; iexists fs; iexact H

end Cert.KI

end
-- ==== Proof.KI.LoopEnds.lean ====
import proofs.«204304_g88828513616490_cont_9to1c4b_177_25_alg».proof.Proof.KI.Issue

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem wait_out_last {α : Type} {oM : Memref sig .scVector .vmem S2048 .f32} (opts : (S2048.Idx → Elt F .f32) → sProp 𝕄)
    (so : DmaSem sig) (k : ℕ) (off : Fin 1 → ℕ) (hinb : ∀ a, off a + S2048.size a ≤ S8388608.size a)
    (O : CellTallies nD τ sig (HIx 1)) (W' : Waits sig (HIx 1))
    {h1 : oM.view.WordExact} {h2 : (outWin off hinb).view.WordExact}
    {kk : PUnit → Prog (TpuEff nD τ sig (Elt F) Λ₀ (.scVector (cV L) (jV L))) α} {Q : α → sProp 𝕄} :
    iprop(outFl m d L opts so k ∗ owes (thr d L) O W' ∗ Transfers.MayWaits (thr d L) (none : HIx 1) O)
      ⊢ iprop((iprop((outV.view.loc (thr d L) ↦[chunkSet (wid L) k]{fullShare} Out m d) ∗ (∃ o, opts o) ∗ semVal (thr d L, SemLoc.dma so) 0
              ∗ owes (thr d L) O (insert (SemLoc.dma so, (none : HIx 1)) W'))
            -∗ wp frame (wpE (defs₀ (F := F)) 𝒱₀ (thr d L) none) Set.univ (kk ⟨⟩) Q)
        -∗ wp frame (wpE (defs₀ (F := F)) 𝒱₀ (thr d L) none) Set.univ (.op (.waitDma2 so oM (outWin off hinb) h1 h2) kk) Q) := by
  unfold outFl
  iintro ⟨Hfl, HO, #Hmw⟩ Hk
  ihave Hm := (Transfers.MayWaits.elim (c := thr d L) (ι := (none : HIx 1)) (O := O) (SemLoc.dma so)) $$ Hmw
  iapply (Transfers.wp_waitLocalO countersEmb 𝒱₀ (thr d L) none (sem := so) (srcw := oM) (dstw := outWin off hinb) (none : HIx 1) (N := 65536) rfl) $$ [Hfl HO Hm]
  · iframe # ∗
  iintro ⟨⟨Hc, Ho⟩, Hv, HO⟩
  iapply Hk
  isplitl [Hc]; · iexact Hc
  isplitl [Ho]; · iexact Ho
  isplitl [Hv]; · iexact Hv
  iexact HO

end Cert.KI

end
-- ==== Proof.KI.Inner.lean ====
import proofs.«204304_g88828513616490_cont_9to1c4b_177_25_alg».proof.Proof.KI.TileInv
import Idealize.ShloMosaic.Lib.WritesUnit

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid1.Coords)

omit [FloatOps F] in
/-- Words read from a buffer whose every word is below 65536 name table entries. -/
theorem chk_lt {κ : Kind} {sp : Space} (v : View sig κ sp S2048 .i32) (f : v.ty.Contents (Elt F))
    (hs : ∀ y, (v.read (Elt F) f y).toNat < 65536) (off : Fin 1 → ℕ) (h : ∀ a, off a + S16.size a ≤ S2048.size a) :
    ∀ a x, ((![v.readAt (Elt F) (Rect.unit (s := S2048) off S16.size h).toLoadRect f] : Fin 1 → IVec S16 32) a x).toNat < S65536.size a := by
  intro a x
  obtain rfl : a = 0 := Subsingleton.elim _ _
  show (v.readAt (Elt F) (Rect.unit (s := S2048) off S16.size h).toLoadRect f x).toNat < 65536
  rw [View.readAt_apply]
  exact hs _

omit [FloatOps F] in
theorem pts_tv_access (f : S65536.Idx → Elt F .f32) :
    (((tvV.access (.whole S65536)).loc (thr d L) ↦{fullShare} f : sProp 𝕄)) = (tvV.view.loc (thr d L) ↦{fullShare} f) := rfl

omit [FloatOps F] in
/-- A gathered lane is the table at the entry its index word names, since that word is below 65536. -/
theorem gath16 {κ : Kind} {sp : Space} (v : View sig κ sp S2048 .i32) (f : v.ty.Contents (Elt F)) (Tv : S65536.Idx → Elt F .f32)
    (hs : ∀ y, (v.read (Elt F) f y).toNat < 65536) {off : Fin 1 → ℕ} {c : ℕ} (inb : ∀ a, off a + S16.size a ≤ S2048.size a)
    (h : ∀ a x, ((![v.readAt (Elt F) (Rect.unit (s := S2048) off S16.size inb).toLoadRect f] : Fin 1 → IVec S16 32) a x).toNat < S65536.size a)
    (heq : off = ![c]) (x : S16.Idx) (y : S2048.Idx) (hy : (y 0).val = c + (x 0).val) :
    loadIdx (View.read (Elt F) (tvV.access (Rect.whole S65536)) Tv)
        (![v.readAt (Elt F) (Rect.unit (s := S2048) off S16.size inb).toLoadRect f] : Fin 1 → IVec S16 32) h x
      = Tv (Cert.Spec.tix (v.read (Elt F) f y)) := by
  subst heq
  have hxy : (Rect.unit (s := S2048) ![c] S16.size inb).toLoadRect.idx x = y := funext fun a => Fin.ext (by
    obtain rfl : a = 0 := Subsingleton.elim _ _
    show c + 1 * (x 0).val = (y 0).val
    omega)
  have hrd : View.read (Elt F) (tvV.access (Rect.whole S65536)) Tv = Tv := Memref.read_access_whole (Elt F) cc1_scratch0 Tv
  unfold loadIdx
  rw [hrd]
  congr 1
  funext a
  obtain rfl : a = 0 := Subsingleton.elim _ _
  apply Fin.ext
  show (v.readAt (Elt F) (Rect.unit (s := S2048) ![c] S16.size inb).toLoadRect f x).toNat = (v.read (Elt F) f y).toNat % 65536
  rw [View.readAt_apply, hxy, Nat.mod_eq_of_lt (hs y)]

omit [FloatOps F] in
/-- Sixteen words stored at `c` that agree with `G` there carry agreement with `G` from below `c` to below `c + 16`. -/
theorem good_cons {κ : Kind} {sp : Space} (v : View sig κ sp S2048 .f32) (f : v.ty.Contents (Elt F)) (G : S2048.Idx → Elt F .f32)
    {off : Fin 1 → ℕ} {c : ℕ} (inb : ∀ a, off a + S16.size a ≤ S2048.size a)
    (w : (Rect.unit (s := S2048) off S16.size inb).shape.Idx → Elt F .f32) (L : List (View.Piece (Elt F) S2048 .f32)) (y : S2048.Idx)
    (heq : off = ![c]) (hlt : (y 0).val < c + 16) (hw : ∀ x, (y 0).val = c + (x 0).val → w x = G y)
    (h : (y 0).val < c → v.read (Elt F) (v.writes (Elt F) f L) y = G y) :
    v.read (Elt F) (v.writes (Elt F) f ((⟨Rect.unit off S16.size inb, w⟩ : View.Piece (Elt F) S2048 .f32) :: L)) y = G y := by
  by_cases hin : c ≤ (y 0).val
  · have hall : ∀ a : Fin 1, (![c] : Fin 1 → ℕ) a ≤ (y a).val ∧ (y a).val < (![c] : Fin 1 → ℕ) a + S16.size a := Fin.forall_fin_one.mpr ⟨hin, hlt⟩
    rw [View.read_writes_cons_unit_of_mem v f inb w L y (Rect.unitLocal (s := S2048) (off := ![c]) (size := S16.size) y hall) heq
      (fun a => by have := hall a; rw [Rect.unitLocal_val]; omega)]
    exact hw _ (by rw [Rect.unitLocal_val]; show (y 0).val = c + ((y 0).val - c); omega)
  · rw [View.read_writes_cons_unit_of_not_mem v f inb w L y heq 0 (by
      show (y 0).val < c ∨ c + 16 ≤ (y 0).val
      omega)]
    exact h (by omega)

theorem trips0 : Scf.trips k1_t2_loop.lb k1_t2_loop.ub k1_t2_loop.st = 16 := by decide

variable {iM : Memref sig .scVector .vmem S2048 .i32} (hi : iM.IsWhole) {oM : Memref sig .scVector .vmem S2048 .f32} (ho : oM.IsWhole)

/-- After `k` trips the out scratch's first `128 k` words are the table at the entries the index scratch names. -/
def gInv (Tv : S65536.Idx → Elt F .f32) (fi : Buf (Elt F) (iM.view.loc (thr d L))) (k : ℕ) (_ : BitVec 32) : sProp 𝕄 :=
  iprop((tvV.view.loc (thr d L) ↦{fullShare} Tv) ∗ (iM.view.loc (thr d L) ↦{fullShare} fi)
    ∗ ∃ fo : Buf (Elt F) (oM.view.loc (thr d L)),
        ⌜∀ y : S2048.Idx, (y 0).val < 128 * k → oM.view.read (Elt F) fo y = Tv (Cert.Spec.tix (iM.view.read (Elt F) fi y))⌝
        ∗ (oM.view.loc (thr d L) ↦{fullShare} fo))

set_option maxHeartbeats 4000000 in
/-- The gather loop of any slot: sixteen trips of eight checked loads, eight gathers and eight stores fill the out scratch with the table gathered at the index scratch, which is only read, like the table. -/
theorem inner (t : Fin k1_t1_loop.trips) (ini v2 c0 c1 : BitVec 32) (Tv : S65536.Idx → Elt F .f32)
    (fi : Buf (Elt F) (iM.view.loc (thr d L))) (fo : Buf (Elt F) (oM.view.loc (thr d L))) (hs : ∀ y, (iM.view.read (Elt F) fi y).toNat < 65536) :
    (iprop((tvV.view.loc (thr d L) ↦{fullShare} Tv) ∗ (iM.view.loc (thr d L) ↦{fullShare} fi)
        ∗ (oM.view.loc (thr d L) ↦{fullShare} fo)) : sProp 𝕄)
      ⊢ wp frame (wpE (defs₀ (F := F)) 𝒱₀ (thr d L) none) Set.univ
          (Scf.Loop.for k1_t2_loop k1_t2_ok ini (k1_t2_body L tblV (Memref.isWhole_whole _) chrV (Memref.isWhole_whole _) outV (Memref.isWhole_whole _) tvV (Memref.isWhole_whole _) shV (Memref.isWhole_whole _)
            iM hi iM hi iM hi iM hi iM hi iM hi iM hi iM hi oM ho oM ho oM ho oM ho oM ho oM ho oM ho oM ho
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 v2 c0 c1 t))
          fun _ => iprop((tvV.view.loc (thr d L) ↦{fullShare} Tv) ∗ (iM.view.loc (thr d L) ↦{fullShare} fi)
            ∗ ∃ fo' : Buf (Elt F) (oM.view.loc (thr d L)), ⌜∀ y, oM.view.read (Elt F) fo' y = Tv (Cert.Spec.tix (iM.view.read (Elt F) fi y))⌝
              ∗ (oM.view.loc (thr d L) ↦{fullShare} fo')) := by
  iintro ⟨Htv, Hs, Ho⟩
  sl_for (gInv d L (iM := iM) (oM := oM) Tv fi) $$ [Htv Hs Ho]
  case region =>
    intro k acc
    unfold gInv
    iintro ⟨Htv, Hs, %o', %ho', Ho⟩
    iterate 8
      sl_exec
      rw [wp_assume_of]
      pick_goal 2
      · exact chk_lt (F := F) iM.view fi hs _ _
    ihave Htv := (Entails.of_eq (pts_tv_access (F := F) d L Tv).symm) $$ Htv
    iterate 8
      iapply (SparseCore.wp_vectorLoadIdx 𝒱₀ (thr d L) none Set.univ (base := tvV) (S := Finset.univ) (q := fullShare) (Finset.subset_univ _)) $$ Htv; iintro Htv
    ihave Htv := (Entails.of_eq (pts_tv_access (F := F) d L Tv)) $$ Htv
    sl_exec
    sl_step
    isplitl [Htv]; · iexact Htv
    isplitl [Hs]; · iexact Hs
    iexists _; isplitr
    swap; · iexact Ho
    ipureintro
    intro y hy
    sl_unfold_run_names
    let G : S2048.Idx → Elt F .f32 := fun y => Tv (Cert.Spec.tix (iM.view.read (Elt F) fi y))
    refine good_cons (F := F) oM.view _ G _ _ _ y (c := 128 * k.val + 112) (k1_off6_eq k 7) (by omega) (fun x hx => gath16 (F := F) iM.view fi Tv hs _ _ (k1_off5_eq k 7) x y hx) fun _ => ?_
    refine good_cons (F := F) oM.view _ G _ _ _ y (c := 128 * k.val + 96) (k1_off6_eq k 6) (by omega) (fun x hx => gath16 (F := F) iM.view fi Tv hs _ _ (k1_off5_eq k 6) x y hx) fun _ => ?_
    refine good_cons (F := F) oM.view _ G _ _ _ y (c := 128 * k.val + 80) (k1_off6_eq k 5) (by omega) (fun x hx => gath16 (F := F) iM.view fi Tv hs _ _ (k1_off5_eq k 5) x y hx) fun _ => ?_
    refine good_cons (F := F) oM.view _ G _ _ _ y (c := 128 * k.val + 64) (k1_off6_eq k 4) (by omega) (fun x hx => gath16 (F := F) iM.view fi Tv hs _ _ (k1_off5_eq k 4) x y hx) fun _ => ?_
    refine good_cons (F := F) oM.view _ G _ _ _ y (c := 128 * k.val + 48) (k1_off6_eq k 3) (by omega) (fun x hx => gath16 (F := F) iM.view fi Tv hs _ _ (k1_off5_eq k 3) x y hx) fun _ => ?_
    refine good_cons (F := F) oM.view _ G _ _ _ y (c := 128 * k.val + 32) (k1_off6_eq k 2) (by omega) (fun x hx => gath16 (F := F) iM.view fi Tv hs _ _ (k1_off5_eq k 2) x y hx) fun _ => ?_
    refine good_cons (F := F) oM.view _ G _ _ _ y (c := 128 * k.val + 16) (k1_off6_eq k 1) (by omega) (fun x hx => gath16 (F := F) iM.view fi Tv hs _ _ (k1_off5_eq k 1) x y hx) fun _ => ?_
    refine good_cons (F := F) oM.view _ G _ _ _ y (c := 128 * k.val + 0) (k1_off6_eq k 0) (by omega) (fun x hx => gath16 (F := F) iM.view fi Tv hs _ _ (k1_off5_eq k 0) x y hx) fun _ => ?_
    exact ho' y (by omega)
  · unfold gInv
    isplitl [Htv Hs Ho]
    · isplitl [Htv]; · iexact Htv
      isplitl [Hs]; · iexact Hs
      iexists fo; isplitr
      · ipureintro; intro y hy; omega
      · iexact Ho
    · iintro %acc ⟨Htv, Hs, %o', %ho', Ho⟩
      isplitl [Htv]; · iexact Htv
      isplitl [Hs]; · iexact Hs
      iexists o'; isplitr
      · ipureintro; intro y; exact ho' y (by rw [trips0]; have h2048 : (y 0).val < 2048 := (y 0).isLt; show (y 0).val < 128 * 16; omega)
      · iexact Ho

end Cert.KI

end
-- ==== Proof.KI.Trip.lean ====
import proofs.«204304_g88828513616490_cont_9to1c4b_177_25_alg».proof.Proof.KI.TileLemmas
import proofs.«204304_g88828513616490_cont_9to1c4b_177_25_alg».proof.Proof.KI.Inner
import proofs.«204304_g88828513616490_cont_9to1c4b_177_25_alg».proof.Proof.KI.Issue

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev OW (O : CellTallies nD τ sig (HIx 1)) (W : Waits sig (HIx 1)) : sProp 𝕄 :=
  iprop(∃ W', ⌜∀ p ∈ W', p ∈ W ∨ p.2 = none⌝ ∗ owes (thr d L) O W')

def dn (t j : ℕ) : ℕ := if 0 < t then 8 * t - 8 + j else 0

abbrev doneTo (n : ℕ) : sProp 𝕄 :=
  bigSep (Finset.range n) fun k => outV.view.loc (thr d L) ↦[chunkSet (wid L) k]{fullShare} Out m d

abbrev todoFrom (n : ℕ) : sProp 𝕄 :=
  bigSep (Finset.Ico n 128) fun k => iprop(∃ f, outV.view.loc (thr d L) ↦[chunkSet (wid L) k]{fullShare} f)

theorem doneTo_succ (n : ℕ) :
    iprop((outV.view.loc (thr d L) ↦[chunkSet (wid L) n]{fullShare} Out m d) ∗ doneTo m d L n) ⊢ doneTo m d L (n + 1) := by
  unfold doneTo
  rw [Finset.range_add_one, bigSep_insert (Finset.notMem_range_self)]
  exact .rfl

theorem cond1_iff : ∀ t : Fin k1_t1_loop.trips, k1_cond1 t = 1#1 ↔ 0 < t.val := by decide +kernel
theorem cond3_iff : ∀ t : Fin k1_t1_loop.trips, k1_cond3 t = 1#1 ↔ 0 < t.val := by decide +kernel
theorem cond5_iff : ∀ t : Fin k1_t1_loop.trips, k1_cond5 t = 1#1 ↔ 0 < t.val := by decide +kernel
theorem cond7_iff : ∀ t : Fin k1_t1_loop.trips, k1_cond7 t = 1#1 ↔ 0 < t.val := by decide +kernel
theorem cond9_iff : ∀ t : Fin k1_t1_loop.trips, k1_cond9 t = 1#1 ↔ 0 < t.val := by decide +kernel
theorem cond11_iff : ∀ t : Fin k1_t1_loop.trips, k1_cond11 t = 1#1 ↔ 0 < t.val := by decide +kernel
theorem cond13_iff : ∀ t : Fin k1_t1_loop.trips, k1_cond13 t = 1#1 ↔ 0 < t.val := by decide +kernel
theorem cond15_iff : ∀ t : Fin k1_t1_loop.trips, k1_cond15 t = 1#1 ↔ 0 < t.val := by decide +kernel
theorem cond2_iff : ∀ t : Fin k1_t1_loop.trips, k1_cond2 t = 1#1 ↔ t.val < 15 := by decide +kernel
theorem cond4_iff : ∀ t : Fin k1_t1_loop.trips, k1_cond4 t = 1#1 ↔ t.val < 15 := by decide +kernel
theorem cond6_iff : ∀ t : Fin k1_t1_loop.trips, k1_cond6 t = 1#1 ↔ t.val < 15 := by decide +kernel
theorem cond8_iff : ∀ t : Fin k1_t1_loop.trips, k1_cond8 t = 1#1 ↔ t.val < 15 := by decide +kernel
theorem cond10_iff : ∀ t : Fin k1_t1_loop.trips, k1_cond10 t = 1#1 ↔ t.val < 15 := by decide +kernel
theorem cond12_iff : ∀ t : Fin k1_t1_loop.trips, k1_cond12 t = 1#1 ↔ t.val < 15 := by decide +kernel
theorem cond14_iff : ∀ t : Fin k1_t1_loop.trips, k1_cond14 t = 1#1 ↔ t.val < 15 := by decide +kernel
theorem cond16_iff : ∀ t : Fin k1_t1_loop.trips, k1_cond16 t = 1#1 ↔ t.val < 15 := by decide +kernel

theorem trips_lt (t : Fin k1_t1_loop.trips) : t.val < 16 := lt_of_lt_of_le t.isLt k1_t1_abs.2.1

theorem off3_chunk (t : Fin k1_t1_loop.trips) (r : Fin 8) :
    k1_off3 L t (BitVec.ofNat 32 r.val) = ![2048 * (128 * (wid L).val + (8 * t.val + r.val))] := by
  rw [k1_off3_eq]
  refine congrArg (fun x : ℕ => ![x]) ?_
  show 524288 * (L 1).val + 262144 * (L 0).val + 16384 * t.val + 2048 * r.val = 2048 * (128 * (2 * (L 1).val + (L 0).val) + (8 * t.val + r.val))
  omega

theorem offN_chunk (t : Fin k1_t1_loop.trips) (c r : ℕ) (hc : c = 16384 + 2048 * r) :
    (![524288 * (L 1).val + 262144 * (L 0).val + 16384 * t.val + c] : Fin 1 → ℕ) = ![2048 * (128 * (wid L).val + (8 * (t.val + 1) + r))] := by
  refine congrArg (fun x : ℕ => ![x]) ?_
  show 524288 * (L 1).val + 262144 * (L 0).val + 16384 * t.val + c = 2048 * (128 * (2 * (L 1).val + (L 0).val) + (8 * (t.val + 1) + r))
  omega

theorem set_unit_chunk (off : Fin 1 → ℕ) (inb : ∀ a, off a + S2048.size a ≤ S8388608.size a) (c : ℕ) (hoff : off = ![2048 * c]) :
    (Rect.unit (s := S8388608) off S2048.size inb).set = Finset.univ.filter (fun j : S8388608.Idx => (j 0).val / 2048 = c) := by
  subst hoff
  ext j
  rw [Rect.mem_set_unit, Finset.mem_filter]
  constructor
  · intro h
    have h0 := h 0
    simp only [Matrix.cons_val_zero] at h0
    refine ⟨Finset.mem_univ _, ?_⟩
    have : S2048.size 0 = 2048 := rfl
    omega
  · rintro ⟨-, h⟩ a
    obtain rfl : a = 0 := Subsingleton.elim _ _
    simp only [Matrix.cons_val_zero]
    have : S2048.size 0 = 2048 := rfl
    omega

theorem chr_win_set (off : Fin 1 → ℕ) (inb : ∀ a, off a + S2048.size a ≤ S8388608.size a) (hsl) (n : Fin 32) (k : ℕ)
    (hoff : off = ![2048 * (128 * n.val + k)]) :
    (chrV.slice (Rect.unit (s := S8388608) off S2048.size inb) hsl).view.set = chunkSet n k := by
  show ((View.whole main_arg0_scv).slice (Rect.unit (s := S8388608) off S2048.size inb)).set = _
  rw [View.set_slice_whole]
  exact set_unit_chunk off inb _ hoff
theorem out_win_set (off : Fin 1 → ℕ) (inb : ∀ a, off a + S2048.size a ≤ S8388608.size a) (hsl) (n : Fin 32) (k : ℕ)
    (hoff : off = ![2048 * (128 * n.val + k)]) :
    (outV.slice (Rect.unit (s := S8388608) off S2048.size inb) hsl).view.set = chunkSet n k := by
  show ((View.whole main_v3_scv).slice (Rect.unit (s := S8388608) off S2048.size inb)).set = _
  rw [View.set_slice_whole]
  exact set_unit_chunk off inb _ hoff

theorem chr_win_emb (off : Fin 1 → ℕ) (inb : ∀ a, off a + S2048.size a ≤ S8388608.size a) (hsl) (n : Fin 32) (k : ℕ)
    (hoff : off = ![2048 * (128 * n.val + k)]) (hk : k < 128) (y : S2048.Idx) :
    (chrV.slice (Rect.unit (s := S8388608) off S2048.size inb) hsl).view.emb y = chunkIx n k y := by
  have h : (Rect.unit (s := S8388608) off S2048.size inb).emb y = chunkIx n k y := by
    funext a
    obtain rfl : a = 0 := Fin.fin_one_eq_zero a
    refine Fin.ext ?_
    rw [chunkIx_val n hk]
    subst hoff
    show 2048 * (128 * n.val + k) + 1 * (y 0).val = _
    omega
  exact h
theorem out_win_emb (off : Fin 1 → ℕ) (inb : ∀ a, off a + S2048.size a ≤ S8388608.size a) (hsl) (n : Fin 32) (k : ℕ)
    (hoff : off = ![2048 * (128 * n.val + k)]) (hk : k < 128) (y : S2048.Idx) :
    (outV.slice (Rect.unit (s := S8388608) off S2048.size inb) hsl).view.emb y = chunkIx n k y := by
  have h : (Rect.unit (s := S8388608) off S2048.size inb).emb y = chunkIx n k y := by
    funext a
    obtain rfl : a = 0 := Fin.fin_one_eq_zero a
    refine Fin.ext ?_
    rw [chunkIx_val n hk]
    subst hoff
    show 2048 * (128 * n.val + k) + 1 * (y 0).val = _
    omega
  exact h

theorem wp_waitIn {α : Type} {Q : α → sProp 𝕄} (O : CellTallies nD τ sig (HIx 1)) (W : Waits sig (HIx 1))
    (ipts : (S2048.Idx → BitVec 32) → sProp 𝕄) (si : DmaSem sig) (tk k t : ℕ) (ht : t < 16)
    {sp' : Space} {s' : Shape} {e' : EltTy} (srcw : Memref sig .scVector sp' s' e') (a : Memref sig .scVector .vmem S2048 .i32)
    (hsrc : srcw.view.WordExact) (hdst : a.view.WordExact) (hcr : a.view.dmaCredit = 65536)
    (kk : PUnit → Prog (TpuEff nD τ sig (Elt F) Λ₀ (.scVector (cV L) (jV L))) α) :
    iprop(Transfers.MayWaits (thr d L) (none : HIx 1) O ∗ slotIn m d L ipts si tk k (t < 16) ∗ OW d L O W)
      ⊢ iprop((iprop((∃ s, ⌜IdxHolds m d (wid L) k s⌝ ∗ ipts s) ∗ semVal (thr d L, SemLoc.dma si) 0
              ∗ (chrV.view.loc (thr d L) ↦{chrShare L tk} m (chrLoc d)) ∗ OW d L O W)
            -∗ wp frame (wpE (defs₀ (F := F)) 𝒱₀ (thr d L) none) Set.univ (kk ⟨⟩) Q)
          -∗ wp frame (wpE (defs₀ (F := F)) 𝒱₀ (thr d L) none) Set.univ (.op (.waitDma2 si srcw a hsrc hdst) kk) Q) := by
  unfold slotIn inFl OW
  rw [if_pos ht]
  iintro ⟨#Hmw, ⟨HF, Hrest⟩, ⟨%W', %hW', HO⟩⟩ Hk
  iapply (Transfers.wp_waitLocalO countersEmb 𝒱₀ (thr d L) none (none : HIx 1) hcr) $$ [HF HO]
  · isplitl [HF]; · iexact HF
    isplitl [HO]; · iexact HO
    iapply (Transfers.MayWaits.elim (SemLoc.dma si)); iexact Hmw
  iintro ⟨⟨Hs, Hc⟩, Hv, HO⟩
  iapply Hk
  isplitl [Hs]; · iexact Hs
  isplitl [Hv]; · iexact Hv
  isplitl [Hc Hrest]
  · iapply (pointsTo_split_subset (Finset.subset_univ (chunkSet (wid L) k))).2
    isplitl [Hc]; · iexact Hc
    iexact Hrest
  · iexists (insert (SemLoc.dma si, (none : HIx 1)) W')
    isplitr
    · ipureintro
      intro p hp
      rcases Finset.mem_insert.mp hp with h | hp
      · exact Or.inr (by rw [h])
      · exact hW' p hp
    · iexact HO

theorem dn_zero (t : ℕ) : dn t 0 = 8 * t - 8 := by unfold dn; split <;> omega
theorem dn_eight (t : ℕ) : dn t 8 = 8 * (t + 1) - 8 := by unfold dn; split <;> omega

theorem wp_waitOut {α : Type} {Q : α → sProp 𝕄} (O : CellTallies nD τ sig (HIx 1)) (W : Waits sig (HIx 1))
    (opts : (S2048.Idx → Elt F .f32) → sProp 𝕄) (so : DmaSem sig) (k t j j' : ℕ) (hj : j' = j + 1) (hk : 0 < t → k = 8 * t - 8 + j)
    (c : Prop) [Decidable c] (hc : c ↔ 0 < t)
    {sp' : Space} {s' : Shape} {e' : EltTy} (srcw : Memref sig .scVector sp' s' e') (dstw : c → Memref sig .scVector .hbm S2048 .f32)
    (hsrc : srcw.view.WordExact) (hdst : ∀ h, (dstw h).view.WordExact) (hcr : ∀ h, (dstw h).view.dmaCredit = 65536)
    (K : Prog (TpuEff nD τ sig (Elt F) Λ₀ (.scVector (cV L) (jV L))) α) :
    iprop(Transfers.MayWaits (thr d L) (none : HIx 1) O ∗ slotOut m d L opts so k (0 < t) ∗ doneTo m d L (dn t j) ∗ OW d L O W)
      ⊢ iprop((iprop((∃ f, opts f) ∗ semVal (thr d L, SemLoc.dma so) 0 ∗ doneTo m d L (dn t j') ∗ OW d L O W)
            -∗ wp frame (wpE (defs₀ (F := F)) 𝒱₀ (thr d L) none) Set.univ K Q)
          -∗ wp frame (wpE (defs₀ (F := F)) 𝒱₀ (thr d L) none) Set.univ
              (if h : c then .op (.waitDma2 so srcw (dstw h) hsrc (hdst h)) (fun _ => K) else K) Q) := by
  subst hj
  unfold slotOut outFl OW
  by_cases ht : 0 < t
  · rw [if_pos ht, dif_pos (hc.mpr ht)]
    iintro ⟨#Hmw, HF, Hdn, ⟨%W', %hW', HO⟩⟩ Hk
    iapply (Transfers.wp_waitLocalO countersEmb 𝒱₀ (thr d L) none (none : HIx 1) (hcr (hc.mpr ht))) $$ [HF HO]
    · isplitl [HF]; · iexact HF
      isplitl [HO]; · iexact HO
      iapply (Transfers.MayWaits.elim (SemLoc.dma so)); iexact Hmw
    iintro ⟨⟨Hc, Ho⟩, Hv, HO⟩
    iapply Hk
    isplitl [Ho]; · iexact Ho
    isplitl [Hv]; · iexact Hv
    isplitl [Hc Hdn]
    · have e : dn t (j + 1) = dn t j + 1 := by unfold dn; rw [if_pos ht, if_pos ht]; omega
      have ek : k = dn t j := by rw [hk ht]; unfold dn; rw [if_pos ht]
      rw [e]
      iapply (doneTo_succ m d L (dn t j))
      isplitl [Hc]; · rw [← ek]; iexact Hc
      iexact Hdn
    · iexists (insert (SemLoc.dma so, (none : HIx 1)) W')
      isplitr
      · ipureintro
        intro p hp
        rcases Finset.mem_insert.mp hp with h | hp
        · exact Or.inr (by rw [h])
        · exact hW' p hp
      · iexact HO
  · rw [if_neg ht, dif_neg (fun h => ht (hc.mp h))]
    iintro ⟨#Hmw, ⟨Ho, Hv⟩, Hdn, HOW⟩ Hk
    iapply Hk
    isplitl [Ho]; · iexact Ho
    isplitl [Hv]; · iexact Hv
    isplitl [Hdn]
    · have e : dn t (j + 1) = dn t j := by unfold dn; rw [if_neg ht, if_neg ht]
      rw [e]; iexact Hdn
    · iexact HOW

theorem wp_bind_of {α β : Type} {Q : α → sProp 𝕄} (p : Prog (TpuEff nD τ sig (Elt F) Λ₀ (.scVector (cV L) (jV L))) β)
    (kk : β → Prog (TpuEff nD τ sig (Elt F) Λ₀ (.scVector (cV L) (jV L))) α) (P : sProp 𝕄) (R : β → sProp 𝕄)
    (h : P ⊢ wp frame (wpE (defs₀ (F := F)) 𝒱₀ (thr d L) none) Set.univ p R) :
    P ⊢ iprop((∀ v, R v -∗ wp frame (wpE (defs₀ (F := F)) 𝒱₀ (thr d L) none) Set.univ (kk v) Q)
          -∗ wp frame (wpE (defs₀ (F := F)) 𝒱₀ (thr d L) none) Set.univ (p >>= kk) Q) := by
  rw [wp_bind]
  iintro HP Hk
  iapply (wp_wand_r frame (wpE (defs₀ (F := F)) 𝒱₀ (thr d L) none) Set.univ (Q := R))
  isplitl [HP]
  · iapply h; iexact HP
  · iexact Hk

theorem credit_i32 {sp : Space} (v : View sig .scVector sp S2048 .i32) : v.dmaCredit = 65536 := rfl
theorem credit_f32 {sp : Space} (v : View sig .scVector sp S2048 .f32) : v.dmaCredit = 65536 := rfl

theorem todo_take (n n' : ℕ) (hn' : n' = n + 1) (hn : n < 128) :
    todoFrom (F := F) d L n ⊢ iprop((∃ f, outV.view.loc (thr d L) ↦[chunkSet (wid L) n]{fullShare} f) ∗ todoFrom (F := F) d L n') := by
  subst hn'
  unfold todoFrom
  have e : Finset.Ico n 128 = insert n (Finset.Ico (n + 1) 128) := by
    ext x; simp only [Finset.mem_insert, Finset.mem_Ico]; omega
  rw [e, bigSep_insert (by simp only [Finset.mem_Ico]; omega)]
  exact .rfl

theorem wp_issueIn_if {α : Type} {Q : α → sProp 𝕄} (ipts : (S2048.Idx → BitVec 32) → sProp 𝕄) (si : DmaSem sig) (tk k t : ℕ)
    (c : Prop) [Decidable c] (hc : c ↔ t < 15)
    (P : c → Prog (TpuEff nD τ sig (Elt F) Λ₀ (.scVector (cV L) (jV L))) α) (K : Prog (TpuEff nD τ sig (Elt F) Λ₀ (.scVector (cV L) (jV L))) α)
    (hP : ∀ h : c, iprop((chrV.view.loc (thr d L) ↦{chrShare L tk} m (chrLoc d)) ∗ (∃ s, ipts s) ∗ semVal (thr d L, SemLoc.dma si) 0)
      ⊢ iprop((iprop(inFl m d L ipts si tk k ∗ chrV.view.loc (thr d L) ↦[Finset.univ \ chunkSet (wid L) k]{chrShare L tk} m (chrLoc d))
            -∗ wp frame (wpE (defs₀ (F := F)) 𝒱₀ (thr d L) none) Set.univ K Q)
        -∗ wp frame (wpE (defs₀ (F := F)) 𝒱₀ (thr d L) none) Set.univ (P h) Q)) :
    iprop((chrV.view.loc (thr d L) ↦{chrShare L tk} m (chrLoc d)) ∗ (∃ s, ipts s) ∗ semVal (thr d L, SemLoc.dma si) 0)
      ⊢ iprop((slotIn m d L ipts si tk k (t + 1 < 16) -∗ wp frame (wpE (defs₀ (F := F)) 𝒱₀ (thr d L) none) Set.univ K Q)
        -∗ wp frame (wpE (defs₀ (F := F)) 𝒱₀ (thr d L) none) Set.univ (if h : c then P h else K) Q) := by
  unfold slotIn
  by_cases ht : t < 15
  · rw [dif_pos (hc.mpr ht), if_pos (show t + 1 < 16 by omega)]
    exact hP (hc.mpr ht)
  · rw [dif_neg (fun h => ht (hc.mp h)), if_neg (show ¬ t + 1 < 16 by omega)]
    iintro ⟨Hc, Hs, Hv⟩ Hk
    iapply Hk
    isplitl [Hs]; · iexact Hs
    isplitl [Hv]; · iexact Hv
    iexact Hc

theorem gathered_out (k : ℕ) (s : S2048.Idx → BitVec 32) (o : S2048.Idx → Elt F .f32) (hs : IdxHolds m d (wid L) k s)
    (ho : ∀ y, o y = Tb m d (Cert.Spec.tix (s y))) : ∀ y, o y = Out m d (chunkIx (wid L) k y) := fun y => by
  rw [ho y, hs y]; rfl

theorem outFl_slotOut (opts : (S2048.Idx → Elt F .f32) → sProp 𝕄) (so : DmaSem sig) (k k' t : ℕ) (hk : k' = k) :
    outFl m d L opts so k ⊢ slotOut m d L opts so k' (0 < t + 1) := by
  subst hk
  unfold slotOut
  rw [if_pos (Nat.succ_pos t)]

set_option maxHeartbeats 4000000 in
theorem trip (hpre : PreOK m) (O : CellTallies nD τ sig (HIx 1)) (W : Waits sig (HIx 1)) (v2 : BitVec 32) (t : Fin k1_t1_loop.trips) :
      Inv m d L O W t.val () ⊢ wp frame (wpE (defs₀ (F := F)) 𝒱₀ (thr d L) none) Set.univ (k1_t1_body L tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 v2 t ()) fun _ => Inv m d L O W (t.val + 1) () := by
  have ht : t.val < 16 := trips_lt t
  unfold Inv
  rw [← dn_zero t.val, ← dn_eight t.val]
  iintro ⟨#Hmw, Htv, HI0, HO0, HI1, HO1, HI2, HO2, HI3, HO3, HI4, HO4, HI5, HO5, HI6, HO6, HI7, HO7, Hdn, Htd, HOW⟩
  unfold k1_t1_body

  rw [wp_bind]
  rw [k1_part9_eq_skeleton]; unfold k1_part9_skel
  simp only [Prog.lift, Prog.bind_op, Prog.bind_ret, Prog.pure_eq_ret, Prog.bind_assoc]

  iapply (wp_waitIn m d L O W _ _ 2 (8 * t.val + 0) t.val ht _ _ _ _ (credit_i32 _)) $$ [HI0 HOW]
  · iframe # ∗
  iintro ⟨Hs0, Hv0, Hc0, HOW⟩

  iapply (wp_waitOut m d L O W _ _ (8 * t.val + 0 - 8) t.val 0 1 rfl (fun h => by omega) _ (cond1_iff t) _ _ _ _ (fun _ => credit_f32 _)) $$ [HO0 Hdn HOW]
  · iframe # ∗
  iintro ⟨Hb0, Hw0, Hdn, HOW⟩

  icases Hs0 with ⟨%s0, %hs0, Ha0⟩
  icases Hb0 with ⟨%f0, Ho0⟩
  iapply (wp_bind_of d L _ _ _ _ (inner d L (iM := Memref.whole cc1_scratch2) (oM := Memref.whole cc1_scratch10) (Memref.isWhole_whole _) (Memref.isWhole_whole _) t _ _ _ _ (Tb m d) s0 f0 (fun y => by show (s0 y).toNat < _; rw [hs0 y]; exact hpre d _))) $$ [Htv Ha0 Ho0] <;> try exact 0#32
  · iframe # ∗
  iintro %r0 ⟨Htv, Ha0, ⟨%o0, %ho0, Ho0⟩⟩

  ihave Htk := (todo_take (F := F) d L (8 * t.val + 0) (8 * t.val + 1) (by omega) (by omega)) $$ Htd
  icases Htk with ⟨Hck, Htd⟩
  iapply (issue_out (F := F) m d L (oM := Memref.whole cc1_scratch10) (wPts d L cc1_scratch10) (whole_fwd d L cc1_scratch10) (whole_back d L cc1_scratch10) cc1_scratch26.sem (8 * t.val + 0) (by omega) (k1_off3 L t 0#32) (k1_off3_inb L t 0)
      (out_win_set _ _ _ (wid L) _ (off3_chunk L t 0)) (fun y => out_win_emb _ _ _ (wid L) _ (off3_chunk L t 0) (by omega) y)) $$ [Ho0 Hck Hw0]
  · isplitl [Ho0]
    · iexists o0; isplitr; · ipureintro; exact gathered_out m d L _ s0 o0 hs0 ho0
      iexact Ho0
    isplitl [Hck]; · iexact Hck
    iexact Hw0
  iintro HO0
  ihave HO0 := (outFl_slotOut m d L _ _ (8 * t.val + 0) (8 * (t.val + 1) + 0 - 8) t.val (by omega)) $$ HO0

  iapply (wp_issueIn_if m d L _ cc1_scratch18.sem 2 (8 * (t.val + 1) + 0) t.val _ (cond2_iff t) _ _
      (fun h => issue_in (F := F) m d L (iM := Memref.whole cc1_scratch2) (wPts d L cc1_scratch2) (fun _ => rfl) (wPts_ex d L cc1_scratch2) cc1_scratch18.sem 2 (8 * (t.val + 1) + 0) (k1_off7 L t) (k1_off7_inb L t h)
        (chr_win_set _ _ _ (wid L) _ ((k1_off7_eq L t).trans (offN_chunk L t 16384 0 rfl)))
        (fun y => chr_win_emb _ _ _ (wid L) _ ((k1_off7_eq L t).trans (offN_chunk L t 16384 0 rfl)) (by have := (cond2_iff t).mp h; omega) y))) $$ [Hc0 Ha0 Hv0]
  · isplitl [Hc0]; · iexact Hc0
    isplitl [Ha0]; · iexists s0; iexact Ha0
    iexact Hv0
  iintro HI0

  iapply (wp_waitIn m d L O W _ _ 3 (8 * t.val + 1) t.val ht _ _ _ _ (credit_i32 _)) $$ [HI1 HOW]
  · iframe # ∗
  iintro ⟨Hs1, Hv1, Hc1, HOW⟩

  iapply (wp_waitOut m d L O W _ _ (8 * t.val + 1 - 8) t.val 1 2 rfl (fun h => by omega) _ (cond3_iff t) _ _ _ _ (fun _ => credit_f32 _)) $$ [HO1 Hdn HOW]
  · iframe # ∗
  iintro ⟨Hb1, Hw1, Hdn, HOW⟩
  iapply (le_wp_ret frame (wpE (defs₀ (F := F)) 𝒱₀ (thr d L) none) Set.univ _ _)
  dsimp only

  rw [wp_bind]
  rw [k1_part10_eq_skeleton]; unfold k1_part10_skel
  simp only [Prog.lift, Prog.bind_op, Prog.bind_ret, Prog.pure_eq_ret, Prog.bind_assoc]

  icases Hs1 with ⟨%s1, %hs1, Ha1⟩
  icases Hb1 with ⟨%f1, Ho1⟩
  iapply (wp_bind_of d L _ _ _ _ (inner d L (iM := Memref.whole cc1_scratch3) (oM := Memref.whole cc1_scratch11) (Memref.isWhole_whole _) (Memref.isWhole_whole _) t _ _ _ _ (Tb m d) s1 f1 (fun y => by show (s1 y).toNat < _; rw [hs1 y]; exact hpre d _))) $$ [Htv Ha1 Ho1] <;> try exact 0#32
  · iframe # ∗
  iintro %r1 ⟨Htv, Ha1, ⟨%o1, %ho1, Ho1⟩⟩

  ihave Htk := (todo_take (F := F) d L (8 * t.val + 1) (8 * t.val + 2) (by omega) (by omega)) $$ Htd
  icases Htk with ⟨Hck, Htd⟩
  iapply (issue_out (F := F) m d L (oM := Memref.whole cc1_scratch11) (wPts d L cc1_scratch11) (whole_fwd d L cc1_scratch11) (whole_back d L cc1_scratch11) cc1_scratch27.sem (8 * t.val + 1) (by omega) (k1_off3 L t 1#32) (k1_off3_inb L t 1)
      (out_win_set _ _ _ (wid L) _ (off3_chunk L t 1)) (fun y => out_win_emb _ _ _ (wid L) _ (off3_chunk L t 1) (by omega) y)) $$ [Ho1 Hck Hw1]
  · isplitl [Ho1]
    · iexists o1; isplitr; · ipureintro; exact gathered_out m d L _ s1 o1 hs1 ho1
      iexact Ho1
    isplitl [Hck]; · iexact Hck
    iexact Hw1
  iintro HO1
  ihave HO1 := (outFl_slotOut m d L _ _ (8 * t.val + 1) (8 * (t.val + 1) + 1 - 8) t.val (by omega)) $$ HO1

  iapply (wp_issueIn_if m d L _ cc1_scratch19.sem 3 (8 * (t.val + 1) + 1) t.val _ (cond4_iff t) _ _
      (fun h => issue_in (F := F) m d L (iM := Memref.whole cc1_scratch3) (wPts d L cc1_scratch3) (fun _ => rfl) (wPts_ex d L cc1_scratch3) cc1_scratch19.sem 3 (8 * (t.val + 1) + 1) (k1_off11 L t) (k1_off11_inb L t h)
        (chr_win_set _ _ _ (wid L) _ ((k1_off11_eq L t).trans (offN_chunk L t 18432 1 rfl)))
        (fun y => chr_win_emb _ _ _ (wid L) _ ((k1_off11_eq L t).trans (offN_chunk L t 18432 1 rfl)) (by have := (cond4_iff t).mp h; omega) y))) $$ [Hc1 Ha1 Hv1]
  · isplitl [Hc1]; · iexact Hc1
    isplitl [Ha1]; · iexists s1; iexact Ha1
    iexact Hv1
  iintro HI1

  iapply (wp_waitIn m d L O W _ _ 4 (8 * t.val + 2) t.val ht _ _ _ _ (credit_i32 _)) $$ [HI2 HOW]
  · iframe # ∗
  iintro ⟨Hs2, Hv2, Hc2, HOW⟩

  iapply (wp_waitOut m d L O W _ _ (8 * t.val + 2 - 8) t.val 2 3 rfl (fun h => by omega) _ (cond5_iff t) _ _ _ _ (fun _ => credit_f32 _)) $$ [HO2 Hdn HOW]
  · iframe # ∗
  iintro ⟨Hb2, Hw2, Hdn, HOW⟩

  icases Hs2 with ⟨%s2, %hs2, Ha2⟩
  icases Hb2 with ⟨%f2, Ho2⟩
  iapply (wp_bind_of d L _ _ _ _ (inner d L (iM := Memref.whole cc1_scratch4) (oM := Memref.whole cc1_scratch12) (Memref.isWhole_whole _) (Memref.isWhole_whole _) t _ _ _ _ (Tb m d) s2 f2 (fun y => by show (s2 y).toNat < _; rw [hs2 y]; exact hpre d _))) $$ [Htv Ha2 Ho2] <;> try exact 0#32
  · iframe # ∗
  iintro %r2 ⟨Htv, Ha2, ⟨%o2, %ho2, Ho2⟩⟩

  ihave Htk := (todo_take (F := F) d L (8 * t.val + 2) (8 * t.val + 3) (by omega) (by omega)) $$ Htd
  icases Htk with ⟨Hck, Htd⟩
  iapply (issue_out (F := F) m d L (oM := Memref.whole cc1_scratch12) (wPts d L cc1_scratch12) (whole_fwd d L cc1_scratch12) (whole_back d L cc1_scratch12) cc1_scratch28.sem (8 * t.val + 2) (by omega) (k1_off3 L t 2#32) (k1_off3_inb L t 2)
      (out_win_set _ _ _ (wid L) _ (off3_chunk L t 2)) (fun y => out_win_emb _ _ _ (wid L) _ (off3_chunk L t 2) (by omega) y)) $$ [Ho2 Hck Hw2]
  · isplitl [Ho2]
    · iexists o2; isplitr; · ipureintro; exact gathered_out m d L _ s2 o2 hs2 ho2
      iexact Ho2
    isplitl [Hck]; · iexact Hck
    iexact Hw2
  iintro HO2
  ihave HO2 := (outFl_slotOut m d L _ _ (8 * t.val + 2) (8 * (t.val + 1) + 2 - 8) t.val (by omega)) $$ HO2

  iapply (wp_issueIn_if m d L _ cc1_scratch20.sem 4 (8 * (t.val + 1) + 2) t.val _ (cond6_iff t) _ _
      (fun h => issue_in (F := F) m d L (iM := Memref.whole cc1_scratch4) (wPts d L cc1_scratch4) (fun _ => rfl) (wPts_ex d L cc1_scratch4) cc1_scratch20.sem 4 (8 * (t.val + 1) + 2) (k1_off15 L t) (k1_off15_inb L t h)
        (chr_win_set _ _ _ (wid L) _ ((k1_off15_eq L t).trans (offN_chunk L t 20480 2 rfl)))
        (fun y => chr_win_emb _ _ _ (wid L) _ ((k1_off15_eq L t).trans (offN_chunk L t 20480 2 rfl)) (by have := (cond6_iff t).mp h; omega) y))) $$ [Hc2 Ha2 Hv2]
  · isplitl [Hc2]; · iexact Hc2
    isplitl [Ha2]; · iexists s2; iexact Ha2
    iexact Hv2
  iintro HI2
  iapply (le_wp_ret frame (wpE (defs₀ (F := F)) 𝒱₀ (thr d L) none) Set.univ _ _)
  dsimp only

  rw [wp_bind]
  rw [k1_part11_eq_skeleton]; unfold k1_part11_skel
  simp only [Prog.lift, Prog.bind_op, Prog.bind_ret, Prog.pure_eq_ret, Prog.bind_assoc]

  iapply (wp_waitIn m d L O W _ _ 5 (8 * t.val + 3) t.val ht _ _ _ _ (credit_i32 _)) $$ [HI3 HOW]
  · iframe # ∗
  iintro ⟨Hs3, Hv3, Hc3, HOW⟩

  iapply (wp_waitOut m d L O W _ _ (8 * t.val + 3 - 8) t.val 3 4 rfl (fun h => by omega) _ (cond7_iff t) _ _ _ _ (fun _ => credit_f32 _)) $$ [HO3 Hdn HOW]
  · iframe # ∗
  iintro ⟨Hb3, Hw3, Hdn, HOW⟩

  icases Hs3 with ⟨%s3, %hs3, Ha3⟩
  icases Hb3 with ⟨%f3, Ho3⟩
  iapply (wp_bind_of d L _ _ _ _ (inner d L (iM := Memref.whole cc1_scratch5) (oM := Memref.whole cc1_scratch13) (Memref.isWhole_whole _) (Memref.isWhole_whole _) t _ _ _ _ (Tb m d) s3 f3 (fun y => by show (s3 y).toNat < _; rw [hs3 y]; exact hpre d _))) $$ [Htv Ha3 Ho3] <;> try exact 0#32
  · iframe # ∗
  iintro %r3 ⟨Htv, Ha3, ⟨%o3, %ho3, Ho3⟩⟩

  ihave Htk := (todo_take (F := F) d L (8 * t.val + 3) (8 * t.val + 4) (by omega) (by omega)) $$ Htd
  icases Htk with ⟨Hck, Htd⟩
  iapply (issue_out (F := F) m d L (oM := Memref.whole cc1_scratch13) (wPts d L cc1_scratch13) (whole_fwd d L cc1_scratch13) (whole_back d L cc1_scratch13) cc1_scratch29.sem (8 * t.val + 3) (by omega) (k1_off3 L t 3#32) (k1_off3_inb L t 3)
      (out_win_set _ _ _ (wid L) _ (off3_chunk L t 3)) (fun y => out_win_emb _ _ _ (wid L) _ (off3_chunk L t 3) (by omega) y)) $$ [Ho3 Hck Hw3]
  · isplitl [Ho3]
    · iexists o3; isplitr; · ipureintro; exact gathered_out m d L _ s3 o3 hs3 ho3
      iexact Ho3
    isplitl [Hck]; · iexact Hck
    iexact Hw3
  iintro HO3
  ihave HO3 := (outFl_slotOut m d L _ _ (8 * t.val + 3) (8 * (t.val + 1) + 3 - 8) t.val (by omega)) $$ HO3

  iapply (wp_issueIn_if m d L _ cc1_scratch21.sem 5 (8 * (t.val + 1) + 3) t.val _ (cond8_iff t) _ _
      (fun h => issue_in (F := F) m d L (iM := Memref.whole cc1_scratch5) (wPts d L cc1_scratch5) (fun _ => rfl) (wPts_ex d L cc1_scratch5) cc1_scratch21.sem 5 (8 * (t.val + 1) + 3) (k1_off19 L t) (k1_off19_inb L t h)
        (chr_win_set _ _ _ (wid L) _ ((k1_off19_eq L t).trans (offN_chunk L t 22528 3 rfl)))
        (fun y => chr_win_emb _ _ _ (wid L) _ ((k1_off19_eq L t).trans (offN_chunk L t 22528 3 rfl)) (by have := (cond8_iff t).mp h; omega) y))) $$ [Hc3 Ha3 Hv3]
  · isplitl [Hc3]; · iexact Hc3
    isplitl [Ha3]; · iexists s3; iexact Ha3
    iexact Hv3
  iintro HI3

  iapply (wp_waitIn m d L O W _ _ 6 (8 * t.val + 4) t.val ht _ _ _ _ (credit_i32 _)) $$ [HI4 HOW]
  · iframe # ∗
  iintro ⟨Hs4, Hv4, Hc4, HOW⟩

  iapply (wp_waitOut m d L O W _ _ (8 * t.val + 4 - 8) t.val 4 5 rfl (fun h => by omega) _ (cond9_iff t) _ _ _ _ (fun _ => credit_f32 _)) $$ [HO4 Hdn HOW]
  · iframe # ∗
  iintro ⟨Hb4, Hw4, Hdn, HOW⟩

  icases Hs4 with ⟨%s4, %hs4, Ha4⟩
  icases Hb4 with ⟨%f4, Ho4⟩
  iapply (wp_bind_of d L _ _ _ _ (inner d L (iM := Memref.whole cc1_scratch6) (oM := Memref.whole cc1_scratch14) (Memref.isWhole_whole _) (Memref.isWhole_whole _) t _ _ _ _ (Tb m d) s4 f4 (fun y => by show (s4 y).toNat < _; rw [hs4 y]; exact hpre d _))) $$ [Htv Ha4 Ho4] <;> try exact 0#32
  · iframe # ∗
  iintro %r4 ⟨Htv, Ha4, ⟨%o4, %ho4, Ho4⟩⟩
  iapply (le_wp_ret frame (wpE (defs₀ (F := F)) 𝒱₀ (thr d L) none) Set.univ _ _)
  dsimp only

  rw [wp_bind]
  rw [k1_part12_eq_skeleton]; unfold k1_part12_skel
  simp only [Prog.lift, Prog.bind_op, Prog.bind_ret, Prog.pure_eq_ret, Prog.bind_assoc]

  ihave Htk := (todo_take (F := F) d L (8 * t.val + 4) (8 * t.val + 5) (by omega) (by omega)) $$ Htd
  icases Htk with ⟨Hck, Htd⟩
  iapply (issue_out (F := F) m d L (oM := Memref.whole cc1_scratch14) (wPts d L cc1_scratch14) (whole_fwd d L cc1_scratch14) (whole_back d L cc1_scratch14) cc1_scratch30.sem (8 * t.val + 4) (by omega) (k1_off3 L t 4#32) (k1_off3_inb L t 4)
      (out_win_set _ _ _ (wid L) _ (off3_chunk L t 4)) (fun y => out_win_emb _ _ _ (wid L) _ (off3_chunk L t 4) (by omega) y)) $$ [Ho4 Hck Hw4]
  · isplitl [Ho4]
    · iexists o4; isplitr; · ipureintro; exact gathered_out m d L _ s4 o4 hs4 ho4
      iexact Ho4
    isplitl [Hck]; · iexact Hck
    iexact Hw4
  iintro HO4
  ihave HO4 := (outFl_slotOut m d L _ _ (8 * t.val + 4) (8 * (t.val + 1) + 4 - 8) t.val (by omega)) $$ HO4

  iapply (wp_issueIn_if m d L _ cc1_scratch22.sem 6 (8 * (t.val + 1) + 4) t.val _ (cond10_iff t) _ _
      (fun h => issue_in (F := F) m d L (iM := Memref.whole cc1_scratch6) (wPts d L cc1_scratch6) (fun _ => rfl) (wPts_ex d L cc1_scratch6) cc1_scratch22.sem 6 (8 * (t.val + 1) + 4) (k1_off23 L t) (k1_off23_inb L t h)
        (chr_win_set _ _ _ (wid L) _ ((k1_off23_eq L t).trans (offN_chunk L t 24576 4 rfl)))
        (fun y => chr_win_emb _ _ _ (wid L) _ ((k1_off23_eq L t).trans (offN_chunk L t 24576 4 rfl)) (by have := (cond10_iff t).mp h; omega) y))) $$ [Hc4 Ha4 Hv4]
  · isplitl [Hc4]; · iexact Hc4
    isplitl [Ha4]; · iexists s4; iexact Ha4
    iexact Hv4
  iintro HI4

  iapply (wp_waitIn m d L O W _ _ 7 (8 * t.val + 5) t.val ht _ _ _ _ (credit_i32 _)) $$ [HI5 HOW]
  · iframe # ∗
  iintro ⟨Hs5, Hv5, Hc5, HOW⟩

  iapply (wp_waitOut m d L O W _ _ (8 * t.val + 5 - 8) t.val 5 6 rfl (fun h => by omega) _ (cond11_iff t) _ _ _ _ (fun _ => credit_f32 _)) $$ [HO5 Hdn HOW]
  · iframe # ∗
  iintro ⟨Hb5, Hw5, Hdn, HOW⟩

  icases Hs5 with ⟨%s5, %hs5, Ha5⟩
  icases Hb5 with ⟨%f5, Ho5⟩
  iapply (wp_bind_of d L _ _ _ _ (inner d L (iM := Memref.whole cc1_scratch7) (oM := Memref.whole cc1_scratch15) (Memref.isWhole_whole _) (Memref.isWhole_whole _) t _ _ _ _ (Tb m d) s5 f5 (fun y => by show (s5 y).toNat < _; rw [hs5 y]; exact hpre d _))) $$ [Htv Ha5 Ho5] <;> try exact 0#32
  · iframe # ∗
  iintro %r5 ⟨Htv, Ha5, ⟨%o5, %ho5, Ho5⟩⟩

  ihave Htk := (todo_take (F := F) d L (8 * t.val + 5) (8 * t.val + 6) (by omega) (by omega)) $$ Htd
  icases Htk with ⟨Hck, Htd⟩
  iapply (issue_out (F := F) m d L (oM := Memref.whole cc1_scratch15) (wPts d L cc1_scratch15) (whole_fwd d L cc1_scratch15) (whole_back d L cc1_scratch15) cc1_scratch31.sem (8 * t.val + 5) (by omega) (k1_off3 L t 5#32) (k1_off3_inb L t 5)
      (out_win_set _ _ _ (wid L) _ (off3_chunk L t 5)) (fun y => out_win_emb _ _ _ (wid L) _ (off3_chunk L t 5) (by omega) y)) $$ [Ho5 Hck Hw5]
  · isplitl [Ho5]
    · iexists o5; isplitr; · ipureintro; exact gathered_out m d L _ s5 o5 hs5 ho5
      iexact Ho5
    isplitl [Hck]; · iexact Hck
    iexact Hw5
  iintro HO5
  ihave HO5 := (outFl_slotOut m d L _ _ (8 * t.val + 5) (8 * (t.val + 1) + 5 - 8) t.val (by omega)) $$ HO5

  iapply (wp_issueIn_if m d L _ cc1_scratch23.sem 7 (8 * (t.val + 1) + 5) t.val _ (cond12_iff t) _ _
      (fun h => issue_in (F := F) m d L (iM := Memref.whole cc1_scratch7) (wPts d L cc1_scratch7) (fun _ => rfl) (wPts_ex d L cc1_scratch7) cc1_scratch23.sem 7 (8 * (t.val + 1) + 5) (k1_off27 L t) (k1_off27_inb L t h)
        (chr_win_set _ _ _ (wid L) _ ((k1_off27_eq L t).trans (offN_chunk L t 26624 5 rfl)))
        (fun y => chr_win_emb _ _ _ (wid L) _ ((k1_off27_eq L t).trans (offN_chunk L t 26624 5 rfl)) (by have := (cond12_iff t).mp h; omega) y))) $$ [Hc5 Ha5 Hv5]
  · isplitl [Hc5]; · iexact Hc5
    isplitl [Ha5]; · iexists s5; iexact Ha5
    iexact Hv5
  iintro HI5

  iapply (wp_waitIn m d L O W _ _ 8 (8 * t.val + 6) t.val ht _ _ _ _ (credit_i32 _)) $$ [HI6 HOW]
  · iframe # ∗
  iintro ⟨Hs6, Hv6, Hc6, HOW⟩
  iapply (le_wp_ret frame (wpE (defs₀ (F := F)) 𝒱₀ (thr d L) none) Set.univ _ _)
  dsimp only

  rw [wp_bind]
  rw [k1_part13_eq_skeleton]; unfold k1_part13_skel
  simp only [Prog.lift, Prog.bind_op, Prog.bind_ret, Prog.pure_eq_ret, Prog.bind_assoc]

  iapply (wp_waitOut m d L O W _ _ (8 * t.val + 6 - 8) t.val 6 7 rfl (fun h => by omega) _ (cond13_iff t) _ _ _ _ (fun _ => credit_f32 _)) $$ [HO6 Hdn HOW]
  · iframe # ∗
  iintro ⟨Hb6, Hw6, Hdn, HOW⟩

  icases Hs6 with ⟨%s6, %hs6, Ha6⟩
  icases Hb6 with ⟨%f6, Ho6⟩
  iapply (wp_bind_of d L _ _ _ _ (inner d L (iM := Memref.whole cc1_scratch8) (oM := Memref.whole cc1_scratch16) (Memref.isWhole_whole _) (Memref.isWhole_whole _) t _ _ _ _ (Tb m d) s6 f6 (fun y => by show (s6 y).toNat < _; rw [hs6 y]; exact hpre d _))) $$ [Htv Ha6 Ho6] <;> try exact 0#32
  · iframe # ∗
  iintro %r6 ⟨Htv, Ha6, ⟨%o6, %ho6, Ho6⟩⟩

  ihave Htk := (todo_take (F := F) d L (8 * t.val + 6) (8 * t.val + 7) (by omega) (by omega)) $$ Htd
  icases Htk with ⟨Hck, Htd⟩
  iapply (issue_out (F := F) m d L (oM := Memref.whole cc1_scratch16) (wPts d L cc1_scratch16) (whole_fwd d L cc1_scratch16) (whole_back d L cc1_scratch16) cc1_scratch32.sem (8 * t.val + 6) (by omega) (k1_off3 L t 6#32) (k1_off3_inb L t 6)
      (out_win_set _ _ _ (wid L) _ (off3_chunk L t 6)) (fun y => out_win_emb _ _ _ (wid L) _ (off3_chunk L t 6) (by omega) y)) $$ [Ho6 Hck Hw6]
  · isplitl [Ho6]
    · iexists o6; isplitr; · ipureintro; exact gathered_out m d L _ s6 o6 hs6 ho6
      iexact Ho6
    isplitl [Hck]; · iexact Hck
    iexact Hw6
  iintro HO6
  ihave HO6 := (outFl_slotOut m d L _ _ (8 * t.val + 6) (8 * (t.val + 1) + 6 - 8) t.val (by omega)) $$ HO6

  iapply (wp_issueIn_if m d L _ cc1_scratch24.sem 8 (8 * (t.val + 1) + 6) t.val _ (cond14_iff t) _ _
      (fun h => issue_in (F := F) m d L (iM := Memref.whole cc1_scratch8) (wPts d L cc1_scratch8) (fun _ => rfl) (wPts_ex d L cc1_scratch8) cc1_scratch24.sem 8 (8 * (t.val + 1) + 6) (k1_off31 L t) (k1_off31_inb L t h)
        (chr_win_set _ _ _ (wid L) _ ((k1_off31_eq L t).trans (offN_chunk L t 28672 6 rfl)))
        (fun y => chr_win_emb _ _ _ (wid L) _ ((k1_off31_eq L t).trans (offN_chunk L t 28672 6 rfl)) (by have := (cond14_iff t).mp h; omega) y))) $$ [Hc6 Ha6 Hv6]
  · isplitl [Hc6]; · iexact Hc6
    isplitl [Ha6]; · iexists s6; iexact Ha6
    iexact Hv6
  iintro HI6

  iapply (wp_waitIn m d L O W _ _ 9 (8 * t.val + 7) t.val ht _ _ _ _ (credit_i32 _)) $$ [HI7 HOW]
  · iframe # ∗
  iintro ⟨Hs7, Hv7, Hc7, HOW⟩

  iapply (wp_waitOut m d L O W _ _ (8 * t.val + 7 - 8) t.val 7 8 rfl (fun h => by omega) _ (cond15_iff t) _ _ _ _ (fun _ => credit_f32 _)) $$ [HO7 Hdn HOW]
  · iframe # ∗
  iintro ⟨Hb7, Hw7, Hdn, HOW⟩

  icases Hs7 with ⟨%s7, %hs7, Ha7⟩
  icases Hb7 with ⟨%f7, Ho7⟩
  iapply (wp_bind_of d L _ _ _ _ (inner d L (iM := Memref.whole cc1_scratch9) (oM := Memref.whole cc1_scratch17) (Memref.isWhole_whole _) (Memref.isWhole_whole _) t _ _ _ _ (Tb m d) s7 f7 (fun y => by show (s7 y).toNat < _; rw [hs7 y]; exact hpre d _))) $$ [Htv Ha7 Ho7] <;> try exact 0#32
  · iframe # ∗
  iintro %r7 ⟨Htv, Ha7, ⟨%o7, %ho7, Ho7⟩⟩

  ihave Htk := (todo_take (F := F) d L (8 * t.val + 7) (8 * t.val + 8) (by omega) (by omega)) $$ Htd
  icases Htk with ⟨Hck, Htd⟩
  iapply (issue_out (F := F) m d L (oM := Memref.whole cc1_scratch17) (wPts d L cc1_scratch17) (whole_fwd d L cc1_scratch17) (whole_back d L cc1_scratch17) cc1_scratch33.sem (8 * t.val + 7) (by omega) (k1_off3 L t 7#32) (k1_off3_inb L t 7)
      (out_win_set _ _ _ (wid L) _ (off3_chunk L t 7)) (fun y => out_win_emb _ _ _ (wid L) _ (off3_chunk L t 7) (by omega) y)) $$ [Ho7 Hck Hw7]
  · isplitl [Ho7]
    · iexists o7; isplitr; · ipureintro; exact gathered_out m d L _ s7 o7 hs7 ho7
      iexact Ho7
    isplitl [Hck]; · iexact Hck
    iexact Hw7
  iintro HO7
  ihave HO7 := (outFl_slotOut m d L _ _ (8 * t.val + 7) (8 * (t.val + 1) + 7 - 8) t.val (by omega)) $$ HO7
  iapply (le_wp_ret frame (wpE (defs₀ (F := F)) 𝒱₀ (thr d L) none) Set.univ _ _)
  dsimp only

  iapply (wp_issueIn_if m d L _ cc1_scratch25.sem 9 (8 * (t.val + 1) + 7) t.val _ (cond16_iff t) _ _
      (fun h => issue_in (F := F) m d L (iM := Memref.whole cc1_scratch9) (wPts d L cc1_scratch9) (fun _ => rfl) (wPts_ex d L cc1_scratch9) cc1_scratch25.sem 9 (8 * (t.val + 1) + 7) (k1_off35 L t) (k1_off35_inb L t h)
        (chr_win_set _ _ _ (wid L) _ ((k1_off35_eq L t).trans (offN_chunk L t 30720 7 rfl)))
        (fun y => chr_win_emb _ _ _ (wid L) _ ((k1_off35_eq L t).trans (offN_chunk L t 30720 7 rfl)) (by have := (cond16_iff t).mp h; omega) y))) $$ [Hc7 Ha7 Hv7]
  · isplitl [Hc7]; · iexact Hc7
    isplitl [Ha7]; · iexists s7; iexact Ha7
    iexact Hv7
  iintro HI7
  iapply (le_wp_ret frame (wpE (defs₀ (F := F)) 𝒱₀ (thr d L) none) Set.univ _ _)
  iframe # ∗

end Cert.KI

end
-- ==== Proof.KI.TileProof.lean ====
import proofs.«204304_g88828513616490_cont_9to1c4b_177_25_alg».proof.Proof.KI.TileStore
import proofs.«204304_g88828513616490_cont_9to1c4b_177_25_alg».proof.Proof.KI.Pack
import proofs.«204304_g88828513616490_cont_9to1c4b_177_25_alg».proof.Proof.KI.LoopEnds
import proofs.«204304_g88828513616490_cont_9to1c4b_177_25_alg».proof.Proof.KI.Trip

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem inv0_eq (O : CellTallies nD τ sig (HIx 1)) (W : Waits sig (HIx 1)) :
    Inv m d L O W 0 () = iprop(Transfers.MayWaits (thr d L) (none : HIx 1) O
      ∗ (tvV.view.loc (thr d L) ↦{fullShare} Tb m d)
      ∗ (inFl m d L (wPts d L cc1_scratch2) cc1_scratch18.sem 2 0 ∗ chrV.view.loc (thr d L) ↦[Finset.univ \ chunkSet (wid L) 0]{chrShare L 2} m (chrLoc d))
      ∗ ((∃ o, (Memref.whole cc1_scratch10 : Memref sig .scVector .vmem S2048 .f32).view.loc (thr d L) ↦{fullShare} o) ∗ semVal (thr d L, SemLoc.dma cc1_scratch26.sem) 0)
      ∗ (inFl m d L (wPts d L cc1_scratch3) cc1_scratch19.sem 3 1 ∗ chrV.view.loc (thr d L) ↦[Finset.univ \ chunkSet (wid L) 1]{chrShare L 3} m (chrLoc d))
      ∗ ((∃ o, (Memref.whole cc1_scratch11 : Memref sig .scVector .vmem S2048 .f32).view.loc (thr d L) ↦{fullShare} o) ∗ semVal (thr d L, SemLoc.dma cc1_scratch27.sem) 0)
      ∗ (inFl m d L (wPts d L cc1_scratch4) cc1_scratch20.sem 4 2 ∗ chrV.view.loc (thr d L) ↦[Finset.univ \ chunkSet (wid L) 2]{chrShare L 4} m (chrLoc d))
      ∗ ((∃ o, (Memref.whole cc1_scratch12 : Memref sig .scVector .vmem S2048 .f32).view.loc (thr d L) ↦{fullShare} o) ∗ semVal (thr d L, SemLoc.dma cc1_scratch28.sem) 0)
      ∗ (inFl m d L (wPts d L cc1_scratch5) cc1_scratch21.sem 5 3 ∗ chrV.view.loc (thr d L) ↦[Finset.univ \ chunkSet (wid L) 3]{chrShare L 5} m (chrLoc d))
      ∗ ((∃ o, (Memref.whole cc1_scratch13 : Memref sig .scVector .vmem S2048 .f32).view.loc (thr d L) ↦{fullShare} o) ∗ semVal (thr d L, SemLoc.dma cc1_scratch29.sem) 0)
      ∗ (inFl m d L (wPts d L cc1_scratch6) cc1_scratch22.sem 6 4 ∗ chrV.view.loc (thr d L) ↦[Finset.univ \ chunkSet (wid L) 4]{chrShare L 6} m (chrLoc d))
      ∗ ((∃ o, (Memref.whole cc1_scratch14 : Memref sig .scVector .vmem S2048 .f32).view.loc (thr d L) ↦{fullShare} o) ∗ semVal (thr d L, SemLoc.dma cc1_scratch30.sem) 0)
      ∗ (inFl m d L (wPts d L cc1_scratch7) cc1_scratch23.sem 7 5 ∗ chrV.view.loc (thr d L) ↦[Finset.univ \ chunkSet (wid L) 5]{chrShare L 7} m (chrLoc d))
      ∗ ((∃ o, (Memref.whole cc1_scratch15 : Memref sig .scVector .vmem S2048 .f32).view.loc (thr d L) ↦{fullShare} o) ∗ semVal (thr d L, SemLoc.dma cc1_scratch31.sem) 0)
      ∗ (inFl m d L (wPts d L cc1_scratch8) cc1_scratch24.sem 8 6 ∗ chrV.view.loc (thr d L) ↦[Finset.univ \ chunkSet (wid L) 6]{chrShare L 8} m (chrLoc d))
      ∗ ((∃ o, (Memref.whole cc1_scratch16 : Memref sig .scVector .vmem S2048 .f32).view.loc (thr d L) ↦{fullShare} o) ∗ semVal (thr d L, SemLoc.dma cc1_scratch32.sem) 0)
      ∗ (inFl m d L (wPts d L cc1_scratch9) cc1_scratch25.sem 9 7 ∗ chrV.view.loc (thr d L) ↦[Finset.univ \ chunkSet (wid L) 7]{chrShare L 9} m (chrLoc d))
      ∗ ((∃ o, (Memref.whole cc1_scratch17 : Memref sig .scVector .vmem S2048 .f32).view.loc (thr d L) ↦{fullShare} o) ∗ semVal (thr d L, SemLoc.dma cc1_scratch33.sem) 0)
      ∗ emp
      ∗ (bigSep (Finset.Ico 0 128) fun k => iprop(∃ f, outV.view.loc (thr d L) ↦[chunkSet (wid L) k]{fullShare} f))
      ∗ ∃ W', ⌜∀ p ∈ W', p ∈ W ∨ p.2 = none⌝ ∗ owes (thr d L) O W') := by
  unfold Inv slotIn slotOut
  simp only [if_pos (show (0 : ℕ) < 16 by decide), if_neg (show ¬ (0 : ℕ) < 0 by decide), Nat.mul_zero, Nat.zero_add, Nat.zero_sub, Finset.range_zero, BI.bigSep_empty]
  rfl

theorem inv16_eq (O : CellTallies nD τ sig (HIx 1)) (W : Waits sig (HIx 1)) :
    Inv m d L O W 16 () = iprop(Transfers.MayWaits (thr d L) (none : HIx 1) O
      ∗ (tvV.view.loc (thr d L) ↦{fullShare} Tb m d)
      ∗ ((∃ s, (Memref.whole cc1_scratch2 : Memref sig .scVector .vmem S2048 .i32).view.loc (thr d L) ↦{fullShare} s) ∗ semVal (thr d L, SemLoc.dma cc1_scratch18.sem) 0 ∗ chrV.view.loc (thr d L) ↦{chrShare L 2} m (chrLoc d))
      ∗ outFl m d L (wPts d L cc1_scratch10) cc1_scratch26.sem 120
      ∗ ((∃ s, (Memref.whole cc1_scratch3 : Memref sig .scVector .vmem S2048 .i32).view.loc (thr d L) ↦{fullShare} s) ∗ semVal (thr d L, SemLoc.dma cc1_scratch19.sem) 0 ∗ chrV.view.loc (thr d L) ↦{chrShare L 3} m (chrLoc d))
      ∗ outFl m d L (wPts d L cc1_scratch11) cc1_scratch27.sem 121
      ∗ ((∃ s, (Memref.whole cc1_scratch4 : Memref sig .scVector .vmem S2048 .i32).view.loc (thr d L) ↦{fullShare} s) ∗ semVal (thr d L, SemLoc.dma cc1_scratch20.sem) 0 ∗ chrV.view.loc (thr d L) ↦{chrShare L 4} m (chrLoc d))
      ∗ outFl m d L (wPts d L cc1_scratch12) cc1_scratch28.sem 122
      ∗ ((∃ s, (Memref.whole cc1_scratch5 : Memref sig .scVector .vmem S2048 .i32).view.loc (thr d L) ↦{fullShare} s) ∗ semVal (thr d L, SemLoc.dma cc1_scratch21.sem) 0 ∗ chrV.view.loc (thr d L) ↦{chrShare L 5} m (chrLoc d))
      ∗ outFl m d L (wPts d L cc1_scratch13) cc1_scratch29.sem 123
      ∗ ((∃ s, (Memref.whole cc1_scratch6 : Memref sig .scVector .vmem S2048 .i32).view.loc (thr d L) ↦{fullShare} s) ∗ semVal (thr d L, SemLoc.dma cc1_scratch22.sem) 0 ∗ chrV.view.loc (thr d L) ↦{chrShare L 6} m (chrLoc d))
      ∗ outFl m d L (wPts d L cc1_scratch14) cc1_scratch30.sem 124
      ∗ ((∃ s, (Memref.whole cc1_scratch7 : Memref sig .scVector .vmem S2048 .i32).view.loc (thr d L) ↦{fullShare} s) ∗ semVal (thr d L, SemLoc.dma cc1_scratch23.sem) 0 ∗ chrV.view.loc (thr d L) ↦{chrShare L 7} m (chrLoc d))
      ∗ outFl m d L (wPts d L cc1_scratch15) cc1_scratch31.sem 125
      ∗ ((∃ s, (Memref.whole cc1_scratch8 : Memref sig .scVector .vmem S2048 .i32).view.loc (thr d L) ↦{fullShare} s) ∗ semVal (thr d L, SemLoc.dma cc1_scratch24.sem) 0 ∗ chrV.view.loc (thr d L) ↦{chrShare L 8} m (chrLoc d))
      ∗ outFl m d L (wPts d L cc1_scratch16) cc1_scratch32.sem 126
      ∗ ((∃ s, (Memref.whole cc1_scratch9 : Memref sig .scVector .vmem S2048 .i32).view.loc (thr d L) ↦{fullShare} s) ∗ semVal (thr d L, SemLoc.dma cc1_scratch25.sem) 0 ∗ chrV.view.loc (thr d L) ↦{chrShare L 9} m (chrLoc d))
      ∗ outFl m d L (wPts d L cc1_scratch17) cc1_scratch33.sem 127
      ∗ (bigSep (Finset.range 120) fun k => outV.view.loc (thr d L) ↦[chunkSet (wid L) k]{fullShare} Out m d)
      ∗ emp
      ∗ ∃ W', ⌜∀ p ∈ W', p ∈ W ∨ p.2 = none⌝ ∗ owes (thr d L) O W') := by
  unfold Inv slotIn slotOut
  simp only [if_neg (show ¬ (16 : ℕ) < 16 by decide), if_pos (show (0 : ℕ) < 16 by decide), Nat.reduceMul, Nat.reduceAdd, Nat.reduceSub, Finset.Ico_self, BI.bigSep_empty]
  rfl

def chrRestToks : sProp 𝕄 :=
  bigSep (Finset.range 20 \ [2, 3, 4, 5, 6, 7, 8, 9].toFinset) fun k => chrV.view.loc (thr d L) ↦{Transfers.shareTokN (rdShare (wid L)) k} m (chrLoc d)

theorem chr_pull :
    (bigSep (Finset.range 20) fun k => chrV.view.loc (thr d L) ↦{Transfers.shareTokN (rdShare (wid L)) k} m (chrLoc d) : sProp 𝕄)
      = iprop((chrV.view.loc (thr d L) ↦{chrShare L 2} m (chrLoc d)) ∗ (chrV.view.loc (thr d L) ↦{chrShare L 3} m (chrLoc d)) ∗ (chrV.view.loc (thr d L) ↦{chrShare L 4} m (chrLoc d)) ∗ (chrV.view.loc (thr d L) ↦{chrShare L 5} m (chrLoc d)) ∗ (chrV.view.loc (thr d L) ↦{chrShare L 6} m (chrLoc d)) ∗ (chrV.view.loc (thr d L) ↦{chrShare L 7} m (chrLoc d)) ∗ (chrV.view.loc (thr d L) ↦{chrShare L 8} m (chrLoc d)) ∗ (chrV.view.loc (thr d L) ↦{chrShare L 9} m (chrLoc d)) ∗ chrRestToks m d L) := by
  unfold chrRestToks
  rw [bigSep_pull (fun k => (chrV.view.loc (thr d L) ↦{Transfers.shareTokN (rdShare (wid L)) k} m (chrLoc d) : sProp 𝕄)) [2, 3, 4, 5, 6, 7, 8, 9] (Finset.range 20) (by decide) (by decide)]
  simp only [List.foldr_cons, List.foldr_nil]

def tblRestToks : sProp 𝕄 :=
  bigSep (Finset.range 20 \ [18].toFinset) fun k => tblV.view.loc (thr d L) ↦{Transfers.shareTokN (rdShare (wid L)) k} Tb m d

theorem tbl_pull :
    (bigSep (Finset.range 20) fun k => tblV.view.loc (thr d L) ↦{Transfers.shareTokN (rdShare (wid L)) k} Tb m d : sProp 𝕄)
      = iprop((tblV.view.loc (thr d L) ↦{Transfers.shareTokN (rdShare (wid L)) 18} Tb m d) ∗ tblRestToks m d L) := by
  unfold tblRestToks
  rw [bigSep_pull (fun k => (tblV.view.loc (thr d L) ↦{Transfers.shareTokN (rdShare (wid L)) k} Tb m d : sProp 𝕄)) [18] (Finset.range 20) (by decide) (by decide)]
  simp only [List.foldr_cons, List.foldr_nil]

omit [FloatOps F] in
theorem out_last8 (Φ : ℕ → sProp 𝕄) :
    bigSep (Finset.range 128) Φ = iprop(Φ 120 ∗ Φ 121 ∗ Φ 122 ∗ Φ 123 ∗ Φ 124 ∗ Φ 125 ∗ Φ 126 ∗ Φ 127 ∗ bigSep (Finset.range 120) Φ) := by
  rw [bigSep_pull Φ [120, 121, 122, 123, 124, 125, 126, 127] (Finset.range 128) (by decide) (by decide),
    show Finset.range 128 \ [120, 121, 122, 123, 124, 125, 126, 127].toFinset = Finset.range 120 from by
      ext x
      simp only [Finset.mem_sdiff, Finset.mem_range, List.mem_toFinset, List.mem_cons, List.mem_nil_iff, or_false]
      omega]
  simp only [List.foldr_cons, List.foldr_nil]

abbrev slcR (L : grid1.Coords) : Rect S65536 := Rect.unit (s := S65536) (k1_off2 L) S4096.size (k1_off2_inb L)
abbrev shSl (L : grid1.Coords) : Memref sig .scVector .shared S4096 .f32 := shV.slice (slcR L) (fun _ => rfl)
abbrev tblSl (L : grid1.Coords) : Memref sig .scVector .hbm S4096 .f32 := tblV.slice (slcR L) (fun _ => rfl)

omit [FloatOps F] in
theorem pts_shSlice (q : PosShare TreeShare) (f : Buf (Elt F) (shLoc d (cV L))) :
    ((shSl L).view.loc (thr d L) ↦[(shSl L).view.set]{q} f : sProp 𝕄) = shLoc d (cV L) ↦[slcSet (iN L)]{q} f := by
  rw [set_shSlice]; rfl

def v2W (L : grid1.Coords) : BitVec 32 :=
  Scalar.muli (Scalar.addi (Scalar.muli (BitVec.ofNat 32 (L 1).val) 2#32) (BitVec.ofNat 32 (L 0).val)) 262144#32

def WL (W : Waits sig (HIx 1)) : Waits sig (HIx 1) :=
  insert (SemLoc.dma cc1_scoped1.sem, (none : HIx 1)) (insert (SemLoc.reg sc_bar0, some (0 : Fin 1)) (insert (SemLoc.dma cc1_scoped0.sem, (none : HIx 1)) W))

theorem sh_landed (f : Buf (Elt F) (shLoc d (cV L))) :
    ((shSl L).view.loc (thr d L) ↦[(shSl L).view.set]{fullShare}
        (shSl L).view.writes (Elt F) f [⟨Rect.whole S4096, ReadAs.same.apply (View.read (Elt F) (tblSl L).view (Tb m d))⟩] : sProp 𝕄)
      = shLoc d (cV L) ↦[slcSet (iN L)]{fullShare} Tsh m d (cV L) := by
  rw [pts_shSlice]
  refine pointsTo_congr fun i hi => ?_
  rw [← set_shSlice L] at hi
  obtain ⟨x, -, rfl⟩ := Finset.mem_map.mp hi
  have h1 := View.read_writes_cons_emb (shSl L).view f (Rect.whole S4096) (ReadAs.same.apply (View.read (Elt F) (tblSl L).view (Tb m d))) [] x
  rw [Rect.emb_whole_apply, View.read_apply, cast_eq] at h1
  refine h1.trans ?_
  show View.read (Elt F) (tblSl L).view (Tb m d) x = _
  rw [View.read_apply, cast_eq]
  rfl

theorem tv_landed (f : Buf (Elt F) (tvV.view.loc (thr d L))) :
    (tvV.view.loc (thr d L) ↦{fullShare}
        View.write (Elt F) tvV.view f (ReadAs.same.apply (View.read (Elt F) shV.view (Tsh m d (cV L)))) Finset.univ : sProp 𝕄)
      = tvV.view.loc (thr d L) ↦{fullShare} Tb m d := by
  refine pointsTo_congr fun i _ => ?_
  exact congrFun (View.write_whole_univ cc1_scratch0 f (ReadAs.same.apply (View.read (Elt F) shV.view (Tsh m d (cV L))))) i

omit [FloatOps F] in
theorem pts_shV (q : PosShare TreeShare) (f : Buf (Elt F) (shLoc d (cV L))) :
    (shV.view.loc (thr d L) ↦{q} f : sProp 𝕄) = shLoc d (cV L) ↦{q} f := rfl

theorem inFl_intro (r : Fin 16) (tk : ℕ) (si : DmaSem sig) (ipts : (S2048.Idx → BitVec 32) → sProp 𝕄)
    (s : S2048.Idx → BitVec 32) (hs : IdxHolds m d (wid L) (rk r) s) :
    Transfers.Flight countersEmb (thr d L) (SemLoc.dma si) (default : HIx 1) 65536
        iprop(ipts s ∗ chrV.view.loc (thr d L) ↦[(chrV.slice (Rect.unit (s := S8388608) (k1_off1 L (k1_off1_at r)) S2048.size (k1_off1_inb L r)) (fun _ => rfl)).view.set]{chrShare L tk} m (chrLoc d))
      ⊢ inFl m d L ipts si tk (rk r) := by
  unfold inFl
  exact Transfers.Flight_mono countersEmb (thr d L) (fetch_delivers (F := F) m d L r _ ipts s hs)

omit [FloatOps F] in
theorem chr_rest_eq (r : Fin 16) (q : PosShare TreeShare) :
    (chrV.view.loc (thr d L) ↦[Finset.univ \ (chrV.slice (Rect.unit (s := S8388608) (k1_off1 L (k1_off1_at r)) S2048.size (k1_off1_inb L r)) (fun _ => rfl)).view.set]{q} m (chrLoc d) : sProp 𝕄)
      = chrV.view.loc (thr d L) ↦[Finset.univ \ chunkSet (wid L) (rk r)]{q} m (chrLoc d) := by
  rw [set_chrChunk]

theorem goRes_open :
    goRes m d (cN L) (iN L) ⊢ (iprop((tblLoc d ↦{rdShare (wid L)} Tb m d) ∗ (chrLoc d ↦{rdShare (wid L)} m (chrLoc d))
      ∗ (∃ f, outLoc d ↦[tileSet (wid L)]{fullShare} f) ∗ ∃ f, shLoc d (cV L) ↦[slcSet (iN L)]{fullShare} f) : sProp 𝕄) := by
  rw [goRes, ← wid_eq L, show Fin.castLE (by decide : 2 ≤ τ.nSC) (cN L) = cV L from Fin.ext rfl]

theorem outFl_open (opts : (S2048.Idx → Elt F .f32) → sProp 𝕄) (so : DmaSem sig) (k : ℕ) :
    outFl m d L opts so k = Transfers.Flight countersEmb (thr d L) (SemLoc.dma so) (default : HIx 1) 65536
      iprop((outV.view.loc (thr d L) ↦[chunkSet (wid L) k]{fullShare} Out m d) ∗ ∃ o, opts o) := rfl

theorem pack' (hF : (K (F := F)).Facts) (O : CellTallies nD τ sig (HIx 1)) (W : Waits sig (HIx 1)) :
    iprop((tblLoc d ↦{rdShare (wid L)} Tb m d) ∗ (chrLoc d ↦{rdShare (wid L)} m (chrLoc d))
        ∗ (bigSep (Finset.range 128) fun k => outV.view.loc (thr d L) ↦[chunkSet (wid L) k]{fullShare} Out m d)
        ∗ (shLoc d (cV L) ↦[slcSet (iN L)]{Transfers.shareDrop fullShare 16} Tsh m d (cV L))
        ∗ (shLoc d (cV L) ↦{Transfers.shareTok fullShare 16 (iN L)} Tsh m d (cV L))
        ∗ (scrEx d L tvV
          ∗ scrEx d L (Memref.whole cc1_scratch2 : Memref sig .scVector .vmem S2048 .i32)
          ∗ scrEx d L (Memref.whole cc1_scratch3 : Memref sig .scVector .vmem S2048 .i32)
          ∗ scrEx d L (Memref.whole cc1_scratch4 : Memref sig .scVector .vmem S2048 .i32)
          ∗ scrEx d L (Memref.whole cc1_scratch5 : Memref sig .scVector .vmem S2048 .i32)
          ∗ scrEx d L (Memref.whole cc1_scratch6 : Memref sig .scVector .vmem S2048 .i32)
          ∗ scrEx d L (Memref.whole cc1_scratch7 : Memref sig .scVector .vmem S2048 .i32)
          ∗ scrEx d L (Memref.whole cc1_scratch8 : Memref sig .scVector .vmem S2048 .i32)
          ∗ scrEx d L (Memref.whole cc1_scratch9 : Memref sig .scVector .vmem S2048 .i32)
          ∗ scrEx d L (Memref.whole cc1_scratch10 : Memref sig .scVector .vmem S2048 .f32)
          ∗ scrEx d L (Memref.whole cc1_scratch11 : Memref sig .scVector .vmem S2048 .f32)
          ∗ scrEx d L (Memref.whole cc1_scratch12 : Memref sig .scVector .vmem S2048 .f32)
          ∗ scrEx d L (Memref.whole cc1_scratch13 : Memref sig .scVector .vmem S2048 .f32)
          ∗ scrEx d L (Memref.whole cc1_scratch14 : Memref sig .scVector .vmem S2048 .f32)
          ∗ scrEx d L (Memref.whole cc1_scratch15 : Memref sig .scVector .vmem S2048 .f32)
          ∗ scrEx d L (Memref.whole cc1_scratch16 : Memref sig .scVector .vmem S2048 .f32)
          ∗ scrEx d L (Memref.whole cc1_scratch17 : Memref sig .scVector .vmem S2048 .f32)
          ∗ restBufs (F := F) d L)
        ∗ (semVal (thr d L, SemLoc.dma cc1_scratch18.sem) 0
          ∗ semVal (thr d L, SemLoc.dma cc1_scratch19.sem) 0
          ∗ semVal (thr d L, SemLoc.dma cc1_scratch20.sem) 0
          ∗ semVal (thr d L, SemLoc.dma cc1_scratch21.sem) 0
          ∗ semVal (thr d L, SemLoc.dma cc1_scratch22.sem) 0
          ∗ semVal (thr d L, SemLoc.dma cc1_scratch23.sem) 0
          ∗ semVal (thr d L, SemLoc.dma cc1_scratch24.sem) 0
          ∗ semVal (thr d L, SemLoc.dma cc1_scratch25.sem) 0
          ∗ semVal (thr d L, SemLoc.dma cc1_scratch26.sem) 0
          ∗ semVal (thr d L, SemLoc.dma cc1_scratch27.sem) 0
          ∗ semVal (thr d L, SemLoc.dma cc1_scratch28.sem) 0
          ∗ semVal (thr d L, SemLoc.dma cc1_scratch29.sem) 0
          ∗ semVal (thr d L, SemLoc.dma cc1_scratch30.sem) 0
          ∗ semVal (thr d L, SemLoc.dma cc1_scratch31.sem) 0
          ∗ semVal (thr d L, SemLoc.dma cc1_scratch32.sem) 0
          ∗ semVal (thr d L, SemLoc.dma cc1_scratch33.sem) 0
          ∗ semVal (thr d L, SemLoc.dma cc1_scoped0.sem) 0
          ∗ semVal (thr d L, SemLoc.dma cc1_scoped1.sem) 0
          ∗ restSems (F := F) d L)
        ∗ ∃ W', ⌜∀ p ∈ W', p ∈ WL W ∨ p.2 = none⌝ ∗ owes (thr d L) O W')
      ⊢ (iprop(tdRes m d (cN L) (iN L) ∗ scopedBufs (thr d L) ∗ scopedSems0 (thr d L)
        ∗ ∃ W', ⌜∀ p ∈ W', p ∈ W ∨ p.2 = none ∨ p.2 = some (0 : Fin 1)⌝ ∗ owes (thr d L) O W') : sProp 𝕄) := by
  iintro ⟨H1, H2, H3, H4, H5, H6, H7, %W', %hW', HO⟩
  iapply (pack (F := F) m d L hF O W (WL W) W' (rec_ok W) hW')
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

set_option maxHeartbeats 16000000 in
theorem tile_body' (hpre : PreOK m) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cN L) (iN L)
        ∗ scopedBufs (thr d L) ∗ scopedSems0 (thr d L) ∗ owes (thr d L) (O + oxV d (cV L)) W)
      ⊢ wp frame (wpE (defs₀ (F := F)) 𝒱₀ (thr d L) none) Set.univ
          (cc1__sc_gather L tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1)
          fun _ => iprop(tdRes m d (cN L) (iN L)
            ∗ scopedBufs (thr d L) ∗ scopedSems0 (thr d L)
            ∗ ∃ W', ⌜∀ p ∈ W', p ∈ W ∨ p.2 = none ∨ p.2 = some (0 : Fin 1)⌝ ∗ owes (thr d L) O W') := by
  rw [cc1__sc_gather_eq_skeleton]; unfold cc1__sc_gather_skel
  rw [k1_part14_eq_skeleton, k1_part15_eq_skeleton]; unfold k1_part14_skel k1_part15_skel
  iintro ⟨#Hlv, Hkit, Hgo, Hbufs0, Hsems0, HO⟩

  ihave Hgo' := (goRes_open (F := F) m d L) $$ Hgo
  icases Hgo' with ⟨Htbl, Hchr, Hout, ⟨%fsh, Hsh⟩⟩
  ihave Hbufs1 := (Entails.of_eq (((K (F := F)).scopedBufs_V hF d (cV L) (jV L)).trans (ownBufs_V (F := F) d L))) $$ Hbufs0
  icases Hbufs1 with ⟨⟨%ftv, Htv⟩, ⟨%f0, H0⟩, ⟨%f1, H1⟩, ⟨%f2, H2⟩, ⟨%f3, H3⟩, ⟨%f4, H4⟩, ⟨%f5, H5⟩, ⟨%f6, H6⟩, ⟨%f7, H7⟩, ⟨%g0, G0⟩, ⟨%g1, G1⟩, ⟨%g2, G2⟩, ⟨%g3, G3⟩, ⟨%g4, G4⟩, ⟨%g5, G5⟩, ⟨%g6, G6⟩, ⟨%g7, G7⟩, Hbufs⟩
  ihave Hsems1 := (Entails.of_eq ((SparseCore.Cfg.scopedSems0_V (Val := Elt F) d (cV L) (jV L)).trans (ownSems0_V (F := F) d L))) $$ Hsems0
  icases Hsems1 with ⟨S0, S1, S2, S3, S4, S5, S6, S7, S8, S9, S10, S11, S12, S13, S14, S15, Sc0, Sc1, Hsems⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv

  ihave Hchr' := (chr_toks (F := F) d L (wid L) _).1 $$ Hchr
  icases Hchr' with ⟨HchrD, HchrT⟩
  ihave HchrT' := (Entails.of_eq (chr_pull (F := F) m d L)) $$ HchrT
  icases HchrT' with ⟨Hc2, Hc3, Hc4, Hc5, Hc6, Hc7, Hc8, Hc9, HchrR⟩
  ihave Htbl' := (tbl_toks (F := F) d L (wid L) _).1 $$ Htbl
  icases Htbl' with ⟨HtblD, HtblT⟩
  ihave HtblT' := (Entails.of_eq (tbl_pull (F := F) m d L)) $$ HtblT
  icases HtblT' with ⟨Ht18, HtblR⟩

  ihave Hout' := (out_chunks_ex (F := F) d L (wid L)) $$ Hout
  ihave Hsh' := (Entails.of_eq (pts_shSlice (F := F) d L fullShare fsh).symm) $$ Hsh

  sl_exec

  sl_unfold_run_names
  ihave Hsl := (Entails.of_eq (sh_landed (F := F) m d L fsh)) $$ Hsh'
  rw [Prog.bind_assoc]
  iapply (barrier_step (F := F) m d L O _ hO hOlev) $$ [Hkit Hsl HO]
  · iframe # ∗
  iintro ⟨HO, Hrem, Hsh⟩
  ihave Hmw2 := (show levAts (K (F := F)).L (K (F := F)).lev ⊢ Transfers.MayWaits (thr d L) (default : HIx 1) O from
    (K (F := F)).mayWaits_none (thr := thr d L) hO) $$ Hlv
  ihave Hsh2 := (Entails.of_eq (pts_shV (F := F) d L _ _).symm) $$ Hsh

  sl_exec
  sl_unfold_run_names
  ihave Htv2 := (Entails.of_eq (tv_landed (F := F) m d L ftv)) $$ Htv

  have hs0 : IdxHolds m d (wid L) (rk 0) (View.write (Elt F) (View.whole cc1_scratch2) f0
      (ReadAs.same.apply (View.read (Elt F) (chrV.slice (Rect.unit (s := S8388608) (k1_off1 L (k1_off1_at 0)) S2048.size (k1_off1_inb L 0)) (fun _ => rfl)).view (m (chrLoc d)))) Finset.univ) :=
    fun y => by rw [View.write_whole_univ]; exact fetch_word (F := F) m d L 0 y
  ihave F0 := (inFl_intro (F := F) m d L 0 2 cc1_scratch18.sem (wPts d L cc1_scratch2) _ hs0) $$ [S0]
  · iexact S0
  ihave R0 := (Entails.of_eq (chr_rest_eq (F := F) m d L 0 (chrShare L 2))) $$ [Hc2]
  · iexact Hc2
  have hs1 : IdxHolds m d (wid L) (rk 1) (View.write (Elt F) (View.whole cc1_scratch3) f1
      (ReadAs.same.apply (View.read (Elt F) (chrV.slice (Rect.unit (s := S8388608) (k1_off1 L (k1_off1_at 1)) S2048.size (k1_off1_inb L 1)) (fun _ => rfl)).view (m (chrLoc d)))) Finset.univ) :=
    fun y => by rw [View.write_whole_univ]; exact fetch_word (F := F) m d L 1 y
  ihave F1 := (inFl_intro (F := F) m d L 1 3 cc1_scratch19.sem (wPts d L cc1_scratch3) _ hs1) $$ [S1]
  · iexact S1
  ihave R1 := (Entails.of_eq (chr_rest_eq (F := F) m d L 1 (chrShare L 3))) $$ [Hc3]
  · iexact Hc3
  have hs2 : IdxHolds m d (wid L) (rk 2) (View.write (Elt F) (View.whole cc1_scratch4) f2
      (ReadAs.same.apply (View.read (Elt F) (chrV.slice (Rect.unit (s := S8388608) (k1_off1 L (k1_off1_at 2)) S2048.size (k1_off1_inb L 2)) (fun _ => rfl)).view (m (chrLoc d)))) Finset.univ) :=
    fun y => by rw [View.write_whole_univ]; exact fetch_word (F := F) m d L 2 y
  ihave F2 := (inFl_intro (F := F) m d L 2 4 cc1_scratch20.sem (wPts d L cc1_scratch4) _ hs2) $$ [S2]
  · iexact S2
  ihave R2 := (Entails.of_eq (chr_rest_eq (F := F) m d L 2 (chrShare L 4))) $$ [Hc4]
  · iexact Hc4
  have hs3 : IdxHolds m d (wid L) (rk 3) (View.write (Elt F) (View.whole cc1_scratch5) f3
      (ReadAs.same.apply (View.read (Elt F) (chrV.slice (Rect.unit (s := S8388608) (k1_off1 L (k1_off1_at 3)) S2048.size (k1_off1_inb L 3)) (fun _ => rfl)).view (m (chrLoc d)))) Finset.univ) :=
    fun y => by rw [View.write_whole_univ]; exact fetch_word (F := F) m d L 3 y
  ihave F3 := (inFl_intro (F := F) m d L 3 5 cc1_scratch21.sem (wPts d L cc1_scratch5) _ hs3) $$ [S3]
  · iexact S3
  ihave R3 := (Entails.of_eq (chr_rest_eq (F := F) m d L 3 (chrShare L 5))) $$ [Hc5]
  · iexact Hc5
  have hs4 : IdxHolds m d (wid L) (rk 4) (View.write (Elt F) (View.whole cc1_scratch6) f4
      (ReadAs.same.apply (View.read (Elt F) (chrV.slice (Rect.unit (s := S8388608) (k1_off1 L (k1_off1_at 4)) S2048.size (k1_off1_inb L 4)) (fun _ => rfl)).view (m (chrLoc d)))) Finset.univ) :=
    fun y => by rw [View.write_whole_univ]; exact fetch_word (F := F) m d L 4 y
  ihave F4 := (inFl_intro (F := F) m d L 4 6 cc1_scratch22.sem (wPts d L cc1_scratch6) _ hs4) $$ [S4]
  · iexact S4
  ihave R4 := (Entails.of_eq (chr_rest_eq (F := F) m d L 4 (chrShare L 6))) $$ [Hc6]
  · iexact Hc6
  have hs5 : IdxHolds m d (wid L) (rk 5) (View.write (Elt F) (View.whole cc1_scratch7) f5
      (ReadAs.same.apply (View.read (Elt F) (chrV.slice (Rect.unit (s := S8388608) (k1_off1 L (k1_off1_at 5)) S2048.size (k1_off1_inb L 5)) (fun _ => rfl)).view (m (chrLoc d)))) Finset.univ) :=
    fun y => by rw [View.write_whole_univ]; exact fetch_word (F := F) m d L 5 y
  ihave F5 := (inFl_intro (F := F) m d L 5 7 cc1_scratch23.sem (wPts d L cc1_scratch7) _ hs5) $$ [S5]
  · iexact S5
  ihave R5 := (Entails.of_eq (chr_rest_eq (F := F) m d L 5 (chrShare L 7))) $$ [Hc7]
  · iexact Hc7
  have hs6 : IdxHolds m d (wid L) (rk 6) (View.write (Elt F) (View.whole cc1_scratch8) f6
      (ReadAs.same.apply (View.read (Elt F) (chrV.slice (Rect.unit (s := S8388608) (k1_off1 L (k1_off1_at 6)) S2048.size (k1_off1_inb L 6)) (fun _ => rfl)).view (m (chrLoc d)))) Finset.univ) :=
    fun y => by rw [View.write_whole_univ]; exact fetch_word (F := F) m d L 6 y
  ihave F6 := (inFl_intro (F := F) m d L 6 8 cc1_scratch24.sem (wPts d L cc1_scratch8) _ hs6) $$ [S6]
  · iexact S6
  ihave R6 := (Entails.of_eq (chr_rest_eq (F := F) m d L 6 (chrShare L 8))) $$ [Hc8]
  · iexact Hc8
  have hs7 : IdxHolds m d (wid L) (rk 7) (View.write (Elt F) (View.whole cc1_scratch9) f7
      (ReadAs.same.apply (View.read (Elt F) (chrV.slice (Rect.unit (s := S8388608) (k1_off1 L (k1_off1_at 7)) S2048.size (k1_off1_inb L 7)) (fun _ => rfl)).view (m (chrLoc d)))) Finset.univ) :=
    fun y => by rw [View.write_whole_univ]; exact fetch_word (F := F) m d L 7 y
  ihave F7 := (inFl_intro (F := F) m d L 7 9 cc1_scratch25.sem (wPts d L cc1_scratch9) _ hs7) $$ [S7]
  · iexact S7
  ihave R7 := (Entails.of_eq (chr_rest_eq (F := F) m d L 7 (chrShare L 9))) $$ [Hc9]
  · iexact Hc9

  rw [Prog.bind_assoc]
  sl_for (Inv m d L O (WL W)) $$ [Hmw2 Htv2 F0 R0 G0 S8 F1 R1 G1 S9 F2 R2 G2 S10 F3 R3 G3 S11 F4 R4 G4 S12 F5 R5 G5 S13 F6 R6 G6 S14 F7 R7 G7 S15 Hout' HO]
  case region => intro t u; cases u; exact trip (F := F) m d L hpre O (WL W) _ t
  · iapply (Entails.of_eq (inv0_eq (F := F) m d L O (WL W)).symm)
    isplitl [Hmw2]; · iexact Hmw2
    isplitl [Htv2]; · iexact Htv2
    isplitl [F0 R0]
    · isplitl [F0]; · iexact F0
      iexact R0
    isplitl [G0 S8]
    · isplitl [G0]; · iexists _; iexact G0
      iexact S8
    isplitl [F1 R1]
    · isplitl [F1]; · iexact F1
      iexact R1
    isplitl [G1 S9]
    · isplitl [G1]; · iexists _; iexact G1
      iexact S9
    isplitl [F2 R2]
    · isplitl [F2]; · iexact F2
      iexact R2
    isplitl [G2 S10]
    · isplitl [G2]; · iexists _; iexact G2
      iexact S10
    isplitl [F3 R3]
    · isplitl [F3]; · iexact F3
      iexact R3
    isplitl [G3 S11]
    · isplitl [G3]; · iexists _; iexact G3
      iexact S11
    isplitl [F4 R4]
    · isplitl [F4]; · iexact F4
      iexact R4
    isplitl [G4 S12]
    · isplitl [G4]; · iexists _; iexact G4
      iexact S12
    isplitl [F5 R5]
    · isplitl [F5]; · iexact F5
      iexact R5
    isplitl [G5 S13]
    · isplitl [G5]; · iexists _; iexact G5
      iexact S13
    isplitl [F6 R6]
    · isplitl [F6]; · iexact F6
      iexact R6
    isplitl [G6 S14]
    · isplitl [G6]; · iexists _; iexact G6
      iexact S14
    isplitl [F7 R7]
    · isplitl [F7]; · iexact F7
      iexact R7
    isplitl [G7 S15]
    · isplitl [G7]; · iexists _; iexact G7
      iexact S15
    isplitr; · iempintro
    isplitl [Hout']; · iexact Hout'
    iexists _; isplitr
    swap; · iexact HO
    ipureintro; exact fun p hp => .inl hp
  iintro %u HI
  ihave HI' := (Entails.of_eq (inv16_eq (F := F) m d L O (WL W))) $$ [HI]
  · iexact HI
  icases HI' with ⟨-, Htv, ⟨⟨%s0, H0⟩, S0, T0⟩, Fo0, ⟨⟨%s1, H1⟩, S1, T1⟩, Fo1, ⟨⟨%s2, H2⟩, S2, T2⟩, Fo2, ⟨⟨%s3, H3⟩, S3, T3⟩, Fo3, ⟨⟨%s4, H4⟩, S4, T4⟩, Fo4, ⟨⟨%s5, H5⟩, S5, T5⟩, Fo5, ⟨⟨%s6, H6⟩, S6, T6⟩, Fo6, ⟨⟨%s7, H7⟩, S7, T7⟩, Fo7, Hdone, -, %W', %hW', HO⟩

  sl_exec
  iapply (wait_out_last (F := F) m d L (wPts d L cc1_scratch10) cc1_scratch26.sem 120 (k1_off1 L 245760#32) (k1_off1_inb L 8) O _) $$ [Fo0 HO]
  · iframe # ∗
  iintro ⟨C0, ⟨%o0, G0⟩, S8, HO⟩
  sl_exec
  iapply (wait_out_last (F := F) m d L (wPts d L cc1_scratch11) cc1_scratch27.sem 121 (k1_off1 L 247808#32) (k1_off1_inb L 9) O _) $$ [Fo1 HO]
  · iframe # ∗
  iintro ⟨C1, ⟨%o1, G1⟩, S9, HO⟩
  sl_exec
  iapply (wait_out_last (F := F) m d L (wPts d L cc1_scratch12) cc1_scratch28.sem 122 (k1_off1 L 249856#32) (k1_off1_inb L 10) O _) $$ [Fo2 HO]
  · iframe # ∗
  iintro ⟨C2, ⟨%o2, G2⟩, S10, HO⟩
  sl_exec
  iapply (wait_out_last (F := F) m d L (wPts d L cc1_scratch13) cc1_scratch29.sem 123 (k1_off1 L 251904#32) (k1_off1_inb L 11) O _) $$ [Fo3 HO]
  · iframe # ∗
  iintro ⟨C3, ⟨%o3, G3⟩, S11, HO⟩
  sl_exec
  iapply (wait_out_last (F := F) m d L (wPts d L cc1_scratch14) cc1_scratch30.sem 124 (k1_off1 L 253952#32) (k1_off1_inb L 12) O _) $$ [Fo4 HO]
  · iframe # ∗
  iintro ⟨C4, ⟨%o4, G4⟩, S12, HO⟩
  sl_exec
  iapply (wait_out_last (F := F) m d L (wPts d L cc1_scratch15) cc1_scratch31.sem 125 (k1_off1 L 256000#32) (k1_off1_inb L 13) O _) $$ [Fo5 HO]
  · iframe # ∗
  iintro ⟨C5, ⟨%o5, G5⟩, S13, HO⟩
  sl_exec
  iapply (wait_out_last (F := F) m d L (wPts d L cc1_scratch16) cc1_scratch32.sem 126 (k1_off1 L 258048#32) (k1_off1_inb L 14) O _) $$ [Fo6 HO]
  · iframe # ∗
  iintro ⟨C6, ⟨%o6, G6⟩, S14, HO⟩
  sl_exec
  iapply (wait_out_last (F := F) m d L (wPts d L cc1_scratch17) cc1_scratch33.sem 127 (k1_off1 L 260096#32) (k1_off1_inb L 15) O _) $$ [Fo7 HO]
  · iframe # ∗
  iintro ⟨C7, ⟨%o7, G7⟩, S15, HO⟩
  sl_exec
  sl_step

  ihave HtblT := (Entails.of_eq (tbl_pull (F := F) m d L).symm) $$ [Ht18 HtblR]
  · iframe # ∗
  ihave Htbl := (tbl_toks (F := F) d L (wid L) (Tb m d)).2 $$ [HtblD HtblT]
  · iframe # ∗
  ihave HchrT := (Entails.of_eq (chr_pull (F := F) m d L).symm) $$ [T0 T1 T2 T3 T4 T5 T6 T7 HchrR]
  · iframe # ∗
  ihave Hchr := (chr_toks (F := F) d L (wid L) (m (chrLoc d))).2 $$ [HchrD HchrT]
  · iframe # ∗
  ihave Hall := (Entails.of_eq (out_last8 (F := F) (fun k => (outV.view.loc (thr d L) ↦[chunkSet (wid L) k]{fullShare} Out m d : sProp 𝕄))).symm) $$ [C0 C1 C2 C3 C4 C5 C6 C7 Hdone]
  · iframe # ∗
  ihave Hsh3 := (Entails.of_eq (pts_shV (F := F) d L _ _)) $$ Hsh2
  iapply (pack' (F := F) m d L hF O W)
  isplitl [Htbl]; · iexact Htbl
  isplitl [Hchr]; · iexact Hchr
  isplitl [Hall]; · iexact Hall
  isplitl [Hrem]; · iexact Hrem
  isplitl [Hsh3]; · iexact Hsh3
  isplitl [Htv H0 H1 H2 H3 H4 H5 H6 H7 G0 G1 G2 G3 G4 G5 G6 G7 Hbufs]
  · isplitl [Htv]; · iexists _; iexact Htv
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    iexact Hbufs
  isplitl [S0 S1 S2 S3 S4 S5 S6 S7 S8 S9 S10 S11 S12 S13 S14 S15 Sc0 Sc1 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [Sc0]; · iexact Sc0
    isplitl [Sc1]; · iexact Sc1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.KI

end
-- ==== Proof.KI.Launch.lean ====
import proofs.«204304_g88828513616490_cont_9to1c4b_177_25_alg».proof.Proof.KI.TileProof

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (ρ : Dev nD → PrngReg)

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub1) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goRes m d (Fin.cast nCore_zero c) (Fin.cast nSub_zero i) := rfl
theorem P_td (d : Dev nD) (c : Fin ((K (F := F)).nCore 0)) (i : Fin ((K (F := F)).nSub 0)) :
    (P m).td 0 d c i = tdRes m d (Fin.cast nCore_zero c) (Fin.cast nSub_zero i) := rfl

instance P_storable : (P (F := F) m).IsStorable where
  st q d c := match q with
    | 0 => by rw [P_st]; unfold stRes; infer_instance
  dn q d c := match q with
    | 0 => by rw [P_dn]; unfold dnRes; infer_instance
  go q d c i := match q with
    | 0 => by rw [P_go]; unfold goRes; infer_instance
  td q d c i := match q with
    | 0 => by rw [P_td]; unfold tdRes; infer_instance

theorem defs₀_vector (c : Fin τ.nSC) (s : Fin τ.nSub) :
    defs₀ (F := F) (.scVector c s) 1 ()
      = SparseCore.onTile hcore1 hsub1 (fun c s => cc1__sc_gather (coordsV c s)
            tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1) ⟨⟩ c s := rfl

set_option maxRecDepth 16384 in
theorem tileObl (hpre : PreOK m) (hF : (K (F := F)).Facts) : (K (F := F)).TileObl (D (F := F)) 𝒱 (P m) v₀ 0 := by
  intro d c i O W hO hOlev _
  have hc : ((K (F := F)).core 0 c).val < 2 := c.isLt
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc,
    P_go, P_td]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hcN : cN (coordsV ⟨_, hci.1⟩ ⟨_, hci.2⟩) = Fin.cast nCore_zero c := Fin.ext rfl
  have hiN : iN (coordsV ⟨_, hci.1⟩ ⟨_, hci.2⟩) = Fin.cast nSub_zero i := Fin.ext rfl
  rw [← hcN, ← hiN]
  exact tile_body' m d (coordsV ⟨_, hci.1⟩ ⟨_, hci.2⟩) hpre hF O W hO hOlev

def fq (d : Dev nD) (s' : Phys nD τ sig (Elt F)) : Prop :=
  s'.mem.mem (outLoc d) = Out m d ∧ s'.mem.mem (chrLoc d) = m (chrLoc d) ∧ s'.mem.mem (cntLoc d) = m (cntLoc d)

theorem hfin (d : Dev nD) (s' : Phys nD τ sig (Elt F)) : iprop(FIN m d ∗ SI s') ⊢ (⌜fq m d s'⌝ : sProp 𝕄) := by
  unfold FIN
  iintro ⟨⟨Hc, Hn, Ho⟩, HSI⟩
  icombine HSI Hc gives %hc
  icombine HSI Hn gives %hn
  icombine HSI Ho gives %ho
  ipureintro
  exact ⟨funext fun i => ho i (Finset.mem_univ i), funext fun i => hc i (Finset.mem_univ i), funext fun i => hn i (Finset.mem_univ i)⟩

theorem sh_join (d : Dev nD) (c : Fin τ.nSC) :
    iprop((bigSep Finset.univ fun i : Fin 16 => shLoc d c ↦[slcSet i]{Transfers.shareDrop fullShare 16} Tsh m d c)
        ∗ bigSep Finset.univ fun i : Fin 16 => bigSep Finset.univ fun j : Fin 16 => shLoc d c ↦[slcSet j]{Transfers.shareTok fullShare 16 i} Tsh m d c)
      ⊢ (shLoc d c ↦{fullShare} Tsh m d c : sProp 𝕄) := by
  rw [bigSep_univ_comm (fun (i j : Fin 16) => (shLoc d c ↦[slcSet j]{Transfers.shareTok fullShare 16 i} Tsh m d c : sProp 𝕄)), ← bigSep_sep',
    shLoc_slices d c fullShare]
  exact bigSep_mono fun j _ => Transfers.pointsTo_toks_join fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem slices_ex (d : Dev nD) (cs : Fin τ.nSC) (f : Buf (Elt F) (shLoc d cs)) :
    (shLoc d cs ↦{fullShare} f : sProp 𝕄) ⊢ bigSep Finset.univ fun i : Fin 16 => iprop(∃ f, shLoc d cs ↦[slcSet i]{fullShare} f) := by
  have h1 : ∀ i : Fin 16, (shLoc d cs ↦[slcSet i]{fullShare} f : sProp 𝕄) ⊢ iprop(∃ f, shLoc d cs ↦[slcSet i]{fullShare} f) := fun i => by
    iintro H; iexists f; iexact H
  rw [shLoc_slices d cs fullShare f]
  exact bigSep_mono fun i _ => h1 i

theorem vecSplit_core (d : Dev nD) (c : Fin 2) (R : sProp 𝕄) :
    iprop(stRes m d c ∗ (∃ f, shLoc d (c.castLE (by decide)) ↦{fullShare} f) ∗ R)
      ⊢ |={Set.univ}=> (iprop((bigSep Finset.univ fun i : Fin 16 => goRes m d c i)
        ∗ ((bigSep Finset.univ fun i : Fin 16 => tdRes m d c i) -∗ iprop(dnRes m d c ∗ (∃ f, shLoc d (c.castLE (by decide)) ↦{fullShare} f) ∗ R))) : sProp 𝕄) := by
  unfold stRes dnRes goRes tdRes
  generalize Fin.castLE _ c = cs
  repeat rw [bigSep_sep']
  iintro ⟨⟨HA, HB, HC⟩, ⟨%fsh, Hsh⟩, HR⟩; imodintro
  isplitl [HA HB HC Hsh]
  · isplitl [HA]; · iexact HA
    isplitl [HB]; · iexact HB
    isplitl [HC]; · iexact HC
    iapply (slices_ex d cs fsh); iexact Hsh
  iintro ⟨HA, HB, HO, HD, HT⟩
  isplitl [HA HB HO]
  · iframe # ∗
  isplitr [HR]
  · iexists (Tsh m d cs)
    iapply (sh_join m d cs)
    isplitl [HD]; · iexact HD
    iexact HT
  iexact HR

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d (Fin.cast nCore_zero c) ∗ ownBufs (S d ((K (F := F)).core 0 c))) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ iprop(dnRes m d (Fin.cast nCore_zero c) ∗ ownBufs (S d ((K (F := F)).core 0 c)))))
  rw [bigSep_tasks (F := F) (fun i => goRes m d (Fin.cast nCore_zero c) i), bigSep_tasks (F := F) (fun i => tdRes m d (Fin.cast nCore_zero c) i), ownBufs_S]
  exact vecSplit_core m d (Fin.cast nCore_zero c) _

abbrev DCI : Type := Dev nD × Fin τ.nSC × Fin τ.nSub
abbrev bcell₃ (x : DCI) : GSem nD τ sig := bcell x.1 x.2.1 x.2.2

def bCells : Finset (GSem nD τ sig) := Finset.univ.image bcell₃

def bToks : Finset (GSem nD τ sig × ℕ × ℕ) :=
  Finset.univ.image fun x : DCI × Fin (grid1.bound 1) => (bcell x.1.1 x.1.2.1 (x.2.castLE hsub1), 0, x.1.2.2.val)

def u₀ (uP : UP) : UU := (initOf (K (F := F)).hsCells (K (F := F)).hsToks, (initOf bCells bToks, (uP, 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU (((1 : UH), (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro H
  ihave H' := h1 $$ H
  icases H' with ⟨HH, H⟩
  ihave H' := h2 $$ H
  isplitl [HH]; · iexact HH
  iexact H'

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem creds_b : ((P (F := F) m).oxCred : sProp 𝕄)
    ⊢ bigSep Finset.univ fun dci : DCI => if dci.2.1.val < 2 then cred (tallyAt (bcell₃ dci) (some 0) (grid1.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid1.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid1.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)

abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ (if dci.2.1.val < 2 then cred (tallyAt (bcell₃ dci) (some 0) (grid1.bound 1)) else BI.emp))

theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid1.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub1 j)) (Finset.mem_univ _))))
      isplitl; · iexact Hinv
      rw [bigSep_emp']; iempintro
    isplitl [Htok]; · iexact Htok
    isplitr
    · iapply (SparseCore.ent (bigSep_mono_frame (s := (Finset.univ : Finset (Fin (grid1.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub1 j)) (Finset.mem_univ _))))
      isplitl; · iexact Hr
      rw [bigSep_emp']; iempintro
    isplitl [Hat]; · iexact Hat
    iexact Hcred
  · iempintro

theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => if dci.2.1.val < 2 then cred (tallyAt (bcell₃ dci) (some 0) (grid1.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ (uP : UP) (G : Dev nD → sProp 𝕄)
    (hfund : (BI.own (EP (F := F) uP) : sProp 𝕄) ⊢ |={Set.univ}=> bigSep Finset.univ fun d : Dev nD => G d) :
    iprop(ownU (u₀ (F := F) uP) ∗ (P (F := F) m).oxCred ∗ (K (F := F)).freeSems0)
      ⊢ |={Set.univ}=> iprop(BI.own (EH (initOf (K (F := F)).hsCells (K (F := F)).hsToks)) ∗ (bigSep Finset.univ G)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod hfund $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

theorem run_main [∀ e, Nonempty (Elt F e)] (hpre : PreOK m) (uP : UP) (G : Dev nD → sProp 𝕄)
    (hfund : (BI.own (EP (F := F) uP) : sProp 𝕄) ⊢ |={Set.univ}=> bigSep Finset.univ fun d : Dev nD => G d)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m d)) :
    θ_run (defs (F := F)) (threads (F := F)) ⟨m, fun _ => 0, ρ⟩
      (fun r => ∀ c : Dev nD, r.2.mem (outLoc c) = Out m c ∧ r.2.mem (chrLoc c) = m (chrLoc c) ∧ r.2.mem (cntLoc c) = m (cntLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hpre facts)
    (fun q _ => match q with | 0 => vecSplit m)
    m ρ main G (FIN m) (u₀ (F := F) uP) (hu₀ m uP G hfund) hmain (fq m) (hfin m) _ (fun _ h => h)

end Cert.KI

end
-- ==== Proof.KI.Region.lean ====
import proofs.«204304_g88828513616490_cont_9to1c4b_177_25_alg».proof.Proof.KI.Common
import proofs.«204304_g88828513616490_cont_9to1c4b_177_25_alg».proof.Proof.Gen.KernelIdeal.Points
import Idealize.ShloMosaic.Lib.Pipeline.FrameBody
import Idealize.ShloMosaic.Lib.Pipeline.Value
import Idealize.ShloMosaic.Lib.Pipeline.Regions

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

abbrev adm : (p : Fin 1) → (pcfgs (F := F) p).Adm := fun p => (cfgs p).toPCfg_adm

omit [FloatOps F] in
theorem zero_off : (![0, 0] : Fin S512x128.rank → Nat) = fun _ => 0 := funext fun a => by fin_cases a <;> rfl

set_option maxHeartbeats 1000000 in
theorem kernel_run (d : Dev nD) (arg0 : Memref sig .tc .vmem S512x128 .f32) (harg0 : arg0.IsWhole) (arg1 : Memref sig .tc .vmem S512x128 .f32) (harg1 : arg1.IsWhole)
    (x0 : Vec F S512x128 .f32) (Q : PUnit → sProp 𝕄) :
    iprop(owns (T d) arg0 fullShare x0 ∗ (∃ y, owns (T d) arg1 fullShare y)
        ∗ (iprop(owns (T d) arg0 fullShare x0 ∗ owns (T d) arg1 fullShare (k0_pay1 (F := F) x0)) -∗ Q ⟨⟩))
      ⊢ wp frame (wpE (defs₀ (F := F)) 𝒱₀ (T d) none) Set.univ (cc0__log_table_body arg0 harg0 arg1 harg1) Q := by
  rw [cc0__log_table_body_eq_skeleton]; unfold cc0__log_table_body_skel
  unfold owns
  iintro ⟨⟨%f0, %hf0, H0⟩, ⟨%y1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zero_off inb_S512x128_S512x128_0_0 y⟩),
    View.canon_unit_zero zero_off, View.readAt_eq_ld, View.ld_unit_zero zero_off]

def dat0 (d : Dev nD) (a0 a1 : FVec F S512x128 .f32) : Pipeline.Dat τ (Elt F) (HIx 1) ℕ UU ℕ cfg0 d where
  A := fun | 0 => a0 | 1 => a1 | ⟨_ + 2, h⟩ => absurd h (Nat.not_lt.2 (Nat.le_add_left _ _))
  after := fun | 0 => fun _ => a0 | 1 => fun _ => k0_pay1 (F := F) a0 | ⟨_ + 2, h⟩ => absurd h (Nat.not_lt.2 (Nat.le_add_left _ _))
  Φ _ := iprop(emp)
  q _ := fullShare
  owed _ := (K (F := F)).Otc d 0
  recorded _ := {p | p.2 = none}

def pdats (a0 a1 : Dev nD → FVec F S512x128 .f32) :
    (p : Fin 1) → (c : Dev nD) → Pipeline.Dat τ (Elt F) (HIx 1) ℕ UU ℕ (Pipeline.pin (pcfgs (F := F)) adm p) c :=
  fun _ c => dat0 c (a0 c) (a1 c)

section Dat0

variable (d : Dev nD) (a0 a1 : FVec F S512x128 .f32)

theorem A0 : (dat0 d a0 a1).A 0 = a0 := by dsimp only [dat0]
theorem A1 : (dat0 d a0 a1).A 1 = a1 := by dsimp only [dat0]
theorem after0 (t : Fin cfg0.N) : (dat0 d a0 a1).after 0 t = a0 := by dsimp only [dat0]
theorem after1 (t : Fin cfg0.N) : (dat0 d a0 a1).after 1 t = k0_pay1 (F := F) a0 := by dsimp only [dat0]
theorem share0 (w : Fin cfg0.W) : (dat0 d a0 a1).share w = fullShare := by unfold Pipeline.Dat.share; split <;> rfl

omit [FloatOps F] in
theorem idx_zero0 (t : Fin cfg0.N) : (fun a => (win0_0.index t) a * main_v0.ty.shape.size a) = fun _ => 0 := by
  obtain rfl := fin_N0 t; exact funext fun a => by fin_cases a <;> decide
omit [FloatOps F] in
theorem idx_zero1 (t : Fin cfg0.N) : (fun a => (win0_1.index t) a * main_v1.ty.shape.size a) = fun _ => 0 := by
  obtain rfl := fin_N0 t; exact funext fun a => by fin_cases a <;> decide

theorem before0 (t : Fin cfg0.N) (dd) : (dat0 d a0 a1).before 0 t dd = a0 := by
  unfold Pipeline.Dat.before
  rw [if_pos (fetch0_0 t)]
  show (dat0 d a0 a1).blockOf 0 t = a0
  unfold Pipeline.Dat.blockOf
  rw [A0]
  exact Memref.read_access_unit_zero (Elt F) main_v0 (idx_zero0 t) _ a0

theorem arrAt1 : (dat0 d a0 a1).arrAt 1 cfg0.N = k0_pay1 (F := F) a0 := by
  rw [show cfg0.N = (t0_0 : Fin cfg0.N).val + 1 from rfl, (dat0 d a0 a1).arrAt_succ 1 t0_0, if_pos (flush0_1 t0_0)]
  show ((cfg0.win 1).blk t0_0).view.write (Elt F) _ ((dat0 d a0 a1).after 1 t0_0) Finset.univ = _
  rw [after1]
  exact Memref.write_access_unit_zero_univ (Elt F) main_v1 (idx_zero1 t0_0) _ _ _

theorem arrAt0 : (dat0 d a0 a1).arrAt 0 cfg0.N = a0 := ((dat0 d a0 a1).arrAt_in 0 rfl _).trans (A0 d a0 a1)

theorem sound_body (t : Fin cfg0.N) :
    iprop((dat0 d a0 a1).Φ t.castSucc ∗ (dat0 d a0 a1).owesAt none t.castSucc
        ∗ (∃ dd, owns (T d) (st0_0 t) fullShare ((dat0 d a0 a1).before 0 t dd))
        ∗ (∃ dd, owns (T d) (st0_1 t) fullShare ((dat0 d a0 a1).before 1 t dd)))
      ⊢ wp frame (wpE (defs₀ (F := F)) 𝒱₀ (T d) none) Set.univ (bodyAt0 t) fun _ =>
          iprop((dat0 d a0 a1).Φ t.succ ∗ (dat0 d a0 a1).owesAt none t.succ
            ∗ owns (T d) (st0_0 t) fullShare ((dat0 d a0 a1).after 0 t)
            ∗ owns (T d) (st0_1 t) fullShare ((dat0 d a0 a1).after 1 t)) := by
  simp only [before0]
  rw [show (dat0 d a0 a1).Φ t.succ = (dat0 d a0 a1).Φ t.castSucc from rfl,
    show (dat0 d a0 a1).owesAt none t.succ = (dat0 d a0 a1).owesAt none t.castSucc from rfl, after0, after1]
  iintro ⟨HΦ, Ho, ⟨%d0, H0⟩, ⟨%d1, H1⟩⟩
  iapply (kernel_run d _ _ _ _ a0 _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body0 : Pipeline.BodyObligation (dat0 d a0 a1) (defs₀ (F := F)) 𝒱₀ none Set.univ := fun t => by
  rw [bigSep_W0, bigSep_W0]
  exact sound_body d a0 a1 t

end Dat0

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
theorem none_of_WBelow {d : Dev nD} {W : Waits sig (HIx 1)} (h : (K (F := F)).WBelow (T d) W 0) : ∀ p ∈ W, p.2 = none := fun p hp => by
  have := h p hp
  rcases hι : p.2 with _ | q
  · rfl
  · rw [hι] at this; exact absurd this (Nat.not_le.2 ((K (F := F)).lev_some_pos _ q))
omit [FloatOps F] in
theorem WBelow_of_none {d : Dev nD} {W : Waits sig (HIx 1)} (h : ∀ p ∈ W, p.2 = none) : (K (F := F)).WBelow (T d) W 0 := fun p hp => by
  rw [h p hp]; exact le_rfl

abbrev owesT (d : Dev nD) : sProp 𝕄 := iprop(∃ W, ⌜(K (F := F)).WBelow (T d) W (8 * 0)⌝ ∗ owes (T d) ((K (F := F)).Otc d 0) W)

section Reg

variable (a0 a1 : Dev nD → FVec F S512x128 .f32)

omit [FloatOps F] in
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
by
  unfold Pipeline.prefHeld
  show bigSep (Finset.univ : Finset (Fin 0)) _ = _
  rw [Finset.univ_eq_empty, BI.bigSep_empty]

theorem arrays_entry (c : Dev nD) :
    ((pdats a0 a1 0 c).arrays ((pdats a0 a1 0 c).arrAt · 0) : sProp 𝕄) = iprop((v0Loc c ↦{fullShare} a0 c) ∗ (v1Loc c ↦{fullShare} a1 c)) := by
  rw [Pipeline.arrays_eq (Pipeline.pin (pcfgs (F := F)) adm) (pdats a0 a1) 0 c arr_whole0 (share0 c (a0 c) (a1 c)), bigSep_W0]
  show iprop((v0Loc c ↦{fullShare} (dat0 c (a0 c) (a1 c)).A 0) ∗ (v1Loc c ↦{fullShare} (dat0 c (a0 c) (a1 c)).A 1)) = _
  rw [A0, A1]

theorem arrays_exit (c : Dev nD) :
    ((pdats a0 a1 0 c).arrays ((pdats a0 a1 0 c).arrAt · (Pipeline.pin (pcfgs (F := F)) adm 0).N) : sProp 𝕄)
      = iprop((v0Loc c ↦{fullShare} a0 c) ∗ (v1Loc c ↦{fullShare} k0_pay1 (F := F) (a0 c))) := by
  rw [Pipeline.arrays_eq (Pipeline.pin (pcfgs (F := F)) adm) (pdats a0 a1) 0 c arr_whole0 (share0 c (a0 c) (a1 c)), bigSep_W0]
  show iprop((v0Loc c ↦{fullShare} (dat0 c (a0 c) (a1 c)).arrAt 0 cfg0.N) ∗ (v1Loc c ↦{fullShare} (dat0 c (a0 c) (a1 c)).arrAt 1 cfg0.N)) = _
  rw [arrAt0, arrAt1]

def reg0 : Pipeline.RegionSeg (pcfgs (F := F)) adm (pdats a0 a1) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body0 c (a0 c) (a1 c)).loose
  hwaits c := Pipeline.cellsWaits_intro (Pipeline.pin (pcfgs (F := F)) adm) (pdats a0 a1) none 0 c fun w s t =>
    (K (F := F)).mayWait_none _ (Otc_none c 0)
  pre c := iprop((v0Loc c ↦{fullShare} a0 c) ∗ (v1Loc c ↦{fullShare} a1 c) ∗ owesT (F := F) c)
  post c := iprop((v0Loc c ↦{fullShare} a0 c) ∗ (v1Loc c ↦{fullShare} k0_pay1 (F := F) (a0 c)) ∗ owesT (F := F) c)
  X _ := iprop(emp)
  Y _ := iprop(emp)
  Z _ := iprop(emp)
  hentry c := by
    rw [arrays_entry, prefHeld0]
    iintro ⟨⟨H0, H1, ⟨%W, %hW, HO⟩⟩, -, -⟩
    imodintro
    isplitl [H0 H1]
    · isplitl [H0] <;> iassumption
    isplitr; · iempintro
    isplitl [HO]
    · iexists W; isplitr; · ipureintro; exact fun p hp => Or.inl (none_of_WBelow hW p (Finset.mem_coe.mp hp))
      iexact HO
    isplitr <;> iempintro
  hin c := by iintro -; iempintro
  hout c := by
    rw [Pipeline.ownSems0_none, scopedRest0_eq]
    iintro -
    isplitr; · iempintro
    isplitr <;> iempintro
  hexit c := by
    rw [arrays_exit]
    iintro ⟨⟨H0, H1⟩, ⟨%W, %hW, HO⟩, -, -⟩
    imodintro
    isplitl [H0]; · iexact H0
    isplitl [H1]; · iexact H1
    iexists W; isplitr
    · ipureintro
      refine WBelow_of_none fun p hp => ?_
      rcases hW (Finset.mem_coe.mpr hp) with h | ⟨w, s, h⟩
      · exact h
      · rw [h]
    iexact HO

theorem reg0_pre (c : Dev nD) : (reg0 a0 a1).pre c = iprop((v0Loc c ↦{fullShare} a0 c) ∗ (v1Loc c ↦{fullShare} a1 c) ∗ owesT (F := F) c) := rfl
theorem reg0_post (c : Dev nD) : (reg0 a0 a1).post c = iprop((v0Loc c ↦{fullShare} a0 c) ∗ (v1Loc c ↦{fullShare} k0_pay1 (F := F) (a0 c)) ∗ owesT (F := F) c) := rfl

end Reg

def Gm (d : Dev nD) : sProp 𝕄 :=
  iprop(Pipeline.cellsGhost cfgs EP 0 d ∗ Pipeline.toksInit cfgs EP 0 d)

set_option backward.isDefEq.respectTransparency.types false in
theorem region_wp0 [∀ e, Nonempty (Elt F e)] (d : Dev nD) (a0 a1 : FVec F S512x128 .f32) (Φ : PUnit → sProp 𝕄) :
    iprop(levAts (K (F := F)).L (K (F := F)).lev ∗ boundary (T d) ∗ (v0Loc d ↦{fullShare} a0) ∗ (v1Loc d ↦{fullShare} a1) ∗ owesT (F := F) d ∗ Gm (F := F) d
        ∗ (iprop(boundary (T d) ∗ (v0Loc d ↦{fullShare} a0) ∗ (v1Loc d ↦{fullShare} k0_pay1 (F := F) a0) ∗ owesT (F := F) d) -∗ Φ ⟨⟩))
      ⊢ wp frame (wpE (D (F := F)) 𝒱 (T d) none) Set.univ (Prog.op (.customCall (Pipeline.entry 0) ()) fun u => .ret u) Φ := by
  unfold Gm
  iintro ⟨#Hlev, Hb, H0, H1, HO, ⟨Hg, Ht⟩, Hk⟩
  iapply (Pipeline.RegionSeg.wp (pcfgs (F := F)) adm (pdats (fun _ => a0) (fun _ => a1)) none cellOf_inj EP (defs₀ (F := F)) 𝒱₀ (K (F := F)).L (K (F := F)).lev
    (reg0 (fun _ => a0) (fun _ => a1)) d none (fun u hu => nomatch hu) (fun u => .ret u) Φ)
  rw [reg0_pre, reg0_post]
  isplitl [Hk]
  · iintro ⟨Hb, H0, H1, HO⟩
    rw [wp_ret]; imodintro
    iapply Hk
    isplitl [Hb]; · iexact Hb
    isplitl [H0]; · iexact H0
    isplitl [H1] <;> iassumption
  isplitl [Hb]; · iexact Hb
  isplitl [H0 H1 HO]
  · isplitl [H0]; · iexact H0
    isplitl [H1] <;> iassumption
  isplitr; · iexact Hlev
  isplitl [Hg] <;> iassumption

theorem region_wp [∀ e, Nonempty (Elt F e)] (d : Dev nD) (a0 a1 : FVec F S512x128 .f32) (Φ : PUnit → sProp 𝕄) :
    iprop(levAts (K (F := F)).L (K (F := F)).lev ∗ boundary (T d) ∗ (v0Loc d ↦{fullShare} a0) ∗ (v1Loc d ↦{fullShare} a1) ∗ owesT (F := F) d ∗ Gm (F := F) d
        ∗ (iprop(boundary (T d) ∗ (v0Loc d ↦{fullShare} a0) ∗ (v1Loc d ↦{fullShare} k0_pay1 (F := F) a0) ∗ owesT (F := F) d) -∗ Φ ⟨⟩))
      ⊢ wp frame (wpE ((K (F := F)).defs (D (F := F))) 𝒱 (T d) none) Set.univ
          (Prog.lift (.customCall (SparseCore.inner (Pipeline.entry 0)) ())) Φ :=
  (region_wp0 d a0 a1 Φ).trans ((K (F := F)).wp_liftProg (D (F := F)) 𝒱 (T d) Set.univ none (Prog.op (.customCall (Pipeline.entry 0) ()) fun u => .ret u) Φ)

end Cert.KI

end
-- ==== Proof.KI.Main.lean ====
import proofs.«204304_g88828513616490_cont_9to1c4b_177_25_alg».proof.Proof.KI.Common
import proofs.«204304_g88828513616490_cont_9to1c4b_177_25_alg».proof.Proof.Gen.KernelIdeal.Points
import Idealize.ShloMosaic.Lib.Pipeline.FrameBody
import Idealize.ShloMosaic.Lib.Pipeline.Value
import Idealize.ShloMosaic.Lib.Pipeline.Regions
import proofs.«204304_g88828513616490_cont_9to1c4b_177_25_alg».proof.Proof.KI.Region

noncomputable section

namespace Cert.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held wp_hlo_within)

variable [FloatOps F] (m : (ℓ : Loc nD τ sig) → Buf (Elt F) ℓ) (ρ : Dev nD → PrngReg)

omit [FloatOps F] in
theorem bigSep_tiles (Φ : Fin 32 → sProp 𝕄) :
    bigSep Finset.univ Φ = bigSep Finset.univ fun c : Fin 2 => bigSep Finset.univ fun i : Fin 16 => Φ (widN c i) := by
  have himg : (Finset.univ : Finset (Fin 32)) = (Finset.univ : Finset (Fin 2 × Fin 16)).image fun p => widN p.1 p.2 := by
    refine (Finset.eq_univ_iff_forall.mpr fun n => Finset.mem_image.mpr ?_).symm
    refine ⟨(⟨n.val % 2, Nat.mod_lt _ (by decide)⟩, ⟨n.val / 2, by have := n.isLt; omega⟩), Finset.mem_univ _, Fin.ext ?_⟩
    show 2 * (n.val / 2) + n.val % 2 = n.val
    omega
  have hinj : Set.InjOn (fun p : Fin 2 × Fin 16 => widN p.1 p.2) ↑(Finset.univ : Finset (Fin 2 × Fin 16)) := by
    rintro ⟨c, i⟩ - ⟨c', i'⟩ - h
    have hv : 2 * i.val + c.val = 2 * i'.val + c'.val := congrArg Fin.val h
    have hc := c.isLt; have hc' := c'.isLt
    exact Prod.ext (Fin.ext (by show c.val = c'.val; omega)) (Fin.ext (by show i.val = i'.val; omega))
  rw [himg, SparseCore.bigSep_image_of_injOn hinj, bigSep_univ_prod]

omit [FloatOps F] in
theorem tileSet_disjoint : ∀ n ∈ (Finset.univ : Finset (Fin 32)), ∀ n' ∈ (Finset.univ : Finset (Fin 32)), n ≠ n' → Disjoint (tileSet n) (tileSet n') :=
  fun n _ n' _ hne => Finset.disjoint_left.mpr fun j hj hj' => by
    unfold tileSet at hj hj'
    rw [Finset.mem_filter] at hj hj'
    exact hne (Fin.ext (hj.2.symm.trans hj'.2))

omit [FloatOps F] in
theorem tileSet_cover : (Finset.univ : Finset (Fin 32)).biUnion tileSet = Finset.univ := by
  refine Finset.eq_univ_iff_forall.mpr fun j => Finset.mem_biUnion.mpr ?_
  have hj : (j 0).val < 8388608 := (j 0).isLt
  refine ⟨⟨(j 0).val / 262144, by omega⟩, Finset.mem_univ _, ?_⟩
  unfold tileSet; rw [Finset.mem_filter]; exact ⟨Finset.mem_univ _, rfl⟩

omit [FloatOps F] in
theorem out_tiles (d : Dev nD) (f : Buf (Elt F) (outLoc d)) :
    (outLoc d ↦{fullShare} f : sProp 𝕄) = bigSep Finset.univ fun n : Fin 32 => outLoc d ↦[tileSet n]{fullShare} f := by
  rw [← pointsTo_biUnion (ℓ := outLoc d) (q := fullShare) (f := f) Finset.univ tileSet tileSet_disjoint, tileSet_cover]

theorem stRes_eq (d : Dev nD) : (bigSep Finset.univ fun c : Fin 2 => stRes m d c)
    = iprop((bigSep Finset.univ fun n : Fin 32 => tblLoc d ↦{rdShare n} Tb m d) ∗ (bigSep Finset.univ fun n : Fin 32 => chrLoc d ↦{rdShare n} m (chrLoc d))
        ∗ bigSep Finset.univ fun n : Fin 32 => (iprop(∃ f, outLoc d ↦[tileSet n]{fullShare} f) : sProp 𝕄)) := by
  rw [← bigSep_sep', ← bigSep_sep']
  exact (bigSep_tiles (fun n => iprop((tblLoc d ↦{rdShare n} Tb m d) ∗ (chrLoc d ↦{rdShare n} m (chrLoc d)) ∗ ∃ f, outLoc d ↦[tileSet n]{fullShare} f))).symm
theorem dnRes_eq (d : Dev nD) : (bigSep Finset.univ fun c : Fin 2 => dnRes m d c)
    = iprop((bigSep Finset.univ fun n : Fin 32 => tblLoc d ↦{rdShare n} Tb m d) ∗ (bigSep Finset.univ fun n : Fin 32 => chrLoc d ↦{rdShare n} m (chrLoc d))
        ∗ bigSep Finset.univ fun n : Fin 32 => (outLoc d ↦[tileSet n]{fullShare} Out m d : sProp 𝕄)) := by
  rw [← bigSep_sep', ← bigSep_sep']
  exact (bigSep_tiles (fun n => iprop((tblLoc d ↦{rdShare n} Tb m d) ∗ (chrLoc d ↦{rdShare n} m (chrLoc d)) ∗ outLoc d ↦[tileSet n]{fullShare} Out m d))).symm

theorem st_intro (d : Dev nD) (f : Buf (Elt F) (outLoc d)) :
    iprop((tblLoc d ↦{fullShare} Tb m d) ∗ (chrLoc d ↦{fullShare} m (chrLoc d)) ∗ (outLoc d ↦{fullShare} f))
      ⊢ (iprop((tblLoc d ↦{Transfers.shareDrop fullShare 32} Tb m d) ∗ (chrLoc d ↦{Transfers.shareDrop fullShare 32} m (chrLoc d))
          ∗ bigSep Finset.univ fun c : Fin 2 => stRes m d c) : sProp 𝕄) := by
  rw [stRes_eq, out_tiles]
  iintro ⟨Ht, Hc, Ho⟩
  ihave Ht' := (Transfers.pointsTo_toks_split fullShare 32) $$ Ht
  icases Ht' with ⟨Htd, Htt⟩
  ihave Hc' := (Transfers.pointsTo_toks_split fullShare 32) $$ Hc
  icases Hc' with ⟨Hcd, Hct⟩
  isplitl [Htd]; · iexact Htd
  isplitl [Hcd]; · iexact Hcd
  isplitl [Htt]; · iexact Htt
  isplitl [Hct]; · iexact Hct
  have hex : ∀ n ∈ (Finset.univ : Finset (Fin 32)), (outLoc d ↦[tileSet n]{fullShare} f : sProp 𝕄) ⊢ iprop(∃ f, outLoc d ↦[tileSet n]{fullShare} f) :=
    fun n _ => by iintro H; iexists f; iexact H
  have hmono : (bigSep Finset.univ fun n : Fin 32 => (outLoc d ↦[tileSet n]{fullShare} f : sProp 𝕄))
      ⊢ bigSep Finset.univ fun n : Fin 32 => (iprop(∃ f, outLoc d ↦[tileSet n]{fullShare} f) : sProp 𝕄) := bigSep_mono hex
  iapply hmono
  iexact Ho

theorem dn_elim (d : Dev nD) :
    iprop((tblLoc d ↦{Transfers.shareDrop fullShare 32} Tb m d) ∗ (chrLoc d ↦{Transfers.shareDrop fullShare 32} m (chrLoc d))
          ∗ bigSep Finset.univ fun c : Fin 2 => dnRes m d c)
      ⊢ (iprop((tblLoc d ↦{fullShare} Tb m d) ∗ (chrLoc d ↦{fullShare} m (chrLoc d)) ∗ outLoc d ↦{fullShare} Out m d) : sProp 𝕄) := by
  rw [dnRes_eq, out_tiles]
  iintro ⟨Htd, Hcd, Htt, Hct, Ho⟩
  isplitl [Htd Htt]
  · iapply (Transfers.pointsTo_toks_join fullShare 32)
    isplitl [Htd] <;> iassumption
  isplitl [Hcd Hct]
  · iapply (Transfers.pointsTo_toks_join fullShare 32)
    isplitl [Hcd] <;> iassumption
  iexact Ho

def uP₀ : UP := initOf (Pipeline.cells cfgs cellOf_inj) (Pipeline.launchToks cfgs cellOf_inj)

omit [FloatOps F] in
theorem fund_Gm : (BI.own (EP (F := F) uP₀) : sProp 𝕄) ⊢ |={Set.univ}=> bigSep Finset.univ fun d : Dev nD => Gm (F := F) d := by
  show (BI.own (EP (F := F) (initOf (Pipeline.cells cfgs cellOf_inj) (Pipeline.launchToks cfgs cellOf_inj))) : sProp 𝕄) ⊢ _
  iintro H
  imod (Pipeline.fund_ghost cfgs (EP (F := F)) cellOf_inj) $$ H with ⟨Hg, Ht⟩
  imodintro
  unfold Gm
  rw [bigSep_sep']
  have eg : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c := bigSep_congr fun c _ => bigSep_univ_of_subsingleton (0 : Fin 1)
  have et : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c := bigSep_congr fun c _ => bigSep_univ_of_subsingleton (0 : Fin 1)
  ihave Hg' := (Entails.of_eq eg) $$ Hg
  ihave Ht' := (Entails.of_eq et) $$ Ht
  isplitl [Hg']
  · iexact Hg'
  · iexact Ht'

abbrev rChr : DevRef τ sig := Proc.devRef .tc (main_arg0 : Ref sig .tc)
abbrev rCnt : DevRef τ sig := Proc.devRef .tc (main_arg1 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev opR1 : HloOp τ sig (Elt F) := StableHlo.reshape main_arg1 main_v0 rfl shapeCasts_S65536_S512x128
abbrev opR2 : HloOp τ sig (Elt F) := StableHlo.reshape main_v1 main_v2 rfl shapeCasts_S512x128_S65536

abbrev Sa : Finset (DevRef τ sig) := {rCnt, rV0}
abbrev Sb : Finset (DevRef τ sig) := {rV1, rV2}

omit [FloatOps F] in
theorem held_Sa (d : Dev nD) (W : Valuation τ sig (Elt F)) :
    (held (T d) Sa W : sProp 𝕄) = iprop((cntLoc d ↦{fullShare} W rCnt) ∗ (v0Loc d ↦{fullShare} W rV0)) := by
  unfold held Sa
  rw [SparseCore.bigSep_insert' (by decide), bigSep_singleton]
omit [FloatOps F] in
theorem held_Sb (d : Dev nD) (W : Valuation τ sig (Elt F)) :
    (held (T d) Sb W : sProp 𝕄) = iprop((v1Loc d ↦{fullShare} W rV1) ∗ (tblLoc d ↦{fullShare} W rV2)) := by
  unfold held Sb
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((chrLoc d ↦{fullShare} W main_arg0) ∗ (cntLoc d ↦{fullShare} W main_arg1) ∗ (v0Loc d ↦{fullShare} W main_v0)
      ∗ (v1Loc d ↦{fullShare} W main_v1) ∗ (tblLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)
def a0 (d : Dev nD) : FVec F S512x128 .f32 := shapeCast S512x128 (m (cntLoc d)) shapeCasts_S65536_S512x128
def Vb (d : Dev nD) : Valuation τ sig (Elt F) := Function.update (V0 m d) rV1 (k0_pay1 (F := F) (a0 m d))

theorem Vb_v1 (d : Dev nD) : Vb m d rV1 = k0_pay1 (F := F) (a0 m d) := Function.update_self _ _ _
theorem Vb_v2 (d : Dev nD) : Vb m d rV2 = m (tblLoc d) := Function.update_of_ne (show rV2 ≠ rV1 by decide) _ _

omit [FloatOps F] in
theorem hR1 : (opR1 (F := F)).bufs ⊆ Sa := show ({rCnt, rV0} : Finset (DevRef τ sig)) ⊆ Sa by decide
omit [FloatOps F] in
theorem hR2 : (opR2 (F := F)).bufs ⊆ Sb := show ({rV1, rV2} : Finset (DevRef τ sig)) ⊆ Sb by decide

omit [FloatOps F] in
theorem held_after1 (d : Dev nD) :
    (held (T d) Sa ((opR1 (F := F)).result (V0 m d)) : sProp 𝕄) = iprop((cntLoc d ↦{fullShare} m (cntLoc d)) ∗ (v0Loc d ↦{fullShare} a0 m d)) := by
  rw [held_Sa, StableHlo.reshape_result_ne (r := main_arg1) (h := by decide), StableHlo.reshape_result']
  rfl

theorem held_after2 (d : Dev nD) :
    (held (T d) Sb ((opR2 (F := F)).result (Vb m d)) : sProp 𝕄) = iprop((v1Loc d ↦{fullShare} k0_pay1 (F := F) (a0 m d)) ∗ (tblLoc d ↦{fullShare} Tb m d)) := by
  rw [held_Sb, StableHlo.reshape_result_ne (r := main_v1) (h := by decide), StableHlo.reshape_result', Vb_v1]
  rfl

omit [FloatOps F] in
theorem tcSt_owes (d : Dev nD) : ∃ R : sProp 𝕄, (K (F := F)).tcSt EH d 0 = iprop(owesT (F := F) d ∗ R) := ⟨_, rfl⟩

variable (P : (K (F := F)).Pay (nD := nD) (Val := Elt F) (Name := ℕ) (U := UU))
  (hst : ∀ d c, P.st 0 d c = stRes m d (Fin.cast nCore_zero c)) (hdn : ∀ d c, P.dn 0 d c = dnRes m d (Fin.cast nCore_zero c))

include hst in
theorem st0_eq (d : Dev nD) : (bigSep Finset.univ fun c : Fin ((K (F := F)).nCore 0) => P.st 0 d c) = bigSep Finset.univ fun c : Fin 2 => stRes m d c :=
  bigSep_congr fun c _ => hst d c
include hdn in
theorem dn0_eq (d : Dev nD) : (bigSep Finset.univ fun c : Fin ((K (F := F)).nCore 0) => P.dn 0 d c) = bigSep Finset.univ fun c : Fin 2 => dnRes m d c :=
  bigSep_congr fun c _ => hdn d c

include hst hdn in
set_option maxHeartbeats 1000000 in
theorem hmain [∀ e, Nonempty (Elt F e)] (κ : GSem nD τ sig → ℕ) (d : Dev nD) :
    iprop((K (F := F)).ctx EH P κ ∗ (K (F := F)).tcSt EH d 0 ∗ (K (F := F)).tcRes m ρ d ∗ Gm (F := F) d)
      ⊢ wp frame (wpE ((K (F := F)).defs (D (F := F))) 𝒱 (T d) none) Set.univ (main d)
          fun _ => iprop((K (F := F)).tcSt EH d 1 ∗ FIN m d) := by
  obtain ⟨R, hR⟩ := tcSt_owes (F := F) d
  unfold SparseCore.Cfg.tcRes
  rw [hR, unscopedBufs_eq]
  simp only [main, wp_bind, wp_pure]
  iintro ⟨#Hctx, ⟨HO, HR⟩, ⟨Hb, ⟨Hchr, Hcnt, Hv0, Hv1, Hv2, Hv3⟩, -, -⟩, HG⟩
  ihave Hlev := (SparseCore.Cfg.ctx_levAts κ) $$ Hctx

  iapply (wp_hlo_within 𝒱 (T d) none Set.univ (op := opR1) (S := Sa) hR1 (V := V0 m d)) $$ [Hb Hcnt Hv0]
  · isplitl [Hb]; · iexact Hb
    rw [held_Sa]
    isplitl [Hcnt]; · iexact Hcnt
    iexact Hv0
  iintro ⟨Hb, Hheld⟩
  ihave Hh := (Entails.of_eq (held_after1 m d)) $$ Hheld
  icases Hh with ⟨Hcnt, Hv0⟩
  rw [wp_ret]; imodintro

  iapply (region_wp d (a0 m d) (m (v1Loc d)) _)
  isplitl [Hlev]; · iexact Hlev
  isplitl [Hb]; · iexact Hb
  isplitl [Hv0]; · iexact Hv0
  isplitl [Hv1]; · iexact Hv1
  isplitl [HO]; · iexact HO
  isplitl [HG]; · iexact HG
  iintro ⟨Hb, Hv0, Hv1, HO⟩

  iapply (wp_hlo_within 𝒱 (T d) none Set.univ (op := opR2) (S := Sb) hR2 (V := Vb m d)) $$ [Hb Hv1 Hv2]
  · isplitl [Hb]; · iexact Hb
    rw [held_Sb, Vb_v1, Vb_v2]
    isplitl [Hv1]; · iexact Hv1
    iexact Hv2
  iintro ⟨Hb, Hheld⟩
  ihave Hh := (Entails.of_eq (held_after2 m d)) $$ Hheld
  icases Hh with ⟨Hv1, Hv2⟩
  rw [wp_ret]; imodintro

  ihave Hs := (st_intro m d (m (outLoc d))) $$ [Hv2 Hchr Hv3]
  · iframe # ∗
  icases Hs with ⟨Htd, Hcd, Hst4⟩
  ihave Hst := (Entails.of_eq hR.symm) $$ [HO HR]
  · isplitl [HO] <;> iassumption
  iapply ((K (F := F)).wp_run (D (F := F)) 𝒱 (EH := EH) (P := P) κ d 0)
  isplitr; · iexact Hctx
  isplitl [Hst]; · iexact Hst
  isplitl [Hst4]; · rw [st0_eq m P hst]; iexact Hst4
  iintro ⟨Hst, Hdn⟩
  ihave Hdn' := (Entails.of_eq (dn0_eq m P hdn d)) $$ Hdn
  ihave Hf := (dn_elim m d) $$ [Htd Hcd Hdn']
  · isplitl [Htd]; · iexact Htd
    isplitl [Hcd]; · iexact Hcd
    iexact Hdn'
  icases Hf with ⟨-, Hchr, Hout⟩
  imodintro
  isplitl [Hst]; · iexact Hst
  unfold FIN
  isplitl [Hchr]; · iexact Hchr
  isplitl [Hcnt]; · iexact Hcnt
  iexact Hout

end Cert.KI

end
-- ==== Proof.KB.Common.lean ====
import proofs.«204304_g88828513616490_cont_9to1c4b_177_25_alg».proof.Defs
import proofs.«204304_g88828513616490_cont_9to1c4b_177_25_alg».proof.Proof.Spec
import proofs.«204304_g88828513616490_cont_9to1c4b_177_25_alg».proof.Proof.Gen.Kernel
import proofs.«204304_g88828513616490_cont_9to1c4b_177_25_alg».proof.Proof.Gen.Kernel.Skeleton
import proofs.«204304_g88828513616490_cont_9to1c4b_177_25_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL

def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev chrLoc (d : Dev nD) : Loc nD τ sig := (SparseCore.T d).loc main_arg0
abbrev cntLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev tblLoc (d : Dev nD) : Loc nD τ sig := (SparseCore.T d).loc main_v2
abbrev outLoc (d : Dev nD) : Loc nD τ sig := (SparseCore.T d).loc main_v3

abbrev shRef (c : Fin τ.nSC) : DevRef τ sig := ⟨.shared, ⟨0, by decide⟩, c⟩
abbrev shLoc (d : Dev nD) (c : Fin τ.nSC) : Loc nD τ sig := (d, shRef c)

abbrev tblV : Memref sig .scVector .hbm S65536 .f32 := Memref.whole main_v2_scv
abbrev chrV : Memref sig .scVector .hbm S8388608 .i32 := Memref.whole main_arg0_scv
abbrev outV : Memref sig .scVector .hbm S8388608 .f32 := Memref.whole main_v3_scv
abbrev tvV : Memref sig .scVector .vmem S65536 .f32 := Memref.whole cc1_scratch0
abbrev shV : Memref sig .scVector .shared S65536 .f32 := Memref.whole cc1_scratch1

def gath {α : Type} (tb : S65536.Idx → α) (ch : S8388608.Idx → BitVec 32) : S8388608.Idx → α := fun j => tb (Cert.Spec.tix (ch j))

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
def coordsV (c : Fin (grid1.bound 0)) (s : Fin (grid1.bound 1)) : grid1.Coords :=
  fun | 0 => c | 1 => s | ⟨_ + 2, h⟩ => absurd h (Nat.not_lt.2 (Nat.le_add_left _ _))

def wid (L : grid1.Coords) : Fin 32 := ⟨2 * (L 1).val + (L 0).val, by have h0 : (L 0).val < 2 := (L 0).isLt; have h1 : (L 1).val < 16 := (L 1).isLt; omega⟩

def tileSet (n : Fin 32) : Finset S8388608.Idx := Finset.univ.filter fun j => (j 0).val / 262144 = n.val

def slcSet (s : Fin 16) : Finset S65536.Idx := Finset.univ.filter fun k => (k 0).val / 4096 = s.val

section Res

variable [FloatOps F]

def tblOf (x : FVec F S65536 .f32) : FVec F S65536 .f32 :=
  shapeCast S65536 (k0_pay1 (F := F) (shapeCast S512x128 x shapeCasts_S65536_S512x128)) shapeCasts_S512x128_S65536

variable (m : (ℓ : Loc nD τ sig) → Buf (Elt F) ℓ)

def Tb (d : Dev nD) : Buf (Elt F) (tblLoc d) := tblOf (F := F) (m (cntLoc d))
def Tsh (d : Dev nD) (c : Fin τ.nSC) : Buf (Elt F) (shLoc d c) := tblOf (F := F) (m (cntLoc d))

def Out (d : Dev nD) : Buf (Elt F) (outLoc d) := gath (tblOf (F := F) (m (cntLoc d))) (m (chrLoc d))

abbrev rdShare (n : Fin 32) : PosShare TreeShare := Transfers.shareTok fullShare 32 n

def widN (c : Fin 2) (i : Fin 16) : Fin 32 := ⟨2 * i.val + c.val, by have := c.isLt; have := i.isLt; omega⟩

def goRes (d : Dev nD) (c : Fin 2) (i : Fin 16) : sProp 𝕄 :=
  iprop((tblLoc d ↦{rdShare (widN c i)} Tb m d) ∗ (chrLoc d ↦{rdShare (widN c i)} m (chrLoc d))
    ∗ (∃ f, outLoc d ↦[tileSet (widN c i)]{fullShare} f)
    ∗ ∃ f, shLoc d (c.castLE (by decide)) ↦[slcSet i]{fullShare} f)

def tdRes (d : Dev nD) (c : Fin 2) (i : Fin 16) : sProp 𝕄 :=
  iprop((tblLoc d ↦{rdShare (widN c i)} Tb m d) ∗ (chrLoc d ↦{rdShare (widN c i)} m (chrLoc d))
    ∗ (outLoc d ↦[tileSet (widN c i)]{fullShare} Out m d)
    ∗ (shLoc d (c.castLE (by decide)) ↦[slcSet i]{Transfers.shareDrop fullShare 16} Tsh m d (c.castLE (by decide)))
    ∗ bigSep Finset.univ fun j : Fin 16 => shLoc d (c.castLE (by decide)) ↦[slcSet j]{Transfers.shareTok fullShare 16 i} Tsh m d (c.castLE (by decide)))

end Res

section Res2

variable [FloatOps F] (m : (ℓ : Loc nD τ sig) → Buf (Elt F) ℓ)

def stRes (d : Dev nD) (c : Fin 2) : sProp 𝕄 :=
  bigSep Finset.univ fun i : Fin 16 =>
    iprop((tblLoc d ↦{rdShare (widN c i)} Tb m d) ∗ (chrLoc d ↦{rdShare (widN c i)} m (chrLoc d)) ∗ ∃ f, outLoc d ↦[tileSet (widN c i)]{fullShare} f)
def dnRes (d : Dev nD) (c : Fin 2) : sProp 𝕄 :=
  bigSep Finset.univ fun i : Fin 16 =>
    iprop((tblLoc d ↦{rdShare (widN c i)} Tb m d) ∗ (chrLoc d ↦{rdShare (widN c i)} m (chrLoc d)) ∗ outLoc d ↦[tileSet (widN c i)]{fullShare} Out m d)

def FIN (d : Dev nD) : sProp 𝕄 :=
  iprop((chrLoc d ↦{fullShare} m (chrLoc d)) ∗ (cntLoc d ↦{fullShare} m (cntLoc d)) ∗ outLoc d ↦{fullShare} Out m d)

end Res2

end Cert.KB

end
-- ==== Proof.KB.Barrier.lean ====
import proofs.«204304_g88828513616490_cont_9to1c4b_177_25_alg».proof.Proof.KB.Common

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ)

theorem nSub_eq : τ.nSub = 16 := rfl

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

abbrev slcPts (d : Dev nD) (c : Fin τ.nSC) (n j : Fin 16) : sProp 𝕄 :=
  shLoc d c ↦[slcSet n]{Transfers.shareTok fullShare 16 j} Tsh m d c

def bPay (g : GSem nD τ sig) (n : ℕ) : sProp 𝕄 :=
  match g with
  | ((d, .scVector c j), _) => if h : n < 16 then slcPts m d c ⟨n, h⟩ (Fin.cast nSub_eq j) else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KB

end
-- ==== Proof.KB.Tile.lean ====
import proofs.«204304_g88828513616490_cont_9to1c4b_177_25_alg».proof.Proof.KB.Barrier

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev thr (d : Dev nD) (L : grid1.Coords) : Thread nD τ := V d (cV L) (jV L)

/-- A whole scratch buffer of the tile held at contents `s`. -/
abbrev wPts (b : Ref sig .scVector) (s : Buf (Elt F) ((Memref.whole b).view.loc (thr d L))) : sProp 𝕄 :=
  (Memref.whole b).view.loc (thr d L) ↦{fullShare} s

abbrev cN (L : grid1.Coords) : Fin 2 := Fin.cast bound_zero (L 0)
abbrev iN (L : grid1.Coords) : Fin 16 := Fin.cast bound_one (L 1)

def PreOK : Prop := ∀ d : Dev nD, Cert.Spec.InRange (m (chrLoc d))

end Cert.KB

end
-- ==== Proof.KB.TileInv.lean ====
import proofs.«204304_g88828513616490_cont_9to1c4b_177_25_alg».proof.Proof.KB.Tile

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

def chunkSet (n : Fin 32) (k : ℕ) : Finset S8388608.Idx := Finset.univ.filter fun j => (j 0).val / 2048 = 128 * n.val + k

def chunkIx (n : Fin 32) (k : ℕ) (y : S2048.Idx) : S8388608.Idx :=
  ValueIdx.ix1 ⟨(2048 * (128 * n.val + k) + (y 0).val) % 8388608, Nat.mod_lt _ (by decide)⟩

def IdxHolds (n : Fin 32) (k : ℕ) (s : S2048.Idx → BitVec 32) : Prop := ∀ y, s y = m (chrLoc d) (chunkIx n k y)

abbrev chrShare (tk : ℕ) : PosShare TreeShare := Transfers.shareTokN (rdShare (wid L)) tk

def inFl (ipts : (S2048.Idx → BitVec 32) → sProp 𝕄) (si : DmaSem sig) (tk k : ℕ) : sProp 𝕄 :=
  Transfers.Flight countersEmb (thr d L) (SemLoc.dma si) (default : HIx 1) 65536
    iprop((∃ s, ⌜IdxHolds m d (wid L) k s⌝ ∗ ipts s)
      ∗ chrV.view.loc (thr d L) ↦[chunkSet (wid L) k]{chrShare L tk} m (chrLoc d))

def slotIn (ipts : (S2048.Idx → BitVec 32) → sProp 𝕄) (si : DmaSem sig) (tk k : ℕ) (live : Prop) [Decidable live] : sProp 𝕄 :=
  if live then iprop(inFl m d L ipts si tk k ∗ chrV.view.loc (thr d L) ↦[Finset.univ \ chunkSet (wid L) k]{chrShare L tk} m (chrLoc d))
  else iprop((∃ s, ipts s) ∗ semVal (thr d L, SemLoc.dma si) 0 ∗ chrV.view.loc (thr d L) ↦{chrShare L tk} m (chrLoc d))

def outFl (opts : (S2048.Idx → Elt F .f32) → sProp 𝕄) (so : DmaSem sig) (k : ℕ) : sProp 𝕄 :=
  Transfers.Flight countersEmb (thr d L) (SemLoc.dma so) (default : HIx 1) 65536
    iprop((outV.view.loc (thr d L) ↦[chunkSet (wid L) k]{fullShare} Out m d) ∗ ∃ o, opts o)

def slotOut (opts : (S2048.Idx → Elt F .f32) → sProp 𝕄) (so : DmaSem sig) (k : ℕ) (live : Prop) [Decidable live] : sProp 𝕄 :=
  if live then outFl m d L opts so k
  else iprop((∃ o, opts o) ∗ semVal (thr d L, SemLoc.dma so) 0)

def Inv (O : CellTallies nD τ sig (HIx 1)) (W : Waits sig (HIx 1)) (t : ℕ) (_ : Unit) : sProp 𝕄 :=
  iprop(Transfers.MayWaits (thr d L) (none : HIx 1) O
    ∗ (tvV.view.loc (thr d L) ↦{fullShare} Tb m d)
    ∗ slotIn m d L (wPts d L cc1_scratch2) cc1_scratch18.sem 2 (8 * t + 0) (t < 16)
    ∗ slotOut m d L (wPts d L cc1_scratch10) cc1_scratch26.sem (8 * t + 0 - 8) (0 < t)
    ∗ slotIn m d L (wPts d L cc1_scratch3) cc1_scratch19.sem 3 (8 * t + 1) (t < 16)
    ∗ slotOut m d L (wPts d L cc1_scratch11) cc1_scratch27.sem (8 * t + 1 - 8) (0 < t)
    ∗ slotIn m d L (wPts d L cc1_scratch4) cc1_scratch20.sem 4 (8 * t + 2) (t < 16)
    ∗ slotOut m d L (wPts d L cc1_scratch12) cc1_scratch28.sem (8 * t + 2 - 8) (0 < t)
    ∗ slotIn m d L (wPts d L cc1_scratch5) cc1_scratch21.sem 5 (8 * t + 3) (t < 16)
    ∗ slotOut m d L (wPts d L cc1_scratch13) cc1_scratch29.sem (8 * t + 3 - 8) (0 < t)
    ∗ slotIn m d L (wPts d L cc1_scratch6) cc1_scratch22.sem 6 (8 * t + 4) (t < 16)
    ∗ slotOut m d L (wPts d L cc1_scratch14) cc1_scratch30.sem (8 * t + 4 - 8) (0 < t)
    ∗ slotIn m d L (wPts d L cc1_scratch7) cc1_scratch23.sem 7 (8 * t + 5) (t < 16)
    ∗ slotOut m d L (wPts d L cc1_scratch15) cc1_scratch31.sem (8 * t + 5 - 8) (0 < t)
    ∗ slotIn m d L (wPts d L cc1_scratch8) cc1_scratch24.sem 8 (8 * t + 6) (t < 16)
    ∗ slotOut m d L (wPts d L cc1_scratch16) cc1_scratch32.sem (8 * t + 6 - 8) (0 < t)
    ∗ slotIn m d L (wPts d L cc1_scratch9) cc1_scratch25.sem 9 (8 * t + 7) (t < 16)
    ∗ slotOut m d L (wPts d L cc1_scratch17) cc1_scratch33.sem (8 * t + 7 - 8) (0 < t)
    ∗ (bigSep (Finset.range (8 * t - 8)) fun k => outV.view.loc (thr d L) ↦[chunkSet (wid L) k]{fullShare} Out m d)
    ∗ (bigSep (Finset.Ico (8 * t) 128) fun k => iprop(∃ f, outV.view.loc (thr d L) ↦[chunkSet (wid L) k]{fullShare} f))
    ∗ ∃ W', ⌜∀ p ∈ W', p ∈ W ∨ p.2 = none⌝ ∗ owes (thr d L) O W')

end Cert.KB

end
-- ==== Proof.KB.TileLemmas.lean ====
import proofs.«204304_g88828513616490_cont_9to1c4b_177_25_alg».proof.Proof.KB.TileInv

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem wid_eq : wid L = widN (cN L) (iN L) := Fin.ext rfl

theorem outV_loc : outV.view.loc (thr d L) = outLoc d := rfl
theorem chrV_loc : chrV.view.loc (thr d L) = chrLoc d := rfl
theorem tblV_loc : tblV.view.loc (thr d L) = tblLoc d := rfl

theorem chunk_disjoint (n : Fin 32) (s : Finset ℕ) : ∀ k ∈ s, ∀ k' ∈ s, k ≠ k' → Disjoint (chunkSet n k) (chunkSet n k') := by
  intro k _ k' _ h
  rw [Finset.disjoint_left]
  intro j hj hj'
  unfold chunkSet at hj hj'
  rw [Finset.mem_filter] at hj hj'
  exact h (by omega)

theorem chunk_cover (n : Fin 32) : (Finset.range 128).biUnion (chunkSet n) = tileSet n := by
  ext j
  simp only [Finset.mem_biUnion, Finset.mem_range, chunkSet, tileSet, Finset.mem_filter, Finset.mem_univ, true_and]
  constructor
  · rintro ⟨k, hk, h⟩; omega
  · intro h; exact ⟨(j 0).val / 2048 - 128 * n.val, by omega, by omega⟩

theorem out_chunks (n : Fin 32) (q : PosShare TreeShare) (f : Buf (Elt F) (outLoc d)) :
    (outLoc d ↦[tileSet n]{q} f : sProp 𝕄) = bigSep (Finset.range 128) fun k => outV.view.loc (thr d L) ↦[chunkSet n k]{q} f := by
  rw [← chunk_cover, pointsTo_biUnion (Finset.range 128) (ℓ := outLoc d) (chunkSet n) (chunk_disjoint n _)]; try rfl

theorem out_chunks_ex (n : Fin 32) :
    iprop(∃ f, outLoc d ↦[tileSet n]{fullShare} f)
      ⊢ (bigSep (Finset.Ico 0 128) fun k => iprop(∃ f, outV.view.loc (thr d L) ↦[chunkSet n k]{fullShare} f) : sProp 𝕄) := by
  iintro ⟨%f, H⟩
  have h1 : ∀ k : ℕ, (outV.view.loc (thr d L) ↦[chunkSet n k]{fullShare} f : sProp 𝕄) ⊢ iprop(∃ f, outV.view.loc (thr d L) ↦[chunkSet n k]{fullShare} f) := fun k => by
    iintro H; iexists f; iexact H
  rw [← Finset.range_eq_Ico]
  iapply (SparseCore.ent (bigSep_mono (s := Finset.range 128) fun k _ => h1 k))
  iapply (Entails.of_eq (out_chunks (F := F) d L n fullShare f)); iexact H

theorem out_chunks_join (n : Fin 32) :
    (bigSep (Finset.range 128) fun k => outV.view.loc (thr d L) ↦[chunkSet n k]{fullShare} Out m d) ⊢ (outLoc d ↦[tileSet n]{fullShare} Out m d : sProp 𝕄) :=
  Entails.of_eq (out_chunks (F := F) d L n fullShare (Out m d)).symm

theorem out_chunk_congr (n : Fin 32) (k : ℕ) (f : Buf (Elt F) (outLoc d)) (h : ∀ j ∈ chunkSet n k, f j = Out m d j) :
    (outV.view.loc (thr d L) ↦[chunkSet n k]{fullShare} f : sProp 𝕄) ⊢ outV.view.loc (thr d L) ↦[chunkSet n k]{fullShare} Out m d :=
  Entails.of_eq (pointsTo_congr h)

theorem chr_toks (n : Fin 32) (ch : Buf (Elt F) (chrLoc d)) :
    (chrLoc d ↦{rdShare n} ch : sProp 𝕄)
      ⊣⊢ iprop((chrLoc d ↦{Transfers.shareDrop (rdShare n) 20} ch) ∗ bigSep (Finset.range 20) fun k => chrV.view.loc (thr d L) ↦{Transfers.shareTokN (rdShare n) k} ch) :=
  Transfers.pointsTo_toks_range (rdShare n) 20

theorem tbl_toks (n : Fin 32) (tb : Buf (Elt F) (tblLoc d)) :
    (tblLoc d ↦{rdShare n} tb : sProp 𝕄)
      ⊣⊢ iprop((tblLoc d ↦{Transfers.shareDrop (rdShare n) 20} tb) ∗ bigSep (Finset.range 20) fun k => tblV.view.loc (thr d L) ↦{Transfers.shareTokN (rdShare n) k} tb) :=
  Transfers.pointsTo_toks_range (rdShare n) 20

theorem chr_chunk_rest (n : Fin 32) (k : ℕ) (q : PosShare TreeShare) (ch : Buf (Elt F) (chrLoc d)) :
    iprop((chrV.view.loc (thr d L) ↦[chunkSet n k]{q} ch) ∗ chrV.view.loc (thr d L) ↦[Finset.univ \ chunkSet n k]{q} ch)
      ⊣⊢ (chrV.view.loc (thr d L) ↦{q} ch : sProp 𝕄) :=
  ⟨(pointsTo_split_subset (ℓ := chrLoc d) (Finset.subset_univ (chunkSet n k))).2, (pointsTo_split_subset (ℓ := chrLoc d) (Finset.subset_univ (chunkSet n k))).1⟩

theorem chunkIx_val (n : Fin 32) {k : ℕ} (hk : k < 128) (y : S2048.Idx) : (chunkIx n k y 0).val = 2048 * (128 * n.val + k) + (y 0).val := by
  have hy : (y 0).val < 2048 := (y 0).isLt
  have hn : n.val < 32 := n.isLt
  show (2048 * (128 * n.val + k) + (y 0).val) % 8388608 = _
  exact Nat.mod_eq_of_lt (by omega)

theorem chunkIx_mem (n : Fin 32) {k : ℕ} (hk : k < 128) (y : S2048.Idx) : chunkIx n k y ∈ chunkSet n k := by
  have hy : (y 0).val < 2048 := (y 0).isLt
  unfold chunkSet
  rw [Finset.mem_filter, chunkIx_val n hk]
  exact ⟨Finset.mem_univ _, by omega⟩

theorem chunkIx_injective (n : Fin 32) {k : ℕ} (hk : k < 128) : Function.Injective (chunkIx n k) := by
  intro y y' e
  have h := congrArg (fun j : S8388608.Idx => (j 0).val) e
  simp only [chunkIx_val n hk] at h
  funext a
  obtain rfl : a = 0 := Fin.fin_one_eq_zero a
  exact Fin.ext (by omega)

theorem chunkSet_eq_chunkIx (n : Fin 32) {k : ℕ} (hk : k < 128) {j : S8388608.Idx} (hj : j ∈ chunkSet n k) : ∃! y : S2048.Idx, chunkIx n k y = j := by
  unfold chunkSet at hj
  rw [Finset.mem_filter] at hj
  have hj0 : (j 0).val < 8388608 := (j 0).isLt
  have h0 : chunkIx n k (ValueIdx.ix1 ⟨(j 0).val % 2048, Nat.mod_lt _ (by decide)⟩) = j := by
    funext a
    obtain rfl : a = 0 := Fin.fin_one_eq_zero a
    refine Fin.ext ?_
    rw [chunkIx_val n hk]
    show 2048 * (128 * n.val + k) + (j 0).val % 2048 = (j 0).val
    omega
  exact ⟨_, h0, fun y hy => chunkIx_injective n hk (hy.trans h0.symm)⟩

theorem slcSet_disjoint : ∀ i ∈ (Finset.univ : Finset (Fin 16)), ∀ j ∈ (Finset.univ : Finset (Fin 16)), i ≠ j → Disjoint (slcSet i) (slcSet j) := by
  intro i _ j _ h
  rw [Finset.disjoint_left]
  intro k hi hj
  unfold slcSet at hi hj
  rw [Finset.mem_filter] at hi hj
  exact h (Fin.ext (hi.2.symm.trans hj.2))

theorem slcSet_cover : (Finset.univ : Finset (Fin 16)).biUnion slcSet = Finset.univ := by
  ext k
  simp only [Finset.mem_biUnion, Finset.mem_univ, true_and, iff_true]
  have hk : (k 0).val < 65536 := (k 0).isLt
  exact ⟨⟨(k 0).val / 4096, by omega⟩, by unfold slcSet; rw [Finset.mem_filter]; exact ⟨Finset.mem_univ _, rfl⟩⟩

theorem shLoc_slices (c : Fin τ.nSC) (q : PosShare TreeShare) (f : Buf (Elt F) (shLoc d c)) :
    (shLoc d c ↦{q} f : sProp 𝕄) = bigSep Finset.univ fun i : Fin 16 => shLoc d c ↦[slcSet i]{q} f := by
  rw [← pointsTo_biUnion Finset.univ (ℓ := shLoc d c) slcSet slcSet_disjoint, slcSet_cover]; try rfl

theorem sh_toks_split :
    (shLoc d (cV L) ↦{Transfers.shareTok fullShare 16 (iN L)} Tsh m d (cV L) : sProp 𝕄)
      ⊢ bigSep Finset.univ fun j : Fin 16 => shLoc d (cV L) ↦[slcSet j]{Transfers.shareTok fullShare 16 (iN L)} Tsh m d (cV L) :=
  Entails.of_eq (shLoc_slices (F := F) d (cV L) _ _)

theorem bigSep_grid (Φ : Fin 16 → sProp 𝕄) :
    (bigSep Finset.univ fun j : Fin (grid1.bound 1) => Φ (Fin.cast bound_one j)) = bigSep Finset.univ Φ :=
  bigSep_congr fun _ _ => congrArg Φ (Fin.ext rfl)

theorem payload_mine (j : Fin (grid1.bound 1)) :
    (bRd (F := F) m).payload (bcell d (cV L) (j.castLE hsub1)) 0 (jV L).val
      = (shLoc d (cV L) ↦[slcSet (iN L)]{Transfers.shareTok fullShare 16 (Fin.cast bound_one j)} Tsh m d (cV L) : sProp 𝕄) := by
  show bPay m (bcell d (cV L) (j.castLE hsub1)) (jV L).val = _
  unfold bPay; dsimp only
  rw [dif_pos (show (jV L).val < 16 from (jV L).isLt)]
  rfl

theorem payload_own (s : Fin τ.nSub) :
    (bRd (F := F) m).payload (bcell d (cV L) (jV L)) 0 s.val
      = (shLoc d (cV L) ↦[slcSet (Fin.cast nSub_eq s)]{Transfers.shareTok fullShare 16 (iN L)} Tsh m d (cV L) : sProp 𝕄) := by
  show bPay m (bcell d (cV L) (jV L)) s.val = _
  unfold bPay; dsimp only
  rw [dif_pos (show s.val < 16 from s.isLt)]
  rfl

theorem pays_intro :
    (shLoc d (cV L) ↦[slcSet (iN L)]{fullShare} Tsh m d (cV L) : sProp 𝕄)
      ⊢ iprop((shLoc d (cV L) ↦[slcSet (iN L)]{Transfers.shareDrop fullShare 16} Tsh m d (cV L))
        ∗ bigSep Finset.univ fun j : Fin (grid1.bound 1) => (bRd (F := F) m).payload (bcell d (cV L) (j.castLE hsub1)) 0 (jV L).val) := by
  rw [bigSep_congr (fun j _ => payload_mine (F := F) m d L j),
    bigSep_grid (F := F) (fun i => (shLoc d (cV L) ↦[slcSet (iN L)]{Transfers.shareTok fullShare 16 i} Tsh m d (cV L) : sProp 𝕄))]
  exact Transfers.pointsTo_toks_split fullShare 16

theorem pays_elim :
    (bigSep ((bRd (F := F) m).duties (bcell d (cV L) (jV L)) 0 \ ∅) fun n => (bRd (F := F) m).payload (bcell d (cV L) (jV L)) 0 n)
      ⊢ (shLoc d (cV L) ↦{Transfers.shareTok fullShare 16 (iN L)} Tsh m d (cV L) : sProp 𝕄) := by
  rw [Finset.sdiff_empty, bRd_duties₀, SparseCore.bigSep_image_of_injOn (fun a _ b _ e => Fin.val_injective e), shLoc_slices (F := F) d (cV L)]
  exact Entails.of_eq (bigSep_congr fun s _ => payload_own (F := F) m d L s)

theorem barrier_step {α : Type} (O : CellTallies nD τ sig (HIx 1)) (W : Waits sig (HIx 1)) (hO : ∀ g, O g none = 0)
    (hOlev : ∀ g ι, 0 < O g ι → 8 * (0 : Fin 1).val + 6 ≤ (K (F := F)).lev g ι)
    {k : PUnit → Prog (TpuEff nD τ sig (Elt F) Λ₀ (.scVector (cV L) (jV L))) α} {Q : α → sProp 𝕄} :
    iprop(levAts (K (F := F)).L (K (F := F)).lev ∗ bkit m d (cV L) (jV L)
        ∗ (shLoc d (cV L) ↦[slcSet (iN L)]{fullShare} Tsh m d (cV L))
        ∗ owes (thr d L) (O + oxV d (cV L)) W)
      ⊢ iprop((iprop(owes (thr d L) O (insert (SemLoc.reg sc_bar0, some (0 : Fin 1)) W)
            ∗ (shLoc d (cV L) ↦[slcSet (iN L)]{Transfers.shareDrop fullShare 16} Tsh m d (cV L))
            ∗ (shLoc d (cV L) ↦{Transfers.shareTok fullShare 16 (iN L)} Tsh m d (cV L)))
          -∗ wp frame (wpE (defs₀ (F := F)) 𝒱₀ (thr d L) none) Set.univ (k ⟨⟩) Q)
        -∗ wp frame (wpE (defs₀ (F := F)) 𝒱₀ (thr d L) none) Set.univ (SparseCore.subcoreBarrier sc_bar0 (grid1.bound 1) hsub1 >>= k) Q) := by
  unfold bkit
  iintro ⟨#Hlv, ⟨⟨%κ, #Hinv⟩, Htoks, #Hrch, Hat, Hcred⟩, Hsl, HO⟩ Hk
  ihave Hsp := (pays_intro (F := F) m d L) $$ Hsl
  icases Hsp with ⟨Hrem, Hpays⟩

  ihave Hmw := ((K (F := F)).mayOwe_of_bound (thr := thr d L) (W := {(SemLoc.reg sc_bar0, some (0 : Fin 1))}) (O := O) 3
      (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg))) $$ Hlv
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O W) $$ [HO Htoks Hpays Hcred Hat Hmw]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iexact Hmw
  iintro ⟨HO, -, -, Hgot⟩
  iapply Hk
  isplitl [HO]; · iexact HO
  isplitl [Hrem]; · iexact Hrem
  iapply (pays_elim (F := F) m d L); iexact Hgot

end Cert.KB

end
-- ==== Proof.KB.TileStore.lean ====
import proofs.«204304_g88828513616490_cont_9to1c4b_177_25_alg».proof.Proof.KB.TileLemmas

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

omit [FloatOps F] in
theorem bigSep_pull {I : Type} [DecidableEq I] (Φ : I → sProp 𝕄) :
    ∀ (l : List I) (s : Finset I), l.Nodup → (∀ x ∈ l, x ∈ s) →
      bigSep s Φ = l.foldr (fun x acc => iprop(Φ x ∗ acc)) (bigSep (s \ l.toFinset) Φ)
  | [], s, _, _ => by rw [List.toFinset_nil, Finset.sdiff_empty]; rfl
  | a :: l, s, hnd, hmem => by
    have ha : a ∈ s := hmem a List.mem_cons_self
    have hnd' := List.nodup_cons.mp hnd
    have hs : s.erase a \ l.toFinset = s \ (a :: l).toFinset := by
      ext x
      simp only [Finset.mem_sdiff, Finset.mem_erase, List.toFinset_cons, Finset.mem_insert, List.mem_toFinset]
      tauto
    rw [SparseCore.bigSep_erase' ha, bigSep_pull Φ l (s.erase a) hnd'.2
      (fun x hx => Finset.mem_erase.mpr ⟨fun e => hnd'.1 (e ▸ hx), hmem x (List.mem_cons_of_mem _ hx)⟩), hs]
    rfl

def tileSems : List (DmaSem sig) :=
  [cc1_scratch18.sem, cc1_scratch19.sem, cc1_scratch20.sem, cc1_scratch21.sem, cc1_scratch22.sem, cc1_scratch23.sem, cc1_scratch24.sem, cc1_scratch25.sem,
    cc1_scratch26.sem, cc1_scratch27.sem, cc1_scratch28.sem, cc1_scratch29.sem, cc1_scratch30.sem, cc1_scratch31.sem, cc1_scratch32.sem, cc1_scratch33.sem,
    cc1_scoped0.sem, cc1_scoped1.sem]

theorem tileSems_nodup : tileSems.Nodup := by decide
theorem tileSems_scoped : ∀ s ∈ tileSems, (SemLoc.dma s : SemLoc sig).isScoped .scVector = true := by decide

def restSems (d : Dev nD) (L : grid1.Coords) : sProp 𝕄 :=
  bigSep (ownCells (thr d L) \ (tileSems.map fun s => ((thr d L, SemLoc.dma s) : GSem nD τ sig)).toFinset) fun g => semVal g 0

omit [FloatOps F] in
theorem ownSems0_V :
    (ownSems0 (thr d L) : sProp 𝕄)
      = iprop(semVal (thr d L, SemLoc.dma cc1_scratch18.sem) 0 ∗ semVal (thr d L, SemLoc.dma cc1_scratch19.sem) 0 ∗ semVal (thr d L, SemLoc.dma cc1_scratch20.sem) 0
          ∗ semVal (thr d L, SemLoc.dma cc1_scratch21.sem) 0 ∗ semVal (thr d L, SemLoc.dma cc1_scratch22.sem) 0 ∗ semVal (thr d L, SemLoc.dma cc1_scratch23.sem) 0
          ∗ semVal (thr d L, SemLoc.dma cc1_scratch24.sem) 0 ∗ semVal (thr d L, SemLoc.dma cc1_scratch25.sem) 0 ∗ semVal (thr d L, SemLoc.dma cc1_scratch26.sem) 0
          ∗ semVal (thr d L, SemLoc.dma cc1_scratch27.sem) 0 ∗ semVal (thr d L, SemLoc.dma cc1_scratch28.sem) 0 ∗ semVal (thr d L, SemLoc.dma cc1_scratch29.sem) 0
          ∗ semVal (thr d L, SemLoc.dma cc1_scratch30.sem) 0 ∗ semVal (thr d L, SemLoc.dma cc1_scratch31.sem) 0 ∗ semVal (thr d L, SemLoc.dma cc1_scratch32.sem) 0
          ∗ semVal (thr d L, SemLoc.dma cc1_scratch33.sem) 0 ∗ semVal (thr d L, SemLoc.dma cc1_scoped0.sem) 0 ∗ semVal (thr d L, SemLoc.dma cc1_scoped1.sem) 0
          ∗ restSems (F := F) d L) := by
  unfold SparseCore.Cfg.ownSems0 restSems
  rw [bigSep_pull (fun g => (semVal g 0 : sProp 𝕄)) (tileSems.map fun s => ((thr d L, SemLoc.dma s) : GSem nD τ sig)) _
    ((List.nodup_map_iff (fun a b e => by injection e with _ e; injection e)).mpr tileSems_nodup) (fun x hx => by
      obtain ⟨s, hs, rfl⟩ := List.mem_map.mp hx
      exact mem_ownCells.mpr ⟨rfl, tileSems_scoped s hs⟩)]
  simp only [tileSems, List.map_cons, List.map_nil, List.foldr_cons, List.foldr_nil]

def tileRefs : List (Ref sig .scVector) :=
  [cc1_scratch0, cc1_scratch2, cc1_scratch3, cc1_scratch4, cc1_scratch5, cc1_scratch6, cc1_scratch7, cc1_scratch8, cc1_scratch9,
    cc1_scratch10, cc1_scratch11, cc1_scratch12, cc1_scratch13, cc1_scratch14, cc1_scratch15, cc1_scratch16, cc1_scratch17]

theorem tileRefs_nodup : tileRefs.Nodup := by decide
theorem tileRefs_owner (c : Fin τ.nSC) (j : Fin τ.nSub) : ∀ b ∈ tileRefs, ((Proc.scVector c j).devRef (sig := sig) b).owner = .proc (.scVector c j) := by
  intro b hb
  simp only [tileRefs, List.mem_cons, List.mem_nil_iff, or_false] at hb
  rcases hb with rfl | rfl | rfl | rfl | rfl | rfl | rfl | rfl | rfl | rfl | rfl | rfl | rfl | rfl | rfl | rfl | rfl <;> rfl

def restBufs (d : Dev nD) (L : grid1.Coords) : sProp 𝕄 :=
  bigSep (ownRefs (τ := τ) (.scVector (cV L) (jV L)) \ (tileRefs.map (Proc.scVector (cV L) (jV L)).devRef).toFinset)
    fun b => iprop(∃ f, ((d, b) : Loc nD τ sig) ↦{fullShare} f)

abbrev scrEx {s : Shape} {e : EltTy} (M : Memref sig .scVector .vmem s e) : sProp 𝕄 := iprop(∃ f, M.view.loc (thr d L) ↦{fullShare} f)

omit [FloatOps F] in
theorem ownBufs_V :
    (ownBufs (thr d L) : sProp 𝕄)
      = iprop(scrEx d L tvV
          ∗ scrEx d L (Memref.whole cc1_scratch2 : Memref sig .scVector .vmem S2048 .i32) ∗ scrEx d L (Memref.whole cc1_scratch3 : Memref sig .scVector .vmem S2048 .i32)
          ∗ scrEx d L (Memref.whole cc1_scratch4 : Memref sig .scVector .vmem S2048 .i32) ∗ scrEx d L (Memref.whole cc1_scratch5 : Memref sig .scVector .vmem S2048 .i32)
          ∗ scrEx d L (Memref.whole cc1_scratch6 : Memref sig .scVector .vmem S2048 .i32) ∗ scrEx d L (Memref.whole cc1_scratch7 : Memref sig .scVector .vmem S2048 .i32)
          ∗ scrEx d L (Memref.whole cc1_scratch8 : Memref sig .scVector .vmem S2048 .i32) ∗ scrEx d L (Memref.whole cc1_scratch9 : Memref sig .scVector .vmem S2048 .i32)
          ∗ scrEx d L (Memref.whole cc1_scratch10 : Memref sig .scVector .vmem S2048 .f32) ∗ scrEx d L (Memref.whole cc1_scratch11 : Memref sig .scVector .vmem S2048 .f32)
          ∗ scrEx d L (Memref.whole cc1_scratch12 : Memref sig .scVector .vmem S2048 .f32) ∗ scrEx d L (Memref.whole cc1_scratch13 : Memref sig .scVector .vmem S2048 .f32)
          ∗ scrEx d L (Memref.whole cc1_scratch14 : Memref sig .scVector .vmem S2048 .f32) ∗ scrEx d L (Memref.whole cc1_scratch15 : Memref sig .scVector .vmem S2048 .f32)
          ∗ scrEx d L (Memref.whole cc1_scratch16 : Memref sig .scVector .vmem S2048 .f32) ∗ scrEx d L (Memref.whole cc1_scratch17 : Memref sig .scVector .vmem S2048 .f32)
          ∗ restBufs (F := F) d L) := by
  unfold SparseCore.Cfg.ownBufs restBufs
  rw [bigSep_pull (fun b => (iprop(∃ f, ((d, b) : Loc nD τ sig) ↦{fullShare} f) : sProp 𝕄)) (tileRefs.map (Proc.scVector (cV L) (jV L)).devRef) _
    ((List.nodup_map_iff (Proc.devRef_injective _)).mpr tileRefs_nodup) (fun x hx => by
      obtain ⟨b, hb, rfl⟩ := List.mem_map.mp hx
      exact SparseCore.Cfg.mem_ownRefs_of_owner (p := Proc.scVector (cV L) (jV L)) (tileRefs_owner _ _ b hb))]
  simp only [tileRefs, List.map_cons, List.map_nil, List.foldr_cons, List.foldr_nil]

theorem k1_off1_cf : ∀ (i : grid1.Coords) (r : Fin 16),
    k1_off1 i (k1_off1_at r) = ![2048 * (128 * (2 * (i 1).val + (i 0).val) + (if r.val < 8 then r.val else 112 + r.val))] := by decide +kernel

def rk (r : Fin 16) : ℕ := if r.val < 8 then r.val else 112 + r.val

omit [FloatOps F] in
theorem mem_unit1 {s : Shape} (hs : s.rank = 1) (N n : ℕ) (inb) (j : s.Idx) (h0 : (0 : ℕ) < s.rank) :
    j ∈ (Rect.unit (s := s) (fun _ => N) (fun _ => n) inb).set ↔ N ≤ (j ⟨0, h0⟩).val ∧ (j ⟨0, h0⟩).val < N + n := by
  rw [Rect.mem_set_unit]
  constructor
  · intro h; exact h ⟨0, h0⟩
  · intro h a
    have : a = ⟨0, h0⟩ := Fin.ext (by have := a.isLt; omega)
    subst this; exact h

omit [FloatOps F] in
theorem set_chunkRect (r : Fin 16) :
    (Rect.unit (s := S8388608) (k1_off1 L (k1_off1_at r)) S2048.size (k1_off1_inb L r)).set = chunkSet (wid L) (rk r) := by
  ext j
  have e : (Rect.unit (s := S8388608) (k1_off1 L (k1_off1_at r)) S2048.size (k1_off1_inb L r))
      = Rect.unit (s := S8388608) (fun _ => 2048 * (128 * (2 * (L 1).val + (L 0).val) + rk r)) (fun _ => 2048)
          (fun a => by have := k1_off1_inb L r a; rw [k1_off1_cf] at this; have ha : a = 0 := Subsingleton.elim _ _; subst ha; exact this) := by
    congr 1
    · rw [k1_off1_cf]; funext a; have ha : a = 0 := Subsingleton.elim _ _; subst ha; rfl
    · funext a; have ha : a = 0 := Subsingleton.elim _ _; subst ha; rfl
  rw [e, mem_unit1 rfl _ _ _ j (by decide)]
  unfold chunkSet wid
  simp only [Finset.mem_filter, Finset.mem_univ, true_and]
  show (2048 * (128 * (2 * (L 1).val + (L 0).val) + rk r) ≤ (j 0).val ∧ (j 0).val < 2048 * (128 * (2 * (L 1).val + (L 0).val) + rk r) + 2048)
    ↔ (j 0).val / 2048 = 128 * (2 * (L 1).val + (L 0).val) + rk r
  omega

omit [FloatOps F] in
theorem set_chrChunk (r : Fin 16) :
    (chrV.slice (Rect.unit (s := S8388608) (k1_off1 L (k1_off1_at r)) S2048.size (k1_off1_inb L r)) (fun _ => rfl)).view.set = chunkSet (wid L) (rk r) := by
  show ((View.whole (main_arg0_scv : Ref sig .scVector)).slice _).set = _
  rw [View.set_slice_whole]; exact set_chunkRect L r

omit [FloatOps F] in
theorem set_outChunk (r : Fin 16) :
    (outV.slice (Rect.unit (s := S8388608) (k1_off1 L (k1_off1_at r)) S2048.size (k1_off1_inb L r)) (fun _ => rfl)).view.set = chunkSet (wid L) (rk r) := by
  show ((View.whole (main_v3_scv : Ref sig .scVector)).slice _).set = _
  rw [View.set_slice_whole]; exact set_chunkRect L r

omit [FloatOps F] in
theorem set_slcRect : (Rect.unit (s := S65536) (k1_off2 L) S4096.size (k1_off2_inb L)).set = slcSet (iN L) := by
  ext j
  have e : (Rect.unit (s := S65536) (k1_off2 L) S4096.size (k1_off2_inb L))
      = Rect.unit (s := S65536) (fun _ => 4096 * (L 1).val) (fun _ => 4096)
          (fun a => by have := k1_off2_inb L a; rw [k1_off2_eq] at this; have ha : a = 0 := Subsingleton.elim _ _; subst ha; exact this) := by
    congr 1
    · rw [k1_off2_eq]; funext a; have ha : a = 0 := Subsingleton.elim _ _; subst ha; rfl
    · funext a; have ha : a = 0 := Subsingleton.elim _ _; subst ha; rfl
  rw [e, mem_unit1 rfl _ _ _ j (by decide)]
  unfold slcSet
  simp only [Finset.mem_filter, Finset.mem_univ, true_and]
  show (4096 * (L 1).val ≤ (j 0).val ∧ (j 0).val < 4096 * (L 1).val + 4096) ↔ (j 0).val / 4096 = (L 1).val
  omega

omit [FloatOps F] in
theorem set_shSlice :
    (shV.slice (Rect.unit (s := S65536) (k1_off2 L) S4096.size (k1_off2_inb L)) (fun _ => rfl)).view.set = slcSet (iN L) := by
  show ((View.whole (cc1_scratch1 : Ref sig .scVector)).slice _).set = _
  rw [View.set_slice_whole]; exact set_slcRect L

omit [FloatOps F] in
theorem set_tblSlice :
    (tblV.slice (Rect.unit (s := S65536) (k1_off2 L) S4096.size (k1_off2_inb L)) (fun _ => rfl)).view.set = slcSet (iN L) := by
  show ((View.whole (main_v2_scv : Ref sig .scVector)).slice _).set = _
  rw [View.set_slice_whole]; exact set_slcRect L

omit [FloatOps F] in
theorem rk_lt (r : Fin 16) : rk r < 128 := by unfold rk; split <;> omega

omit [FloatOps F] in
theorem emb_chrChunk (r : Fin 16) (y : S2048.Idx) :
    (chrV.slice (Rect.unit (s := S8388608) (k1_off1 L (k1_off1_at r)) S2048.size (k1_off1_inb L r)) (fun _ => rfl)).view.emb y = chunkIx (wid L) (rk r) y := by
  funext a
  obtain ⟨a, ha⟩ := a
  have h1 : a < 1 := ha
  obtain rfl : a = 0 := by omega
  apply Fin.ext
  show _ = (chunkIx (wid L) (rk r) y 0).val
  rw [chunkIx_val (wid L) (rk_lt r) y]
  show k1_off1 L (k1_off1_at r) 0 + 1 * (y 0).val = _
  rw [k1_off1_cf]
  show 2048 * (128 * (2 * (L 1).val + (L 0).val) + rk r) + 1 * (y 0).val = 2048 * (128 * (2 * (L 1).val + (L 0).val) + rk r) + (y 0).val
  omega

theorem fetch_word (r : Fin 16) (y : S2048.Idx) :
    ReadAs.same.apply (View.read (Elt F) (chrV.slice (Rect.unit (s := S8388608) (k1_off1 L (k1_off1_at r)) S2048.size (k1_off1_inb L r)) (fun _ => rfl)).view (m (chrLoc d))) y
      = m (chrLoc d) (chunkIx (wid L) (rk r) y) := by
  show View.read (Elt F) (chrV.slice (Rect.unit (s := S8388608) (k1_off1 L (k1_off1_at r)) S2048.size (k1_off1_inb L r)) (fun _ => rfl)).view (m (chrLoc d)) y = _
  rw [View.read_apply, cast_eq, emb_chrChunk]

theorem fetch_delivers (r : Fin 16) (q : PosShare TreeShare) (ipts : (S2048.Idx → BitVec 32) → sProp 𝕄)
    (s : S2048.Idx → BitVec 32) (hs : IdxHolds m d (wid L) (rk r) s) :
    iprop(ipts s
        ∗ chrV.view.loc (thr d L) ↦[(chrV.slice (Rect.unit (s := S8388608) (k1_off1 L (k1_off1_at r)) S2048.size (k1_off1_inb L r)) (fun _ => rfl)).view.set]{q} m (chrLoc d))
      ⊢ (iprop((∃ s, ⌜IdxHolds m d (wid L) (rk r) s⌝ ∗ ipts s)
        ∗ chrV.view.loc (thr d L) ↦[chunkSet (wid L) (rk r)]{q} m (chrLoc d)) : sProp 𝕄) := by
  rw [set_chrChunk]
  iintro ⟨Hs, Hc⟩
  isplitl [Hs]
  · iexists s; isplitr
    · ipureintro; exact hs
    · iexact Hs
  · iexact Hc

end Cert.KB

end
-- ==== Proof.KB.Pack.lean ====
import proofs.«204304_g88828513616490_cont_9to1c4b_177_25_alg».proof.Proof.KB.TileStore

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem chr_rejoin (n : Fin 32) (ch : Buf (Elt F) (chrLoc d)) (l : List ℕ) (hnd : l.Nodup) (hl : ∀ x ∈ l, x ∈ Finset.range 20) :
    iprop((chrLoc d ↦{Transfers.shareDrop (rdShare n) 20} ch)
        ∗ l.foldr (fun x acc => iprop((chrV.view.loc (thr d L) ↦{Transfers.shareTokN (rdShare n) x} ch) ∗ acc))
            (bigSep (Finset.range 20 \ l.toFinset) fun k => chrV.view.loc (thr d L) ↦{Transfers.shareTokN (rdShare n) k} ch))
      ⊢ (chrLoc d ↦{rdShare n} ch : sProp 𝕄) := by
  rw [← bigSep_pull (fun k => (chrV.view.loc (thr d L) ↦{Transfers.shareTokN (rdShare n) k} ch : sProp 𝕄)) l (Finset.range 20) hnd hl]
  exact (chr_toks (F := F) d L n ch).2

theorem tbl_rejoin (n : Fin 32) (tb : Buf (Elt F) (tblLoc d)) (l : List ℕ) (hnd : l.Nodup) (hl : ∀ x ∈ l, x ∈ Finset.range 20) :
    iprop((tblLoc d ↦{Transfers.shareDrop (rdShare n) 20} tb)
        ∗ l.foldr (fun x acc => iprop((tblV.view.loc (thr d L) ↦{Transfers.shareTokN (rdShare n) x} tb) ∗ acc))
            (bigSep (Finset.range 20 \ l.toFinset) fun k => tblV.view.loc (thr d L) ↦{Transfers.shareTokN (rdShare n) k} tb))
      ⊢ (tblLoc d ↦{rdShare n} tb : sProp 𝕄) := by
  rw [← bigSep_pull (fun k => (tblV.view.loc (thr d L) ↦{Transfers.shareTokN (rdShare n) k} tb : sProp 𝕄)) l (Finset.range 20) hnd hl]
  exact (tbl_toks (F := F) d L n tb).2

theorem rec_ok (W : Waits sig (HIx 1)) :
    ∀ p ∈ insert ((SemLoc.dma cc1_scoped1.sem : SemLoc sig), (none : HIx 1)) (insert ((SemLoc.reg sc_bar0 : SemLoc sig), (some 0 : HIx 1))
        (insert ((SemLoc.dma cc1_scoped0.sem : SemLoc sig), (none : HIx 1)) W)),
      p ∈ W ∨ p.2 = none ∨ p.2 = some (0 : Fin 1) := by
  intro p hp
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  exact .inl hp

theorem pack (hF : (K (F := F)).Facts) (O : CellTallies nD τ sig (HIx 1)) (W WL W' : Waits sig (HIx 1))
    (hWL : ∀ p ∈ WL, p ∈ W ∨ p.2 = none ∨ p.2 = some (0 : Fin 1)) (hW' : ∀ p ∈ W', p ∈ WL ∨ p.2 = none) :
    iprop((tblLoc d ↦{rdShare (wid L)} Tb m d) ∗ (chrLoc d ↦{rdShare (wid L)} m (chrLoc d))
        ∗ (bigSep (Finset.range 128) fun k => outV.view.loc (thr d L) ↦[chunkSet (wid L) k]{fullShare} Out m d)
        ∗ (shLoc d (cV L) ↦[slcSet (iN L)]{Transfers.shareDrop fullShare 16} Tsh m d (cV L))
        ∗ (shLoc d (cV L) ↦{Transfers.shareTok fullShare 16 (iN L)} Tsh m d (cV L))
        ∗ (scrEx d L tvV
          ∗ scrEx d L (Memref.whole cc1_scratch2 : Memref sig .scVector .vmem S2048 .i32)
          ∗ scrEx d L (Memref.whole cc1_scratch3 : Memref sig .scVector .vmem S2048 .i32)
          ∗ scrEx d L (Memref.whole cc1_scratch4 : Memref sig .scVector .vmem S2048 .i32)
          ∗ scrEx d L (Memref.whole cc1_scratch5 : Memref sig .scVector .vmem S2048 .i32)
          ∗ scrEx d L (Memref.whole cc1_scratch6 : Memref sig .scVector .vmem S2048 .i32)
          ∗ scrEx d L (Memref.whole cc1_scratch7 : Memref sig .scVector .vmem S2048 .i32)
          ∗ scrEx d L (Memref.whole cc1_scratch8 : Memref sig .scVector .vmem S2048 .i32)
          ∗ scrEx d L (Memref.whole cc1_scratch9 : Memref sig .scVector .vmem S2048 .i32)
          ∗ scrEx d L (Memref.whole cc1_scratch10 : Memref sig .scVector .vmem S2048 .f32)
          ∗ scrEx d L (Memref.whole cc1_scratch11 : Memref sig .scVector .vmem S2048 .f32)
          ∗ scrEx d L (Memref.whole cc1_scratch12 : Memref sig .scVector .vmem S2048 .f32)
          ∗ scrEx d L (Memref.whole cc1_scratch13 : Memref sig .scVector .vmem S2048 .f32)
          ∗ scrEx d L (Memref.whole cc1_scratch14 : Memref sig .scVector .vmem S2048 .f32)
          ∗ scrEx d L (Memref.whole cc1_scratch15 : Memref sig .scVector .vmem S2048 .f32)
          ∗ scrEx d L (Memref.whole cc1_scratch16 : Memref sig .scVector .vmem S2048 .f32)
          ∗ scrEx d L (Memref.whole cc1_scratch17 : Memref sig .scVector .vmem S2048 .f32)
          ∗ restBufs (F := F) d L)
        ∗ (semVal (thr d L, SemLoc.dma cc1_scratch18.sem) 0
          ∗ semVal (thr d L, SemLoc.dma cc1_scratch19.sem) 0
          ∗ semVal (thr d L, SemLoc.dma cc1_scratch20.sem) 0
          ∗ semVal (thr d L, SemLoc.dma cc1_scratch21.sem) 0
          ∗ semVal (thr d L, SemLoc.dma cc1_scratch22.sem) 0
          ∗ semVal (thr d L, SemLoc.dma cc1_scratch23.sem) 0
          ∗ semVal (thr d L, SemLoc.dma cc1_scratch24.sem) 0
          ∗ semVal (thr d L, SemLoc.dma cc1_scratch25.sem) 0
          ∗ semVal (thr d L, SemLoc.dma cc1_scratch26.sem) 0
          ∗ semVal (thr d L, SemLoc.dma cc1_scratch27.sem) 0
          ∗ semVal (thr d L, SemLoc.dma cc1_scratch28.sem) 0
          ∗ semVal (thr d L, SemLoc.dma cc1_scratch29.sem) 0
          ∗ semVal (thr d L, SemLoc.dma cc1_scratch30.sem) 0
          ∗ semVal (thr d L, SemLoc.dma cc1_scratch31.sem) 0
          ∗ semVal (thr d L, SemLoc.dma cc1_scratch32.sem) 0
          ∗ semVal (thr d L, SemLoc.dma cc1_scratch33.sem) 0
          ∗ semVal (thr d L, SemLoc.dma cc1_scoped0.sem) 0
          ∗ semVal (thr d L, SemLoc.dma cc1_scoped1.sem) 0
          ∗ restSems (F := F) d L)
        ∗ owes (thr d L) O W')
      ⊢ (iprop(tdRes m d (cN L) (iN L) ∗ scopedBufs (thr d L) ∗ scopedSems0 (thr d L)
        ∗ ∃ W', ⌜∀ p ∈ W', p ∈ W ∨ p.2 = none ∨ p.2 = some (0 : Fin 1)⌝ ∗ owes (thr d L) O W') : sProp 𝕄) := by
  rw [(K (F := F)).scopedBufs_V hF d (cV L) (jV L), SparseCore.Cfg.scopedSems0_V (Val := Elt F) d (cV L) (jV L), ownSems0_V, ownBufs_V]
  unfold tdRes
  rw [← wid_eq]
  iintro ⟨Ht, Hc, Ho, Hr, Hs, Hbufs, Hsems, HO⟩
  isplitl [Ht Hc Ho Hr Hs]
  · isplitl [Ht]; · iexact Ht
    isplitl [Hc]; · iexact Hc
    isplitl [Ho]; · iapply (out_chunks_join (F := F) m d L (wid L)); iexact Ho
    isplitl [Hr]; · iexact Hr
    iapply (sh_toks_split (F := F) m d L); iexact Hs
  isplitl [Hbufs]; · iexact Hbufs
  isplitl [Hsems]; · iexact Hsems
  iexists W'
  isplitr
  · ipureintro
    intro p hp
    rcases hW' p hp with h | h
    · exact hWL p h
    · exact .inr (.inl h)
  · iexact HO

end Cert.KB

end
-- ==== Proof.KB.Issue.lean ====
import proofs.«204304_g88828513616490_cont_9to1c4b_177_25_alg».proof.Proof.KB.TileLemmas

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev chrWin (off : Fin 1 → ℕ) (hinb : ∀ a, off a + S2048.size a ≤ S8388608.size a) : Memref sig .scVector .hbm S2048 .i32 :=
  chrV.slice (Rect.unit (s := S8388608) off S2048.size hinb) (fun _ => rfl)
abbrev outWin (off : Fin 1 → ℕ) (hinb : ∀ a, off a + S2048.size a ≤ S8388608.size a) : Memref sig .scVector .hbm S2048 .f32 :=
  outV.slice (Rect.unit (s := S8388608) off S2048.size hinb) (fun _ => rfl)

theorem in_delivery {iM : Memref sig .scVector .vmem S2048 .i32} (ipts : (S2048.Idx → BitVec 32) → sProp 𝕄)
    (hbr : ∀ fd : Buf (Elt F) (iM.view.loc (thr d L)), (iM.view.loc (thr d L) ↦{fullShare} fd : sProp 𝕄) = ipts (iM.view.read (Elt F) fd))
    (q : PosShare TreeShare) (k : ℕ) (off : Fin 1 → ℕ) (hinb : ∀ a, off a + S2048.size a ≤ S8388608.size a)
    (hset : (chrWin off hinb).view.set = chunkSet (wid L) k) (hemb : ∀ y, (chrWin off hinb).view.emb y = chunkIx (wid L) k y)
    (fd : Buf (Elt F) (iM.view.loc (thr d L))) :
    iprop((iM.view.loc (thr d L) ↦[Finset.univ]{fullShare}
          (iM.view.write (Elt F) fd ((ReadAs.same : ReadAs (Elt F) S2048 .i32 S2048 .i32).apply ((chrWin off hinb).view.read (Elt F) (m (chrLoc d)))) Finset.univ))
        ∗ ((chrWin off hinb).view.loc (thr d L) ↦[(chrWin off hinb).view.set]{q} m (chrLoc d)))
      ⊢ (iprop((∃ s, ⌜IdxHolds m d (wid L) k s⌝ ∗ ipts s) ∗ chrV.view.loc (thr d L) ↦[chunkSet (wid L) k]{q} m (chrLoc d)) : sProp 𝕄) := by
  rw [hset]
  iintro ⟨Hd, Hc⟩
  isplitl [Hd]
  · iexists (iM.view.read (Elt F) (iM.view.write (Elt F) fd ((chrWin off hinb).view.read (Elt F) (m (chrLoc d))) Finset.univ))
    isplit
    · ipureintro
      intro y
      rw [View.read_write_univ]
      exact congrArg (m (chrLoc d)) (hemb y)
    · iapply (Entails.of_eq (hbr _)); iexact Hd
  · iexact Hc

theorem issue_in {α : Type} {iM : Memref sig .scVector .vmem S2048 .i32} (ipts : (S2048.Idx → BitVec 32) → sProp 𝕄)
    (hbr : ∀ fd : Buf (Elt F) (iM.view.loc (thr d L)), (iM.view.loc (thr d L) ↦{fullShare} fd : sProp 𝕄) = ipts (iM.view.read (Elt F) fd))
    (hex : ∀ s, ipts s ⊢ iprop(∃ fd, iM.view.loc (thr d L) ↦{fullShare} fd))
    (si : DmaSem sig) (tk k : ℕ) (off : Fin 1 → ℕ) (hinb : ∀ a, off a + S2048.size a ≤ S8388608.size a)
    (hset : (chrWin off hinb).view.set = chunkSet (wid L) k) (hemb : ∀ y, (chrWin off hinb).view.emb y = chunkIx (wid L) k y)
    {h1 : (chrWin off hinb).view.WordExact} {h2 : iM.view.WordExact} {h3 : DmaTarget.Typed (nD := nD) .hbm (.dma si) (DmaTarget.here iM : DmaTarget nD τ sig (.scVector (cV L) (jV L)) .vmem S2048 .i32)}
    {kk : PUnit → Prog (TpuEff nD τ sig (Elt F) Λ₀ (.scVector (cV L) (jV L))) α} {Q : α → sProp 𝕄} :
    iprop((chrV.view.loc (thr d L) ↦{chrShare L tk} m (chrLoc d)) ∗ (∃ s, ipts s) ∗ semVal (thr d L, SemLoc.dma si) 0)
      ⊢ iprop((iprop(inFl m d L ipts si tk k ∗ chrV.view.loc (thr d L) ↦[Finset.univ \ chunkSet (wid L) k]{chrShare L tk} m (chrLoc d))
            -∗ wp frame (wpE (defs₀ (F := F)) 𝒱₀ (thr d L) none) Set.univ (kk ⟨⟩) Q)
        -∗ wp frame (wpE (defs₀ (F := F)) 𝒱₀ (thr d L) none) Set.univ
            (.op (TpuEff.enqueueDma (chrWin off hinb) (.here iM) (.dma si) h1 h2 h3) kk) Q) := by
  iintro ⟨Hc, ⟨%s, Hs⟩, Hv⟩ Hk
  ihave Hs' := (hex s) $$ Hs
  icases Hs' with ⟨%fd, Hd⟩
  ihave Hsp := (chr_chunk_rest (F := F) d L (wid L) k (chrShare L tk) (m (chrLoc d))).2 $$ Hc
  icases Hsp with ⟨Hck, Hrest⟩
  iapply (Transfers.wp_dmaLocal countersEmb 𝒱₀ (thr d L) none (src := chrWin off hinb) (dst := iM) (via := .same) (sm := .dma si)
      (q := chrShare L tk) (fs := m (chrLoc d)) (Sd := Finset.univ) (fd := fd) (default : HIx 1) 65536 rfl (by decide) (Finset.subset_univ _)) $$ [Hck Hd Hv]
  · isplitl [Hck]; · rw [hset]; iexact Hck
    isplitl [Hd]; · iexact Hd
    iexact Hv
  iintro Hfl
  iapply Hk
  isplitl [Hfl]
  · unfold inFl
    iapply (Transfers.Flight_mono countersEmb (thr d L) (in_delivery (F := F) m d L ipts hbr (chrShare L tk) k off hinb hset hemb fd)); iexact Hfl
  · iexact Hrest

theorem out_delivery {oM : Memref sig .scVector .vmem S2048 .f32} (opts : (S2048.Idx → Elt F .f32) → sProp 𝕄)
    (hback : ∀ fs : Buf (Elt F) (oM.view.loc (thr d L)), (oM.view.loc (thr d L) ↦[oM.view.set]{fullShare} fs : sProp 𝕄) ⊢ iprop(∃ o, opts o))
    (k : ℕ) (hk : k < 128) (off : Fin 1 → ℕ) (hinb : ∀ a, off a + S2048.size a ≤ S8388608.size a)
    (hemb : ∀ y, (outWin off hinb).view.emb y = chunkIx (wid L) k y)
    (fs : Buf (Elt F) (oM.view.loc (thr d L))) (hfs : ∀ y, oM.view.read (Elt F) fs y = Out m d (chunkIx (wid L) k y))
    (fd : Buf (Elt F) (outLoc d)) :
    iprop(((outWin off hinb).view.loc (thr d L) ↦[chunkSet (wid L) k]{fullShare}
          ((outWin off hinb).view.write (Elt F) fd ((ReadAs.same : ReadAs (Elt F) S2048 .f32 S2048 .f32).apply (oM.view.read (Elt F) fs)) Finset.univ))
        ∗ (oM.view.loc (thr d L) ↦[oM.view.set]{fullShare} fs))
      ⊢ (iprop((outV.view.loc (thr d L) ↦[chunkSet (wid L) k]{fullShare} Out m d) ∗ ∃ o, opts o) : sProp 𝕄) := by
  have hcg : ∀ j ∈ chunkSet (wid L) k,
      (outWin off hinb).view.write (Elt F) fd ((ReadAs.same : ReadAs (Elt F) S2048 .f32 S2048 .f32).apply (oM.view.read (Elt F) fs)) Finset.univ j = Out m d j := fun j hj => by
    obtain ⟨y, hy, -⟩ := chunkSet_eq_chunkIx (wid L) hk hj
    rw [← hy, ← hemb y, View.write_emb_of_mem _ _ (Finset.mem_univ y), hemb y]
    exact hfs y
  iintro ⟨Hw, Hs⟩
  isplitl [Hw]
  · iapply (out_chunk_congr (F := F) m d L (wid L) k _ hcg); iexact Hw
  · iapply (hback fs); iexact Hs

theorem issue_out {α : Type} {oM : Memref sig .scVector .vmem S2048 .f32} (opts : (S2048.Idx → Elt F .f32) → sProp 𝕄)
    (hfwd : ∀ o, opts o ⊢ iprop(∃ fs : Buf (Elt F) (oM.view.loc (thr d L)), ⌜oM.view.read (Elt F) fs = o⌝ ∗ oM.view.loc (thr d L) ↦[oM.view.set]{fullShare} fs))
    (hback : ∀ fs : Buf (Elt F) (oM.view.loc (thr d L)), (oM.view.loc (thr d L) ↦[oM.view.set]{fullShare} fs : sProp 𝕄) ⊢ iprop(∃ o, opts o))
    (so : DmaSem sig) (k : ℕ) (hk : k < 128) (off : Fin 1 → ℕ) (hinb : ∀ a, off a + S2048.size a ≤ S8388608.size a)
    (hset : (outWin off hinb).view.set = chunkSet (wid L) k) (hemb : ∀ y, (outWin off hinb).view.emb y = chunkIx (wid L) k y)
    {h1 : oM.view.WordExact} {h2 : (outWin off hinb).view.WordExact} {h3 : DmaTarget.Typed (nD := nD) .vmem (.dma so) (DmaTarget.here (outWin off hinb) : DmaTarget nD τ sig (.scVector (cV L) (jV L)) .hbm S2048 .f32)}
    {kk : PUnit → Prog (TpuEff nD τ sig (Elt F) Λ₀ (.scVector (cV L) (jV L))) α} {Q : α → sProp 𝕄} :
    iprop((∃ o, ⌜∀ y, o y = Out m d (chunkIx (wid L) k y)⌝ ∗ opts o)
        ∗ (∃ f, outV.view.loc (thr d L) ↦[chunkSet (wid L) k]{fullShare} f) ∗ semVal (thr d L, SemLoc.dma so) 0)
      ⊢ iprop((outFl m d L opts so k -∗ wp frame (wpE (defs₀ (F := F)) 𝒱₀ (thr d L) none) Set.univ (kk ⟨⟩) Q)
        -∗ wp frame (wpE (defs₀ (F := F)) 𝒱₀ (thr d L) none) Set.univ
            (.op (TpuEff.enqueueDma oM (.here (outWin off hinb)) (.dma so) h1 h2 h3) kk) Q) := by
  iintro ⟨⟨%o, %ho, Ho⟩, ⟨%f, Hf⟩, Hv⟩ Hk
  ihave Ho' := (hfwd o) $$ Ho
  icases Ho' with ⟨%fs, %hfs, Hs⟩
  iapply (Transfers.wp_dmaLocal countersEmb 𝒱₀ (thr d L) none (src := oM) (dst := outWin off hinb) (via := .same) (sm := .dma so)
      (q := fullShare) (fs := fs) (Sd := chunkSet (wid L) k) (fd := f) (default : HIx 1) 65536 rfl (by decide) (hset ▸ subset_rfl)) $$ [Hs Hf Hv]
  · iframe # ∗
  iintro Hfl
  iapply Hk
  unfold outFl
  iapply (Transfers.Flight_mono countersEmb (thr d L) (out_delivery (F := F) m d L opts hback k hk off hinb hemb fs (fun y => (congrFun hfs y).trans (ho y)) f)); iexact Hfl

theorem wPts_ex (b : Ref sig .scVector) (s : Buf (Elt F) ((Memref.whole b).view.loc (thr d L))) :
    wPts d L b s ⊢ iprop(∃ fd, (Memref.whole b).view.loc (thr d L) ↦{fullShare} fd) := by
  iintro H; iexists s; iexact H

/-- A whole buffer held at `o` is held through its own set at contents that read `o`. -/
theorem whole_fwd (b : Ref sig .scVector) (o : Buf (Elt F) ((Memref.whole b).view.loc (thr d L))) :
    wPts d L b o ⊢ iprop(∃ fs : Buf (Elt F) ((Memref.whole b).view.loc (thr d L)),
      ⌜(Memref.whole b).view.read (Elt F) fs = o⌝ ∗ (Memref.whole b).view.loc (thr d L) ↦[(Memref.whole b).view.set]{fullShare} fs) := by
  simp only [Memref.view_whole, View.set_whole]
  iintro H; iexists o; isplit
  · ipureintro; rfl
  · iexact H

theorem whole_back (b : Ref sig .scVector) (fs : Buf (Elt F) ((Memref.whole b).view.loc (thr d L))) :
    ((Memref.whole b).view.loc (thr d L) ↦[(Memref.whole b).view.set]{fullShare} fs : sProp 𝕄) ⊢ iprop(∃ o, wPts d L b o) := by
  simp only [Memref.view_whole, View.set_whole]
  iintro H; iexists fs; iexact H

end Cert.KB

end
-- ==== Proof.KB.LoopEnds.lean ====
import proofs.«204304_g88828513616490_cont_9to1c4b_177_25_alg».proof.Proof.KB.Issue

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem wait_out_last {α : Type} {oM : Memref sig .scVector .vmem S2048 .f32} (opts : (S2048.Idx → Elt F .f32) → sProp 𝕄)
    (so : DmaSem sig) (k : ℕ) (off : Fin 1 → ℕ) (hinb : ∀ a, off a + S2048.size a ≤ S8388608.size a)
    (O : CellTallies nD τ sig (HIx 1)) (W' : Waits sig (HIx 1))
    {h1 : oM.view.WordExact} {h2 : (outWin off hinb).view.WordExact}
    {kk : PUnit → Prog (TpuEff nD τ sig (Elt F) Λ₀ (.scVector (cV L) (jV L))) α} {Q : α → sProp 𝕄} :
    iprop(outFl m d L opts so k ∗ owes (thr d L) O W' ∗ Transfers.MayWaits (thr d L) (none : HIx 1) O)
      ⊢ iprop((iprop((outV.view.loc (thr d L) ↦[chunkSet (wid L) k]{fullShare} Out m d) ∗ (∃ o, opts o) ∗ semVal (thr d L, SemLoc.dma so) 0
              ∗ owes (thr d L) O (insert (SemLoc.dma so, (none : HIx 1)) W'))
            -∗ wp frame (wpE (defs₀ (F := F)) 𝒱₀ (thr d L) none) Set.univ (kk ⟨⟩) Q)
        -∗ wp frame (wpE (defs₀ (F := F)) 𝒱₀ (thr d L) none) Set.univ (.op (.waitDma2 so oM (outWin off hinb) h1 h2) kk) Q) := by
  unfold outFl
  iintro ⟨Hfl, HO, #Hmw⟩ Hk
  ihave Hm := (Transfers.MayWaits.elim (c := thr d L) (ι := (none : HIx 1)) (O := O) (SemLoc.dma so)) $$ Hmw
  iapply (Transfers.wp_waitLocalO countersEmb 𝒱₀ (thr d L) none (sem := so) (srcw := oM) (dstw := outWin off hinb) (none : HIx 1) (N := 65536) rfl) $$ [Hfl HO Hm]
  · iframe # ∗
  iintro ⟨⟨Hc, Ho⟩, Hv, HO⟩
  iapply Hk
  isplitl [Hc]; · iexact Hc
  isplitl [Ho]; · iexact Ho
  isplitl [Hv]; · iexact Hv
  iexact HO

end Cert.KB

end
-- ==== Proof.KB.Inner.lean ====
import proofs.«204304_g88828513616490_cont_9to1c4b_177_25_alg».proof.Proof.KB.TileInv
import Idealize.ShloMosaic.Lib.WritesUnit

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid1.Coords)

omit [FloatOps F] in
/-- Words read from a buffer whose every word is below 65536 name table entries. -/
theorem chk_lt {κ : Kind} {sp : Space} (v : View sig κ sp S2048 .i32) (f : v.ty.Contents (Elt F))
    (hs : ∀ y, (v.read (Elt F) f y).toNat < 65536) (off : Fin 1 → ℕ) (h : ∀ a, off a + S16.size a ≤ S2048.size a) :
    ∀ a x, ((![v.readAt (Elt F) (Rect.unit (s := S2048) off S16.size h).toLoadRect f] : Fin 1 → IVec S16 32) a x).toNat < S65536.size a := by
  intro a x
  obtain rfl : a = 0 := Subsingleton.elim _ _
  show (v.readAt (Elt F) (Rect.unit (s := S2048) off S16.size h).toLoadRect f x).toNat < 65536
  rw [View.readAt_apply]
  exact hs _

omit [FloatOps F] in
theorem pts_tv_access (f : S65536.Idx → Elt F .f32) :
    (((tvV.access (.whole S65536)).loc (thr d L) ↦{fullShare} f : sProp 𝕄)) = (tvV.view.loc (thr d L) ↦{fullShare} f) := rfl

omit [FloatOps F] in
/-- A gathered lane is the table at the entry its index word names, since that word is below 65536. -/
theorem gath16 {κ : Kind} {sp : Space} (v : View sig κ sp S2048 .i32) (f : v.ty.Contents (Elt F)) (Tv : S65536.Idx → Elt F .f32)
    (hs : ∀ y, (v.read (Elt F) f y).toNat < 65536) {off : Fin 1 → ℕ} {c : ℕ} (inb : ∀ a, off a + S16.size a ≤ S2048.size a)
    (h : ∀ a x, ((![v.readAt (Elt F) (Rect.unit (s := S2048) off S16.size inb).toLoadRect f] : Fin 1 → IVec S16 32) a x).toNat < S65536.size a)
    (heq : off = ![c]) (x : S16.Idx) (y : S2048.Idx) (hy : (y 0).val = c + (x 0).val) :
    loadIdx (View.read (Elt F) (tvV.access (Rect.whole S65536)) Tv)
        (![v.readAt (Elt F) (Rect.unit (s := S2048) off S16.size inb).toLoadRect f] : Fin 1 → IVec S16 32) h x
      = Tv (Cert.Spec.tix (v.read (Elt F) f y)) := by
  subst heq
  have hxy : (Rect.unit (s := S2048) ![c] S16.size inb).toLoadRect.idx x = y := funext fun a => Fin.ext (by
    obtain rfl : a = 0 := Subsingleton.elim _ _
    show c + 1 * (x 0).val = (y 0).val
    omega)
  have hrd : View.read (Elt F) (tvV.access (Rect.whole S65536)) Tv = Tv := Memref.read_access_whole (Elt F) cc1_scratch0 Tv
  unfold loadIdx
  rw [hrd]
  congr 1
  funext a
  obtain rfl : a = 0 := Subsingleton.elim _ _
  apply Fin.ext
  show (v.readAt (Elt F) (Rect.unit (s := S2048) ![c] S16.size inb).toLoadRect f x).toNat = (v.read (Elt F) f y).toNat % 65536
  rw [View.readAt_apply, hxy, Nat.mod_eq_of_lt (hs y)]

omit [FloatOps F] in
/-- Sixteen words stored at `c` that agree with `G` there carry agreement with `G` from below `c` to below `c + 16`. -/
theorem good_cons {κ : Kind} {sp : Space} (v : View sig κ sp S2048 .f32) (f : v.ty.Contents (Elt F)) (G : S2048.Idx → Elt F .f32)
    {off : Fin 1 → ℕ} {c : ℕ} (inb : ∀ a, off a + S16.size a ≤ S2048.size a)
    (w : (Rect.unit (s := S2048) off S16.size inb).shape.Idx → Elt F .f32) (L : List (View.Piece (Elt F) S2048 .f32)) (y : S2048.Idx)
    (heq : off = ![c]) (hlt : (y 0).val < c + 16) (hw : ∀ x, (y 0).val = c + (x 0).val → w x = G y)
    (h : (y 0).val < c → v.read (Elt F) (v.writes (Elt F) f L) y = G y) :
    v.read (Elt F) (v.writes (Elt F) f ((⟨Rect.unit off S16.size inb, w⟩ : View.Piece (Elt F) S2048 .f32) :: L)) y = G y := by
  by_cases hin : c ≤ (y 0).val
  · have hall : ∀ a : Fin 1, (![c] : Fin 1 → ℕ) a ≤ (y a).val ∧ (y a).val < (![c] : Fin 1 → ℕ) a + S16.size a := Fin.forall_fin_one.mpr ⟨hin, hlt⟩
    rw [View.read_writes_cons_unit_of_mem v f inb w L y (Rect.unitLocal (s := S2048) (off := ![c]) (size := S16.size) y hall) heq
      (fun a => by have := hall a; rw [Rect.unitLocal_val]; omega)]
    exact hw _ (by rw [Rect.unitLocal_val]; show (y 0).val = c + ((y 0).val - c); omega)
  · rw [View.read_writes_cons_unit_of_not_mem v f inb w L y heq 0 (by
      show (y 0).val < c ∨ c + 16 ≤ (y 0).val
      omega)]
    exact h (by omega)

theorem trips0 : Scf.trips k1_t2_loop.lb k1_t2_loop.ub k1_t2_loop.st = 16 := by decide

variable {iM : Memref sig .scVector .vmem S2048 .i32} (hi : iM.IsWhole) {oM : Memref sig .scVector .vmem S2048 .f32} (ho : oM.IsWhole)

/-- After `k` trips the out scratch's first `128 k` words are the table at the entries the index scratch names. -/
def gInv (Tv : S65536.Idx → Elt F .f32) (fi : Buf (Elt F) (iM.view.loc (thr d L))) (k : ℕ) (_ : BitVec 32) : sProp 𝕄 :=
  iprop((tvV.view.loc (thr d L) ↦{fullShare} Tv) ∗ (iM.view.loc (thr d L) ↦{fullShare} fi)
    ∗ ∃ fo : Buf (Elt F) (oM.view.loc (thr d L)),
        ⌜∀ y : S2048.Idx, (y 0).val < 128 * k → oM.view.read (Elt F) fo y = Tv (Cert.Spec.tix (iM.view.read (Elt F) fi y))⌝
        ∗ (oM.view.loc (thr d L) ↦{fullShare} fo))

set_option maxHeartbeats 4000000 in
/-- The gather loop of any slot: sixteen trips of eight checked loads, eight gathers and eight stores fill the out scratch with the table gathered at the index scratch, which is only read, like the table. -/
theorem inner (t : Fin k1_t1_loop.trips) (ini v2 c0 c1 : BitVec 32) (Tv : S65536.Idx → Elt F .f32)
    (fi : Buf (Elt F) (iM.view.loc (thr d L))) (fo : Buf (Elt F) (oM.view.loc (thr d L))) (hs : ∀ y, (iM.view.read (Elt F) fi y).toNat < 65536) :
    (iprop((tvV.view.loc (thr d L) ↦{fullShare} Tv) ∗ (iM.view.loc (thr d L) ↦{fullShare} fi)
        ∗ (oM.view.loc (thr d L) ↦{fullShare} fo)) : sProp 𝕄)
      ⊢ wp frame (wpE (defs₀ (F := F)) 𝒱₀ (thr d L) none) Set.univ
          (Scf.Loop.for k1_t2_loop k1_t2_ok ini (k1_t2_body L tblV (Memref.isWhole_whole _) chrV (Memref.isWhole_whole _) outV (Memref.isWhole_whole _) tvV (Memref.isWhole_whole _) shV (Memref.isWhole_whole _)
            iM hi iM hi iM hi iM hi iM hi iM hi iM hi iM hi oM ho oM ho oM ho oM ho oM ho oM ho oM ho oM ho
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 v2 c0 c1 t))
          fun _ => iprop((tvV.view.loc (thr d L) ↦{fullShare} Tv) ∗ (iM.view.loc (thr d L) ↦{fullShare} fi)
            ∗ ∃ fo' : Buf (Elt F) (oM.view.loc (thr d L)), ⌜∀ y, oM.view.read (Elt F) fo' y = Tv (Cert.Spec.tix (iM.view.read (Elt F) fi y))⌝
              ∗ (oM.view.loc (thr d L) ↦{fullShare} fo')) := by
  iintro ⟨Htv, Hs, Ho⟩
  sl_for (gInv d L (iM := iM) (oM := oM) Tv fi) $$ [Htv Hs Ho]
  case region =>
    intro k acc
    unfold gInv
    iintro ⟨Htv, Hs, %o', %ho', Ho⟩
    iterate 8
      sl_exec
      rw [wp_assume_of]
      pick_goal 2
      · exact chk_lt (F := F) iM.view fi hs _ _
    ihave Htv := (Entails.of_eq (pts_tv_access (F := F) d L Tv).symm) $$ Htv
    iterate 8
      iapply (SparseCore.wp_vectorLoadIdx 𝒱₀ (thr d L) none Set.univ (base := tvV) (S := Finset.univ) (q := fullShare) (Finset.subset_univ _)) $$ Htv; iintro Htv
    ihave Htv := (Entails.of_eq (pts_tv_access (F := F) d L Tv)) $$ Htv
    sl_exec
    sl_step
    isplitl [Htv]; · iexact Htv
    isplitl [Hs]; · iexact Hs
    iexists _; isplitr
    swap; · iexact Ho
    ipureintro
    intro y hy
    sl_unfold_run_names
    let G : S2048.Idx → Elt F .f32 := fun y => Tv (Cert.Spec.tix (iM.view.read (Elt F) fi y))
    refine good_cons (F := F) oM.view _ G _ _ _ y (c := 128 * k.val + 112) (k1_off6_eq k 7) (by omega) (fun x hx => gath16 (F := F) iM.view fi Tv hs _ _ (k1_off5_eq k 7) x y hx) fun _ => ?_
    refine good_cons (F := F) oM.view _ G _ _ _ y (c := 128 * k.val + 96) (k1_off6_eq k 6) (by omega) (fun x hx => gath16 (F := F) iM.view fi Tv hs _ _ (k1_off5_eq k 6) x y hx) fun _ => ?_
    refine good_cons (F := F) oM.view _ G _ _ _ y (c := 128 * k.val + 80) (k1_off6_eq k 5) (by omega) (fun x hx => gath16 (F := F) iM.view fi Tv hs _ _ (k1_off5_eq k 5) x y hx) fun _ => ?_
    refine good_cons (F := F) oM.view _ G _ _ _ y (c := 128 * k.val + 64) (k1_off6_eq k 4) (by omega) (fun x hx => gath16 (F := F) iM.view fi Tv hs _ _ (k1_off5_eq k 4) x y hx) fun _ => ?_
    refine good_cons (F := F) oM.view _ G _ _ _ y (c := 128 * k.val + 48) (k1_off6_eq k 3) (by omega) (fun x hx => gath16 (F := F) iM.view fi Tv hs _ _ (k1_off5_eq k 3) x y hx) fun _ => ?_
    refine good_cons (F := F) oM.view _ G _ _ _ y (c := 128 * k.val + 32) (k1_off6_eq k 2) (by omega) (fun x hx => gath16 (F := F) iM.view fi Tv hs _ _ (k1_off5_eq k 2) x y hx) fun _ => ?_
    refine good_cons (F := F) oM.view _ G _ _ _ y (c := 128 * k.val + 16) (k1_off6_eq k 1) (by omega) (fun x hx => gath16 (F := F) iM.view fi Tv hs _ _ (k1_off5_eq k 1) x y hx) fun _ => ?_
    refine good_cons (F := F) oM.view _ G _ _ _ y (c := 128 * k.val + 0) (k1_off6_eq k 0) (by omega) (fun x hx => gath16 (F := F) iM.view fi Tv hs _ _ (k1_off5_eq k 0) x y hx) fun _ => ?_
    exact ho' y (by omega)
  · unfold gInv
    isplitl [Htv Hs Ho]
    · isplitl [Htv]; · iexact Htv
      isplitl [Hs]; · iexact Hs
      iexists fo; isplitr
      · ipureintro; intro y hy; omega
      · iexact Ho
    · iintro %acc ⟨Htv, Hs, %o', %ho', Ho⟩
      isplitl [Htv]; · iexact Htv
      isplitl [Hs]; · iexact Hs
      iexists o'; isplitr
      · ipureintro; intro y; exact ho' y (by rw [trips0]; have h2048 : (y 0).val < 2048 := (y 0).isLt; show (y 0).val < 128 * 16; omega)
      · iexact Ho

end Cert.KB

end
-- ==== Proof.KB.Trip.lean ====
import proofs.«204304_g88828513616490_cont_9to1c4b_177_25_alg».proof.Proof.KB.TileLemmas
import proofs.«204304_g88828513616490_cont_9to1c4b_177_25_alg».proof.Proof.KB.Inner
import proofs.«204304_g88828513616490_cont_9to1c4b_177_25_alg».proof.Proof.KB.Issue

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

abbrev OW (O : CellTallies nD τ sig (HIx 1)) (W : Waits sig (HIx 1)) : sProp 𝕄 :=
  iprop(∃ W', ⌜∀ p ∈ W', p ∈ W ∨ p.2 = none⌝ ∗ owes (thr d L) O W')

def dn (t j : ℕ) : ℕ := if 0 < t then 8 * t - 8 + j else 0

abbrev doneTo (n : ℕ) : sProp 𝕄 :=
  bigSep (Finset.range n) fun k => outV.view.loc (thr d L) ↦[chunkSet (wid L) k]{fullShare} Out m d

abbrev todoFrom (n : ℕ) : sProp 𝕄 :=
  bigSep (Finset.Ico n 128) fun k => iprop(∃ f, outV.view.loc (thr d L) ↦[chunkSet (wid L) k]{fullShare} f)

theorem doneTo_succ (n : ℕ) :
    iprop((outV.view.loc (thr d L) ↦[chunkSet (wid L) n]{fullShare} Out m d) ∗ doneTo m d L n) ⊢ doneTo m d L (n + 1) := by
  unfold doneTo
  rw [Finset.range_add_one, bigSep_insert (Finset.notMem_range_self)]
  exact .rfl

theorem cond1_iff : ∀ t : Fin k1_t1_loop.trips, k1_cond1 t = 1#1 ↔ 0 < t.val := by decide +kernel
theorem cond3_iff : ∀ t : Fin k1_t1_loop.trips, k1_cond3 t = 1#1 ↔ 0 < t.val := by decide +kernel
theorem cond5_iff : ∀ t : Fin k1_t1_loop.trips, k1_cond5 t = 1#1 ↔ 0 < t.val := by decide +kernel
theorem cond7_iff : ∀ t : Fin k1_t1_loop.trips, k1_cond7 t = 1#1 ↔ 0 < t.val := by decide +kernel
theorem cond9_iff : ∀ t : Fin k1_t1_loop.trips, k1_cond9 t = 1#1 ↔ 0 < t.val := by decide +kernel
theorem cond11_iff : ∀ t : Fin k1_t1_loop.trips, k1_cond11 t = 1#1 ↔ 0 < t.val := by decide +kernel
theorem cond13_iff : ∀ t : Fin k1_t1_loop.trips, k1_cond13 t = 1#1 ↔ 0 < t.val := by decide +kernel
theorem cond15_iff : ∀ t : Fin k1_t1_loop.trips, k1_cond15 t = 1#1 ↔ 0 < t.val := by decide +kernel
theorem cond2_iff : ∀ t : Fin k1_t1_loop.trips, k1_cond2 t = 1#1 ↔ t.val < 15 := by decide +kernel
theorem cond4_iff : ∀ t : Fin k1_t1_loop.trips, k1_cond4 t = 1#1 ↔ t.val < 15 := by decide +kernel
theorem cond6_iff : ∀ t : Fin k1_t1_loop.trips, k1_cond6 t = 1#1 ↔ t.val < 15 := by decide +kernel
theorem cond8_iff : ∀ t : Fin k1_t1_loop.trips, k1_cond8 t = 1#1 ↔ t.val < 15 := by decide +kernel
theorem cond10_iff : ∀ t : Fin k1_t1_loop.trips, k1_cond10 t = 1#1 ↔ t.val < 15 := by decide +kernel
theorem cond12_iff : ∀ t : Fin k1_t1_loop.trips, k1_cond12 t = 1#1 ↔ t.val < 15 := by decide +kernel
theorem cond14_iff : ∀ t : Fin k1_t1_loop.trips, k1_cond14 t = 1#1 ↔ t.val < 15 := by decide +kernel
theorem cond16_iff : ∀ t : Fin k1_t1_loop.trips, k1_cond16 t = 1#1 ↔ t.val < 15 := by decide +kernel

theorem trips_lt (t : Fin k1_t1_loop.trips) : t.val < 16 := lt_of_lt_of_le t.isLt k1_t1_abs.2.1

theorem off3_chunk (t : Fin k1_t1_loop.trips) (r : Fin 8) :
    k1_off3 L t (BitVec.ofNat 32 r.val) = ![2048 * (128 * (wid L).val + (8 * t.val + r.val))] := by
  rw [k1_off3_eq]
  refine congrArg (fun x : ℕ => ![x]) ?_
  show 524288 * (L 1).val + 262144 * (L 0).val + 16384 * t.val + 2048 * r.val = 2048 * (128 * (2 * (L 1).val + (L 0).val) + (8 * t.val + r.val))
  omega

theorem offN_chunk (t : Fin k1_t1_loop.trips) (c r : ℕ) (hc : c = 16384 + 2048 * r) :
    (![524288 * (L 1).val + 262144 * (L 0).val + 16384 * t.val + c] : Fin 1 → ℕ) = ![2048 * (128 * (wid L).val + (8 * (t.val + 1) + r))] := by
  refine congrArg (fun x : ℕ => ![x]) ?_
  show 524288 * (L 1).val + 262144 * (L 0).val + 16384 * t.val + c = 2048 * (128 * (2 * (L 1).val + (L 0).val) + (8 * (t.val + 1) + r))
  omega

theorem set_unit_chunk (off : Fin 1 → ℕ) (inb : ∀ a, off a + S2048.size a ≤ S8388608.size a) (c : ℕ) (hoff : off = ![2048 * c]) :
    (Rect.unit (s := S8388608) off S2048.size inb).set = Finset.univ.filter (fun j : S8388608.Idx => (j 0).val / 2048 = c) := by
  subst hoff
  ext j
  rw [Rect.mem_set_unit, Finset.mem_filter]
  constructor
  · intro h
    have h0 := h 0
    simp only [Matrix.cons_val_zero] at h0
    refine ⟨Finset.mem_univ _, ?_⟩
    have : S2048.size 0 = 2048 := rfl
    omega
  · rintro ⟨-, h⟩ a
    obtain rfl : a = 0 := Subsingleton.elim _ _
    simp only [Matrix.cons_val_zero]
    have : S2048.size 0 = 2048 := rfl
    omega

theorem chr_win_set (off : Fin 1 → ℕ) (inb : ∀ a, off a + S2048.size a ≤ S8388608.size a) (hsl) (n : Fin 32) (k : ℕ)
    (hoff : off = ![2048 * (128 * n.val + k)]) :
    (chrV.slice (Rect.unit (s := S8388608) off S2048.size inb) hsl).view.set = chunkSet n k := by
  show ((View.whole main_arg0_scv).slice (Rect.unit (s := S8388608) off S2048.size inb)).set = _
  rw [View.set_slice_whole]
  exact set_unit_chunk off inb _ hoff
theorem out_win_set (off : Fin 1 → ℕ) (inb : ∀ a, off a + S2048.size a ≤ S8388608.size a) (hsl) (n : Fin 32) (k : ℕ)
    (hoff : off = ![2048 * (128 * n.val + k)]) :
    (outV.slice (Rect.unit (s := S8388608) off S2048.size inb) hsl).view.set = chunkSet n k := by
  show ((View.whole main_v3_scv).slice (Rect.unit (s := S8388608) off S2048.size inb)).set = _
  rw [View.set_slice_whole]
  exact set_unit_chunk off inb _ hoff

theorem chr_win_emb (off : Fin 1 → ℕ) (inb : ∀ a, off a + S2048.size a ≤ S8388608.size a) (hsl) (n : Fin 32) (k : ℕ)
    (hoff : off = ![2048 * (128 * n.val + k)]) (hk : k < 128) (y : S2048.Idx) :
    (chrV.slice (Rect.unit (s := S8388608) off S2048.size inb) hsl).view.emb y = chunkIx n k y := by
  have h : (Rect.unit (s := S8388608) off S2048.size inb).emb y = chunkIx n k y := by
    funext a
    obtain rfl : a = 0 := Fin.fin_one_eq_zero a
    refine Fin.ext ?_
    rw [chunkIx_val n hk]
    subst hoff
    show 2048 * (128 * n.val + k) + 1 * (y 0).val = _
    omega
  exact h
theorem out_win_emb (off : Fin 1 → ℕ) (inb : ∀ a, off a + S2048.size a ≤ S8388608.size a) (hsl) (n : Fin 32) (k : ℕ)
    (hoff : off = ![2048 * (128 * n.val + k)]) (hk : k < 128) (y : S2048.Idx) :
    (outV.slice (Rect.unit (s := S8388608) off S2048.size inb) hsl).view.emb y = chunkIx n k y := by
  have h : (Rect.unit (s := S8388608) off S2048.size inb).emb y = chunkIx n k y := by
    funext a
    obtain rfl : a = 0 := Fin.fin_one_eq_zero a
    refine Fin.ext ?_
    rw [chunkIx_val n hk]
    subst hoff
    show 2048 * (128 * n.val + k) + 1 * (y 0).val = _
    omega
  exact h

theorem wp_waitIn {α : Type} {Q : α → sProp 𝕄} (O : CellTallies nD τ sig (HIx 1)) (W : Waits sig (HIx 1))
    (ipts : (S2048.Idx → BitVec 32) → sProp 𝕄) (si : DmaSem sig) (tk k t : ℕ) (ht : t < 16)
    {sp' : Space} {s' : Shape} {e' : EltTy} (srcw : Memref sig .scVector sp' s' e') (a : Memref sig .scVector .vmem S2048 .i32)
    (hsrc : srcw.view.WordExact) (hdst : a.view.WordExact) (hcr : a.view.dmaCredit = 65536)
    (kk : PUnit → Prog (TpuEff nD τ sig (Elt F) Λ₀ (.scVector (cV L) (jV L))) α) :
    iprop(Transfers.MayWaits (thr d L) (none : HIx 1) O ∗ slotIn m d L ipts si tk k (t < 16) ∗ OW d L O W)
      ⊢ iprop((iprop((∃ s, ⌜IdxHolds m d (wid L) k s⌝ ∗ ipts s) ∗ semVal (thr d L, SemLoc.dma si) 0
              ∗ (chrV.view.loc (thr d L) ↦{chrShare L tk} m (chrLoc d)) ∗ OW d L O W)
            -∗ wp frame (wpE (defs₀ (F := F)) 𝒱₀ (thr d L) none) Set.univ (kk ⟨⟩) Q)
          -∗ wp frame (wpE (defs₀ (F := F)) 𝒱₀ (thr d L) none) Set.univ (.op (.waitDma2 si srcw a hsrc hdst) kk) Q) := by
  unfold slotIn inFl OW
  rw [if_pos ht]
  iintro ⟨#Hmw, ⟨HF, Hrest⟩, ⟨%W', %hW', HO⟩⟩ Hk
  iapply (Transfers.wp_waitLocalO countersEmb 𝒱₀ (thr d L) none (none : HIx 1) hcr) $$ [HF HO]
  · isplitl [HF]; · iexact HF
    isplitl [HO]; · iexact HO
    iapply (Transfers.MayWaits.elim (SemLoc.dma si)); iexact Hmw
  iintro ⟨⟨Hs, Hc⟩, Hv, HO⟩
  iapply Hk
  isplitl [Hs]; · iexact Hs
  isplitl [Hv]; · iexact Hv
  isplitl [Hc Hrest]
  · iapply (pointsTo_split_subset (Finset.subset_univ (chunkSet (wid L) k))).2
    isplitl [Hc]; · iexact Hc
    iexact Hrest
  · iexists (insert (SemLoc.dma si, (none : HIx 1)) W')
    isplitr
    · ipureintro
      intro p hp
      rcases Finset.mem_insert.mp hp with h | hp
      · exact Or.inr (by rw [h])
      · exact hW' p hp
    · iexact HO

theorem dn_zero (t : ℕ) : dn t 0 = 8 * t - 8 := by unfold dn; split <;> omega
theorem dn_eight (t : ℕ) : dn t 8 = 8 * (t + 1) - 8 := by unfold dn; split <;> omega

theorem wp_waitOut {α : Type} {Q : α → sProp 𝕄} (O : CellTallies nD τ sig (HIx 1)) (W : Waits sig (HIx 1))
    (opts : (S2048.Idx → Elt F .f32) → sProp 𝕄) (so : DmaSem sig) (k t j j' : ℕ) (hj : j' = j + 1) (hk : 0 < t → k = 8 * t - 8 + j)
    (c : Prop) [Decidable c] (hc : c ↔ 0 < t)
    {sp' : Space} {s' : Shape} {e' : EltTy} (srcw : Memref sig .scVector sp' s' e') (dstw : c → Memref sig .scVector .hbm S2048 .f32)
    (hsrc : srcw.view.WordExact) (hdst : ∀ h, (dstw h).view.WordExact) (hcr : ∀ h, (dstw h).view.dmaCredit = 65536)
    (K : Prog (TpuEff nD τ sig (Elt F) Λ₀ (.scVector (cV L) (jV L))) α) :
    iprop(Transfers.MayWaits (thr d L) (none : HIx 1) O ∗ slotOut m d L opts so k (0 < t) ∗ doneTo m d L (dn t j) ∗ OW d L O W)
      ⊢ iprop((iprop((∃ f, opts f) ∗ semVal (thr d L, SemLoc.dma so) 0 ∗ doneTo m d L (dn t j') ∗ OW d L O W)
            -∗ wp frame (wpE (defs₀ (F := F)) 𝒱₀ (thr d L) none) Set.univ K Q)
          -∗ wp frame (wpE (defs₀ (F := F)) 𝒱₀ (thr d L) none) Set.univ
              (if h : c then .op (.waitDma2 so srcw (dstw h) hsrc (hdst h)) (fun _ => K) else K) Q) := by
  subst hj
  unfold slotOut outFl OW
  by_cases ht : 0 < t
  · rw [if_pos ht, dif_pos (hc.mpr ht)]
    iintro ⟨#Hmw, HF, Hdn, ⟨%W', %hW', HO⟩⟩ Hk
    iapply (Transfers.wp_waitLocalO countersEmb 𝒱₀ (thr d L) none (none : HIx 1) (hcr (hc.mpr ht))) $$ [HF HO]
    · isplitl [HF]; · iexact HF
      isplitl [HO]; · iexact HO
      iapply (Transfers.MayWaits.elim (SemLoc.dma so)); iexact Hmw
    iintro ⟨⟨Hc, Ho⟩, Hv, HO⟩
    iapply Hk
    isplitl [Ho]; · iexact Ho
    isplitl [Hv]; · iexact Hv
    isplitl [Hc Hdn]
    · have e : dn t (j + 1) = dn t j + 1 := by unfold dn; rw [if_pos ht, if_pos ht]; omega
      have ek : k = dn t j := by rw [hk ht]; unfold dn; rw [if_pos ht]
      rw [e]
      iapply (doneTo_succ m d L (dn t j))
      isplitl [Hc]; · rw [← ek]; iexact Hc
      iexact Hdn
    · iexists (insert (SemLoc.dma so, (none : HIx 1)) W')
      isplitr
      · ipureintro
        intro p hp
        rcases Finset.mem_insert.mp hp with h | hp
        · exact Or.inr (by rw [h])
        · exact hW' p hp
      · iexact HO
  · rw [if_neg ht, dif_neg (fun h => ht (hc.mp h))]
    iintro ⟨#Hmw, ⟨Ho, Hv⟩, Hdn, HOW⟩ Hk
    iapply Hk
    isplitl [Ho]; · iexact Ho
    isplitl [Hv]; · iexact Hv
    isplitl [Hdn]
    · have e : dn t (j + 1) = dn t j := by unfold dn; rw [if_neg ht, if_neg ht]
      rw [e]; iexact Hdn
    · iexact HOW

theorem wp_bind_of {α β : Type} {Q : α → sProp 𝕄} (p : Prog (TpuEff nD τ sig (Elt F) Λ₀ (.scVector (cV L) (jV L))) β)
    (kk : β → Prog (TpuEff nD τ sig (Elt F) Λ₀ (.scVector (cV L) (jV L))) α) (P : sProp 𝕄) (R : β → sProp 𝕄)
    (h : P ⊢ wp frame (wpE (defs₀ (F := F)) 𝒱₀ (thr d L) none) Set.univ p R) :
    P ⊢ iprop((∀ v, R v -∗ wp frame (wpE (defs₀ (F := F)) 𝒱₀ (thr d L) none) Set.univ (kk v) Q)
          -∗ wp frame (wpE (defs₀ (F := F)) 𝒱₀ (thr d L) none) Set.univ (p >>= kk) Q) := by
  rw [wp_bind]
  iintro HP Hk
  iapply (wp_wand_r frame (wpE (defs₀ (F := F)) 𝒱₀ (thr d L) none) Set.univ (Q := R))
  isplitl [HP]
  · iapply h; iexact HP
  · iexact Hk

theorem credit_i32 {sp : Space} (v : View sig .scVector sp S2048 .i32) : v.dmaCredit = 65536 := rfl
theorem credit_f32 {sp : Space} (v : View sig .scVector sp S2048 .f32) : v.dmaCredit = 65536 := rfl

theorem todo_take (n n' : ℕ) (hn' : n' = n + 1) (hn : n < 128) :
    todoFrom (F := F) d L n ⊢ iprop((∃ f, outV.view.loc (thr d L) ↦[chunkSet (wid L) n]{fullShare} f) ∗ todoFrom (F := F) d L n') := by
  subst hn'
  unfold todoFrom
  have e : Finset.Ico n 128 = insert n (Finset.Ico (n + 1) 128) := by
    ext x; simp only [Finset.mem_insert, Finset.mem_Ico]; omega
  rw [e, bigSep_insert (by simp only [Finset.mem_Ico]; omega)]
  exact .rfl

theorem wp_issueIn_if {α : Type} {Q : α → sProp 𝕄} (ipts : (S2048.Idx → BitVec 32) → sProp 𝕄) (si : DmaSem sig) (tk k t : ℕ)
    (c : Prop) [Decidable c] (hc : c ↔ t < 15)
    (P : c → Prog (TpuEff nD τ sig (Elt F) Λ₀ (.scVector (cV L) (jV L))) α) (K : Prog (TpuEff nD τ sig (Elt F) Λ₀ (.scVector (cV L) (jV L))) α)
    (hP : ∀ h : c, iprop((chrV.view.loc (thr d L) ↦{chrShare L tk} m (chrLoc d)) ∗ (∃ s, ipts s) ∗ semVal (thr d L, SemLoc.dma si) 0)
      ⊢ iprop((iprop(inFl m d L ipts si tk k ∗ chrV.view.loc (thr d L) ↦[Finset.univ \ chunkSet (wid L) k]{chrShare L tk} m (chrLoc d))
            -∗ wp frame (wpE (defs₀ (F := F)) 𝒱₀ (thr d L) none) Set.univ K Q)
        -∗ wp frame (wpE (defs₀ (F := F)) 𝒱₀ (thr d L) none) Set.univ (P h) Q)) :
    iprop((chrV.view.loc (thr d L) ↦{chrShare L tk} m (chrLoc d)) ∗ (∃ s, ipts s) ∗ semVal (thr d L, SemLoc.dma si) 0)
      ⊢ iprop((slotIn m d L ipts si tk k (t + 1 < 16) -∗ wp frame (wpE (defs₀ (F := F)) 𝒱₀ (thr d L) none) Set.univ K Q)
        -∗ wp frame (wpE (defs₀ (F := F)) 𝒱₀ (thr d L) none) Set.univ (if h : c then P h else K) Q) := by
  unfold slotIn
  by_cases ht : t < 15
  · rw [dif_pos (hc.mpr ht), if_pos (show t + 1 < 16 by omega)]
    exact hP (hc.mpr ht)
  · rw [dif_neg (fun h => ht (hc.mp h)), if_neg (show ¬ t + 1 < 16 by omega)]
    iintro ⟨Hc, Hs, Hv⟩ Hk
    iapply Hk
    isplitl [Hs]; · iexact Hs
    isplitl [Hv]; · iexact Hv
    iexact Hc

theorem gathered_out (k : ℕ) (s : S2048.Idx → BitVec 32) (o : S2048.Idx → Elt F .f32) (hs : IdxHolds m d (wid L) k s)
    (ho : ∀ y, o y = Tb m d (Cert.Spec.tix (s y))) : ∀ y, o y = Out m d (chunkIx (wid L) k y) := fun y => by
  rw [ho y, hs y]; rfl

theorem outFl_slotOut (opts : (S2048.Idx → Elt F .f32) → sProp 𝕄) (so : DmaSem sig) (k k' t : ℕ) (hk : k' = k) :
    outFl m d L opts so k ⊢ slotOut m d L opts so k' (0 < t + 1) := by
  subst hk
  unfold slotOut
  rw [if_pos (Nat.succ_pos t)]

set_option maxHeartbeats 4000000 in
theorem trip (hpre : PreOK m) (O : CellTallies nD τ sig (HIx 1)) (W : Waits sig (HIx 1)) (v2 : BitVec 32) (t : Fin k1_t1_loop.trips) :
      Inv m d L O W t.val () ⊢ wp frame (wpE (defs₀ (F := F)) 𝒱₀ (thr d L) none) Set.univ (k1_t1_body L tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1 v2 t ()) fun _ => Inv m d L O W (t.val + 1) () := by
  have ht : t.val < 16 := trips_lt t
  unfold Inv
  rw [← dn_zero t.val, ← dn_eight t.val]
  iintro ⟨#Hmw, Htv, HI0, HO0, HI1, HO1, HI2, HO2, HI3, HO3, HI4, HO4, HI5, HO5, HI6, HO6, HI7, HO7, Hdn, Htd, HOW⟩
  unfold k1_t1_body

  rw [wp_bind]
  rw [k1_part9_eq_skeleton]; unfold k1_part9_skel
  simp only [Prog.lift, Prog.bind_op, Prog.bind_ret, Prog.pure_eq_ret, Prog.bind_assoc]

  iapply (wp_waitIn m d L O W _ _ 2 (8 * t.val + 0) t.val ht _ _ _ _ (credit_i32 _)) $$ [HI0 HOW]
  · iframe # ∗
  iintro ⟨Hs0, Hv0, Hc0, HOW⟩

  iapply (wp_waitOut m d L O W _ _ (8 * t.val + 0 - 8) t.val 0 1 rfl (fun h => by omega) _ (cond1_iff t) _ _ _ _ (fun _ => credit_f32 _)) $$ [HO0 Hdn HOW]
  · iframe # ∗
  iintro ⟨Hb0, Hw0, Hdn, HOW⟩

  icases Hs0 with ⟨%s0, %hs0, Ha0⟩
  icases Hb0 with ⟨%f0, Ho0⟩
  iapply (wp_bind_of d L _ _ _ _ (inner d L (iM := Memref.whole cc1_scratch2) (oM := Memref.whole cc1_scratch10) (Memref.isWhole_whole _) (Memref.isWhole_whole _) t _ _ _ _ (Tb m d) s0 f0 (fun y => by show (s0 y).toNat < _; rw [hs0 y]; exact hpre d _))) $$ [Htv Ha0 Ho0] <;> try exact 0#32
  · iframe # ∗
  iintro %r0 ⟨Htv, Ha0, ⟨%o0, %ho0, Ho0⟩⟩

  ihave Htk := (todo_take (F := F) d L (8 * t.val + 0) (8 * t.val + 1) (by omega) (by omega)) $$ Htd
  icases Htk with ⟨Hck, Htd⟩
  iapply (issue_out (F := F) m d L (oM := Memref.whole cc1_scratch10) (wPts d L cc1_scratch10) (whole_fwd d L cc1_scratch10) (whole_back d L cc1_scratch10) cc1_scratch26.sem (8 * t.val + 0) (by omega) (k1_off3 L t 0#32) (k1_off3_inb L t 0)
      (out_win_set _ _ _ (wid L) _ (off3_chunk L t 0)) (fun y => out_win_emb _ _ _ (wid L) _ (off3_chunk L t 0) (by omega) y)) $$ [Ho0 Hck Hw0]
  · isplitl [Ho0]
    · iexists o0; isplitr; · ipureintro; exact gathered_out m d L _ s0 o0 hs0 ho0
      iexact Ho0
    isplitl [Hck]; · iexact Hck
    iexact Hw0
  iintro HO0
  ihave HO0 := (outFl_slotOut m d L _ _ (8 * t.val + 0) (8 * (t.val + 1) + 0 - 8) t.val (by omega)) $$ HO0

  iapply (wp_issueIn_if m d L _ cc1_scratch18.sem 2 (8 * (t.val + 1) + 0) t.val _ (cond2_iff t) _ _
      (fun h => issue_in (F := F) m d L (iM := Memref.whole cc1_scratch2) (wPts d L cc1_scratch2) (fun _ => rfl) (wPts_ex d L cc1_scratch2) cc1_scratch18.sem 2 (8 * (t.val + 1) + 0) (k1_off7 L t) (k1_off7_inb L t h)
        (chr_win_set _ _ _ (wid L) _ ((k1_off7_eq L t).trans (offN_chunk L t 16384 0 rfl)))
        (fun y => chr_win_emb _ _ _ (wid L) _ ((k1_off7_eq L t).trans (offN_chunk L t 16384 0 rfl)) (by have := (cond2_iff t).mp h; omega) y))) $$ [Hc0 Ha0 Hv0]
  · isplitl [Hc0]; · iexact Hc0
    isplitl [Ha0]; · iexists s0; iexact Ha0
    iexact Hv0
  iintro HI0

  iapply (wp_waitIn m d L O W _ _ 3 (8 * t.val + 1) t.val ht _ _ _ _ (credit_i32 _)) $$ [HI1 HOW]
  · iframe # ∗
  iintro ⟨Hs1, Hv1, Hc1, HOW⟩

  iapply (wp_waitOut m d L O W _ _ (8 * t.val + 1 - 8) t.val 1 2 rfl (fun h => by omega) _ (cond3_iff t) _ _ _ _ (fun _ => credit_f32 _)) $$ [HO1 Hdn HOW]
  · iframe # ∗
  iintro ⟨Hb1, Hw1, Hdn, HOW⟩
  iapply (le_wp_ret frame (wpE (defs₀ (F := F)) 𝒱₀ (thr d L) none) Set.univ _ _)
  dsimp only

  rw [wp_bind]
  rw [k1_part10_eq_skeleton]; unfold k1_part10_skel
  simp only [Prog.lift, Prog.bind_op, Prog.bind_ret, Prog.pure_eq_ret, Prog.bind_assoc]

  icases Hs1 with ⟨%s1, %hs1, Ha1⟩
  icases Hb1 with ⟨%f1, Ho1⟩
  iapply (wp_bind_of d L _ _ _ _ (inner d L (iM := Memref.whole cc1_scratch3) (oM := Memref.whole cc1_scratch11) (Memref.isWhole_whole _) (Memref.isWhole_whole _) t _ _ _ _ (Tb m d) s1 f1 (fun y => by show (s1 y).toNat < _; rw [hs1 y]; exact hpre d _))) $$ [Htv Ha1 Ho1] <;> try exact 0#32
  · iframe # ∗
  iintro %r1 ⟨Htv, Ha1, ⟨%o1, %ho1, Ho1⟩⟩

  ihave Htk := (todo_take (F := F) d L (8 * t.val + 1) (8 * t.val + 2) (by omega) (by omega)) $$ Htd
  icases Htk with ⟨Hck, Htd⟩
  iapply (issue_out (F := F) m d L (oM := Memref.whole cc1_scratch11) (wPts d L cc1_scratch11) (whole_fwd d L cc1_scratch11) (whole_back d L cc1_scratch11) cc1_scratch27.sem (8 * t.val + 1) (by omega) (k1_off3 L t 1#32) (k1_off3_inb L t 1)
      (out_win_set _ _ _ (wid L) _ (off3_chunk L t 1)) (fun y => out_win_emb _ _ _ (wid L) _ (off3_chunk L t 1) (by omega) y)) $$ [Ho1 Hck Hw1]
  · isplitl [Ho1]
    · iexists o1; isplitr; · ipureintro; exact gathered_out m d L _ s1 o1 hs1 ho1
      iexact Ho1
    isplitl [Hck]; · iexact Hck
    iexact Hw1
  iintro HO1
  ihave HO1 := (outFl_slotOut m d L _ _ (8 * t.val + 1) (8 * (t.val + 1) + 1 - 8) t.val (by omega)) $$ HO1

  iapply (wp_issueIn_if m d L _ cc1_scratch19.sem 3 (8 * (t.val + 1) + 1) t.val _ (cond4_iff t) _ _
      (fun h => issue_in (F := F) m d L (iM := Memref.whole cc1_scratch3) (wPts d L cc1_scratch3) (fun _ => rfl) (wPts_ex d L cc1_scratch3) cc1_scratch19.sem 3 (8 * (t.val + 1) + 1) (k1_off11 L t) (k1_off11_inb L t h)
        (chr_win_set _ _ _ (wid L) _ ((k1_off11_eq L t).trans (offN_chunk L t 18432 1 rfl)))
        (fun y => chr_win_emb _ _ _ (wid L) _ ((k1_off11_eq L t).trans (offN_chunk L t 18432 1 rfl)) (by have := (cond4_iff t).mp h; omega) y))) $$ [Hc1 Ha1 Hv1]
  · isplitl [Hc1]; · iexact Hc1
    isplitl [Ha1]; · iexists s1; iexact Ha1
    iexact Hv1
  iintro HI1

  iapply (wp_waitIn m d L O W _ _ 4 (8 * t.val + 2) t.val ht _ _ _ _ (credit_i32 _)) $$ [HI2 HOW]
  · iframe # ∗
  iintro ⟨Hs2, Hv2, Hc2, HOW⟩

  iapply (wp_waitOut m d L O W _ _ (8 * t.val + 2 - 8) t.val 2 3 rfl (fun h => by omega) _ (cond5_iff t) _ _ _ _ (fun _ => credit_f32 _)) $$ [HO2 Hdn HOW]
  · iframe # ∗
  iintro ⟨Hb2, Hw2, Hdn, HOW⟩

  icases Hs2 with ⟨%s2, %hs2, Ha2⟩
  icases Hb2 with ⟨%f2, Ho2⟩
  iapply (wp_bind_of d L _ _ _ _ (inner d L (iM := Memref.whole cc1_scratch4) (oM := Memref.whole cc1_scratch12) (Memref.isWhole_whole _) (Memref.isWhole_whole _) t _ _ _ _ (Tb m d) s2 f2 (fun y => by show (s2 y).toNat < _; rw [hs2 y]; exact hpre d _))) $$ [Htv Ha2 Ho2] <;> try exact 0#32
  · iframe # ∗
  iintro %r2 ⟨Htv, Ha2, ⟨%o2, %ho2, Ho2⟩⟩

  ihave Htk := (todo_take (F := F) d L (8 * t.val + 2) (8 * t.val + 3) (by omega) (by omega)) $$ Htd
  icases Htk with ⟨Hck, Htd⟩
  iapply (issue_out (F := F) m d L (oM := Memref.whole cc1_scratch12) (wPts d L cc1_scratch12) (whole_fwd d L cc1_scratch12) (whole_back d L cc1_scratch12) cc1_scratch28.sem (8 * t.val + 2) (by omega) (k1_off3 L t 2#32) (k1_off3_inb L t 2)
      (out_win_set _ _ _ (wid L) _ (off3_chunk L t 2)) (fun y => out_win_emb _ _ _ (wid L) _ (off3_chunk L t 2) (by omega) y)) $$ [Ho2 Hck Hw2]
  · isplitl [Ho2]
    · iexists o2; isplitr; · ipureintro; exact gathered_out m d L _ s2 o2 hs2 ho2
      iexact Ho2
    isplitl [Hck]; · iexact Hck
    iexact Hw2
  iintro HO2
  ihave HO2 := (outFl_slotOut m d L _ _ (8 * t.val + 2) (8 * (t.val + 1) + 2 - 8) t.val (by omega)) $$ HO2

  iapply (wp_issueIn_if m d L _ cc1_scratch20.sem 4 (8 * (t.val + 1) + 2) t.val _ (cond6_iff t) _ _
      (fun h => issue_in (F := F) m d L (iM := Memref.whole cc1_scratch4) (wPts d L cc1_scratch4) (fun _ => rfl) (wPts_ex d L cc1_scratch4) cc1_scratch20.sem 4 (8 * (t.val + 1) + 2) (k1_off15 L t) (k1_off15_inb L t h)
        (chr_win_set _ _ _ (wid L) _ ((k1_off15_eq L t).trans (offN_chunk L t 20480 2 rfl)))
        (fun y => chr_win_emb _ _ _ (wid L) _ ((k1_off15_eq L t).trans (offN_chunk L t 20480 2 rfl)) (by have := (cond6_iff t).mp h; omega) y))) $$ [Hc2 Ha2 Hv2]
  · isplitl [Hc2]; · iexact Hc2
    isplitl [Ha2]; · iexists s2; iexact Ha2
    iexact Hv2
  iintro HI2
  iapply (le_wp_ret frame (wpE (defs₀ (F := F)) 𝒱₀ (thr d L) none) Set.univ _ _)
  dsimp only

  rw [wp_bind]
  rw [k1_part11_eq_skeleton]; unfold k1_part11_skel
  simp only [Prog.lift, Prog.bind_op, Prog.bind_ret, Prog.pure_eq_ret, Prog.bind_assoc]

  iapply (wp_waitIn m d L O W _ _ 5 (8 * t.val + 3) t.val ht _ _ _ _ (credit_i32 _)) $$ [HI3 HOW]
  · iframe # ∗
  iintro ⟨Hs3, Hv3, Hc3, HOW⟩

  iapply (wp_waitOut m d L O W _ _ (8 * t.val + 3 - 8) t.val 3 4 rfl (fun h => by omega) _ (cond7_iff t) _ _ _ _ (fun _ => credit_f32 _)) $$ [HO3 Hdn HOW]
  · iframe # ∗
  iintro ⟨Hb3, Hw3, Hdn, HOW⟩

  icases Hs3 with ⟨%s3, %hs3, Ha3⟩
  icases Hb3 with ⟨%f3, Ho3⟩
  iapply (wp_bind_of d L _ _ _ _ (inner d L (iM := Memref.whole cc1_scratch5) (oM := Memref.whole cc1_scratch13) (Memref.isWhole_whole _) (Memref.isWhole_whole _) t _ _ _ _ (Tb m d) s3 f3 (fun y => by show (s3 y).toNat < _; rw [hs3 y]; exact hpre d _))) $$ [Htv Ha3 Ho3] <;> try exact 0#32
  · iframe # ∗
  iintro %r3 ⟨Htv, Ha3, ⟨%o3, %ho3, Ho3⟩⟩

  ihave Htk := (todo_take (F := F) d L (8 * t.val + 3) (8 * t.val + 4) (by omega) (by omega)) $$ Htd
  icases Htk with ⟨Hck, Htd⟩
  iapply (issue_out (F := F) m d L (oM := Memref.whole cc1_scratch13) (wPts d L cc1_scratch13) (whole_fwd d L cc1_scratch13) (whole_back d L cc1_scratch13) cc1_scratch29.sem (8 * t.val + 3) (by omega) (k1_off3 L t 3#32) (k1_off3_inb L t 3)
      (out_win_set _ _ _ (wid L) _ (off3_chunk L t 3)) (fun y => out_win_emb _ _ _ (wid L) _ (off3_chunk L t 3) (by omega) y)) $$ [Ho3 Hck Hw3]
  · isplitl [Ho3]
    · iexists o3; isplitr; · ipureintro; exact gathered_out m d L _ s3 o3 hs3 ho3
      iexact Ho3
    isplitl [Hck]; · iexact Hck
    iexact Hw3
  iintro HO3
  ihave HO3 := (outFl_slotOut m d L _ _ (8 * t.val + 3) (8 * (t.val + 1) + 3 - 8) t.val (by omega)) $$ HO3

  iapply (wp_issueIn_if m d L _ cc1_scratch21.sem 5 (8 * (t.val + 1) + 3) t.val _ (cond8_iff t) _ _
      (fun h => issue_in (F := F) m d L (iM := Memref.whole cc1_scratch5) (wPts d L cc1_scratch5) (fun _ => rfl) (wPts_ex d L cc1_scratch5) cc1_scratch21.sem 5 (8 * (t.val + 1) + 3) (k1_off19 L t) (k1_off19_inb L t h)
        (chr_win_set _ _ _ (wid L) _ ((k1_off19_eq L t).trans (offN_chunk L t 22528 3 rfl)))
        (fun y => chr_win_emb _ _ _ (wid L) _ ((k1_off19_eq L t).trans (offN_chunk L t 22528 3 rfl)) (by have := (cond8_iff t).mp h; omega) y))) $$ [Hc3 Ha3 Hv3]
  · isplitl [Hc3]; · iexact Hc3
    isplitl [Ha3]; · iexists s3; iexact Ha3
    iexact Hv3
  iintro HI3

  iapply (wp_waitIn m d L O W _ _ 6 (8 * t.val + 4) t.val ht _ _ _ _ (credit_i32 _)) $$ [HI4 HOW]
  · iframe # ∗
  iintro ⟨Hs4, Hv4, Hc4, HOW⟩

  iapply (wp_waitOut m d L O W _ _ (8 * t.val + 4 - 8) t.val 4 5 rfl (fun h => by omega) _ (cond9_iff t) _ _ _ _ (fun _ => credit_f32 _)) $$ [HO4 Hdn HOW]
  · iframe # ∗
  iintro ⟨Hb4, Hw4, Hdn, HOW⟩

  icases Hs4 with ⟨%s4, %hs4, Ha4⟩
  icases Hb4 with ⟨%f4, Ho4⟩
  iapply (wp_bind_of d L _ _ _ _ (inner d L (iM := Memref.whole cc1_scratch6) (oM := Memref.whole cc1_scratch14) (Memref.isWhole_whole _) (Memref.isWhole_whole _) t _ _ _ _ (Tb m d) s4 f4 (fun y => by show (s4 y).toNat < _; rw [hs4 y]; exact hpre d _))) $$ [Htv Ha4 Ho4] <;> try exact 0#32
  · iframe # ∗
  iintro %r4 ⟨Htv, Ha4, ⟨%o4, %ho4, Ho4⟩⟩
  iapply (le_wp_ret frame (wpE (defs₀ (F := F)) 𝒱₀ (thr d L) none) Set.univ _ _)
  dsimp only

  rw [wp_bind]
  rw [k1_part12_eq_skeleton]; unfold k1_part12_skel
  simp only [Prog.lift, Prog.bind_op, Prog.bind_ret, Prog.pure_eq_ret, Prog.bind_assoc]

  ihave Htk := (todo_take (F := F) d L (8 * t.val + 4) (8 * t.val + 5) (by omega) (by omega)) $$ Htd
  icases Htk with ⟨Hck, Htd⟩
  iapply (issue_out (F := F) m d L (oM := Memref.whole cc1_scratch14) (wPts d L cc1_scratch14) (whole_fwd d L cc1_scratch14) (whole_back d L cc1_scratch14) cc1_scratch30.sem (8 * t.val + 4) (by omega) (k1_off3 L t 4#32) (k1_off3_inb L t 4)
      (out_win_set _ _ _ (wid L) _ (off3_chunk L t 4)) (fun y => out_win_emb _ _ _ (wid L) _ (off3_chunk L t 4) (by omega) y)) $$ [Ho4 Hck Hw4]
  · isplitl [Ho4]
    · iexists o4; isplitr; · ipureintro; exact gathered_out m d L _ s4 o4 hs4 ho4
      iexact Ho4
    isplitl [Hck]; · iexact Hck
    iexact Hw4
  iintro HO4
  ihave HO4 := (outFl_slotOut m d L _ _ (8 * t.val + 4) (8 * (t.val + 1) + 4 - 8) t.val (by omega)) $$ HO4

  iapply (wp_issueIn_if m d L _ cc1_scratch22.sem 6 (8 * (t.val + 1) + 4) t.val _ (cond10_iff t) _ _
      (fun h => issue_in (F := F) m d L (iM := Memref.whole cc1_scratch6) (wPts d L cc1_scratch6) (fun _ => rfl) (wPts_ex d L cc1_scratch6) cc1_scratch22.sem 6 (8 * (t.val + 1) + 4) (k1_off23 L t) (k1_off23_inb L t h)
        (chr_win_set _ _ _ (wid L) _ ((k1_off23_eq L t).trans (offN_chunk L t 24576 4 rfl)))
        (fun y => chr_win_emb _ _ _ (wid L) _ ((k1_off23_eq L t).trans (offN_chunk L t 24576 4 rfl)) (by have := (cond10_iff t).mp h; omega) y))) $$ [Hc4 Ha4 Hv4]
  · isplitl [Hc4]; · iexact Hc4
    isplitl [Ha4]; · iexists s4; iexact Ha4
    iexact Hv4
  iintro HI4

  iapply (wp_waitIn m d L O W _ _ 7 (8 * t.val + 5) t.val ht _ _ _ _ (credit_i32 _)) $$ [HI5 HOW]
  · iframe # ∗
  iintro ⟨Hs5, Hv5, Hc5, HOW⟩

  iapply (wp_waitOut m d L O W _ _ (8 * t.val + 5 - 8) t.val 5 6 rfl (fun h => by omega) _ (cond11_iff t) _ _ _ _ (fun _ => credit_f32 _)) $$ [HO5 Hdn HOW]
  · iframe # ∗
  iintro ⟨Hb5, Hw5, Hdn, HOW⟩

  icases Hs5 with ⟨%s5, %hs5, Ha5⟩
  icases Hb5 with ⟨%f5, Ho5⟩
  iapply (wp_bind_of d L _ _ _ _ (inner d L (iM := Memref.whole cc1_scratch7) (oM := Memref.whole cc1_scratch15) (Memref.isWhole_whole _) (Memref.isWhole_whole _) t _ _ _ _ (Tb m d) s5 f5 (fun y => by show (s5 y).toNat < _; rw [hs5 y]; exact hpre d _))) $$ [Htv Ha5 Ho5] <;> try exact 0#32
  · iframe # ∗
  iintro %r5 ⟨Htv, Ha5, ⟨%o5, %ho5, Ho5⟩⟩

  ihave Htk := (todo_take (F := F) d L (8 * t.val + 5) (8 * t.val + 6) (by omega) (by omega)) $$ Htd
  icases Htk with ⟨Hck, Htd⟩
  iapply (issue_out (F := F) m d L (oM := Memref.whole cc1_scratch15) (wPts d L cc1_scratch15) (whole_fwd d L cc1_scratch15) (whole_back d L cc1_scratch15) cc1_scratch31.sem (8 * t.val + 5) (by omega) (k1_off3 L t 5#32) (k1_off3_inb L t 5)
      (out_win_set _ _ _ (wid L) _ (off3_chunk L t 5)) (fun y => out_win_emb _ _ _ (wid L) _ (off3_chunk L t 5) (by omega) y)) $$ [Ho5 Hck Hw5]
  · isplitl [Ho5]
    · iexists o5; isplitr; · ipureintro; exact gathered_out m d L _ s5 o5 hs5 ho5
      iexact Ho5
    isplitl [Hck]; · iexact Hck
    iexact Hw5
  iintro HO5
  ihave HO5 := (outFl_slotOut m d L _ _ (8 * t.val + 5) (8 * (t.val + 1) + 5 - 8) t.val (by omega)) $$ HO5

  iapply (wp_issueIn_if m d L _ cc1_scratch23.sem 7 (8 * (t.val + 1) + 5) t.val _ (cond12_iff t) _ _
      (fun h => issue_in (F := F) m d L (iM := Memref.whole cc1_scratch7) (wPts d L cc1_scratch7) (fun _ => rfl) (wPts_ex d L cc1_scratch7) cc1_scratch23.sem 7 (8 * (t.val + 1) + 5) (k1_off27 L t) (k1_off27_inb L t h)
        (chr_win_set _ _ _ (wid L) _ ((k1_off27_eq L t).trans (offN_chunk L t 26624 5 rfl)))
        (fun y => chr_win_emb _ _ _ (wid L) _ ((k1_off27_eq L t).trans (offN_chunk L t 26624 5 rfl)) (by have := (cond12_iff t).mp h; omega) y))) $$ [Hc5 Ha5 Hv5]
  · isplitl [Hc5]; · iexact Hc5
    isplitl [Ha5]; · iexists s5; iexact Ha5
    iexact Hv5
  iintro HI5

  iapply (wp_waitIn m d L O W _ _ 8 (8 * t.val + 6) t.val ht _ _ _ _ (credit_i32 _)) $$ [HI6 HOW]
  · iframe # ∗
  iintro ⟨Hs6, Hv6, Hc6, HOW⟩
  iapply (le_wp_ret frame (wpE (defs₀ (F := F)) 𝒱₀ (thr d L) none) Set.univ _ _)
  dsimp only

  rw [wp_bind]
  rw [k1_part13_eq_skeleton]; unfold k1_part13_skel
  simp only [Prog.lift, Prog.bind_op, Prog.bind_ret, Prog.pure_eq_ret, Prog.bind_assoc]

  iapply (wp_waitOut m d L O W _ _ (8 * t.val + 6 - 8) t.val 6 7 rfl (fun h => by omega) _ (cond13_iff t) _ _ _ _ (fun _ => credit_f32 _)) $$ [HO6 Hdn HOW]
  · iframe # ∗
  iintro ⟨Hb6, Hw6, Hdn, HOW⟩

  icases Hs6 with ⟨%s6, %hs6, Ha6⟩
  icases Hb6 with ⟨%f6, Ho6⟩
  iapply (wp_bind_of d L _ _ _ _ (inner d L (iM := Memref.whole cc1_scratch8) (oM := Memref.whole cc1_scratch16) (Memref.isWhole_whole _) (Memref.isWhole_whole _) t _ _ _ _ (Tb m d) s6 f6 (fun y => by show (s6 y).toNat < _; rw [hs6 y]; exact hpre d _))) $$ [Htv Ha6 Ho6] <;> try exact 0#32
  · iframe # ∗
  iintro %r6 ⟨Htv, Ha6, ⟨%o6, %ho6, Ho6⟩⟩

  ihave Htk := (todo_take (F := F) d L (8 * t.val + 6) (8 * t.val + 7) (by omega) (by omega)) $$ Htd
  icases Htk with ⟨Hck, Htd⟩
  iapply (issue_out (F := F) m d L (oM := Memref.whole cc1_scratch16) (wPts d L cc1_scratch16) (whole_fwd d L cc1_scratch16) (whole_back d L cc1_scratch16) cc1_scratch32.sem (8 * t.val + 6) (by omega) (k1_off3 L t 6#32) (k1_off3_inb L t 6)
      (out_win_set _ _ _ (wid L) _ (off3_chunk L t 6)) (fun y => out_win_emb _ _ _ (wid L) _ (off3_chunk L t 6) (by omega) y)) $$ [Ho6 Hck Hw6]
  · isplitl [Ho6]
    · iexists o6; isplitr; · ipureintro; exact gathered_out m d L _ s6 o6 hs6 ho6
      iexact Ho6
    isplitl [Hck]; · iexact Hck
    iexact Hw6
  iintro HO6
  ihave HO6 := (outFl_slotOut m d L _ _ (8 * t.val + 6) (8 * (t.val + 1) + 6 - 8) t.val (by omega)) $$ HO6

  iapply (wp_issueIn_if m d L _ cc1_scratch24.sem 8 (8 * (t.val + 1) + 6) t.val _ (cond14_iff t) _ _
      (fun h => issue_in (F := F) m d L (iM := Memref.whole cc1_scratch8) (wPts d L cc1_scratch8) (fun _ => rfl) (wPts_ex d L cc1_scratch8) cc1_scratch24.sem 8 (8 * (t.val + 1) + 6) (k1_off31 L t) (k1_off31_inb L t h)
        (chr_win_set _ _ _ (wid L) _ ((k1_off31_eq L t).trans (offN_chunk L t 28672 6 rfl)))
        (fun y => chr_win_emb _ _ _ (wid L) _ ((k1_off31_eq L t).trans (offN_chunk L t 28672 6 rfl)) (by have := (cond14_iff t).mp h; omega) y))) $$ [Hc6 Ha6 Hv6]
  · isplitl [Hc6]; · iexact Hc6
    isplitl [Ha6]; · iexists s6; iexact Ha6
    iexact Hv6
  iintro HI6

  iapply (wp_waitIn m d L O W _ _ 9 (8 * t.val + 7) t.val ht _ _ _ _ (credit_i32 _)) $$ [HI7 HOW]
  · iframe # ∗
  iintro ⟨Hs7, Hv7, Hc7, HOW⟩

  iapply (wp_waitOut m d L O W _ _ (8 * t.val + 7 - 8) t.val 7 8 rfl (fun h => by omega) _ (cond15_iff t) _ _ _ _ (fun _ => credit_f32 _)) $$ [HO7 Hdn HOW]
  · iframe # ∗
  iintro ⟨Hb7, Hw7, Hdn, HOW⟩

  icases Hs7 with ⟨%s7, %hs7, Ha7⟩
  icases Hb7 with ⟨%f7, Ho7⟩
  iapply (wp_bind_of d L _ _ _ _ (inner d L (iM := Memref.whole cc1_scratch9) (oM := Memref.whole cc1_scratch17) (Memref.isWhole_whole _) (Memref.isWhole_whole _) t _ _ _ _ (Tb m d) s7 f7 (fun y => by show (s7 y).toNat < _; rw [hs7 y]; exact hpre d _))) $$ [Htv Ha7 Ho7] <;> try exact 0#32
  · iframe # ∗
  iintro %r7 ⟨Htv, Ha7, ⟨%o7, %ho7, Ho7⟩⟩

  ihave Htk := (todo_take (F := F) d L (8 * t.val + 7) (8 * t.val + 8) (by omega) (by omega)) $$ Htd
  icases Htk with ⟨Hck, Htd⟩
  iapply (issue_out (F := F) m d L (oM := Memref.whole cc1_scratch17) (wPts d L cc1_scratch17) (whole_fwd d L cc1_scratch17) (whole_back d L cc1_scratch17) cc1_scratch33.sem (8 * t.val + 7) (by omega) (k1_off3 L t 7#32) (k1_off3_inb L t 7)
      (out_win_set _ _ _ (wid L) _ (off3_chunk L t 7)) (fun y => out_win_emb _ _ _ (wid L) _ (off3_chunk L t 7) (by omega) y)) $$ [Ho7 Hck Hw7]
  · isplitl [Ho7]
    · iexists o7; isplitr; · ipureintro; exact gathered_out m d L _ s7 o7 hs7 ho7
      iexact Ho7
    isplitl [Hck]; · iexact Hck
    iexact Hw7
  iintro HO7
  ihave HO7 := (outFl_slotOut m d L _ _ (8 * t.val + 7) (8 * (t.val + 1) + 7 - 8) t.val (by omega)) $$ HO7
  iapply (le_wp_ret frame (wpE (defs₀ (F := F)) 𝒱₀ (thr d L) none) Set.univ _ _)
  dsimp only

  iapply (wp_issueIn_if m d L _ cc1_scratch25.sem 9 (8 * (t.val + 1) + 7) t.val _ (cond16_iff t) _ _
      (fun h => issue_in (F := F) m d L (iM := Memref.whole cc1_scratch9) (wPts d L cc1_scratch9) (fun _ => rfl) (wPts_ex d L cc1_scratch9) cc1_scratch25.sem 9 (8 * (t.val + 1) + 7) (k1_off35 L t) (k1_off35_inb L t h)
        (chr_win_set _ _ _ (wid L) _ ((k1_off35_eq L t).trans (offN_chunk L t 30720 7 rfl)))
        (fun y => chr_win_emb _ _ _ (wid L) _ ((k1_off35_eq L t).trans (offN_chunk L t 30720 7 rfl)) (by have := (cond16_iff t).mp h; omega) y))) $$ [Hc7 Ha7 Hv7]
  · isplitl [Hc7]; · iexact Hc7
    isplitl [Ha7]; · iexists s7; iexact Ha7
    iexact Hv7
  iintro HI7
  iapply (le_wp_ret frame (wpE (defs₀ (F := F)) 𝒱₀ (thr d L) none) Set.univ _ _)
  iframe # ∗

end Cert.KB

end
-- ==== Proof.KB.TileProof.lean ====
import proofs.«204304_g88828513616490_cont_9to1c4b_177_25_alg».proof.Proof.KB.TileStore
import proofs.«204304_g88828513616490_cont_9to1c4b_177_25_alg».proof.Proof.KB.Pack
import proofs.«204304_g88828513616490_cont_9to1c4b_177_25_alg».proof.Proof.KB.LoopEnds
import proofs.«204304_g88828513616490_cont_9to1c4b_177_25_alg».proof.Proof.KB.Trip

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (d : Dev nD) (L : grid1.Coords)

theorem inv0_eq (O : CellTallies nD τ sig (HIx 1)) (W : Waits sig (HIx 1)) :
    Inv m d L O W 0 () = iprop(Transfers.MayWaits (thr d L) (none : HIx 1) O
      ∗ (tvV.view.loc (thr d L) ↦{fullShare} Tb m d)
      ∗ (inFl m d L (wPts d L cc1_scratch2) cc1_scratch18.sem 2 0 ∗ chrV.view.loc (thr d L) ↦[Finset.univ \ chunkSet (wid L) 0]{chrShare L 2} m (chrLoc d))
      ∗ ((∃ o, (Memref.whole cc1_scratch10 : Memref sig .scVector .vmem S2048 .f32).view.loc (thr d L) ↦{fullShare} o) ∗ semVal (thr d L, SemLoc.dma cc1_scratch26.sem) 0)
      ∗ (inFl m d L (wPts d L cc1_scratch3) cc1_scratch19.sem 3 1 ∗ chrV.view.loc (thr d L) ↦[Finset.univ \ chunkSet (wid L) 1]{chrShare L 3} m (chrLoc d))
      ∗ ((∃ o, (Memref.whole cc1_scratch11 : Memref sig .scVector .vmem S2048 .f32).view.loc (thr d L) ↦{fullShare} o) ∗ semVal (thr d L, SemLoc.dma cc1_scratch27.sem) 0)
      ∗ (inFl m d L (wPts d L cc1_scratch4) cc1_scratch20.sem 4 2 ∗ chrV.view.loc (thr d L) ↦[Finset.univ \ chunkSet (wid L) 2]{chrShare L 4} m (chrLoc d))
      ∗ ((∃ o, (Memref.whole cc1_scratch12 : Memref sig .scVector .vmem S2048 .f32).view.loc (thr d L) ↦{fullShare} o) ∗ semVal (thr d L, SemLoc.dma cc1_scratch28.sem) 0)
      ∗ (inFl m d L (wPts d L cc1_scratch5) cc1_scratch21.sem 5 3 ∗ chrV.view.loc (thr d L) ↦[Finset.univ \ chunkSet (wid L) 3]{chrShare L 5} m (chrLoc d))
      ∗ ((∃ o, (Memref.whole cc1_scratch13 : Memref sig .scVector .vmem S2048 .f32).view.loc (thr d L) ↦{fullShare} o) ∗ semVal (thr d L, SemLoc.dma cc1_scratch29.sem) 0)
      ∗ (inFl m d L (wPts d L cc1_scratch6) cc1_scratch22.sem 6 4 ∗ chrV.view.loc (thr d L) ↦[Finset.univ \ chunkSet (wid L) 4]{chrShare L 6} m (chrLoc d))
      ∗ ((∃ o, (Memref.whole cc1_scratch14 : Memref sig .scVector .vmem S2048 .f32).view.loc (thr d L) ↦{fullShare} o) ∗ semVal (thr d L, SemLoc.dma cc1_scratch30.sem) 0)
      ∗ (inFl m d L (wPts d L cc1_scratch7) cc1_scratch23.sem 7 5 ∗ chrV.view.loc (thr d L) ↦[Finset.univ \ chunkSet (wid L) 5]{chrShare L 7} m (chrLoc d))
      ∗ ((∃ o, (Memref.whole cc1_scratch15 : Memref sig .scVector .vmem S2048 .f32).view.loc (thr d L) ↦{fullShare} o) ∗ semVal (thr d L, SemLoc.dma cc1_scratch31.sem) 0)
      ∗ (inFl m d L (wPts d L cc1_scratch8) cc1_scratch24.sem 8 6 ∗ chrV.view.loc (thr d L) ↦[Finset.univ \ chunkSet (wid L) 6]{chrShare L 8} m (chrLoc d))
      ∗ ((∃ o, (Memref.whole cc1_scratch16 : Memref sig .scVector .vmem S2048 .f32).view.loc (thr d L) ↦{fullShare} o) ∗ semVal (thr d L, SemLoc.dma cc1_scratch32.sem) 0)
      ∗ (inFl m d L (wPts d L cc1_scratch9) cc1_scratch25.sem 9 7 ∗ chrV.view.loc (thr d L) ↦[Finset.univ \ chunkSet (wid L) 7]{chrShare L 9} m (chrLoc d))
      ∗ ((∃ o, (Memref.whole cc1_scratch17 : Memref sig .scVector .vmem S2048 .f32).view.loc (thr d L) ↦{fullShare} o) ∗ semVal (thr d L, SemLoc.dma cc1_scratch33.sem) 0)
      ∗ emp
      ∗ (bigSep (Finset.Ico 0 128) fun k => iprop(∃ f, outV.view.loc (thr d L) ↦[chunkSet (wid L) k]{fullShare} f))
      ∗ ∃ W', ⌜∀ p ∈ W', p ∈ W ∨ p.2 = none⌝ ∗ owes (thr d L) O W') := by
  unfold Inv slotIn slotOut
  simp only [if_pos (show (0 : ℕ) < 16 by decide), if_neg (show ¬ (0 : ℕ) < 0 by decide), Nat.mul_zero, Nat.zero_add, Nat.zero_sub, Finset.range_zero, BI.bigSep_empty]
  rfl

theorem inv16_eq (O : CellTallies nD τ sig (HIx 1)) (W : Waits sig (HIx 1)) :
    Inv m d L O W 16 () = iprop(Transfers.MayWaits (thr d L) (none : HIx 1) O
      ∗ (tvV.view.loc (thr d L) ↦{fullShare} Tb m d)
      ∗ ((∃ s, (Memref.whole cc1_scratch2 : Memref sig .scVector .vmem S2048 .i32).view.loc (thr d L) ↦{fullShare} s) ∗ semVal (thr d L, SemLoc.dma cc1_scratch18.sem) 0 ∗ chrV.view.loc (thr d L) ↦{chrShare L 2} m (chrLoc d))
      ∗ outFl m d L (wPts d L cc1_scratch10) cc1_scratch26.sem 120
      ∗ ((∃ s, (Memref.whole cc1_scratch3 : Memref sig .scVector .vmem S2048 .i32).view.loc (thr d L) ↦{fullShare} s) ∗ semVal (thr d L, SemLoc.dma cc1_scratch19.sem) 0 ∗ chrV.view.loc (thr d L) ↦{chrShare L 3} m (chrLoc d))
      ∗ outFl m d L (wPts d L cc1_scratch11) cc1_scratch27.sem 121
      ∗ ((∃ s, (Memref.whole cc1_scratch4 : Memref sig .scVector .vmem S2048 .i32).view.loc (thr d L) ↦{fullShare} s) ∗ semVal (thr d L, SemLoc.dma cc1_scratch20.sem) 0 ∗ chrV.view.loc (thr d L) ↦{chrShare L 4} m (chrLoc d))
      ∗ outFl m d L (wPts d L cc1_scratch12) cc1_scratch28.sem 122
      ∗ ((∃ s, (Memref.whole cc1_scratch5 : Memref sig .scVector .vmem S2048 .i32).view.loc (thr d L) ↦{fullShare} s) ∗ semVal (thr d L, SemLoc.dma cc1_scratch21.sem) 0 ∗ chrV.view.loc (thr d L) ↦{chrShare L 5} m (chrLoc d))
      ∗ outFl m d L (wPts d L cc1_scratch13) cc1_scratch29.sem 123
      ∗ ((∃ s, (Memref.whole cc1_scratch6 : Memref sig .scVector .vmem S2048 .i32).view.loc (thr d L) ↦{fullShare} s) ∗ semVal (thr d L, SemLoc.dma cc1_scratch22.sem) 0 ∗ chrV.view.loc (thr d L) ↦{chrShare L 6} m (chrLoc d))
      ∗ outFl m d L (wPts d L cc1_scratch14) cc1_scratch30.sem 124
      ∗ ((∃ s, (Memref.whole cc1_scratch7 : Memref sig .scVector .vmem S2048 .i32).view.loc (thr d L) ↦{fullShare} s) ∗ semVal (thr d L, SemLoc.dma cc1_scratch23.sem) 0 ∗ chrV.view.loc (thr d L) ↦{chrShare L 7} m (chrLoc d))
      ∗ outFl m d L (wPts d L cc1_scratch15) cc1_scratch31.sem 125
      ∗ ((∃ s, (Memref.whole cc1_scratch8 : Memref sig .scVector .vmem S2048 .i32).view.loc (thr d L) ↦{fullShare} s) ∗ semVal (thr d L, SemLoc.dma cc1_scratch24.sem) 0 ∗ chrV.view.loc (thr d L) ↦{chrShare L 8} m (chrLoc d))
      ∗ outFl m d L (wPts d L cc1_scratch16) cc1_scratch32.sem 126
      ∗ ((∃ s, (Memref.whole cc1_scratch9 : Memref sig .scVector .vmem S2048 .i32).view.loc (thr d L) ↦{fullShare} s) ∗ semVal (thr d L, SemLoc.dma cc1_scratch25.sem) 0 ∗ chrV.view.loc (thr d L) ↦{chrShare L 9} m (chrLoc d))
      ∗ outFl m d L (wPts d L cc1_scratch17) cc1_scratch33.sem 127
      ∗ (bigSep (Finset.range 120) fun k => outV.view.loc (thr d L) ↦[chunkSet (wid L) k]{fullShare} Out m d)
      ∗ emp
      ∗ ∃ W', ⌜∀ p ∈ W', p ∈ W ∨ p.2 = none⌝ ∗ owes (thr d L) O W') := by
  unfold Inv slotIn slotOut
  simp only [if_neg (show ¬ (16 : ℕ) < 16 by decide), if_pos (show (0 : ℕ) < 16 by decide), Nat.reduceMul, Nat.reduceAdd, Nat.reduceSub, Finset.Ico_self, BI.bigSep_empty]
  rfl

def chrRestToks : sProp 𝕄 :=
  bigSep (Finset.range 20 \ [2, 3, 4, 5, 6, 7, 8, 9].toFinset) fun k => chrV.view.loc (thr d L) ↦{Transfers.shareTokN (rdShare (wid L)) k} m (chrLoc d)

theorem chr_pull :
    (bigSep (Finset.range 20) fun k => chrV.view.loc (thr d L) ↦{Transfers.shareTokN (rdShare (wid L)) k} m (chrLoc d) : sProp 𝕄)
      = iprop((chrV.view.loc (thr d L) ↦{chrShare L 2} m (chrLoc d)) ∗ (chrV.view.loc (thr d L) ↦{chrShare L 3} m (chrLoc d)) ∗ (chrV.view.loc (thr d L) ↦{chrShare L 4} m (chrLoc d)) ∗ (chrV.view.loc (thr d L) ↦{chrShare L 5} m (chrLoc d)) ∗ (chrV.view.loc (thr d L) ↦{chrShare L 6} m (chrLoc d)) ∗ (chrV.view.loc (thr d L) ↦{chrShare L 7} m (chrLoc d)) ∗ (chrV.view.loc (thr d L) ↦{chrShare L 8} m (chrLoc d)) ∗ (chrV.view.loc (thr d L) ↦{chrShare L 9} m (chrLoc d)) ∗ chrRestToks m d L) := by
  unfold chrRestToks
  rw [bigSep_pull (fun k => (chrV.view.loc (thr d L) ↦{Transfers.shareTokN (rdShare (wid L)) k} m (chrLoc d) : sProp 𝕄)) [2, 3, 4, 5, 6, 7, 8, 9] (Finset.range 20) (by decide) (by decide)]
  simp only [List.foldr_cons, List.foldr_nil]

def tblRestToks : sProp 𝕄 :=
  bigSep (Finset.range 20 \ [18].toFinset) fun k => tblV.view.loc (thr d L) ↦{Transfers.shareTokN (rdShare (wid L)) k} Tb m d

theorem tbl_pull :
    (bigSep (Finset.range 20) fun k => tblV.view.loc (thr d L) ↦{Transfers.shareTokN (rdShare (wid L)) k} Tb m d : sProp 𝕄)
      = iprop((tblV.view.loc (thr d L) ↦{Transfers.shareTokN (rdShare (wid L)) 18} Tb m d) ∗ tblRestToks m d L) := by
  unfold tblRestToks
  rw [bigSep_pull (fun k => (tblV.view.loc (thr d L) ↦{Transfers.shareTokN (rdShare (wid L)) k} Tb m d : sProp 𝕄)) [18] (Finset.range 20) (by decide) (by decide)]
  simp only [List.foldr_cons, List.foldr_nil]

omit [FloatOps F] in
theorem out_last8 (Φ : ℕ → sProp 𝕄) :
    bigSep (Finset.range 128) Φ = iprop(Φ 120 ∗ Φ 121 ∗ Φ 122 ∗ Φ 123 ∗ Φ 124 ∗ Φ 125 ∗ Φ 126 ∗ Φ 127 ∗ bigSep (Finset.range 120) Φ) := by
  rw [bigSep_pull Φ [120, 121, 122, 123, 124, 125, 126, 127] (Finset.range 128) (by decide) (by decide),
    show Finset.range 128 \ [120, 121, 122, 123, 124, 125, 126, 127].toFinset = Finset.range 120 from by
      ext x
      simp only [Finset.mem_sdiff, Finset.mem_range, List.mem_toFinset, List.mem_cons, List.mem_nil_iff, or_false]
      omega]
  simp only [List.foldr_cons, List.foldr_nil]

abbrev slcR (L : grid1.Coords) : Rect S65536 := Rect.unit (s := S65536) (k1_off2 L) S4096.size (k1_off2_inb L)
abbrev shSl (L : grid1.Coords) : Memref sig .scVector .shared S4096 .f32 := shV.slice (slcR L) (fun _ => rfl)
abbrev tblSl (L : grid1.Coords) : Memref sig .scVector .hbm S4096 .f32 := tblV.slice (slcR L) (fun _ => rfl)

omit [FloatOps F] in
theorem pts_shSlice (q : PosShare TreeShare) (f : Buf (Elt F) (shLoc d (cV L))) :
    ((shSl L).view.loc (thr d L) ↦[(shSl L).view.set]{q} f : sProp 𝕄) = shLoc d (cV L) ↦[slcSet (iN L)]{q} f := by
  rw [set_shSlice]; rfl

def v2W (L : grid1.Coords) : BitVec 32 :=
  Scalar.muli (Scalar.addi (Scalar.muli (BitVec.ofNat 32 (L 1).val) 2#32) (BitVec.ofNat 32 (L 0).val)) 262144#32

def WL (W : Waits sig (HIx 1)) : Waits sig (HIx 1) :=
  insert (SemLoc.dma cc1_scoped1.sem, (none : HIx 1)) (insert (SemLoc.reg sc_bar0, some (0 : Fin 1)) (insert (SemLoc.dma cc1_scoped0.sem, (none : HIx 1)) W))

theorem sh_landed (f : Buf (Elt F) (shLoc d (cV L))) :
    ((shSl L).view.loc (thr d L) ↦[(shSl L).view.set]{fullShare}
        (shSl L).view.writes (Elt F) f [⟨Rect.whole S4096, ReadAs.same.apply (View.read (Elt F) (tblSl L).view (Tb m d))⟩] : sProp 𝕄)
      = shLoc d (cV L) ↦[slcSet (iN L)]{fullShare} Tsh m d (cV L) := by
  rw [pts_shSlice]
  refine pointsTo_congr fun i hi => ?_
  rw [← set_shSlice L] at hi
  obtain ⟨x, -, rfl⟩ := Finset.mem_map.mp hi
  have h1 := View.read_writes_cons_emb (shSl L).view f (Rect.whole S4096) (ReadAs.same.apply (View.read (Elt F) (tblSl L).view (Tb m d))) [] x
  rw [Rect.emb_whole_apply, View.read_apply, cast_eq] at h1
  refine h1.trans ?_
  show View.read (Elt F) (tblSl L).view (Tb m d) x = _
  rw [View.read_apply, cast_eq]
  rfl

theorem tv_landed (f : Buf (Elt F) (tvV.view.loc (thr d L))) :
    (tvV.view.loc (thr d L) ↦{fullShare}
        View.write (Elt F) tvV.view f (ReadAs.same.apply (View.read (Elt F) shV.view (Tsh m d (cV L)))) Finset.univ : sProp 𝕄)
      = tvV.view.loc (thr d L) ↦{fullShare} Tb m d := by
  refine pointsTo_congr fun i _ => ?_
  exact congrFun (View.write_whole_univ cc1_scratch0 f (ReadAs.same.apply (View.read (Elt F) shV.view (Tsh m d (cV L))))) i

omit [FloatOps F] in
theorem pts_shV (q : PosShare TreeShare) (f : Buf (Elt F) (shLoc d (cV L))) :
    (shV.view.loc (thr d L) ↦{q} f : sProp 𝕄) = shLoc d (cV L) ↦{q} f := rfl

theorem inFl_intro (r : Fin 16) (tk : ℕ) (si : DmaSem sig) (ipts : (S2048.Idx → BitVec 32) → sProp 𝕄)
    (s : S2048.Idx → BitVec 32) (hs : IdxHolds m d (wid L) (rk r) s) :
    Transfers.Flight countersEmb (thr d L) (SemLoc.dma si) (default : HIx 1) 65536
        iprop(ipts s ∗ chrV.view.loc (thr d L) ↦[(chrV.slice (Rect.unit (s := S8388608) (k1_off1 L (k1_off1_at r)) S2048.size (k1_off1_inb L r)) (fun _ => rfl)).view.set]{chrShare L tk} m (chrLoc d))
      ⊢ inFl m d L ipts si tk (rk r) := by
  unfold inFl
  exact Transfers.Flight_mono countersEmb (thr d L) (fetch_delivers (F := F) m d L r _ ipts s hs)

omit [FloatOps F] in
theorem chr_rest_eq (r : Fin 16) (q : PosShare TreeShare) :
    (chrV.view.loc (thr d L) ↦[Finset.univ \ (chrV.slice (Rect.unit (s := S8388608) (k1_off1 L (k1_off1_at r)) S2048.size (k1_off1_inb L r)) (fun _ => rfl)).view.set]{q} m (chrLoc d) : sProp 𝕄)
      = chrV.view.loc (thr d L) ↦[Finset.univ \ chunkSet (wid L) (rk r)]{q} m (chrLoc d) := by
  rw [set_chrChunk]

theorem goRes_open :
    goRes m d (cN L) (iN L) ⊢ (iprop((tblLoc d ↦{rdShare (wid L)} Tb m d) ∗ (chrLoc d ↦{rdShare (wid L)} m (chrLoc d))
      ∗ (∃ f, outLoc d ↦[tileSet (wid L)]{fullShare} f) ∗ ∃ f, shLoc d (cV L) ↦[slcSet (iN L)]{fullShare} f) : sProp 𝕄) := by
  rw [goRes, ← wid_eq L, show Fin.castLE (by decide : 2 ≤ τ.nSC) (cN L) = cV L from Fin.ext rfl]

theorem outFl_open (opts : (S2048.Idx → Elt F .f32) → sProp 𝕄) (so : DmaSem sig) (k : ℕ) :
    outFl m d L opts so k = Transfers.Flight countersEmb (thr d L) (SemLoc.dma so) (default : HIx 1) 65536
      iprop((outV.view.loc (thr d L) ↦[chunkSet (wid L) k]{fullShare} Out m d) ∗ ∃ o, opts o) := rfl

theorem pack' (hF : (K (F := F)).Facts) (O : CellTallies nD τ sig (HIx 1)) (W : Waits sig (HIx 1)) :
    iprop((tblLoc d ↦{rdShare (wid L)} Tb m d) ∗ (chrLoc d ↦{rdShare (wid L)} m (chrLoc d))
        ∗ (bigSep (Finset.range 128) fun k => outV.view.loc (thr d L) ↦[chunkSet (wid L) k]{fullShare} Out m d)
        ∗ (shLoc d (cV L) ↦[slcSet (iN L)]{Transfers.shareDrop fullShare 16} Tsh m d (cV L))
        ∗ (shLoc d (cV L) ↦{Transfers.shareTok fullShare 16 (iN L)} Tsh m d (cV L))
        ∗ (scrEx d L tvV
          ∗ scrEx d L (Memref.whole cc1_scratch2 : Memref sig .scVector .vmem S2048 .i32)
          ∗ scrEx d L (Memref.whole cc1_scratch3 : Memref sig .scVector .vmem S2048 .i32)
          ∗ scrEx d L (Memref.whole cc1_scratch4 : Memref sig .scVector .vmem S2048 .i32)
          ∗ scrEx d L (Memref.whole cc1_scratch5 : Memref sig .scVector .vmem S2048 .i32)
          ∗ scrEx d L (Memref.whole cc1_scratch6 : Memref sig .scVector .vmem S2048 .i32)
          ∗ scrEx d L (Memref.whole cc1_scratch7 : Memref sig .scVector .vmem S2048 .i32)
          ∗ scrEx d L (Memref.whole cc1_scratch8 : Memref sig .scVector .vmem S2048 .i32)
          ∗ scrEx d L (Memref.whole cc1_scratch9 : Memref sig .scVector .vmem S2048 .i32)
          ∗ scrEx d L (Memref.whole cc1_scratch10 : Memref sig .scVector .vmem S2048 .f32)
          ∗ scrEx d L (Memref.whole cc1_scratch11 : Memref sig .scVector .vmem S2048 .f32)
          ∗ scrEx d L (Memref.whole cc1_scratch12 : Memref sig .scVector .vmem S2048 .f32)
          ∗ scrEx d L (Memref.whole cc1_scratch13 : Memref sig .scVector .vmem S2048 .f32)
          ∗ scrEx d L (Memref.whole cc1_scratch14 : Memref sig .scVector .vmem S2048 .f32)
          ∗ scrEx d L (Memref.whole cc1_scratch15 : Memref sig .scVector .vmem S2048 .f32)
          ∗ scrEx d L (Memref.whole cc1_scratch16 : Memref sig .scVector .vmem S2048 .f32)
          ∗ scrEx d L (Memref.whole cc1_scratch17 : Memref sig .scVector .vmem S2048 .f32)
          ∗ restBufs (F := F) d L)
        ∗ (semVal (thr d L, SemLoc.dma cc1_scratch18.sem) 0
          ∗ semVal (thr d L, SemLoc.dma cc1_scratch19.sem) 0
          ∗ semVal (thr d L, SemLoc.dma cc1_scratch20.sem) 0
          ∗ semVal (thr d L, SemLoc.dma cc1_scratch21.sem) 0
          ∗ semVal (thr d L, SemLoc.dma cc1_scratch22.sem) 0
          ∗ semVal (thr d L, SemLoc.dma cc1_scratch23.sem) 0
          ∗ semVal (thr d L, SemLoc.dma cc1_scratch24.sem) 0
          ∗ semVal (thr d L, SemLoc.dma cc1_scratch25.sem) 0
          ∗ semVal (thr d L, SemLoc.dma cc1_scratch26.sem) 0
          ∗ semVal (thr d L, SemLoc.dma cc1_scratch27.sem) 0
          ∗ semVal (thr d L, SemLoc.dma cc1_scratch28.sem) 0
          ∗ semVal (thr d L, SemLoc.dma cc1_scratch29.sem) 0
          ∗ semVal (thr d L, SemLoc.dma cc1_scratch30.sem) 0
          ∗ semVal (thr d L, SemLoc.dma cc1_scratch31.sem) 0
          ∗ semVal (thr d L, SemLoc.dma cc1_scratch32.sem) 0
          ∗ semVal (thr d L, SemLoc.dma cc1_scratch33.sem) 0
          ∗ semVal (thr d L, SemLoc.dma cc1_scoped0.sem) 0
          ∗ semVal (thr d L, SemLoc.dma cc1_scoped1.sem) 0
          ∗ restSems (F := F) d L)
        ∗ ∃ W', ⌜∀ p ∈ W', p ∈ WL W ∨ p.2 = none⌝ ∗ owes (thr d L) O W')
      ⊢ (iprop(tdRes m d (cN L) (iN L) ∗ scopedBufs (thr d L) ∗ scopedSems0 (thr d L)
        ∗ ∃ W', ⌜∀ p ∈ W', p ∈ W ∨ p.2 = none ∨ p.2 = some (0 : Fin 1)⌝ ∗ owes (thr d L) O W') : sProp 𝕄) := by
  iintro ⟨H1, H2, H3, H4, H5, H6, H7, %W', %hW', HO⟩
  iapply (pack (F := F) m d L hF O W (WL W) W' (rec_ok W) hW')
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

set_option maxHeartbeats 16000000 in
theorem tile_body' (hpre : PreOK m) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goRes m d (cN L) (iN L)
        ∗ scopedBufs (thr d L) ∗ scopedSems0 (thr d L) ∗ owes (thr d L) (O + oxV d (cV L)) W)
      ⊢ wp frame (wpE (defs₀ (F := F)) 𝒱₀ (thr d L) none) Set.univ
          (cc1__sc_gather L tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1)
          fun _ => iprop(tdRes m d (cN L) (iN L)
            ∗ scopedBufs (thr d L) ∗ scopedSems0 (thr d L)
            ∗ ∃ W', ⌜∀ p ∈ W', p ∈ W ∨ p.2 = none ∨ p.2 = some (0 : Fin 1)⌝ ∗ owes (thr d L) O W') := by
  rw [cc1__sc_gather_eq_skeleton]; unfold cc1__sc_gather_skel
  rw [k1_part14_eq_skeleton, k1_part15_eq_skeleton]; unfold k1_part14_skel k1_part15_skel
  iintro ⟨#Hlv, Hkit, Hgo, Hbufs0, Hsems0, HO⟩

  ihave Hgo' := (goRes_open (F := F) m d L) $$ Hgo
  icases Hgo' with ⟨Htbl, Hchr, Hout, ⟨%fsh, Hsh⟩⟩
  ihave Hbufs1 := (Entails.of_eq (((K (F := F)).scopedBufs_V hF d (cV L) (jV L)).trans (ownBufs_V (F := F) d L))) $$ Hbufs0
  icases Hbufs1 with ⟨⟨%ftv, Htv⟩, ⟨%f0, H0⟩, ⟨%f1, H1⟩, ⟨%f2, H2⟩, ⟨%f3, H3⟩, ⟨%f4, H4⟩, ⟨%f5, H5⟩, ⟨%f6, H6⟩, ⟨%f7, H7⟩, ⟨%g0, G0⟩, ⟨%g1, G1⟩, ⟨%g2, G2⟩, ⟨%g3, G3⟩, ⟨%g4, G4⟩, ⟨%g5, G5⟩, ⟨%g6, G6⟩, ⟨%g7, G7⟩, Hbufs⟩
  ihave Hsems1 := (Entails.of_eq ((SparseCore.Cfg.scopedSems0_V (Val := Elt F) d (cV L) (jV L)).trans (ownSems0_V (F := F) d L))) $$ Hsems0
  icases Hsems1 with ⟨S0, S1, S2, S3, S4, S5, S6, S7, S8, S9, S10, S11, S12, S13, S14, S15, Sc0, Sc1, Hsems⟩

  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv

  ihave Hchr' := (chr_toks (F := F) d L (wid L) _).1 $$ Hchr
  icases Hchr' with ⟨HchrD, HchrT⟩
  ihave HchrT' := (Entails.of_eq (chr_pull (F := F) m d L)) $$ HchrT
  icases HchrT' with ⟨Hc2, Hc3, Hc4, Hc5, Hc6, Hc7, Hc8, Hc9, HchrR⟩
  ihave Htbl' := (tbl_toks (F := F) d L (wid L) _).1 $$ Htbl
  icases Htbl' with ⟨HtblD, HtblT⟩
  ihave HtblT' := (Entails.of_eq (tbl_pull (F := F) m d L)) $$ HtblT
  icases HtblT' with ⟨Ht18, HtblR⟩

  ihave Hout' := (out_chunks_ex (F := F) d L (wid L)) $$ Hout
  ihave Hsh' := (Entails.of_eq (pts_shSlice (F := F) d L fullShare fsh).symm) $$ Hsh

  sl_exec

  sl_unfold_run_names
  ihave Hsl := (Entails.of_eq (sh_landed (F := F) m d L fsh)) $$ Hsh'
  rw [Prog.bind_assoc]
  iapply (barrier_step (F := F) m d L O _ hO hOlev) $$ [Hkit Hsl HO]
  · iframe # ∗
  iintro ⟨HO, Hrem, Hsh⟩
  ihave Hmw2 := (show levAts (K (F := F)).L (K (F := F)).lev ⊢ Transfers.MayWaits (thr d L) (default : HIx 1) O from
    (K (F := F)).mayWaits_none (thr := thr d L) hO) $$ Hlv
  ihave Hsh2 := (Entails.of_eq (pts_shV (F := F) d L _ _).symm) $$ Hsh

  sl_exec
  sl_unfold_run_names
  ihave Htv2 := (Entails.of_eq (tv_landed (F := F) m d L ftv)) $$ Htv

  have hs0 : IdxHolds m d (wid L) (rk 0) (View.write (Elt F) (View.whole cc1_scratch2) f0
      (ReadAs.same.apply (View.read (Elt F) (chrV.slice (Rect.unit (s := S8388608) (k1_off1 L (k1_off1_at 0)) S2048.size (k1_off1_inb L 0)) (fun _ => rfl)).view (m (chrLoc d)))) Finset.univ) :=
    fun y => by rw [View.write_whole_univ]; exact fetch_word (F := F) m d L 0 y
  ihave F0 := (inFl_intro (F := F) m d L 0 2 cc1_scratch18.sem (wPts d L cc1_scratch2) _ hs0) $$ [S0]
  · iexact S0
  ihave R0 := (Entails.of_eq (chr_rest_eq (F := F) m d L 0 (chrShare L 2))) $$ [Hc2]
  · iexact Hc2
  have hs1 : IdxHolds m d (wid L) (rk 1) (View.write (Elt F) (View.whole cc1_scratch3) f1
      (ReadAs.same.apply (View.read (Elt F) (chrV.slice (Rect.unit (s := S8388608) (k1_off1 L (k1_off1_at 1)) S2048.size (k1_off1_inb L 1)) (fun _ => rfl)).view (m (chrLoc d)))) Finset.univ) :=
    fun y => by rw [View.write_whole_univ]; exact fetch_word (F := F) m d L 1 y
  ihave F1 := (inFl_intro (F := F) m d L 1 3 cc1_scratch19.sem (wPts d L cc1_scratch3) _ hs1) $$ [S1]
  · iexact S1
  ihave R1 := (Entails.of_eq (chr_rest_eq (F := F) m d L 1 (chrShare L 3))) $$ [Hc3]
  · iexact Hc3
  have hs2 : IdxHolds m d (wid L) (rk 2) (View.write (Elt F) (View.whole cc1_scratch4) f2
      (ReadAs.same.apply (View.read (Elt F) (chrV.slice (Rect.unit (s := S8388608) (k1_off1 L (k1_off1_at 2)) S2048.size (k1_off1_inb L 2)) (fun _ => rfl)).view (m (chrLoc d)))) Finset.univ) :=
    fun y => by rw [View.write_whole_univ]; exact fetch_word (F := F) m d L 2 y
  ihave F2 := (inFl_intro (F := F) m d L 2 4 cc1_scratch20.sem (wPts d L cc1_scratch4) _ hs2) $$ [S2]
  · iexact S2
  ihave R2 := (Entails.of_eq (chr_rest_eq (F := F) m d L 2 (chrShare L 4))) $$ [Hc4]
  · iexact Hc4
  have hs3 : IdxHolds m d (wid L) (rk 3) (View.write (Elt F) (View.whole cc1_scratch5) f3
      (ReadAs.same.apply (View.read (Elt F) (chrV.slice (Rect.unit (s := S8388608) (k1_off1 L (k1_off1_at 3)) S2048.size (k1_off1_inb L 3)) (fun _ => rfl)).view (m (chrLoc d)))) Finset.univ) :=
    fun y => by rw [View.write_whole_univ]; exact fetch_word (F := F) m d L 3 y
  ihave F3 := (inFl_intro (F := F) m d L 3 5 cc1_scratch21.sem (wPts d L cc1_scratch5) _ hs3) $$ [S3]
  · iexact S3
  ihave R3 := (Entails.of_eq (chr_rest_eq (F := F) m d L 3 (chrShare L 5))) $$ [Hc5]
  · iexact Hc5
  have hs4 : IdxHolds m d (wid L) (rk 4) (View.write (Elt F) (View.whole cc1_scratch6) f4
      (ReadAs.same.apply (View.read (Elt F) (chrV.slice (Rect.unit (s := S8388608) (k1_off1 L (k1_off1_at 4)) S2048.size (k1_off1_inb L 4)) (fun _ => rfl)).view (m (chrLoc d)))) Finset.univ) :=
    fun y => by rw [View.write_whole_univ]; exact fetch_word (F := F) m d L 4 y
  ihave F4 := (inFl_intro (F := F) m d L 4 6 cc1_scratch22.sem (wPts d L cc1_scratch6) _ hs4) $$ [S4]
  · iexact S4
  ihave R4 := (Entails.of_eq (chr_rest_eq (F := F) m d L 4 (chrShare L 6))) $$ [Hc6]
  · iexact Hc6
  have hs5 : IdxHolds m d (wid L) (rk 5) (View.write (Elt F) (View.whole cc1_scratch7) f5
      (ReadAs.same.apply (View.read (Elt F) (chrV.slice (Rect.unit (s := S8388608) (k1_off1 L (k1_off1_at 5)) S2048.size (k1_off1_inb L 5)) (fun _ => rfl)).view (m (chrLoc d)))) Finset.univ) :=
    fun y => by rw [View.write_whole_univ]; exact fetch_word (F := F) m d L 5 y
  ihave F5 := (inFl_intro (F := F) m d L 5 7 cc1_scratch23.sem (wPts d L cc1_scratch7) _ hs5) $$ [S5]
  · iexact S5
  ihave R5 := (Entails.of_eq (chr_rest_eq (F := F) m d L 5 (chrShare L 7))) $$ [Hc7]
  · iexact Hc7
  have hs6 : IdxHolds m d (wid L) (rk 6) (View.write (Elt F) (View.whole cc1_scratch8) f6
      (ReadAs.same.apply (View.read (Elt F) (chrV.slice (Rect.unit (s := S8388608) (k1_off1 L (k1_off1_at 6)) S2048.size (k1_off1_inb L 6)) (fun _ => rfl)).view (m (chrLoc d)))) Finset.univ) :=
    fun y => by rw [View.write_whole_univ]; exact fetch_word (F := F) m d L 6 y
  ihave F6 := (inFl_intro (F := F) m d L 6 8 cc1_scratch24.sem (wPts d L cc1_scratch8) _ hs6) $$ [S6]
  · iexact S6
  ihave R6 := (Entails.of_eq (chr_rest_eq (F := F) m d L 6 (chrShare L 8))) $$ [Hc8]
  · iexact Hc8
  have hs7 : IdxHolds m d (wid L) (rk 7) (View.write (Elt F) (View.whole cc1_scratch9) f7
      (ReadAs.same.apply (View.read (Elt F) (chrV.slice (Rect.unit (s := S8388608) (k1_off1 L (k1_off1_at 7)) S2048.size (k1_off1_inb L 7)) (fun _ => rfl)).view (m (chrLoc d)))) Finset.univ) :=
    fun y => by rw [View.write_whole_univ]; exact fetch_word (F := F) m d L 7 y
  ihave F7 := (inFl_intro (F := F) m d L 7 9 cc1_scratch25.sem (wPts d L cc1_scratch9) _ hs7) $$ [S7]
  · iexact S7
  ihave R7 := (Entails.of_eq (chr_rest_eq (F := F) m d L 7 (chrShare L 9))) $$ [Hc9]
  · iexact Hc9

  rw [Prog.bind_assoc]
  sl_for (Inv m d L O (WL W)) $$ [Hmw2 Htv2 F0 R0 G0 S8 F1 R1 G1 S9 F2 R2 G2 S10 F3 R3 G3 S11 F4 R4 G4 S12 F5 R5 G5 S13 F6 R6 G6 S14 F7 R7 G7 S15 Hout' HO]
  case region => intro t u; cases u; exact trip (F := F) m d L hpre O (WL W) _ t
  · iapply (Entails.of_eq (inv0_eq (F := F) m d L O (WL W)).symm)
    isplitl [Hmw2]; · iexact Hmw2
    isplitl [Htv2]; · iexact Htv2
    isplitl [F0 R0]
    · isplitl [F0]; · iexact F0
      iexact R0
    isplitl [G0 S8]
    · isplitl [G0]; · iexists _; iexact G0
      iexact S8
    isplitl [F1 R1]
    · isplitl [F1]; · iexact F1
      iexact R1
    isplitl [G1 S9]
    · isplitl [G1]; · iexists _; iexact G1
      iexact S9
    isplitl [F2 R2]
    · isplitl [F2]; · iexact F2
      iexact R2
    isplitl [G2 S10]
    · isplitl [G2]; · iexists _; iexact G2
      iexact S10
    isplitl [F3 R3]
    · isplitl [F3]; · iexact F3
      iexact R3
    isplitl [G3 S11]
    · isplitl [G3]; · iexists _; iexact G3
      iexact S11
    isplitl [F4 R4]
    · isplitl [F4]; · iexact F4
      iexact R4
    isplitl [G4 S12]
    · isplitl [G4]; · iexists _; iexact G4
      iexact S12
    isplitl [F5 R5]
    · isplitl [F5]; · iexact F5
      iexact R5
    isplitl [G5 S13]
    · isplitl [G5]; · iexists _; iexact G5
      iexact S13
    isplitl [F6 R6]
    · isplitl [F6]; · iexact F6
      iexact R6
    isplitl [G6 S14]
    · isplitl [G6]; · iexists _; iexact G6
      iexact S14
    isplitl [F7 R7]
    · isplitl [F7]; · iexact F7
      iexact R7
    isplitl [G7 S15]
    · isplitl [G7]; · iexists _; iexact G7
      iexact S15
    isplitr; · iempintro
    isplitl [Hout']; · iexact Hout'
    iexists _; isplitr
    swap; · iexact HO
    ipureintro; exact fun p hp => .inl hp
  iintro %u HI
  ihave HI' := (Entails.of_eq (inv16_eq (F := F) m d L O (WL W))) $$ [HI]
  · iexact HI
  icases HI' with ⟨-, Htv, ⟨⟨%s0, H0⟩, S0, T0⟩, Fo0, ⟨⟨%s1, H1⟩, S1, T1⟩, Fo1, ⟨⟨%s2, H2⟩, S2, T2⟩, Fo2, ⟨⟨%s3, H3⟩, S3, T3⟩, Fo3, ⟨⟨%s4, H4⟩, S4, T4⟩, Fo4, ⟨⟨%s5, H5⟩, S5, T5⟩, Fo5, ⟨⟨%s6, H6⟩, S6, T6⟩, Fo6, ⟨⟨%s7, H7⟩, S7, T7⟩, Fo7, Hdone, -, %W', %hW', HO⟩

  sl_exec
  iapply (wait_out_last (F := F) m d L (wPts d L cc1_scratch10) cc1_scratch26.sem 120 (k1_off1 L 245760#32) (k1_off1_inb L 8) O _) $$ [Fo0 HO]
  · iframe # ∗
  iintro ⟨C0, ⟨%o0, G0⟩, S8, HO⟩
  sl_exec
  iapply (wait_out_last (F := F) m d L (wPts d L cc1_scratch11) cc1_scratch27.sem 121 (k1_off1 L 247808#32) (k1_off1_inb L 9) O _) $$ [Fo1 HO]
  · iframe # ∗
  iintro ⟨C1, ⟨%o1, G1⟩, S9, HO⟩
  sl_exec
  iapply (wait_out_last (F := F) m d L (wPts d L cc1_scratch12) cc1_scratch28.sem 122 (k1_off1 L 249856#32) (k1_off1_inb L 10) O _) $$ [Fo2 HO]
  · iframe # ∗
  iintro ⟨C2, ⟨%o2, G2⟩, S10, HO⟩
  sl_exec
  iapply (wait_out_last (F := F) m d L (wPts d L cc1_scratch13) cc1_scratch29.sem 123 (k1_off1 L 251904#32) (k1_off1_inb L 11) O _) $$ [Fo3 HO]
  · iframe # ∗
  iintro ⟨C3, ⟨%o3, G3⟩, S11, HO⟩
  sl_exec
  iapply (wait_out_last (F := F) m d L (wPts d L cc1_scratch14) cc1_scratch30.sem 124 (k1_off1 L 253952#32) (k1_off1_inb L 12) O _) $$ [Fo4 HO]
  · iframe # ∗
  iintro ⟨C4, ⟨%o4, G4⟩, S12, HO⟩
  sl_exec
  iapply (wait_out_last (F := F) m d L (wPts d L cc1_scratch15) cc1_scratch31.sem 125 (k1_off1 L 256000#32) (k1_off1_inb L 13) O _) $$ [Fo5 HO]
  · iframe # ∗
  iintro ⟨C5, ⟨%o5, G5⟩, S13, HO⟩
  sl_exec
  iapply (wait_out_last (F := F) m d L (wPts d L cc1_scratch16) cc1_scratch32.sem 126 (k1_off1 L 258048#32) (k1_off1_inb L 14) O _) $$ [Fo6 HO]
  · iframe # ∗
  iintro ⟨C6, ⟨%o6, G6⟩, S14, HO⟩
  sl_exec
  iapply (wait_out_last (F := F) m d L (wPts d L cc1_scratch17) cc1_scratch33.sem 127 (k1_off1 L 260096#32) (k1_off1_inb L 15) O _) $$ [Fo7 HO]
  · iframe # ∗
  iintro ⟨C7, ⟨%o7, G7⟩, S15, HO⟩
  sl_exec
  sl_step

  ihave HtblT := (Entails.of_eq (tbl_pull (F := F) m d L).symm) $$ [Ht18 HtblR]
  · iframe # ∗
  ihave Htbl := (tbl_toks (F := F) d L (wid L) (Tb m d)).2 $$ [HtblD HtblT]
  · iframe # ∗
  ihave HchrT := (Entails.of_eq (chr_pull (F := F) m d L).symm) $$ [T0 T1 T2 T3 T4 T5 T6 T7 HchrR]
  · iframe # ∗
  ihave Hchr := (chr_toks (F := F) d L (wid L) (m (chrLoc d))).2 $$ [HchrD HchrT]
  · iframe # ∗
  ihave Hall := (Entails.of_eq (out_last8 (F := F) (fun k => (outV.view.loc (thr d L) ↦[chunkSet (wid L) k]{fullShare} Out m d : sProp 𝕄))).symm) $$ [C0 C1 C2 C3 C4 C5 C6 C7 Hdone]
  · iframe # ∗
  ihave Hsh3 := (Entails.of_eq (pts_shV (F := F) d L _ _)) $$ Hsh2
  iapply (pack' (F := F) m d L hF O W)
  isplitl [Htbl]; · iexact Htbl
  isplitl [Hchr]; · iexact Hchr
  isplitl [Hall]; · iexact Hall
  isplitl [Hrem]; · iexact Hrem
  isplitl [Hsh3]; · iexact Hsh3
  isplitl [Htv H0 H1 H2 H3 H4 H5 H6 H7 G0 G1 G2 G3 G4 G5 G6 G7 Hbufs]
  · isplitl [Htv]; · iexists _; iexact Htv
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    isplitl [G7]; · iexists _; iexact G7
    iexact Hbufs
  isplitl [S0 S1 S2 S3 S4 S5 S6 S7 S8 S9 S10 S11 S12 S13 S14 S15 Sc0 Sc1 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [Sc0]; · iexact Sc0
    isplitl [Sc1]; · iexact Sc1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.KB

end
-- ==== Proof.KB.Launch.lean ====
import proofs.«204304_g88828513616490_cont_9to1c4b_177_25_alg».proof.Proof.KB.TileProof

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (m : (ℓ : Loc nD τ sig) → Buf (Elt F) ℓ) (ρ : Dev nD → PrngReg)

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub1) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goRes m d (Fin.cast nCore_zero c) (Fin.cast nSub_zero i) := rfl
theorem P_td (d : Dev nD) (c : Fin ((K (F := F)).nCore 0)) (i : Fin ((K (F := F)).nSub 0)) :
    (P m).td 0 d c i = tdRes m d (Fin.cast nCore_zero c) (Fin.cast nSub_zero i) := rfl

instance P_storable : (P (F := F) m).IsStorable where
  st q d c := match q with
    | 0 => by rw [P_st]; unfold stRes; infer_instance
  dn q d c := match q with
    | 0 => by rw [P_dn]; unfold dnRes; infer_instance
  go q d c i := match q with
    | 0 => by rw [P_go]; unfold goRes; infer_instance
  td q d c i := match q with
    | 0 => by rw [P_td]; unfold tdRes; infer_instance

theorem defs₀_vector (c : Fin τ.nSC) (s : Fin τ.nSub) :
    defs₀ (F := F) (.scVector c s) 1 ()
      = SparseCore.onTile hcore1 hsub1 (fun c s => cc1__sc_gather (coordsV c s)
            tblV (Memref.isWhole_whole _) chrV (Memref.isWhole_whole _) outV (Memref.isWhole_whole _) tvV (Memref.isWhole_whole _) shV (Memref.isWhole_whole _)
            (Memref.whole cc1_scratch2) (Memref.isWhole_whole _) (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _) (Memref.whole cc1_scratch9) (Memref.isWhole_whole _)
            (Memref.whole cc1_scratch10) (Memref.isWhole_whole _) (Memref.whole cc1_scratch11) (Memref.isWhole_whole _) (Memref.whole cc1_scratch12) (Memref.isWhole_whole _) (Memref.whole cc1_scratch13) (Memref.isWhole_whole _)
            (Memref.whole cc1_scratch14) (Memref.isWhole_whole _) (Memref.whole cc1_scratch15) (Memref.isWhole_whole _) (Memref.whole cc1_scratch16) (Memref.isWhole_whole _) (Memref.whole cc1_scratch17) (Memref.isWhole_whole _)
            cc1_scratch18 cc1_scratch19 cc1_scratch20 cc1_scratch21 cc1_scratch22 cc1_scratch23 cc1_scratch24 cc1_scratch25 cc1_scratch26 cc1_scratch27 cc1_scratch28 cc1_scratch29 cc1_scratch30 cc1_scratch31 cc1_scratch32 cc1_scratch33 cc1_scoped0 cc1_scoped1) ⟨⟩ c s := rfl

set_option maxRecDepth 16384 in
theorem tileObl (hpre : PreOK m) (hF : (K (F := F)).Facts) : (K (F := F)).TileObl (D (F := F)) 𝒱 (P m) v₀ 0 := by
  intro d c i O W hO hOlev _
  have hc : ((K (F := F)).core 0 c).val < 2 := c.isLt
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc,
    P_go, P_td]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hcN : cN (coordsV ⟨_, hci.1⟩ ⟨_, hci.2⟩) = Fin.cast nCore_zero c := Fin.ext rfl
  have hiN : iN (coordsV ⟨_, hci.1⟩ ⟨_, hci.2⟩) = Fin.cast nSub_zero i := Fin.ext rfl
  rw [← hcN, ← hiN]
  exact tile_body' m d (coordsV ⟨_, hci.1⟩ ⟨_, hci.2⟩) hpre hF O W hO hOlev

def fq (d : Dev nD) (s' : Phys nD τ sig (Elt F)) : Prop :=
  s'.mem.mem (outLoc d) = Out m d ∧ s'.mem.mem (chrLoc d) = m (chrLoc d) ∧ s'.mem.mem (cntLoc d) = m (cntLoc d)

theorem hfin (d : Dev nD) (s' : Phys nD τ sig (Elt F)) : iprop(FIN m d ∗ SI s') ⊢ (⌜fq m d s'⌝ : sProp 𝕄) := by
  unfold FIN
  iintro ⟨⟨Hc, Hn, Ho⟩, HSI⟩
  icombine HSI Hc gives %hc
  icombine HSI Hn gives %hn
  icombine HSI Ho gives %ho
  ipureintro
  exact ⟨funext fun i => ho i (Finset.mem_univ i), funext fun i => hc i (Finset.mem_univ i), funext fun i => hn i (Finset.mem_univ i)⟩

theorem sh_join (d : Dev nD) (c : Fin τ.nSC) :
    iprop((bigSep Finset.univ fun i : Fin 16 => shLoc d c ↦[slcSet i]{Transfers.shareDrop fullShare 16} Tsh m d c)
        ∗ bigSep Finset.univ fun i : Fin 16 => bigSep Finset.univ fun j : Fin 16 => shLoc d c ↦[slcSet j]{Transfers.shareTok fullShare 16 i} Tsh m d c)
      ⊢ (shLoc d c ↦{fullShare} Tsh m d c : sProp 𝕄) := by
  rw [bigSep_univ_comm (fun (i j : Fin 16) => (shLoc d c ↦[slcSet j]{Transfers.shareTok fullShare 16 i} Tsh m d c : sProp 𝕄)), ← bigSep_sep',
    shLoc_slices d c fullShare]
  exact bigSep_mono fun j _ => Transfers.pointsTo_toks_join fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem slices_ex (d : Dev nD) (cs : Fin τ.nSC) (f : Buf (Elt F) (shLoc d cs)) :
    (shLoc d cs ↦{fullShare} f : sProp 𝕄) ⊢ bigSep Finset.univ fun i : Fin 16 => iprop(∃ f, shLoc d cs ↦[slcSet i]{fullShare} f) := by
  have h1 : ∀ i : Fin 16, (shLoc d cs ↦[slcSet i]{fullShare} f : sProp 𝕄) ⊢ iprop(∃ f, shLoc d cs ↦[slcSet i]{fullShare} f) := fun i => by
    iintro H; iexists f; iexact H
  rw [shLoc_slices d cs fullShare f]
  exact bigSep_mono fun i _ => h1 i

theorem vecSplit_core (d : Dev nD) (c : Fin 2) (R : sProp 𝕄) :
    iprop(stRes m d c ∗ (∃ f, shLoc d (c.castLE (by decide)) ↦{fullShare} f) ∗ R)
      ⊢ |={Set.univ}=> (iprop((bigSep Finset.univ fun i : Fin 16 => goRes m d c i)
        ∗ ((bigSep Finset.univ fun i : Fin 16 => tdRes m d c i) -∗ iprop(dnRes m d c ∗ (∃ f, shLoc d (c.castLE (by decide)) ↦{fullShare} f) ∗ R))) : sProp 𝕄) := by
  unfold stRes dnRes goRes tdRes
  generalize Fin.castLE _ c = cs
  repeat rw [bigSep_sep']
  iintro ⟨⟨HA, HB, HC⟩, ⟨%fsh, Hsh⟩, HR⟩; imodintro
  isplitl [HA HB HC Hsh]
  · isplitl [HA]; · iexact HA
    isplitl [HB]; · iexact HB
    isplitl [HC]; · iexact HC
    iapply (slices_ex d cs fsh); iexact Hsh
  iintro ⟨HA, HB, HO, HD, HT⟩
  isplitl [HA HB HO]
  · iframe # ∗
  isplitr [HR]
  · iexists (Tsh m d cs)
    iapply (sh_join m d cs)
    isplitl [HD]; · iexact HD
    iexact HT
  iexact HR

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop(stRes m d (Fin.cast nCore_zero c) ∗ ownBufs (S d ((K (F := F)).core 0 c))) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ iprop(dnRes m d (Fin.cast nCore_zero c) ∗ ownBufs (S d ((K (F := F)).core 0 c)))))
  rw [bigSep_tasks (F := F) (fun i => goRes m d (Fin.cast nCore_zero c) i), bigSep_tasks (F := F) (fun i => tdRes m d (Fin.cast nCore_zero c) i), ownBufs_S]
  exact vecSplit_core m d (Fin.cast nCore_zero c) _

abbrev DCI : Type := Dev nD × Fin τ.nSC × Fin τ.nSub
abbrev bcell₃ (x : DCI) : GSem nD τ sig := bcell x.1 x.2.1 x.2.2

def bCells : Finset (GSem nD τ sig) := Finset.univ.image bcell₃

def bToks : Finset (GSem nD τ sig × ℕ × ℕ) :=
  Finset.univ.image fun x : DCI × Fin (grid1.bound 1) => (bcell x.1.1 x.1.2.1 (x.2.castLE hsub1), 0, x.1.2.2.val)

def u₀ (uP : UP) : UU := (initOf (K (F := F)).hsCells (K (F := F)).hsToks, (initOf bCells bToks, (uP, 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU (((1 : UH), (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (ownU (((1 : UH), (b, (p, 1))) : UU) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro H
  ihave H' := h1 $$ H
  icases H' with ⟨HH, H⟩
  ihave H' := h2 $$ H
  isplitl [HH]; · iexact HH
  iexact H'

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

theorem creds_b : ((P (F := F) m).oxCred : sProp 𝕄)
    ⊢ bigSep Finset.univ fun dci : DCI => if dci.2.1.val < 2 then cred (tallyAt (bcell₃ dci) (some 0) (grid1.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid1.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid1.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)

abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ (if dci.2.1.val < 2 then cred (tallyAt (bcell₃ dci) (some 0) (grid1.bound 1)) else BI.emp))

theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid1.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub1 j)) (Finset.mem_univ _))))
      isplitl; · iexact Hinv
      rw [bigSep_emp']; iempintro
    isplitl [Htok]; · iexact Htok
    isplitr
    · iapply (SparseCore.ent (bigSep_mono_frame (s := (Finset.univ : Finset (Fin (grid1.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub1 j)) (Finset.mem_univ _))))
      isplitl; · iexact Hr
      rw [bigSep_emp']; iempintro
    isplitl [Hat]; · iexact Hat
    iexact Hcred
  · iempintro

theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => if dci.2.1.val < 2 then cred (tallyAt (bcell₃ dci) (some 0) (grid1.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ (uP : UP) (G : Dev nD → sProp 𝕄)
    (hfund : (BI.own (EP (F := F) uP) : sProp 𝕄) ⊢ |={Set.univ}=> bigSep Finset.univ fun d : Dev nD => G d) :
    iprop(ownU (u₀ (F := F) uP) ∗ (P (F := F) m).oxCred ∗ (K (F := F)).freeSems0)
      ⊢ |={Set.univ}=> iprop(BI.own (EH (initOf (K (F := F)).hsCells (K (F := F)).hsToks)) ∗ (bigSep Finset.univ G)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod hfund $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

theorem run_main [∀ e, Nonempty (Elt F e)] (hpre : PreOK m) (uP : UP) (G : Dev nD → sProp 𝕄)
    (hfund : (BI.own (EP (F := F) uP) : sProp 𝕄) ⊢ |={Set.univ}=> bigSep Finset.univ fun d : Dev nD => G d)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m d)) :
    θ_run (defs (F := F)) (threads (F := F)) ⟨m, fun _ => 0, ρ⟩
      (fun r => ∀ c : Dev nD, r.2.mem (outLoc c) = Out m c ∧ r.2.mem (chrLoc c) = m (chrLoc c) ∧ r.2.mem (cntLoc c) = m (cntLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hpre facts)
    (fun q _ => match q with | 0 => vecSplit m)
    m ρ main G (FIN m) (u₀ (F := F) uP) (hu₀ m uP G hfund) hmain (fq m) (hfin m) _ (fun _ h => h)

end Cert.KB

end
-- ==== Proof.KB.Region.lean ====
import proofs.«204304_g88828513616490_cont_9to1c4b_177_25_alg».proof.Proof.KB.Common
import proofs.«204304_g88828513616490_cont_9to1c4b_177_25_alg».proof.Proof.Gen.Kernel.Points
import Idealize.ShloMosaic.Lib.Pipeline.FrameBody
import Idealize.ShloMosaic.Lib.Pipeline.Value
import Idealize.ShloMosaic.Lib.Pipeline.Regions

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

abbrev adm : (p : Fin 1) → (pcfgs (F := F) p).Adm := fun p => (cfgs p).toPCfg_adm

omit [FloatOps F] in
theorem zero_off : (![0, 0] : Fin S512x128.rank → Nat) = fun _ => 0 := funext fun a => by fin_cases a <;> rfl

set_option maxHeartbeats 1000000 in
theorem kernel_run (d : Dev nD) (arg0 : Memref sig .tc .vmem S512x128 .f32) (harg0 : arg0.IsWhole) (arg1 : Memref sig .tc .vmem S512x128 .f32) (harg1 : arg1.IsWhole)
    (x0 : Vec F S512x128 .f32) (Q : PUnit → sProp 𝕄) :
    iprop(owns (T d) arg0 fullShare x0 ∗ (∃ y, owns (T d) arg1 fullShare y)
        ∗ (iprop(owns (T d) arg0 fullShare x0 ∗ owns (T d) arg1 fullShare (k0_pay1 (F := F) x0)) -∗ Q ⟨⟩))
      ⊢ wp frame (wpE (defs₀ (F := F)) 𝒱₀ (T d) none) Set.univ (cc0__log_table_body arg0 harg0 arg1 harg1) Q := by
  rw [cc0__log_table_body_eq_skeleton]; unfold cc0__log_table_body_skel
  unfold owns
  iintro ⟨⟨%f0, %hf0, H0⟩, ⟨%y1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zero_off inb_S512x128_S512x128_0_0 y⟩),
    View.canon_unit_zero zero_off, View.readAt_eq_ld, View.ld_unit_zero zero_off]

def dat0 (d : Dev nD) (a0 a1 : FVec F S512x128 .f32) : Pipeline.Dat τ (Elt F) (HIx 1) ℕ UU ℕ cfg0 d where
  A := fun | 0 => a0 | 1 => a1 | ⟨_ + 2, h⟩ => absurd h (Nat.not_lt.2 (Nat.le_add_left _ _))
  after := fun | 0 => fun _ => a0 | 1 => fun _ => k0_pay1 (F := F) a0 | ⟨_ + 2, h⟩ => absurd h (Nat.not_lt.2 (Nat.le_add_left _ _))
  Φ _ := iprop(emp)
  q _ := fullShare
  owed _ := (K (F := F)).Otc d 0
  recorded _ := {p | p.2 = none}

def pdats (a0 a1 : Dev nD → FVec F S512x128 .f32) :
    (p : Fin 1) → (c : Dev nD) → Pipeline.Dat τ (Elt F) (HIx 1) ℕ UU ℕ (Pipeline.pin (pcfgs (F := F)) adm p) c :=
  fun _ c => dat0 c (a0 c) (a1 c)

section Dat0

variable (d : Dev nD) (a0 a1 : FVec F S512x128 .f32)

theorem A0 : (dat0 d a0 a1).A 0 = a0 := by dsimp only [dat0]
theorem A1 : (dat0 d a0 a1).A 1 = a1 := by dsimp only [dat0]
theorem after0 (t : Fin cfg0.N) : (dat0 d a0 a1).after 0 t = a0 := by dsimp only [dat0]
theorem after1 (t : Fin cfg0.N) : (dat0 d a0 a1).after 1 t = k0_pay1 (F := F) a0 := by dsimp only [dat0]
theorem share0 (w : Fin cfg0.W) : (dat0 d a0 a1).share w = fullShare := by unfold Pipeline.Dat.share; split <;> rfl

omit [FloatOps F] in
theorem idx_zero0 (t : Fin cfg0.N) : (fun a => (win0_0.index t) a * main_v0.ty.shape.size a) = fun _ => 0 := by
  obtain rfl := fin_N0 t; exact funext fun a => by fin_cases a <;> decide
omit [FloatOps F] in
theorem idx_zero1 (t : Fin cfg0.N) : (fun a => (win0_1.index t) a * main_v1.ty.shape.size a) = fun _ => 0 := by
  obtain rfl := fin_N0 t; exact funext fun a => by fin_cases a <;> decide

theorem before0 (t : Fin cfg0.N) (dd) : (dat0 d a0 a1).before 0 t dd = a0 := by
  unfold Pipeline.Dat.before
  rw [if_pos (fetch0_0 t)]
  show (dat0 d a0 a1).blockOf 0 t = a0
  unfold Pipeline.Dat.blockOf
  rw [A0]
  exact Memref.read_access_unit_zero (Elt F) main_v0 (idx_zero0 t) _ a0

theorem arrAt1 : (dat0 d a0 a1).arrAt 1 cfg0.N = k0_pay1 (F := F) a0 := by
  rw [show cfg0.N = (t0_0 : Fin cfg0.N).val + 1 from rfl, (dat0 d a0 a1).arrAt_succ 1 t0_0, if_pos (flush0_1 t0_0)]
  show ((cfg0.win 1).blk t0_0).view.write (Elt F) _ ((dat0 d a0 a1).after 1 t0_0) Finset.univ = _
  rw [after1]
  exact Memref.write_access_unit_zero_univ (Elt F) main_v1 (idx_zero1 t0_0) _ _ _

theorem arrAt0 : (dat0 d a0 a1).arrAt 0 cfg0.N = a0 := ((dat0 d a0 a1).arrAt_in 0 rfl _).trans (A0 d a0 a1)

theorem sound_body (t : Fin cfg0.N) :
    iprop((dat0 d a0 a1).Φ t.castSucc ∗ (dat0 d a0 a1).owesAt none t.castSucc
        ∗ (∃ dd, owns (T d) (st0_0 t) fullShare ((dat0 d a0 a1).before 0 t dd))
        ∗ (∃ dd, owns (T d) (st0_1 t) fullShare ((dat0 d a0 a1).before 1 t dd)))
      ⊢ wp frame (wpE (defs₀ (F := F)) 𝒱₀ (T d) none) Set.univ (bodyAt0 t) fun _ =>
          iprop((dat0 d a0 a1).Φ t.succ ∗ (dat0 d a0 a1).owesAt none t.succ
            ∗ owns (T d) (st0_0 t) fullShare ((dat0 d a0 a1).after 0 t)
            ∗ owns (T d) (st0_1 t) fullShare ((dat0 d a0 a1).after 1 t)) := by
  simp only [before0]
  rw [show (dat0 d a0 a1).Φ t.succ = (dat0 d a0 a1).Φ t.castSucc from rfl,
    show (dat0 d a0 a1).owesAt none t.succ = (dat0 d a0 a1).owesAt none t.castSucc from rfl, after0, after1]
  iintro ⟨HΦ, Ho, ⟨%d0, H0⟩, ⟨%d1, H1⟩⟩
  iapply (kernel_run d _ _ _ _ a0 _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body0 : Pipeline.BodyObligation (dat0 d a0 a1) (defs₀ (F := F)) 𝒱₀ none Set.univ := fun t => by
  rw [bigSep_W0, bigSep_W0]
  exact sound_body d a0 a1 t

end Dat0

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

omit [FloatOps F] in
theorem none_of_WBelow {d : Dev nD} {W : Waits sig (HIx 1)} (h : (K (F := F)).WBelow (T d) W 0) : ∀ p ∈ W, p.2 = none := fun p hp => by
  have := h p hp
  rcases hι : p.2 with _ | q
  · rfl
  · rw [hι] at this; exact absurd this (Nat.not_le.2 ((K (F := F)).lev_some_pos _ q))
omit [FloatOps F] in
theorem WBelow_of_none {d : Dev nD} {W : Waits sig (HIx 1)} (h : ∀ p ∈ W, p.2 = none) : (K (F := F)).WBelow (T d) W 0 := fun p hp => by
  rw [h p hp]; exact le_rfl

abbrev owesT (d : Dev nD) : sProp 𝕄 := iprop(∃ W, ⌜(K (F := F)).WBelow (T d) W (8 * 0)⌝ ∗ owes (T d) ((K (F := F)).Otc d 0) W)

section Reg

variable (a0 a1 : Dev nD → FVec F S512x128 .f32)

omit [FloatOps F] in
theorem prefHeld0 (c : Dev nD) (q) (pf) : (Pipeline.prefHeld (Ix := HIx 1) (Name := ℕ) (U := UU) (Lvl := ℕ) (Val := Elt F) (pcfgs (F := F) 0).pre c q pf : sProp 𝕄) = BI.emp :=
by
  unfold Pipeline.prefHeld
  show bigSep (Finset.univ : Finset (Fin 0)) _ = _
  rw [Finset.univ_eq_empty, BI.bigSep_empty]

theorem arrays_entry (c : Dev nD) :
    ((pdats a0 a1 0 c).arrays ((pdats a0 a1 0 c).arrAt · 0) : sProp 𝕄) = iprop((v0Loc c ↦{fullShare} a0 c) ∗ (v1Loc c ↦{fullShare} a1 c)) := by
  rw [Pipeline.arrays_eq (Pipeline.pin (pcfgs (F := F)) adm) (pdats a0 a1) 0 c arr_whole0 (share0 c (a0 c) (a1 c)), bigSep_W0]
  show iprop((v0Loc c ↦{fullShare} (dat0 c (a0 c) (a1 c)).A 0) ∗ (v1Loc c ↦{fullShare} (dat0 c (a0 c) (a1 c)).A 1)) = _
  rw [A0, A1]

theorem arrays_exit (c : Dev nD) :
    ((pdats a0 a1 0 c).arrays ((pdats a0 a1 0 c).arrAt · (Pipeline.pin (pcfgs (F := F)) adm 0).N) : sProp 𝕄)
      = iprop((v0Loc c ↦{fullShare} a0 c) ∗ (v1Loc c ↦{fullShare} k0_pay1 (F := F) (a0 c))) := by
  rw [Pipeline.arrays_eq (Pipeline.pin (pcfgs (F := F)) adm) (pdats a0 a1) 0 c arr_whole0 (share0 c (a0 c) (a1 c)), bigSep_W0]
  show iprop((v0Loc c ↦{fullShare} (dat0 c (a0 c) (a1 c)).arrAt 0 cfg0.N) ∗ (v1Loc c ↦{fullShare} (dat0 c (a0 c) (a1 c)).arrAt 1 cfg0.N)) = _
  rw [arrAt0, arrAt1]

def reg0 : Pipeline.RegionSeg (pcfgs (F := F)) adm (pdats a0 a1) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body0 c (a0 c) (a1 c)).loose
  hwaits c := Pipeline.cellsWaits_intro (Pipeline.pin (pcfgs (F := F)) adm) (pdats a0 a1) none 0 c fun w s t =>
    (K (F := F)).mayWait_none _ (Otc_none c 0)
  pre c := iprop((v0Loc c ↦{fullShare} a0 c) ∗ (v1Loc c ↦{fullShare} a1 c) ∗ owesT (F := F) c)
  post c := iprop((v0Loc c ↦{fullShare} a0 c) ∗ (v1Loc c ↦{fullShare} k0_pay1 (F := F) (a0 c)) ∗ owesT (F := F) c)
  X _ := iprop(emp)
  Y _ := iprop(emp)
  Z _ := iprop(emp)
  hentry c := by
    rw [arrays_entry, prefHeld0]
    iintro ⟨⟨H0, H1, ⟨%W, %hW, HO⟩⟩, -, -⟩
    imodintro
    isplitl [H0 H1]
    · isplitl [H0] <;> iassumption
    isplitr; · iempintro
    isplitl [HO]
    · iexists W; isplitr; · ipureintro; exact fun p hp => Or.inl (none_of_WBelow hW p (Finset.mem_coe.mp hp))
      iexact HO
    isplitr <;> iempintro
  hin c := by iintro -; iempintro
  hout c := by
    rw [Pipeline.ownSems0_none, scopedRest0_eq]
    iintro -
    isplitr; · iempintro
    isplitr <;> iempintro
  hexit c := by
    rw [arrays_exit]
    iintro ⟨⟨H0, H1⟩, ⟨%W, %hW, HO⟩, -, -⟩
    imodintro
    isplitl [H0]; · iexact H0
    isplitl [H1]; · iexact H1
    iexists W; isplitr
    · ipureintro
      refine WBelow_of_none fun p hp => ?_
      rcases hW (Finset.mem_coe.mpr hp) with h | ⟨w, s, h⟩
      · exact h
      · rw [h]
    iexact HO

theorem reg0_pre (c : Dev nD) : (reg0 a0 a1).pre c = iprop((v0Loc c ↦{fullShare} a0 c) ∗ (v1Loc c ↦{fullShare} a1 c) ∗ owesT (F := F) c) := rfl
theorem reg0_post (c : Dev nD) : (reg0 a0 a1).post c = iprop((v0Loc c ↦{fullShare} a0 c) ∗ (v1Loc c ↦{fullShare} k0_pay1 (F := F) (a0 c)) ∗ owesT (F := F) c) := rfl

end Reg

def Gm (d : Dev nD) : sProp 𝕄 :=
  iprop(Pipeline.cellsGhost cfgs EP 0 d ∗ Pipeline.toksInit cfgs EP 0 d)

set_option backward.isDefEq.respectTransparency.types false in
theorem region_wp0 [∀ e, Nonempty (Elt F e)] (d : Dev nD) (a0 a1 : FVec F S512x128 .f32) (Φ : PUnit → sProp 𝕄) :
    iprop(levAts (K (F := F)).L (K (F := F)).lev ∗ boundary (T d) ∗ (v0Loc d ↦{fullShare} a0) ∗ (v1Loc d ↦{fullShare} a1) ∗ owesT (F := F) d ∗ Gm (F := F) d
        ∗ (iprop(boundary (T d) ∗ (v0Loc d ↦{fullShare} a0) ∗ (v1Loc d ↦{fullShare} k0_pay1 (F := F) a0) ∗ owesT (F := F) d) -∗ Φ ⟨⟩))
      ⊢ wp frame (wpE (D (F := F)) 𝒱 (T d) none) Set.univ (Prog.op (.customCall (Pipeline.entry 0) ()) fun u => .ret u) Φ := by
  unfold Gm
  iintro ⟨#Hlev, Hb, H0, H1, HO, ⟨Hg, Ht⟩, Hk⟩
  iapply (Pipeline.RegionSeg.wp (pcfgs (F := F)) adm (pdats (fun _ => a0) (fun _ => a1)) none cellOf_inj EP (defs₀ (F := F)) 𝒱₀ (K (F := F)).L (K (F := F)).lev
    (reg0 (fun _ => a0) (fun _ => a1)) d none (fun u hu => nomatch hu) (fun u => .ret u) Φ)
  rw [reg0_pre, reg0_post]
  isplitl [Hk]
  · iintro ⟨Hb, H0, H1, HO⟩
    rw [wp_ret]; imodintro
    iapply Hk
    isplitl [Hb]; · iexact Hb
    isplitl [H0]; · iexact H0
    isplitl [H1] <;> iassumption
  isplitl [Hb]; · iexact Hb
  isplitl [H0 H1 HO]
  · isplitl [H0]; · iexact H0
    isplitl [H1] <;> iassumption
  isplitr; · iexact Hlev
  isplitl [Hg] <;> iassumption

theorem region_wp [∀ e, Nonempty (Elt F e)] (d : Dev nD) (a0 a1 : FVec F S512x128 .f32) (Φ : PUnit → sProp 𝕄) :
    iprop(levAts (K (F := F)).L (K (F := F)).lev ∗ boundary (T d) ∗ (v0Loc d ↦{fullShare} a0) ∗ (v1Loc d ↦{fullShare} a1) ∗ owesT (F := F) d ∗ Gm (F := F) d
        ∗ (iprop(boundary (T d) ∗ (v0Loc d ↦{fullShare} a0) ∗ (v1Loc d ↦{fullShare} k0_pay1 (F := F) a0) ∗ owesT (F := F) d) -∗ Φ ⟨⟩))
      ⊢ wp frame (wpE ((K (F := F)).defs (D (F := F))) 𝒱 (T d) none) Set.univ
          (Prog.lift (.customCall (SparseCore.inner (Pipeline.entry 0)) ())) Φ :=
  (region_wp0 d a0 a1 Φ).trans ((K (F := F)).wp_liftProg (D (F := F)) 𝒱 (T d) Set.univ none (Prog.op (.customCall (Pipeline.entry 0) ()) fun u => .ret u) Φ)

end Cert.KB

end
-- ==== Proof.KB.Main.lean ====
import proofs.«204304_g88828513616490_cont_9to1c4b_177_25_alg».proof.Proof.KB.Common
import proofs.«204304_g88828513616490_cont_9to1c4b_177_25_alg».proof.Proof.Gen.Kernel.Points
import Idealize.ShloMosaic.Lib.Pipeline.FrameBody
import Idealize.ShloMosaic.Lib.Pipeline.Value
import Idealize.ShloMosaic.Lib.Pipeline.Regions
import proofs.«204304_g88828513616490_cont_9to1c4b_177_25_alg».proof.Proof.KB.Region

noncomputable section

namespace Cert.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held wp_hlo_within)

variable [FloatOps F] (m : (ℓ : Loc nD τ sig) → Buf (Elt F) ℓ) (ρ : Dev nD → PrngReg)

omit [FloatOps F] in
theorem bigSep_tiles (Φ : Fin 32 → sProp 𝕄) :
    bigSep Finset.univ Φ = bigSep Finset.univ fun c : Fin 2 => bigSep Finset.univ fun i : Fin 16 => Φ (widN c i) := by
  have himg : (Finset.univ : Finset (Fin 32)) = (Finset.univ : Finset (Fin 2 × Fin 16)).image fun p => widN p.1 p.2 := by
    refine (Finset.eq_univ_iff_forall.mpr fun n => Finset.mem_image.mpr ?_).symm
    refine ⟨(⟨n.val % 2, Nat.mod_lt _ (by decide)⟩, ⟨n.val / 2, by have := n.isLt; omega⟩), Finset.mem_univ _, Fin.ext ?_⟩
    show 2 * (n.val / 2) + n.val % 2 = n.val
    omega
  have hinj : Set.InjOn (fun p : Fin 2 × Fin 16 => widN p.1 p.2) ↑(Finset.univ : Finset (Fin 2 × Fin 16)) := by
    rintro ⟨c, i⟩ - ⟨c', i'⟩ - h
    have hv : 2 * i.val + c.val = 2 * i'.val + c'.val := congrArg Fin.val h
    have hc := c.isLt; have hc' := c'.isLt
    exact Prod.ext (Fin.ext (by show c.val = c'.val; omega)) (Fin.ext (by show i.val = i'.val; omega))
  rw [himg, SparseCore.bigSep_image_of_injOn hinj, bigSep_univ_prod]

omit [FloatOps F] in
theorem tileSet_disjoint : ∀ n ∈ (Finset.univ : Finset (Fin 32)), ∀ n' ∈ (Finset.univ : Finset (Fin 32)), n ≠ n' → Disjoint (tileSet n) (tileSet n') :=
  fun n _ n' _ hne => Finset.disjoint_left.mpr fun j hj hj' => by
    unfold tileSet at hj hj'
    rw [Finset.mem_filter] at hj hj'
    exact hne (Fin.ext (hj.2.symm.trans hj'.2))

omit [FloatOps F] in
theorem tileSet_cover : (Finset.univ : Finset (Fin 32)).biUnion tileSet = Finset.univ := by
  refine Finset.eq_univ_iff_forall.mpr fun j => Finset.mem_biUnion.mpr ?_
  have hj : (j 0).val < 8388608 := (j 0).isLt
  refine ⟨⟨(j 0).val / 262144, by omega⟩, Finset.mem_univ _, ?_⟩
  unfold tileSet; rw [Finset.mem_filter]; exact ⟨Finset.mem_univ _, rfl⟩

omit [FloatOps F] in
theorem out_tiles (d : Dev nD) (f : Buf (Elt F) (outLoc d)) :
    (outLoc d ↦{fullShare} f : sProp 𝕄) = bigSep Finset.univ fun n : Fin 32 => outLoc d ↦[tileSet n]{fullShare} f := by
  rw [← pointsTo_biUnion (ℓ := outLoc d) (q := fullShare) (f := f) Finset.univ tileSet tileSet_disjoint, tileSet_cover]

theorem stRes_eq (d : Dev nD) : (bigSep Finset.univ fun c : Fin 2 => stRes m d c)
    = iprop((bigSep Finset.univ fun n : Fin 32 => tblLoc d ↦{rdShare n} Tb m d) ∗ (bigSep Finset.univ fun n : Fin 32 => chrLoc d ↦{rdShare n} m (chrLoc d))
        ∗ bigSep Finset.univ fun n : Fin 32 => (iprop(∃ f, outLoc d ↦[tileSet n]{fullShare} f) : sProp 𝕄)) := by
  rw [← bigSep_sep', ← bigSep_sep']
  exact (bigSep_tiles (fun n => iprop((tblLoc d ↦{rdShare n} Tb m d) ∗ (chrLoc d ↦{rdShare n} m (chrLoc d)) ∗ ∃ f, outLoc d ↦[tileSet n]{fullShare} f))).symm
theorem dnRes_eq (d : Dev nD) : (bigSep Finset.univ fun c : Fin 2 => dnRes m d c)
    = iprop((bigSep Finset.univ fun n : Fin 32 => tblLoc d ↦{rdShare n} Tb m d) ∗ (bigSep Finset.univ fun n : Fin 32 => chrLoc d ↦{rdShare n} m (chrLoc d))
        ∗ bigSep Finset.univ fun n : Fin 32 => (outLoc d ↦[tileSet n]{fullShare} Out m d : sProp 𝕄)) := by
  rw [← bigSep_sep', ← bigSep_sep']
  exact (bigSep_tiles (fun n => iprop((tblLoc d ↦{rdShare n} Tb m d) ∗ (chrLoc d ↦{rdShare n} m (chrLoc d)) ∗ outLoc d ↦[tileSet n]{fullShare} Out m d))).symm

theorem st_intro (d : Dev nD) (f : Buf (Elt F) (outLoc d)) :
    iprop((tblLoc d ↦{fullShare} Tb m d) ∗ (chrLoc d ↦{fullShare} m (chrLoc d)) ∗ (outLoc d ↦{fullShare} f))
      ⊢ (iprop((tblLoc d ↦{Transfers.shareDrop fullShare 32} Tb m d) ∗ (chrLoc d ↦{Transfers.shareDrop fullShare 32} m (chrLoc d))
          ∗ bigSep Finset.univ fun c : Fin 2 => stRes m d c) : sProp 𝕄) := by
  rw [stRes_eq, out_tiles]
  iintro ⟨Ht, Hc, Ho⟩
  ihave Ht' := (Transfers.pointsTo_toks_split fullShare 32) $$ Ht
  icases Ht' with ⟨Htd, Htt⟩
  ihave Hc' := (Transfers.pointsTo_toks_split fullShare 32) $$ Hc
  icases Hc' with ⟨Hcd, Hct⟩
  isplitl [Htd]; · iexact Htd
  isplitl [Hcd]; · iexact Hcd
  isplitl [Htt]; · iexact Htt
  isplitl [Hct]; · iexact Hct
  have hex : ∀ n ∈ (Finset.univ : Finset (Fin 32)), (outLoc d ↦[tileSet n]{fullShare} f : sProp 𝕄) ⊢ iprop(∃ f, outLoc d ↦[tileSet n]{fullShare} f) :=
    fun n _ => by iintro H; iexists f; iexact H
  have hmono : (bigSep Finset.univ fun n : Fin 32 => (outLoc d ↦[tileSet n]{fullShare} f : sProp 𝕄))
      ⊢ bigSep Finset.univ fun n : Fin 32 => (iprop(∃ f, outLoc d ↦[tileSet n]{fullShare} f) : sProp 𝕄) := bigSep_mono hex
  iapply hmono
  iexact Ho

theorem dn_elim (d : Dev nD) :
    iprop((tblLoc d ↦{Transfers.shareDrop fullShare 32} Tb m d) ∗ (chrLoc d ↦{Transfers.shareDrop fullShare 32} m (chrLoc d))
          ∗ bigSep Finset.univ fun c : Fin 2 => dnRes m d c)
      ⊢ (iprop((tblLoc d ↦{fullShare} Tb m d) ∗ (chrLoc d ↦{fullShare} m (chrLoc d)) ∗ outLoc d ↦{fullShare} Out m d) : sProp 𝕄) := by
  rw [dnRes_eq, out_tiles]
  iintro ⟨Htd, Hcd, Htt, Hct, Ho⟩
  isplitl [Htd Htt]
  · iapply (Transfers.pointsTo_toks_join fullShare 32)
    isplitl [Htd] <;> iassumption
  isplitl [Hcd Hct]
  · iapply (Transfers.pointsTo_toks_join fullShare 32)
    isplitl [Hcd] <;> iassumption
  iexact Ho

def uP₀ : UP := initOf (Pipeline.cells cfgs cellOf_inj) (Pipeline.launchToks cfgs cellOf_inj)

omit [FloatOps F] in
theorem fund_Gm : (BI.own (EP (F := F) uP₀) : sProp 𝕄) ⊢ |={Set.univ}=> bigSep Finset.univ fun d : Dev nD => Gm (F := F) d := by
  show (BI.own (EP (F := F) (initOf (Pipeline.cells cfgs cellOf_inj) (Pipeline.launchToks cfgs cellOf_inj))) : sProp 𝕄) ⊢ _
  iintro H
  imod (Pipeline.fund_ghost cfgs (EP (F := F)) cellOf_inj) $$ H with ⟨Hg, Ht⟩
  imodintro
  unfold Gm
  rw [bigSep_sep']
  have eg : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c := bigSep_congr fun c _ => bigSep_univ_of_subsingleton (0 : Fin 1)
  have et : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c := bigSep_congr fun c _ => bigSep_univ_of_subsingleton (0 : Fin 1)
  ihave Hg' := (Entails.of_eq eg) $$ Hg
  ihave Ht' := (Entails.of_eq et) $$ Ht
  isplitl [Hg']
  · iexact Hg'
  · iexact Ht'

abbrev rChr : DevRef τ sig := Proc.devRef .tc (main_arg0 : Ref sig .tc)
abbrev rCnt : DevRef τ sig := Proc.devRef .tc (main_arg1 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev opR1 : HloOp τ sig (Elt F) := StableHlo.reshape main_arg1 main_v0 rfl shapeCasts_S65536_S512x128
abbrev opR2 : HloOp τ sig (Elt F) := StableHlo.reshape main_v1 main_v2 rfl shapeCasts_S512x128_S65536

abbrev Sa : Finset (DevRef τ sig) := {rCnt, rV0}
abbrev Sb : Finset (DevRef τ sig) := {rV1, rV2}

omit [FloatOps F] in
theorem held_Sa (d : Dev nD) (W : Valuation τ sig (Elt F)) :
    (held (T d) Sa W : sProp 𝕄) = iprop((cntLoc d ↦{fullShare} W rCnt) ∗ (v0Loc d ↦{fullShare} W rV0)) := by
  unfold held Sa
  rw [SparseCore.bigSep_insert' (by decide), bigSep_singleton]
omit [FloatOps F] in
theorem held_Sb (d : Dev nD) (W : Valuation τ sig (Elt F)) :
    (held (T d) Sb W : sProp 𝕄) = iprop((v1Loc d ↦{fullShare} W rV1) ∗ (tblLoc d ↦{fullShare} W rV2)) := by
  unfold held Sb
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((chrLoc d ↦{fullShare} W main_arg0) ∗ (cntLoc d ↦{fullShare} W main_arg1) ∗ (v0Loc d ↦{fullShare} W main_v0)
      ∗ (v1Loc d ↦{fullShare} W main_v1) ∗ (tblLoc d ↦{fullShare} W main_v2) ∗ (outLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)
def a0 (d : Dev nD) : FVec F S512x128 .f32 := shapeCast S512x128 (m (cntLoc d)) shapeCasts_S65536_S512x128
def Vb (d : Dev nD) : Valuation τ sig (Elt F) := Function.update (V0 m d) rV1 (k0_pay1 (F := F) (a0 m d))

theorem Vb_v1 (d : Dev nD) : Vb m d rV1 = k0_pay1 (F := F) (a0 m d) := Function.update_self _ _ _
theorem Vb_v2 (d : Dev nD) : Vb m d rV2 = m (tblLoc d) := Function.update_of_ne (show rV2 ≠ rV1 by decide) _ _

omit [FloatOps F] in
theorem hR1 : (opR1 (F := F)).bufs ⊆ Sa := show ({rCnt, rV0} : Finset (DevRef τ sig)) ⊆ Sa by decide
omit [FloatOps F] in
theorem hR2 : (opR2 (F := F)).bufs ⊆ Sb := show ({rV1, rV2} : Finset (DevRef τ sig)) ⊆ Sb by decide

omit [FloatOps F] in
theorem held_after1 (d : Dev nD) :
    (held (T d) Sa ((opR1 (F := F)).result (V0 m d)) : sProp 𝕄) = iprop((cntLoc d ↦{fullShare} m (cntLoc d)) ∗ (v0Loc d ↦{fullShare} a0 m d)) := by
  rw [held_Sa, StableHlo.reshape_result_ne (r := main_arg1) (h := by decide), StableHlo.reshape_result']
  rfl

theorem held_after2 (d : Dev nD) :
    (held (T d) Sb ((opR2 (F := F)).result (Vb m d)) : sProp 𝕄) = iprop((v1Loc d ↦{fullShare} k0_pay1 (F := F) (a0 m d)) ∗ (tblLoc d ↦{fullShare} Tb m d)) := by
  rw [held_Sb, StableHlo.reshape_result_ne (r := main_v1) (h := by decide), StableHlo.reshape_result', Vb_v1]
  rfl

omit [FloatOps F] in
theorem tcSt_owes (d : Dev nD) : ∃ R : sProp 𝕄, (K (F := F)).tcSt EH d 0 = iprop(owesT (F := F) d ∗ R) := ⟨_, rfl⟩

variable (P : (K (F := F)).Pay (nD := nD) (Val := Elt F) (Name := ℕ) (U := UU))
  (hst : ∀ d c, P.st 0 d c = stRes m d (Fin.cast nCore_zero c)) (hdn : ∀ d c, P.dn 0 d c = dnRes m d (Fin.cast nCore_zero c))

include hst in
theorem st0_eq (d : Dev nD) : (bigSep Finset.univ fun c : Fin ((K (F := F)).nCore 0) => P.st 0 d c) = bigSep Finset.univ fun c : Fin 2 => stRes m d c :=
  bigSep_congr fun c _ => hst d c
include hdn in
theorem dn0_eq (d : Dev nD) : (bigSep Finset.univ fun c : Fin ((K (F := F)).nCore 0) => P.dn 0 d c) = bigSep Finset.univ fun c : Fin 2 => dnRes m d c :=
  bigSep_congr fun c _ => hdn d c

include hst hdn in
set_option maxHeartbeats 1000000 in
theorem hmain [∀ e, Nonempty (Elt F e)] (κ : GSem nD τ sig → ℕ) (d : Dev nD) :
    iprop((K (F := F)).ctx EH P κ ∗ (K (F := F)).tcSt EH d 0 ∗ (K (F := F)).tcRes m ρ d ∗ Gm (F := F) d)
      ⊢ wp frame (wpE ((K (F := F)).defs (D (F := F))) 𝒱 (T d) none) Set.univ (main d)
          fun _ => iprop((K (F := F)).tcSt EH d 1 ∗ FIN m d) := by
  obtain ⟨R, hR⟩ := tcSt_owes (F := F) d
  unfold SparseCore.Cfg.tcRes
  rw [hR, unscopedBufs_eq]
  simp only [main, wp_bind, wp_pure]
  iintro ⟨#Hctx, ⟨HO, HR⟩, ⟨Hb, ⟨Hchr, Hcnt, Hv0, Hv1, Hv2, Hv3⟩, -, -⟩, HG⟩
  ihave Hlev := (SparseCore.Cfg.ctx_levAts κ) $$ Hctx

  iapply (wp_hlo_within 𝒱 (T d) none Set.univ (op := opR1) (S := Sa) hR1 (V := V0 m d)) $$ [Hb Hcnt Hv0]
  · isplitl [Hb]; · iexact Hb
    rw [held_Sa]
    isplitl [Hcnt]; · iexact Hcnt
    iexact Hv0
  iintro ⟨Hb, Hheld⟩
  ihave Hh := (Entails.of_eq (held_after1 m d)) $$ Hheld
  icases Hh with ⟨Hcnt, Hv0⟩
  rw [wp_ret]; imodintro

  iapply (region_wp d (a0 m d) (m (v1Loc d)) _)
  isplitl [Hlev]; · iexact Hlev
  isplitl [Hb]; · iexact Hb
  isplitl [Hv0]; · iexact Hv0
  isplitl [Hv1]; · iexact Hv1
  isplitl [HO]; · iexact HO
  isplitl [HG]; · iexact HG
  iintro ⟨Hb, Hv0, Hv1, HO⟩

  iapply (wp_hlo_within 𝒱 (T d) none Set.univ (op := opR2) (S := Sb) hR2 (V := Vb m d)) $$ [Hb Hv1 Hv2]
  · isplitl [Hb]; · iexact Hb
    rw [held_Sb, Vb_v1, Vb_v2]
    isplitl [Hv1]; · iexact Hv1
    iexact Hv2
  iintro ⟨Hb, Hheld⟩
  ihave Hh := (Entails.of_eq (held_after2 m d)) $$ Hheld
  icases Hh with ⟨Hv1, Hv2⟩
  rw [wp_ret]; imodintro

  ihave Hs := (st_intro m d (m (outLoc d))) $$ [Hv2 Hchr Hv3]
  · iframe # ∗
  icases Hs with ⟨Htd, Hcd, Hst4⟩
  ihave Hst := (Entails.of_eq hR.symm) $$ [HO HR]
  · isplitl [HO] <;> iassumption
  iapply ((K (F := F)).wp_run (D (F := F)) 𝒱 (EH := EH) (P := P) κ d 0)
  isplitr; · iexact Hctx
  isplitl [Hst]; · iexact Hst
  isplitl [Hst4]; · rw [st0_eq m P hst]; iexact Hst4
  iintro ⟨Hst, Hdn⟩
  ihave Hdn' := (Entails.of_eq (dn0_eq m P hdn d)) $$ Hdn
  ihave Hf := (dn_elim m d) $$ [Htd Hcd Hdn']
  · isplitl [Htd]; · iexact Htd
    isplitl [Hcd]; · iexact Hcd
    iexact Hdn'
  icases Hf with ⟨-, Hchr, Hout⟩
  imodintro
  isplitl [Hst]; · iexact Hst
  unfold FIN
  isplitl [Hchr]; · iexact Hchr
  isplitl [Hcnt]; · iexact Hcnt
  iexact Hout

end Cert.KB

end
-- ==== Proof.lean ====
import proofs.«204304_g88828513616490_cont_9to1c4b_177_25_alg».proof.Defs
import proofs.«204304_g88828513616490_cont_9to1c4b_177_25_alg».proof.Proof.Gen.Kernel
import proofs.«204304_g88828513616490_cont_9to1c4b_177_25_alg».proof.Proof.Gen.KernelIdeal
import proofs.«204304_g88828513616490_cont_9to1c4b_177_25_alg».proof.Proof.Gen.ReferenceIdeal
import proofs.«204304_g88828513616490_cont_9to1c4b_177_25_alg».proof.Proof.Gen.Pre_input_domain
import proofs.«204304_g88828513616490_cont_9to1c4b_177_25_alg».proof.Proof.Spec
import proofs.«204304_g88828513616490_cont_9to1c4b_177_25_alg».proof.Proof.PreFacts
import proofs.«204304_g88828513616490_cont_9to1c4b_177_25_alg».proof.Proof.RefRun
import proofs.«204304_g88828513616490_cont_9to1c4b_177_25_alg».proof.Proof.KIValue
import proofs.«204304_g88828513616490_cont_9to1c4b_177_25_alg».proof.Proof.KI.Launch
import proofs.«204304_g88828513616490_cont_9to1c4b_177_25_alg».proof.Proof.KI.Main
import proofs.«204304_g88828513616490_cont_9to1c4b_177_25_alg».proof.Proof.KB.Launch
import proofs.«204304_g88828513616490_cont_9to1c4b_177_25_alg».proof.Proof.KB.Main

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

theorem runKI (m : (ℓ : Loc Cert.KernelIdeal.nD Cert.KernelIdeal.τ Cert.KernelIdeal.sig) → Buf (Elt Ideal) ℓ) (ρ : Dev Cert.KernelIdeal.nD → PrngReg)
    (hpre : Cert.KI.PreOK m) :
    θ_run (Cert.KernelIdeal.defs (F := Ideal)) (Cert.KernelIdeal.threads (F := Ideal)) ⟨m, fun _ => 0, ρ⟩
      (fun r => ∀ c : Dev Cert.KernelIdeal.nD, r.2.mem (Cert.KI.outLoc c) = Cert.KI.Out m c ∧ r.2.mem (Cert.KI.chrLoc c) = m (Cert.KI.chrLoc c)
        ∧ r.2.mem (Cert.KI.cntLoc c) = m (Cert.KI.cntLoc c)) :=
  Cert.KI.run_main m ρ hpre Cert.KI.uP₀ (fun d => Cert.KI.Gm d) Cert.KI.fund_Gm (Cert.KI.hmain m ρ (Cert.KI.P m) (Cert.KI.P_st m) (Cert.KI.P_dn m))

theorem runKB (m : (ℓ : Loc Cert.Kernel.nD Cert.Kernel.τ Cert.Kernel.sig) → Buf (Elt Bits) ℓ) (ρ : Dev Cert.Kernel.nD → PrngReg)
    (hpre : Cert.KB.PreOK m) :
    θ_run (Cert.Kernel.defs (F := Bits)) (Cert.Kernel.threads (F := Bits)) ⟨m, fun _ => 0, ρ⟩
      (fun r => ∀ c : Dev Cert.Kernel.nD, r.2.mem (Cert.KB.outLoc c) = Cert.KB.Out m c ∧ r.2.mem (Cert.KB.chrLoc c) = m (Cert.KB.chrLoc c)
        ∧ r.2.mem (Cert.KB.cntLoc c) = m (Cert.KB.cntLoc c)) :=
  Cert.KB.run_main m ρ hpre Cert.KB.uP₀ (fun d => Cert.KB.Gm d) Cert.KB.fund_Gm (Cert.KB.hmain m ρ (Cert.KB.P m) (Cert.KB.P_st m) (Cert.KB.P_dn m))

theorem frame_Kernel : Cert.frame_Kernel := fun m ρ hpre =>
  (θ_run (Cert.Kernel.defs (F := Bits)) _ _).mono (fun _ h c => ⟨(h c).2.1, (h c).2.2⟩)
    (runKB m ρ fun d => Cert.PreFacts.inRange_of_pre (F := Bits) _ _ (hpre d))

theorem frame_KernelIdeal : Cert.frame_KernelIdeal := fun m ρ hpre =>
  (θ_run (Cert.KernelIdeal.defs (F := Ideal)) _ _).mono (fun _ h c => ⟨(h c).2.1, (h c).2.2⟩)
    (runKI m ρ fun d => Cert.PreFacts.inRange_of_pre (F := Ideal) _ _ (hpre d))

theorem frame_ReferenceIdeal : Cert.frame_ReferenceIdeal := fun m ρ hpre =>
  (θ_run (Cert.ReferenceIdeal.defs (F := Ideal)) _ _).mono (fun _ h c => ⟨(h c).2.1, (h c).2.2⟩)
    (Cert.RefRun.run m ρ fun c => Cert.PreFacts.inRange_of_pre (F := Ideal) _ _ (hpre c))

theorem algebraic : Cert.algebraic_KernelIdeal_ReferenceIdeal := fun m ρ m' ρ' hpre hagree =>
  ⟨fun c => Cert.KI.Out (F := Ideal) m c,
    (θ_run (Cert.KernelIdeal.defs (F := Ideal)) _ _).mono (fun _ h c => ⟨(h c).1, (h c).2.1, (h c).2.2⟩)
      (runKI m ρ fun d => Cert.PreFacts.inRange_of_pre (F := Ideal) _ _ (hpre d)),
    (θ_run (Cert.ReferenceIdeal.defs (F := Ideal)) _ _).mono (fun _ h c => ⟨by
        rw [(h c).1, (hagree c).1, (hagree c).2, ← Cert.Spec.Gk_eq_Gr _ _ (Cert.PreFacts.pos_of_pre _ _ (hpre c))]
        exact (Cert.KIValue.Out_ideal m c).symm, (h c).2.1, (h c).2.2⟩)
      (Cert.RefRun.run m' ρ' fun c => by rw [(hagree c).1]; exact Cert.PreFacts.inRange_of_pre (F := Ideal) _ _ (hpre c))⟩

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
